-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x784 : Shape := ⟨2, ![10000, 784]⟩
abbrev S2x160000 : Shape := ⟨2, ![2, 160000]⟩
abbrev S784x512 : Shape := ⟨2, ![784, 512]⟩
abbrev S512 : Shape := ⟨1, ![512]⟩
abbrev S512x512 : Shape := ⟨2, ![512, 512]⟩
abbrev S512x10 : Shape := ⟨2, ![512, 10]⟩
abbrev S10 : Shape := ⟨1, ![10]⟩
abbrev S_ : Shape := ⟨0, ![]⟩

class Facts : Prop where
  bcast_S_S10000x784 : S_.BroadcastsInDim S10000x784 (![] : Fin 0 → Fin S10000x784.rank)
  reducesTo_S10000x784_S_d0_1 : S10000x784.ReducesTo [0, 1] S_
  h_S_ : 0 < S_.numel
  bcast_S_S784x512 : S_.BroadcastsInDim S784x512 (![] : Fin 0 → Fin S784x512.rank)
  reducesTo_S784x512_S_d0_1 : S784x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_v33 : IVec S_ 1) : IVec S_ 1 :=
  let main_c_12 : IVec S_ 32 := constantI S_ 32 0#32
  let main_v34 : IVec S2x160000 32 := broadcastInDim S2x160000 ![] bcast_S_S2x160000 main_c_12
  let main_v35 : IVec S2x160000 1 := cmpi .sge main_arg1 main_v34
  let main_c_13 : IVec S_ 32 := constantI S_ 32 10000#32
  let main_v36 : IVec S2x160000 32 := broadcastInDim S2x160000 ![] bcast_S_S2x160000 main_c_13
  let main_v37 : IVec S2x160000 1 := cmpi .slt main_arg1 main_v36
  let main_v38 : IVec S2x160000 1 := andi main_v35 main_v37
  let main_c_14 : IVec S_ 1 := constantI S_ 1 1#1
  let main_v39 : IVec S_ 1 := (fun x v => Host.reduce IntOp.andi x v reducesTo_S2x160000_S_d0_1 h_S_) main_v38 main_c_14
  let main_v40 : IVec S_ 1 := andi main_v33 main_v39
  main_v40

def fn_part1 {F : FTy → Type} [FloatOps F] (main_arg1 : IVec S2x160000 32) (main_arg5 : FVec F S512 .f32) (main_arg6 : FVec F S512x10 .f32) (main_arg7 : FVec F S10 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x10 .f32 := Host.absf main_arg6
  let main_cst_8 : FVec F S_ .f32 := constant S_ .f32 0x7F800000#32
  let main_v25 : FVec F S512x10 .f32 := broadcastInDim S512x10 ![] bcast_S_S512x10 main_cst_8
  let main_v26 : IVec S512x10 1 := cmpf .olt main_v24 main_v25
  let main_c_9 : IVec S_ 1 := constantI S_ 1 1#1
  let main_v27 : IVec S_ 1 := (fun x v => Host.reduce IntOp.andi x v reducesTo_S512x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg1 main_v33

def fn {F : FTy → Type} [FloatOps F] (main_arg0 : FVec F S10000x784 .f32) (main_arg1 : IVec S2x160000 32) (main_arg2 : FVec F S784x512 .f32) (main_arg3 : FVec F S512 .f32) (main_arg4 : FVec F S512x512 .f32) (main_arg5 : FVec F S512 .f32) (main_arg6 : FVec F S512x10 .f32) (main_arg7 : FVec F S10 .f32) : IVec S_ 1 :=
  let main_v0 : FVec F S10000x784 .f32 := Host.absf main_arg0
  let main_cst : FVec F S_ .f32 := constant S_ .f32 0x7F800000#32
  let main_v1 : FVec F S10000x784 .f32 := broadcastInDim S10000x784 ![] bcast_S_S10000x784 main_cst
  let main_v2 : IVec S10000x784 1 := cmpf .olt main_v0 main_v1
  let main_c : IVec S_ 1 := constantI S_ 1 1#1
  let main_v3 : IVec S_ 1 := (fun x v => Host.reduce IntOp.andi x v reducesTo_S10000x784_S_d0_1 h_S_) main_v2 main_c
  let main_v4 : FVec F S784x512 .f32 := Host.absf main_arg2
  let main_cst_0 : FVec F S_ .f32 := constant S_ .f32 0x7F800000#32
  let main_v5 : FVec F S784x512 .f32 := broadcastInDim S784x512 ![] bcast_S_S784x512 main_cst_0
  let main_v6 : IVec S784x512 1 := cmpf .olt main_v4 main_v5
  let main_c_1 : IVec S_ 1 := constantI S_ 1 1#1
  let main_v7 : IVec S_ 1 := (fun x v => Host.reduce IntOp.andi x v reducesTo_S784x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_arg6 main_arg7 main_v13 main_v16
-- ==== Kernel.lean ====
abbrev S10000x784 : Shape := ⟨2, ![10000, 784]⟩
abbrev S2x160000 : Shape := ⟨2, ![2, 160000]⟩
abbrev S784x512 : Shape := ⟨2, ![784, 512]⟩
abbrev S512 : Shape := ⟨1, ![512]⟩
abbrev S512x512 : Shape := ⟨2, ![512, 512]⟩
abbrev S512x10 : Shape := ⟨2, ![512, 10]⟩
abbrev S10 : Shape := ⟨1, ![10]⟩
abbrev S_ : Shape := ⟨0, ![]⟩
abbrev S10240x896 : Shape := ⟨2, ![10240, 896]⟩
abbrev S1 : Shape := ⟨1, ![1]⟩
abbrev S2 : Shape := ⟨1, ![2]⟩
abbrev S896x512 : Shape := ⟨2, ![896, 512]⟩
abbrev S512x128 : Shape := ⟨2, ![512, 128]⟩
abbrev S128 : Shape := ⟨1, ![128]⟩
abbrev S1x160000 : Shape := ⟨2, ![1, 160000]⟩
abbrev S160000 : Shape := ⟨1, ![160000]⟩
abbrev S10000 : Shape := ⟨1, ![10000]⟩
abbrev S160000x1 : Shape := ⟨2, ![160000, 1]⟩
abbrev S10240x10240 : Shape := ⟨2, ![10240, 10240]⟩
abbrev S160000x2 : Shape := ⟨2, ![160000, 2]⟩
abbrev S10000x1 : Shape := ⟨2, ![10000, 1]⟩
abbrev S10000x2 : Shape := ⟨2, ![10000, 2]⟩
abbrev S1x512 : Shape := ⟨2, ![1, 512]⟩
abbrev S10240x512 : Shape := ⟨2, ![10240, 512]⟩
abbrev S2048x896 : Shape := ⟨2, ![2048, 896]⟩
abbrev S2048x512 : Shape := ⟨2, ![2048, 512]⟩
abbrev S2048x2048 : Shape := ⟨2, ![2048, 2048]⟩
abbrev S1x128 : Shape := ⟨2, ![1, 128]⟩
abbrev S10240x128 : Shape := ⟨2, ![10240, 128]⟩
abbrev S2048x128 : Shape := ⟨2, ![2048, 128]⟩
abbrev S10000x10 : Shape := ⟨2, ![10000, 10]⟩

abbrev nBuf : Space → Nat
  | .hbm => 146
  | .vmem => 45
  | .smem => 0
  | _ => 0

abbrev hbmTy0_0 (i : Nat) : BufTy := match i % 128 with
  | 0 => ⟨S10000x784, .f32⟩
  | 1 => ⟨S2x160000, .i32⟩
  | 2 => ⟨S784x512, .f32⟩
  | 3 => ⟨S512, .f32⟩
  | 4 => ⟨S512x512, .f32⟩
  | 5 => ⟨S512, .f32⟩
  | 6 => ⟨S512x10, .f32⟩
  | 7 => ⟨S10, .f32⟩
  | 8 => ⟨S_, .f32⟩
  | 9 => ⟨S10240x896, .f32⟩
  | 10 => ⟨S_, .i32⟩
  | 11 => ⟨S1, .i32⟩
  | 12 => ⟨S_, .i32⟩
  | 13 => ⟨S1, .i32⟩
  | 14 => ⟨S2, .i32⟩
  | 15 => ⟨S10240x896, .f32⟩
  | 16 => ⟨S_, .f32⟩
  | 17 => ⟨S896x512, .f32⟩
  | 18 => ⟨S_, .i32⟩
  | 19 => ⟨S1, .i32⟩
  | 20 => ⟨S896x512, .f32⟩
  | 21 => ⟨S_, .f32⟩
  | 22 => ⟨S512x128, .f32⟩
  | 23 => ⟨S_, .i32⟩
  | 24 => ⟨S1, .i32⟩
  | 25 => ⟨S512x128, .f32⟩
  | 26 => ⟨S_, .f32⟩
  | 27 => ⟨S128, .f32⟩
  | 28 => ⟨S_, .i32⟩
  | 29 => ⟨S1, .i32⟩
  | 30 => ⟨S128, .f32⟩
  | 31 => ⟨S1x160000, .i32⟩
  | 32 => ⟨S160000, .i32⟩
  | 33 => ⟨S1x160000, .i32⟩
  | 34 => ⟨S160000, .i32⟩
  | 35 => ⟨S_, .f32⟩
  | 36 => ⟨S160000, .f32⟩
  | 37 => ⟨S_, .f32⟩
  | 38 => ⟨S10000, .f32⟩
  | 39 => ⟨S160000x1, .i32⟩
  | 40 => ⟨S10000, .f32⟩
  | 41 => ⟨S_, .f32⟩
  | 42 => ⟨S10000, .f32⟩
  | 43 => ⟨S10000, .f32⟩
  | 44 => ⟨S10000, .f32⟩
  | 45 => ⟨S_, .i32⟩
  | 46 => ⟨S160000, .i32⟩
  | 47 => ⟨S160000, .i1⟩
  | 48 => ⟨S_, .i32⟩
  | 49 => ⟨S160000, .i32⟩
  | 50 => ⟨S160000, .i32⟩
  | 51 => ⟨S160000, .i32⟩
  | 52 => ⟨S160000x1, .i32⟩
  | 53 => ⟨S160000, .f32⟩
  | 54 => ⟨S_, .i32⟩
  | 55 => ⟨S160000, .i32⟩
  | 56 => ⟨S160000, .i1⟩
  | 57 => ⟨S_, .i32⟩
  | 58 => ⟨S160000, .i32⟩
  | 59 => ⟨S160000, .i32⟩
  | 60 => ⟨S160000, .i32⟩
  | 61 => ⟨S160000x1, .i32⟩
  | 62 => ⟨S160000, .f32⟩
  | 63 => ⟨S160000, .f32⟩
  | 64 => ⟨S_, .f32⟩
  | 65 => ⟨S10240x10240, .f32⟩
  | 66 => ⟨S_, .i32⟩
  | 67 => ⟨S160000, .i32⟩
  | 68 => ⟨S160000, .i1⟩
  | 69 => ⟨S_, .i32⟩
  | 70 => ⟨S160000, .i32⟩
  | 71 => ⟨S160000, .i32⟩
  | 72 => ⟨S160000, .i32⟩
  | 73 => ⟨S_, .i32⟩
  | 74 => ⟨S160000, .i32⟩
  | 75 => ⟨S160000, .i1⟩
  | 76 => ⟨S_, .i32⟩
  | 77 => ⟨S160000, .i32⟩
  | 78 => ⟨S160000, .i32⟩
  | 79 => ⟨S160000, .i32⟩
  | 80 => ⟨S160000x1, .i32⟩
  | 81 => ⟨S160000x1, .i32⟩
  | 82 => ⟨S160000x2, .i32⟩
  | 83 => ⟨S10240x10240, .f32⟩
  | 84 => ⟨S10000, .i32⟩
  | 85 => ⟨S10000, .f32⟩
  | 86 => ⟨S_, .i32⟩
  | 87 => ⟨S10000, .i32⟩
  | 88 => ⟨S10000, .i1⟩
  | 89 => ⟨S_, .i32⟩
  | 90 => ⟨S10000, .i32⟩
  | 91 => ⟨S10000, .i32⟩
  | 92 => ⟨S10000, .i32⟩
  | 93 => ⟨S_, .i32⟩
  | 94 => ⟨S10000, .i32⟩
  | 95 => ⟨S10000, .i1⟩
  | 96 => ⟨S_, .i32⟩
  | 97 => ⟨S10000, .i32⟩
  | 98 => ⟨S10000, .i32⟩
  | 99 => ⟨S10000, .i32⟩
  | 100 => ⟨S10000x1, .i32⟩
  | 101 => ⟨S10000x1, .i32⟩
  | 102 => ⟨S10000x2, .i32⟩
  | 103 => ⟨S10240x10240, .f32⟩
  | 104 => ⟨S10240x10240, .bf16⟩
  | 105 => ⟨S_, .f32⟩
  | 106 => ⟨S512, .f32⟩
  | 107 => ⟨S_, .f32⟩
  | 108 => ⟨S128, .f32⟩
  | 109 => ⟨S1x512, .f32⟩
  | 110 => ⟨S10240x896, .bf16⟩
  | 111 => ⟨S896x512, .bf16⟩
  | 112 => ⟨S10240x512, .f32⟩
  | 113 => ⟨S1x512, .f32⟩
  | 114 => ⟨S10240x512, .bf16⟩
  | 115 => ⟨S10240x512, .f32⟩
  | 116 => ⟨S1x512, .f32⟩
  | 117 => ⟨S10240x512, .bf16⟩
  | 118 => ⟨S512x512, .bf16⟩
  | 119 => ⟨S10240x512, .f32⟩
  | 120 => ⟨S1x512, .f32⟩
  | 121 => ⟨S10240x512, .bf16⟩
  | 122 => ⟨S10240x512, .f32⟩
  | 123 => ⟨S1x128, .f32⟩
  | 124 => ⟨S10240x512, .bf16⟩
  | 125 => ⟨S512x128, .bf16⟩
  | 126 => ⟨S10240x128, .f32⟩
  | 127 => ⟨S1x128, .f32⟩
  | _ => ⟨S10000x784, .f32⟩

abbrev hbmTy0_1 (i : Nat) : BufTy := match i % 128 with
  | 0 => ⟨S10240x128, .bf16⟩
  | 1 => ⟨S10240x128, .f32⟩
  | 2 => ⟨S10000x10, .f32⟩
  | 3 => ⟨S_, .f32⟩
  | 4 => ⟨S10000, .f32⟩
  | 5 => ⟨S_, .f32⟩
  | 6 => ⟨S10000, .f32⟩
  | 7 => ⟨S10000, .f32⟩
  | 8 => ⟨S10000x1, .f32⟩
  | 9 => ⟨S10000x10, .f32⟩
  | 10 => ⟨S10000x10, .f32⟩
  | 11 => ⟨S10000x10, .f32⟩
  | 12 => ⟨S_, .f32⟩
  | 13 => ⟨S10000, .f32⟩
  | 14 => ⟨S10000x1, .f32⟩
  | 15 => ⟨S10000x1, .f32⟩
  | 16 => ⟨S10000x10, .f32⟩
  | 17 => ⟨S10000x10, .f32⟩
  | _ => ⟨S10000x784, .f32⟩

abbrev hbmTy (i : Nat) : BufTy := match i / 128 with
  | 0 => hbmTy0_0 i
  | 1 => hbmTy0_1 i
  | _ => ⟨S10000x784, .f32⟩

abbrev bufTy : (tb : Table) → Fin (tcTables nBuf tb) → BufTy
  | .hbm, ⟨i, _⟩ => hbmTy i
  | .local _ .vmem, ⟨0, _⟩ => ⟨S2048x896, .bf16⟩
  | .local _ .vmem, ⟨1, _⟩ => ⟨S2048x896, .bf16⟩
  | .local _ .vmem, ⟨2, _⟩ => ⟨S896x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x2048, .bf16⟩
  | .local _ .vmem, ⟨8, _⟩ => ⟨S2048x2048, .bf16⟩
  | .local _ .vmem, ⟨9, _⟩ => ⟨S2048x512, .bf16⟩
  | .local _ .vmem, ⟨10, _⟩ => ⟨S2048x512, .bf16⟩
  | .local _ .vmem, ⟨11, _⟩ => ⟨S1x512, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S2048x512, .bf16⟩
  | .local _ .vmem, ⟨16, _⟩ => ⟨S2048x512, .bf16⟩
  | .local _ .vmem, ⟨17, _⟩ => ⟨S512x512, .bf16⟩
  | .local _ .vmem, ⟨18, _⟩ => ⟨S1x512, .f32⟩
  | .local _ .vmem, ⟨19, _⟩ => ⟨S2048x512, .f32⟩
  | .local _ .vmem, ⟨20, _⟩ => ⟨S2048x512, .f32⟩
  | .local _ .vmem, ⟨21, _⟩ => ⟨S2048x512, .f32⟩
  | .local _ .vmem, ⟨22, _⟩ => ⟨S2048x2048, .bf16⟩
  | .local _ .vmem, ⟨23, _⟩ => ⟨S2048x2048, .bf16⟩
  | .local _ .vmem, ⟨24, _⟩ => ⟨S2048x512, .bf16⟩
  | .local _ .vmem, ⟨25, _⟩ => ⟨S2048x512, .bf16⟩
  | .local _ .vmem, ⟨26, _⟩ => ⟨S1x512, .f32⟩
  | .local _ .vmem, ⟨27, _⟩ => ⟨S2048x512, .f32⟩
  | .local _ .vmem, ⟨28, _⟩ => ⟨S2048x512, .f32⟩
  | .local _ .vmem, ⟨29, _⟩ => ⟨S2048x512, .f32⟩
  | .local _ .vmem, ⟨30, _⟩ => ⟨S2048x512, .bf16⟩
  | .local _ .vmem, ⟨31, _⟩ => ⟨S2048x512, .bf16⟩
  | .local _ .vmem, ⟨32, _⟩ => ⟨S512x128, .bf16⟩
  | .local _ .vmem, ⟨33, _⟩ => ⟨S1x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x2048, .bf16⟩
  | .local _ .vmem, ⟨38, _⟩ => ⟨S2048x2048, .bf16⟩
  | .local _ .vmem, ⟨39, _⟩ => ⟨S2048x128, .bf16⟩
  | .local _ .vmem, ⟨40, _⟩ => ⟨S2048x128, .bf16⟩
  | .local _ .vmem, ⟨41, _⟩ => ⟨S1x128, .f32⟩
  | .local _ .vmem, ⟨42, _⟩ => ⟨S2048x128, .f32⟩
  | .local _ .vmem, ⟨43, _⟩ => ⟨S2048x128, .f32⟩
  | .local _ .vmem, ⟨44, _⟩ => ⟨S2048x128, .f32⟩
  | _, _ => ⟨S10000x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_c_6 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_v18 : Ref sig .tc := ⟨.hbm, 36, rfl⟩
abbrev main_cst_8 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_9 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_10 : Ref sig .tc := ⟨.hbm, 45, rfl⟩
abbrev main_v25 : Ref sig .tc := ⟨.hbm, 46, rfl⟩
abbrev main_v26 : Ref sig .tc := ⟨.hbm, 47, rfl⟩
abbrev main_c_11 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_12 : Ref sig .tc := ⟨.hbm, 54, rfl⟩
abbrev main_v32 : Ref sig .tc := ⟨.hbm, 55, rfl⟩
abbrev main_v33 : Ref sig .tc := ⟨.hbm, 56, rfl⟩
abbrev main_c_13 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_14 : Ref sig .tc := ⟨.hbm, 64, rfl⟩
abbrev main_v40 : Ref sig .tc := ⟨.hbm, 65, rfl⟩
abbrev main_c_15 : Ref sig .tc := ⟨.hbm, 66, rfl⟩
abbrev main_v41 : Ref sig .tc := ⟨.hbm, 67, rfl⟩
abbrev main_v42 : Ref sig .tc := ⟨.hbm, 68, rfl⟩
abbrev main_c_16 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_17 : Ref sig .tc := ⟨.hbm, 73, rfl⟩
abbrev main_v46 : Ref sig .tc := ⟨.hbm, 74, rfl⟩
abbrev main_v47 : Ref sig .tc := ⟨.hbm, 75, rfl⟩
abbrev main_c_18 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_19 : Ref sig .tc := ⟨.hbm, 86, rfl⟩
abbrev main_v57 : Ref sig .tc := ⟨.hbm, 87, rfl⟩
abbrev main_v58 : Ref sig .tc := ⟨.hbm, 88, rfl⟩
abbrev main_c_20 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_21 : Ref sig .tc := ⟨.hbm, 93, rfl⟩
abbrev main_v62 : Ref sig .tc := ⟨.hbm, 94, rfl⟩
abbrev main_v63 : Ref sig .tc := ⟨.hbm, 95, rfl⟩
abbrev main_c_22 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_23 : Ref sig .tc := ⟨.hbm, 105, rfl⟩
abbrev main_v72 : Ref sig .tc := ⟨.hbm, 106, rfl⟩
abbrev main_cst_24 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call0_cst : Ref sig .tc := ⟨.hbm, 131, rfl⟩
abbrev main_call0_v0 : Ref sig .tc := ⟨.hbm, 132, rfl⟩
abbrev main_call0_cst_0 : Ref sig .tc := ⟨.hbm, 133, rfl⟩
abbrev main_call0_v1 : Ref sig .tc := ⟨.hbm, 134, rfl⟩
abbrev main_call0_v2 : Ref sig .tc := ⟨.hbm, 135, rfl⟩
abbrev main_call0_v3 : Ref sig .tc := ⟨.hbm, 136, rfl⟩
abbrev main_call0_v4 : Ref sig .tc := ⟨.hbm, 137, rfl⟩
abbrev main_call0_v5 : Ref sig .tc := ⟨.hbm, 138, rfl⟩
abbrev main_call0_v6 : Ref sig .tc := ⟨.hbm, 139, rfl⟩
abbrev main_call0_cst_1 : Ref sig .tc := ⟨.hbm, 140, rfl⟩
abbrev main_call0_v7 : Ref sig .tc := ⟨.hbm, 141, rfl⟩
abbrev main_call0_v8 : Ref sig .tc := ⟨.hbm, 142, rfl⟩
abbrev main_call0_v9 : Ref sig .tc := ⟨.hbm, 143, rfl⟩
abbrev main_call0_v10 : Ref sig .tc := ⟨.hbm, 144, rfl⟩
abbrev main_v96 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg3_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc5_scratch0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem3_1 : DmaSem sig := 38

abbrev nD : Nat := 1
abbrev τ : Topo := Topo.v7x

variable {F : FTy → Type} [FloatOps F]

abbrev grid0 : Pipeline.Grid := ⟨3, ![5, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S896x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![5, 1, 5], ![false, false, false]⟩

def k1_cond2 (i : grid1.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![5, 1, 1], ![false, false, false]⟩

def k2_cond2 (i : grid2.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![5, 1, 5], ![false, false, false]⟩

def k3_cond2 (i : grid3.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, false]

abbrev stage3_3 : Fin 2 → Memref sig .tc .vmem S2048x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![5, 1, 1], ![false, false, false]⟩

def k4_cond2 (i : grid4.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S512x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, true, false]

abbrev stage4_3 : Fin 2 → Memref sig .tc .vmem S2048x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![5, 1, 5], ![false, false, false]⟩

def k5_cond2 (i : grid5.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2048x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true, false]

abbrev stage5_3 : Fin 2 → Memref sig .tc .vmem S2048x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

class Facts₀ : Prop where
  bcast_S_S10240x896 : S_.BroadcastsInDim S10240x896 (![] : Fin 0 → Fin S10240x896.rank)
  bcast_S_S1 : S_.BroadcastsInDim S1 (![] : Fin 0 → Fin S1.rank)
  concatenates_S1_S1_S2_d0 : Shape.Concatenates [S1, S1] S2 0
  bcast_S_S896x512 : S_.BroadcastsInDim S896x512 (![] : Fin 0 → Fin S896x512.rank)
  bcast_S_S512x128 : S_.BroadcastsInDim S512x128 (![] : Fin 0 → Fin S512x128.rank)
  bcast_S_S128 : S_.BroadcastsInDim S128 (![] : Fin 0 → Fin S128.rank)
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S_S10240x10240 : S_.BroadcastsInDim S10240x10240 (![] : Fin 0 → Fin S10240x10240.rank)
  concatenates_S160000x1_S160000x1_S160000x2_d1 : Shape.Concatenates [S160000x1, S160000x1] S160000x2 1
  bcast_S10000_S10000x1_0 : S10000.BroadcastsInDim S10000x1 (![0] : Fin 1 → Fin S10000x1.rank)
  concatenates_S10000x1_S10000x1_S10000x2_d1 : Shape.Concatenates [S10000x1, S10000x1] S10000x2 1
  bitsLt_bf16_f32 : FTy.bits .bf16 < FTy.bits .f32
  bcast_S_S512 : S_.BroadcastsInDim S512 (![] : Fin 0 → Fin S512.rank)
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x896_S2048x896_0_0 : ∀ a, (![0, 0] : Fin 2 → Nat) a + S2048x896.size a ≤ S2048x896.size a
  h_S2048x896 : 0 < S2048x896.numel
  shapeCasts_S2048x896_S2048x896 : S2048x896.ShapeCasts S2048x896
  inb_S896x512_S896x512_0_0 : ∀ a, (![0, 0] : Fin 2 → Nat) a + S896x512.size a ≤ S896x512.size a
  h_S896x512 : 0 < S896x512.numel
  shapeCasts_S896x512_S896x512 : S896x512.ShapeCasts S896x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S10240x128_S10000x10_0_0 : S10240x128.Slices ![0, 0] S10000x10
  reducesTo_S10000x10_S10000_d1 : S10000x10.ReducesTo [1] S10000
  h_S_ : 0 < S_.numel
  bcast_S10000x1_S10000x10_0_1 : S10000x1.BroadcastsInDim S10000x10 (![0, 1] : Fin 2 → Fin S10000x10.rank)
  scatter_S10240x896_S2_S10000x784_01_n_01_0_wf : ScatterDims.WF S10240x896 S2 S10000x784 [0, 1] [] [0, 1] 0
  scatter_S896x512_S1_S784x512_01_n_0_0_wf : ScatterDims.WF S896x512 S1 S784x512 [0, 1] [] [0] 0
  scatter_S512x128_S1_S512x10_01_n_1_0_wf : ScatterDims.WF S512x128 S1 S512x10 [0, 1] [] [1] 0
  scatter_S128_S1_S10_0_n_0_0_wf : ScatterDims.WF S128 S1 S10 [0] [] [0] 0
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  scatter_S10240x10240_S160000x2_S160000_n_01_01_1_wf : ScatterDims.WF S10240x10240 S160000x2 S160000 [] [0, 1] [0, 1] 1
  scatter_S10240x10240_S10000x2_S10000_n_01_01_1_wf : ScatterDims.WF S10240x10240 S10000x2 S10000 [] [0, 1] [0, 1] 1
  dot_S2048x896_S896x512_S2048x512_1_0_0_1_n_n_wf : DotDims.WF S2048x896 S896x512 S2048x512 [1] [0] [0] [1] [] []
  dot_S2048x2048_S2048x512_S2048x512_1_0_0_1_n_n_wf : DotDims.WF S2048x2048 S2048x512 S2048x512 [1] [0] [0] [1] [] []
  dot_S2048x512_S512x512_S2048x512_1_0_0_1_n_n_wf : DotDims.WF S2048x512 S512x512 S2048x512 [1] [0] [0] [1] [] []
  dot_S2048x512_S512x128_S2048x128_1_0_0_1_n_n_wf : DotDims.WF S2048x512 S512x128 S2048x128 [1] [0] [0] [1] [] []
  dot_S2048x2048_S2048x128_S2048x128_1_0_0_1_n_n_wf : DotDims.WF S2048x2048 S2048x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x896.size a ≤ S10240x896.size a
  hwx0_0 : ∀ i : grid0.Coords, EltTy.bits .bf16 = 32 ∨ (Rect.block (s := S10240x896) S2048x896.size (cc0_transform_0 i) (hinb0_0 i)).WholeWords (EltTy.packing .bf16)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S896x512.size a ≤ S896x512.size a
  hwx0_1 : ∀ i : grid0.Coords, EltTy.bits .bf16 = 32 ∨ (Rect.block (s := S896x512) S896x512.size (cc0_transform_1 i) (hinb0_1 i)).WholeWords (EltTy.packing .bf16)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S10240x512.size a
  hwx0_3 : ∀ i : grid0.Coords, EltTy.bits .f32 = 32 ∨ (Rect.block (s := S10240x512) S2048x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S10240x10240.size a
  hwx1_0 : ∀ i : grid1.Coords, EltTy.bits .bf16 = 32 ∨ (Rect.block (s := S10240x10240) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S10240x512.size a
  hwx1_1 : ∀ i : grid1.Coords, EltTy.bits .bf16 = 32 ∨ (Rect.block (s := S10240x512) S2048x512.size (cc1_transform_1 i) (hinb1_1 i)).WholeWords (EltTy.packing .bf16)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S10240x512.size a
  hwx1_3 : ∀ i : grid1.Coords, EltTy.bits .f32 = 32 ∨ (Rect.block (s := S10240x512) S2048x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S10240x512.size a
  hwx2_0 : ∀ i : grid2.Coords, EltTy.bits .bf16 = 32 ∨ (Rect.block (s := S10240x512) S2048x512.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S10240x512.size a
  hwx2_3 : ∀ i : grid2.Coords, EltTy.bits .f32 = 32 ∨ (Rect.block (s := S10240x512) S2048x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S10240x10240.size a
  hwx3_0 : ∀ i : grid3.Coords, EltTy.bits .bf16 = 32 ∨ (Rect.block (s := S10240x10240) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S10240x512.size a
  hwx3_1 : ∀ i : grid3.Coords, EltTy.bits .bf16 = 32 ∨ (Rect.block (s := S10240x512) S2048x512.size (cc3_transform_1 i) (hinb3_1 i)).WholeWords (EltTy.packing .bf16)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x512.size a ≤ S10240x512.size a
  hwx3_3 : ∀ i : grid3.Coords, EltTy.bits .f32 = 32 ∨ (Rect.block (s := S10240x512) S2048x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x512.size a ≤ S10240x512.size a
  hwx4_0 : ∀ i : grid4.Coords, EltTy.bits .bf16 = 32 ∨ (Rect.block (s := S10240x512) S2048x512.size (cc4_transform_0 i) (hinb4_0 i)).WholeWords (EltTy.packing .bf16)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S512x128.size a ≤ S512x128.size a
  hwx4_1 : ∀ i : grid4.Coords, EltTy.bits .bf16 = 32 ∨ (Rect.block (s := S512x128) S512x128.size (cc4_transform_1 i) (hinb4_1 i)).WholeWords (EltTy.packing .bf16)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x128.size a ≤ S10240x128.size a
  hwx4_3 : ∀ i : grid4.Coords, EltTy.bits .f32 = 32 ∨ (Rect.block (s := S10240x128) S2048x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x2048.size a ≤ S10240x10240.size a
  hwx5_0 : ∀ i : grid5.Coords, EltTy.bits .bf16 = 32 ∨ (Rect.block (s := S10240x10240) S2048x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S10240x128.size a
  hwx5_1 : ∀ i : grid5.Coords, EltTy.bits .bf16 = 32 ∨ (Rect.block (s := S10240x128) S2048x128.size (cc5_transform_1 i) (hinb5_1 i)).WholeWords (EltTy.packing .bf16)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x128.size a ≤ S10240x128.size a
  hwx5_3 : ∀ i : grid5.Coords, EltTy.bits .f32 = 32 ∨ (Rect.block (s := S10240x128) S2048x128.size (cc5_transform_3 i) (hinb5_3 i)).WholeWords (EltTy.packing .f32)

variable [Facts₀]

def scatter_S10240x896_S2_S10000x784_01_n_01_0 : ScatterDims S10240x896 S2 S10000x784 where
  updateWindowDims := [0, 1]
  insertedWindowDims := []
  scatterDimsToOperandDims := [0, 1]
  indexVectorDim := 0
  wf := scatter_S10240x896_S2_S10000x784_01_n_01_0_wf
def scatter_S896x512_S1_S784x512_01_n_0_0 : ScatterDims S896x512 S1 S784x512 where
  updateWindowDims := [0, 1]
  insertedWindowDims := []
  scatterDimsToOperandDims := [0]
  indexVectorDim := 0
  wf := scatter_S896x512_S1_S784x512_01_n_0_0_wf
def scatter_S512x128_S1_S512x10_01_n_1_0 : ScatterDims S512x128 S1 S512x10 where
  updateWindowDims := [0, 1]
  insertedWindowDims := []
  scatterDimsToOperandDims := [1]
  indexVectorDim := 0
  wf := scatter_S512x128_S1_S512x10_01_n_1_0_wf
def scatter_S128_S1_S10_0_n_0_0 : ScatterDims S128 S1 S10 where
  updateWindowDims := [0]
  insertedWindowDims := []
  scatterDimsToOperandDims := [0]
  indexVectorDim := 0
  wf := scatter_S128_S1_S10_0_n_0_0_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def scatter_S10240x10240_S10000x2_S10000_n_01_01_1 : ScatterDims S10240x10240 S10000x2 S10000 where
  updateWindowDims := []
  insertedWindowDims := [0, 1]
  scatterDimsToOperandDims := [0, 1]
  indexVectorDim := 1
  wf := scatter_S10240x10240_S10000x2_S10000_n_01_01_1_wf
def dot_S2048x896_S896x512_S2048x512_1_0_0_1_n_n : DotDims S2048x896 S896x512 S2048x512 where
  lhsContracting := [1]
  rhsContracting := [0]
  lhsNonContracting := [0]
  rhsNonContracting := [1]
  lhsBatch := []
  rhsBatch := []
  wf := dot_S2048x896_S896x512_S2048x512_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf

abbrev win0_0 : Pipeline.Window sig grid0 :=
  Pipeline.Window.ofSpec (Memref.whole main_v75) S2048x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v76) S896x512.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v74) S1x512.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v77) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v71) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v79) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v78) S1x512.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v80) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v82) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S512x512.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v81) S1x512.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v84) S2048x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v71) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v85) S1x512.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S2048x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v89) S2048x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S512x128.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v88) S1x128.size cc4_transform_2 reads4_2 false false 1 stage4_2 sem4_2
    hrank4 hreads4_2 hinb4_2 nbuf4_2 (Memref.isWhole_whole _) hwx4_2 hstage4_2

abbrev win4_3 : Pipeline.Window sig grid4 :=
  Pipeline.Window.ofSpec (Memref.whole main_v91) S2048x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v71) S2048x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v92) S1x128.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v94) S2048x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S10000x784 : Shape := ⟨2, ![10000, 784]⟩
abbrev S2x160000 : Shape := ⟨2, ![2, 160000]⟩
abbrev S784x512 : Shape := ⟨2, ![784, 512]⟩
abbrev S512 : Shape := ⟨1, ![512]⟩
abbrev S512x512 : Shape := ⟨2, ![512, 512]⟩
abbrev S512x10 : Shape := ⟨2, ![512, 10]⟩
abbrev S10 : Shape := ⟨1, ![10]⟩
abbrev S1x160000 : Shape := ⟨2, ![1, 160000]⟩
abbrev S160000 : Shape := ⟨1, ![160000]⟩
abbrev S10000x512 : Shape := ⟨2, ![10000, 512]⟩
abbrev S_ : Shape := ⟨0, ![]⟩
abbrev S10000 : Shape := ⟨1, ![10000]⟩
abbrev S160000x1 : Shape := ⟨2, ![160000, 1]⟩
abbrev S160000x512 : Shape := ⟨2, ![160000, 512]⟩
abbrev S10000x1 : Shape := ⟨2, ![10000, 1]⟩
abbrev S1x512 : Shape := ⟨2, ![1, 512]⟩
abbrev S10000x10 : Shape := ⟨2, ![10000, 10]⟩
abbrev S160000x10 : Shape := ⟨2, ![160000, 10]⟩
abbrev S1x10 : Shape := ⟨2, ![1, 10]⟩

abbrev nBuf : Space → Nat
  | .hbm => 195
  | .vmem => 0
  | .smem => 0
  | _ => 0

abbrev hbmTy0_0 (i : Nat) : BufTy := match i % 128 with
  | 0 => ⟨S10000x784, .f32⟩
  | 1 => ⟨S2x160000, .i32⟩
  | 2 => ⟨S784x512, .f32⟩
  | 3 => ⟨S512, .f32⟩
  | 4 => ⟨S512x512, .f32⟩
  | 5 => ⟨S512, .f32⟩
  | 6 => ⟨S512x10, .f32⟩
  | 7 => ⟨S10, .f32⟩
  | 8 => ⟨S1x160000, .i32⟩
  | 9 => ⟨S160000, .i32⟩
  | 10 => ⟨S1x160000, .i32⟩
  | 11 => ⟨S160000, .i32⟩
  | 12 => ⟨S10000x512, .f32⟩
  | 13 => ⟨S_, .f32⟩
  | 14 => ⟨S160000, .f32⟩
  | 15 => ⟨S_, .f32⟩
  | 16 => ⟨S10000, .f32⟩
  | 17 => ⟨S160000x1, .i32⟩
  | 18 => ⟨S10000, .f32⟩
  | 19 => ⟨S_, .f32⟩
  | 20 => ⟨S10000, .f32⟩
  | 21 => ⟨S10000, .f32⟩
  | 22 => ⟨S10000, .f32⟩
  | 23 => ⟨S_, .i32⟩
  | 24 => ⟨S160000, .i32⟩
  | 25 => ⟨S160000, .i1⟩
  | 26 => ⟨S_, .i32⟩
  | 27 => ⟨S160000, .i32⟩
  | 28 => ⟨S160000, .i32⟩
  | 29 => ⟨S160000, .i32⟩
  | 30 => ⟨S160000x1, .i32⟩
  | 31 => ⟨S160000, .f32⟩
  | 32 => ⟨S_, .i32⟩
  | 33 => ⟨S160000, .i32⟩
  | 34 => ⟨S160000, .i1⟩
  | 35 => ⟨S_, .i32⟩
  | 36 => ⟨S160000, .i32⟩
  | 37 => ⟨S160000, .i32⟩
  | 38 => ⟨S160000, .i32⟩
  | 39 => ⟨S160000x1, .i32⟩
  | 40 => ⟨S160000, .f32⟩
  | 41 => ⟨S160000, .f32⟩
  | 42 => ⟨S_, .i32⟩
  | 43 => ⟨S160000, .i32⟩
  | 44 => ⟨S160000, .i1⟩
  | 45 => ⟨S_, .i32⟩
  | 46 => ⟨S160000, .i32⟩
  | 47 => ⟨S160000, .i32⟩
  | 48 => ⟨S160000, .i32⟩
  | 49 => ⟨S160000x1, .i32⟩
  | 50 => ⟨S160000x512, .f32⟩
  | 51 => ⟨S160000x1, .f32⟩
  | 52 => ⟨S160000x512, .f32⟩
  | 53 => ⟨S160000x512, .f32⟩
  | 54 => ⟨S_, .f32⟩
  | 55 => ⟨S10000x512, .f32⟩
  | 56 => ⟨S160000x1, .i32⟩
  | 57 => ⟨S10000x512, .f32⟩
  | 58 => ⟨S10000, .f32⟩
  | 59 => ⟨S10000x1, .f32⟩
  | 60 => ⟨S10000x512, .f32⟩
  | 61 => ⟨S10000x512, .f32⟩
  | 62 => ⟨S10000x512, .f32⟩
  | 63 => ⟨S1x512, .f32⟩
  | 64 => ⟨S10000x512, .f32⟩
  | 65 => ⟨S10000x512, .f32⟩
  | 66 => ⟨S_, .f32⟩
  | 67 => ⟨S10000x512, .f32⟩
  | 68 => ⟨S10000x512, .f32⟩
  | 69 => ⟨S10000x512, .f32⟩
  | 70 => ⟨S_, .f32⟩
  | 71 => ⟨S160000, .f32⟩
  | 72 => ⟨S_, .f32⟩
  | 73 => ⟨S10000, .f32⟩
  | 74 => ⟨S160000x1, .i32⟩
  | 75 => ⟨S10000, .f32⟩
  | 76 => ⟨S_, .f32⟩
  | 77 => ⟨S10000, .f32⟩
  | 78 => ⟨S10000, .f32⟩
  | 79 => ⟨S10000, .f32⟩
  | 80 => ⟨S_, .i32⟩
  | 81 => ⟨S160000, .i32⟩
  | 82 => ⟨S160000, .i1⟩
  | 83 => ⟨S_, .i32⟩
  | 84 => ⟨S160000, .i32⟩
  | 85 => ⟨S160000, .i32⟩
  | 86 => ⟨S160000, .i32⟩
  | 87 => ⟨S160000x1, .i32⟩
  | 88 => ⟨S160000, .f32⟩
  | 89 => ⟨S_, .i32⟩
  | 90 => ⟨S160000, .i32⟩
  | 91 => ⟨S160000, .i1⟩
  | 92 => ⟨S_, .i32⟩
  | 93 => ⟨S160000, .i32⟩
  | 94 => ⟨S160000, .i32⟩
  | 95 => ⟨S160000, .i32⟩
  | 96 => ⟨S160000x1, .i32⟩
  | 97 => ⟨S160000, .f32⟩
  | 98 => ⟨S160000, .f32⟩
  | 99 => ⟨S_, .i32⟩
  | 100 => ⟨S160000, .i32⟩
  | 101 => ⟨S160000, .i1⟩
  | 102 => ⟨S_, .i32⟩
  | 103 => ⟨S160000, .i32⟩
  | 104 => ⟨S160000, .i32⟩
  | 105 => ⟨S160000, .i32⟩
  | 106 => ⟨S160000x1, .i32⟩
  | 107 => ⟨S160000x512, .f32⟩
  | 108 => ⟨S160000x1, .f32⟩
  | 109 => ⟨S160000x512, .f32⟩
  | 110 => ⟨S160000x512, .f32⟩
  | 111 => ⟨S_, .f32⟩
  | 112 => ⟨S10000x512, .f32⟩
  | 113 => ⟨S160000x1, .i32⟩
  | 114 => ⟨S10000x512, .f32⟩
  | 115 => ⟨S10000, .f32⟩
  | 116 => ⟨S10000x1, .f32⟩
  | 117 => ⟨S10000x512, .f32⟩
  | 118 => ⟨S10000x512, .f32⟩
  | 119 => ⟨S10000x512, .f32⟩
  | 120 => ⟨S1x512, .f32⟩
  | 121 => ⟨S10000x512, .f32⟩
  | 122 => ⟨S10000x512, .f32⟩
  | 123 => ⟨S_, .f32⟩
  | 124 => ⟨S10000x512, .f32⟩
  | 125 => ⟨S10000x512, .f32⟩
  | 126 => ⟨S10000x10, .f32⟩
  | 127 => ⟨S_, .f32⟩
  | _ => ⟨S10000x784, .f32⟩

abbrev hbmTy0_1 (i : Nat) : BufTy := match i % 128 with
  | 0 => ⟨S160000, .f32⟩
  | 1 => ⟨S_, .f32⟩
  | 2 => ⟨S10000, .f32⟩
  | 3 => ⟨S160000x1, .i32⟩
  | 4 => ⟨S10000, .f32⟩
  | 5 => ⟨S_, .f32⟩
  | 6 => ⟨S10000, .f32⟩
  | 7 => ⟨S10000, .f32⟩
  | 8 => ⟨S10000, .f32⟩
  | 9 => ⟨S_, .i32⟩
  | 10 => ⟨S160000, .i32⟩
  | 11 => ⟨S160000, .i1⟩
  | 12 => ⟨S_, .i32⟩
  | 13 => ⟨S160000, .i32⟩
  | 14 => ⟨S160000, .i32⟩
  | 15 => ⟨S160000, .i32⟩
  | 16 => ⟨S160000x1, .i32⟩
  | 17 => ⟨S160000, .f32⟩
  | 18 => ⟨S_, .i32⟩
  | 19 => ⟨S160000, .i32⟩
  | 20 => ⟨S160000, .i1⟩
  | 21 => ⟨S_, .i32⟩
  | 22 => ⟨S160000, .i32⟩
  | 23 => ⟨S160000, .i32⟩
  | 24 => ⟨S160000, .i32⟩
  | 25 => ⟨S160000x1, .i32⟩
  | 26 => ⟨S160000, .f32⟩
  | 27 => ⟨S160000, .f32⟩
  | 28 => ⟨S_, .i32⟩
  | 29 => ⟨S160000, .i32⟩
  | 30 => ⟨S160000, .i1⟩
  | 31 => ⟨S_, .i32⟩
  | 32 => ⟨S160000, .i32⟩
  | 33 => ⟨S160000, .i32⟩
  | 34 => ⟨S160000, .i32⟩
  | 35 => ⟨S160000x1, .i32⟩
  | 36 => ⟨S160000x10, .f32⟩
  | 37 => ⟨S160000x1, .f32⟩
  | 38 => ⟨S160000x10, .f32⟩
  | 39 => ⟨S160000x10, .f32⟩
  | 40 => ⟨S_, .f32⟩
  | 41 => ⟨S10000x10, .f32⟩
  | 42 => ⟨S160000x1, .i32⟩
  | 43 => ⟨S10000x10, .f32⟩
  | 44 => ⟨S10000, .f32⟩
  | 45 => ⟨S10000x1, .f32⟩
  | 46 => ⟨S10000x10, .f32⟩
  | 47 => ⟨S10000x10, .f32⟩
  | 48 => ⟨S10000x10, .f32⟩
  | 49 => ⟨S1x10, .f32⟩
  | 50 => ⟨S10000x10, .f32⟩
  | 51 => ⟨S10000x10, .f32⟩
  | 52 => ⟨S_, .f32⟩
  | 53 => ⟨S10000, .f32⟩
  | 54 => ⟨S_, .f32⟩
  | 55 => ⟨S10000, .f32⟩
  | 56 => ⟨S10000, .f32⟩
  | 57 => ⟨S10000x1, .f32⟩
  | 58 => ⟨S10000x10, .f32⟩
  | 59 => ⟨S10000x10, .f32⟩
  | 60 => ⟨S10000x10, .f32⟩
  | 61 => ⟨S_, .f32⟩
  | 62 => ⟨S10000, .f32⟩
  | 63 => ⟨S10000x1, .f32⟩
  | 64 => ⟨S10000x1, .f32⟩
  | 65 => ⟨S10000x10, .f32⟩
  | 66 => ⟨S10000x10, .f32⟩
  | _ => ⟨S10000x784, .f32⟩

abbrev hbmTy (i : Nat) : BufTy := match i / 128 with
  | 0 => hbmTy0_0 i
  | 1 => hbmTy0_1 i
  | _ => ⟨S10000x784, .f32⟩

abbrev bufTy : (tb : Table) → Fin (tcTables nBuf tb) → BufTy
  | .hbm, ⟨i, _⟩ => hbmTy i
  | _, _ => ⟨S10000x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_cst_19 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_20 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_21 : Ref sig .tc := ⟨.hbm, 137, rfl⟩
abbrev main_v102 : Ref sig .tc := ⟨.hbm, 138, rfl⟩
abbrev main_v103 : Ref sig .tc := ⟨.hbm, 139, rfl⟩
abbrev main_c_22 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_23 : Ref sig .tc := ⟨.hbm, 146, rfl⟩
abbrev main_v109 : Ref sig .tc := ⟨.hbm, 147, rfl⟩
abbrev main_v110 : Ref sig .tc := ⟨.hbm, 148, rfl⟩
abbrev main_c_24 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_25 : Ref sig .tc := ⟨.hbm, 156, rfl⟩
abbrev main_v117 : Ref sig .tc := ⟨.hbm, 157, rfl⟩
abbrev main_v118 : Ref sig .tc := ⟨.hbm, 158, rfl⟩
abbrev main_c_26 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_27 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_call2_cst : Ref sig .tc := ⟨.hbm, 180, rfl⟩
abbrev main_call2_v0 : Ref sig .tc := ⟨.hbm, 181, rfl⟩
abbrev main_call2_cst_0 : Ref sig .tc := ⟨.hbm, 182, rfl⟩
abbrev main_call2_v1 : Ref sig .tc := ⟨.hbm, 183, rfl⟩
abbrev main_call2_v2 : Ref sig .tc := ⟨.hbm, 184, rfl⟩
abbrev main_call2_v3 : Ref sig .tc := ⟨.hbm, 185, rfl⟩
abbrev main_call2_v4 : Ref sig .tc := ⟨.hbm, 186, rfl⟩
abbrev main_call2_v5 : Ref sig .tc := ⟨.hbm, 187, rfl⟩
abbrev main_call2_v6 : Ref sig .tc := ⟨.hbm, 188, rfl⟩
abbrev main_call2_cst_1 : Ref sig .tc := ⟨.hbm, 189, rfl⟩
abbrev main_call2_v7 : Ref sig .tc := ⟨.hbm, 190, rfl⟩
abbrev main_call2_v8 : Ref sig .tc := ⟨.hbm, 191, rfl⟩
abbrev main_call2_v9 : Ref sig .tc := ⟨.hbm, 192, rfl⟩
abbrev main_call2_v10 : Ref sig .tc := ⟨.hbm, 193, rfl⟩
abbrev main_v138 : Ref sig .tc := ⟨.hbm, 194, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S160000x1_S160000x10_0_1 : S160000x1.BroadcastsInDim S160000x10 (![0, 1] : Fin 2 → Fin S160000x10.rank)
  bcast_S_S10000x10 : S_.BroadcastsInDim S10000x10 (![] : Fin 0 → Fin S10000x10.rank)
  bcast_S10000x1_S10000x10_0_1 : S10000x1.BroadcastsInDim S10000x10 (![0, 1] : Fin 2 → Fin S10000x10.rank)
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  reducesTo_S10000x10_S10000_d1 : S10000x10.ReducesTo [1] S10000
  h_S_ : 0 < S_.numel
  dot_S10000x784_S784x512_S10000x512_1_0_0_1_n_n_wf : DotDims.WF S10000x784 S784x512 S10000x512 [1] [0] [0] [1] [] []
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  dot_S10000x512_S512x512_S10000x512_1_0_0_1_n_n_wf : DotDims.WF S10000x512 S512x512 S10000x512 [1] [0] [0] [1] [] []
  dot_S10000x512_S512x10_S10000x10_1_0_0_1_n_n_wf : DotDims.WF S10000x512 S512x10 S10000x10 [1] [0] [0] [1] [] []
  gather_S10000x10_S160000x1_S160000x10_1_0_n_n_0_1_110_wf : GatherDims.WF S10000x10 S160000x1 S160000x10 [1] [0] [] [0] [] 1 ![1, 10]
  scatter_S10000x10_S160000x1_S160000x10_1_0_0_1_wf : ScatterDims.WF S10000x10 S160000x1 S160000x10 [1] [0] [0] 1

variable [Facts₀]

def dot_S10000x784_S784x512_S10000x512_1_0_0_1_n_n : DotDims S10000x784 S784x512 S10000x512 where
  lhsContracting := [1]
  rhsContracting := [0]
  lhsNonContracting := [0]
  rhsNonContracting := [1]
  lhsBatch := []
  rhsBatch := []
  wf := dot_S10000x784_S784x512_S10000x512_1_0_0_1_n_n_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x512_S512x10_S10000x10_1_0_0_1_n_n : DotDims S10000x512 S512x10 S10000x10 where
  lhsContracting := [1]
  rhsContracting := [0]
  lhsNonContracting := [0]
  rhsNonContracting := [1]
  lhsBatch := []
  rhsBatch := []
  wf := dot_S10000x512_S512x10_S10000x10_1_0_0_1_n_n_wf
def gather_S10000x10_S160000x1_S160000x10_1_0_n_n_0_1_110 : GatherDims S10000x10 S160000x1 S160000x10 where
  offsetDims := [1]
  collapsedSliceDims := [0]
  operandBatchingDims := []
  startIndicesBatchingDims := []
  startIndexMap := [0]
  indexVectorDim := 1
  sliceSizes := ![1, 10]
  wf := gather_S10000x10_S160000x1_S160000x10_1_0_n_n_0_1_110_wf
def scatter_S10000x10_S160000x1_S160000x10_1_0_0_1 : ScatterDims S10000x10 S160000x1 S160000x10 where
  updateWindowDims := [1]
  insertedWindowDims := [0]
  scatterDimsToOperandDims := [0]
  indexVectorDim := 1
  wf := scatter_S10000x10_S160000x1_S160000x10_1_0_0_1_wf

class Facts : Prop extends Facts₀ where

variable [Facts]
-- ==== Proof.K.R0Runs.lean ====
import proofs.«414095_j12086037971444_1_alg».proof.Proof.Gen.Kernel.Launch
import proofs.«414095_j12086037971444_1_alg».proof.Proof.Gen.Kernel.Skeleton
import proofs.«414095_j12086037971444_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 2).val) 0#32)) 0#32) = 1#1

theorem hcond0_0 : ∀ t : Fin cfg0.N, cond0_0 (grid0.coords t) :=
  (by decide +kernel : ∀ t : Fin grid0.N, cond0_0 (grid0.coords t))

abbrev cond0_1 (i : grid0.Coords) : Prop := k0_cond2 i = 1#1

theorem hcond0_1 : ∀ t : Fin cfg0.N, cond0_1 (grid0.coords t) :=
  (by decide +kernel : ∀ t : Fin grid0.N, cond0_1 (grid0.coords t))

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem liveAt0_3 : ∀ t : Fin cfg0.N, cfg0.idle 3 (grid0.coords t) = false := by decide +kernel

abbrev VO0_3 : View sig .tc .vmem S2048x512 .f32 := (Memref.whole cc0_stg3_0 : Memref sig .tc .vmem S2048x512 .f32).view

abbrev scM0_0 : Memref sig .tc .vmem S2048x512 .f32 := Memref.whole cc0_scratch0

theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Hand

end
-- ==== Proof.K.R0RunA.lean ====
import proofs.«414095_j12086037971444_1_alg».proof.Proof.K.R0Runs

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun0_A (c : Dev nD) (i : grid0.Coords) (arg3 : Memref sig .tc .vmem S2048x896 .bf16) (harg3 : arg3.IsWhole) (arg4 : Memref sig .tc .vmem S896x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : cond0_0 i) (hc1 : cond0_1 i)
    (x0 : Vec F S2048x896 .bf16) (x1 : Vec F S896x512 .bf16) (x2 : Vec F S1x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc0__mm_kernel i arg3 harg3 arg4 harg4 arg5 harg5 arg6 harg6 arg7 harg7) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.R0Frame.lean ====
import proofs.«414095_j12086037971444_1_alg».proof.Proof.K.R0RunA

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Step
variable (c : Dev nD) (i : grid0.Coords) (arg3 : Memref sig .tc .vmem S2048x896 .bf16) (harg3 : arg3.IsWhole) (arg4 : Memref sig .tc .vmem S896x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)

theorem cover0_A_3 (hc0 : cond0_0 i) (hc1 : cond0_1 i)
    (x0 : Vec F S2048x896 .bf16) (x1 : Vec F S896x512 .bf16) (x2 : Vec F S1x512 .f32) (y : S2048x512.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S2048x512.size (by sl_kernel_rfl) y

def out0_A_3 (hc0 : cond0_0 i) (hc1 : cond0_1 i)
    (x0 : Vec F S2048x896 .bf16) (x1 : Vec F S896x512 .bf16) (x2 : Vec F S1x512 .f32) : Vec F S2048x512 .f32 :=
  VO0_3.read (Elt F) (VO0_3.writes (Elt F) VO0_3.junk (kernelRun0_A c i arg3 harg3 arg4 harg4 arg5 harg5 arg6 harg6 arg7 harg7 hc0 hc1 x0 x1 x2).1)

end Step

abbrev ms0_0 (t : Fin cfg0.N) : Memref sig .tc .vmem S2048x896 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S896x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .f32 := win0_3.stage (cfg0.slots t 3)
abbrev hs0_3 (t : Fin cfg0.N) : (ms0_3 t).IsWhole := hstage0_3 ((cfg0.slots t 3).cast nbuf0_3)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_A_3 c (grid0.coords t) (ms0_0 t) (hs0_0 t) (ms0_1 t) (hs0_1 t) (ms0_2 t) (hs0_2 t) (ms0_3 t) (hs0_3 t) scM0_0 (Memref.isWhole_whole _) (hcond0_0 t) (hcond0_1 t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_A_3 c (grid0.coords t) (ms0_0 t) (hs0_0 t) (ms0_1 t) (hs0_1 t) (ms0_2 t) (hs0_2 t) (ms0_3 t) (hs0_3 t) scM0_0 (Memref.isWhole_whole _) (hcond0_0 t) (hcond0_1 t) (iblk0 V c 0 t) (iblk0 V c 1 t) (iblk0 V c 2 t) := by dsimp only [dat0]

theorem Phi0_eq (c : Dev nD) (n : Fin (cfg0.N + 1)) : (dat0 V c).Φ n = Pipeline.ΦA spec0 c := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [Phi0_eq, Phi0_eq]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  unfold out0_A_3; (try dsimp only)
  rw [PhiA0_eq]
  iintro ⟨⟨⟨HS0, Hrest⟩, Hg⟩, Ho, ⟨%d0, H0⟩, ⟨%d1, H1⟩, ⟨%d2, H2⟩, ⟨%d3, H3⟩⟩
  iapply ((kernelRun0_A c (grid0.coords t) _ _ _ _ _ _ _ _ _ _ (hcond0_0 t) (hcond0_1 t) (iblk0 V c 0 t) (iblk0 V c 1 t) (iblk0 V c 2 t)).2.2 Set.univ _)
  iframe H0 H1 H2 HS0
  isplitl [H3]; · iexists _; iexact H3
  iintro ⟨H0, H1, H2, ⟨%e3, H3⟩, ⟨%es0, HS0⟩⟩
  iframe Hrest Hg Ho H0 H1 H2
  isplitl [HS0]
  · iexists _; unfold owns; iexists _; isplitr
    swap; · iexact HS0
    ipureintro; rfl
  unfold owns; iexists _; isplitr
  swap; · iexact H3
  ipureintro; exact View.read_writes_of_cover _ _ _ _ _ (cover0_A_3 c _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [Phi0_eq]

theorem hout0 (c : Dev nD) : (dat0 V c).Φ (Fin.last cfg0.N) ⊢ Pipeline.ΦA spec0 c := by
  rw [Phi0_eq]

end Cert.Kernel.Hand

end
-- ==== Proof.K.R1Runs.lean ====
import proofs.«414095_j12086037971444_1_alg».proof.Proof.Gen.Kernel.Launch
import proofs.«414095_j12086037971444_1_alg».proof.Proof.Gen.Kernel.Skeleton
import proofs.«414095_j12086037971444_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 5 = 0 :=
  (by decide +kernel : ∀ t : Fin grid1.N, cond1_0 (grid1.coords t) ↔ t.val % 5 = 0)

abbrev cond1_1 (i : grid1.Coords) : Prop := k1_cond2 i = 1#1

theorem hcond1_1 : ∀ t : Fin cfg1.N, cond1_1 (grid1.coords t) ↔ t.val % 5 = 4 :=
  (by decide +kernel : ∀ t : Fin grid1.N, cond1_1 (grid1.coords t) ↔ t.val % 5 = 4)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3_A : ∀ t : Fin cfg1.N, cond1_0 (grid1.coords t) → ¬cond1_1 (grid1.coords t) → cfg1.idle 3 (grid1.coords t) = true := by decide +kernel

theorem noFlush1_3_A : ∀ t : Fin cfg1.N, cond1_0 (grid1.coords t) → ¬cond1_1 (grid1.coords t) → (cfg1.win 3).flush t = false := by decide +kernel

theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel

theorem liveAt1_3_C : ∀ t : Fin cfg1.N, ¬cond1_0 (grid1.coords t) → cond1_1 (grid1.coords t) → cfg1.idle 3 (grid1.coords t) = false := by decide +kernel

abbrev VO1_3 : View sig .tc .vmem S2048x512 .f32 := (Memref.whole cc1_stg3_0 : Memref sig .tc .vmem S2048x512 .f32).view

abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .f32 := win1_3.stage (cfg1.slots t 3)
abbrev hs1_3 (t : Fin cfg1.N) : (ms1_3 t).IsWhole := hstage1_3 ((cfg1.slots t 3).cast nbuf1_3)

abbrev scM1_0 : Memref sig .tc .vmem S2048x512 .f32 := Memref.whole cc1_scratch0
abbrev VS1_0 : View sig .tc .vmem S2048x512 .f32 := scM1_0.view

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1_0 fullShare d)) ∗ restBut1 (F := F) c) ∗ (∃ r, prngReg c r)) := by
  unfold Pipeline.ΦA; rw [scopedRest1_split]; simp only [scM1_0, owns_whole]; try rfl

end Cert.Kernel.Hand

end
-- ==== Proof.K.R1RunA.lean ====
import proofs.«414095_j12086037971444_1_alg».proof.Proof.K.R1Runs

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun1_A (c : Dev nD) (i : grid1.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : cond1_0 i) (hc1 : ¬cond1_1 i)
    (x0 : Vec F S2048x2048 .bf16) (x1 : Vec F S2048x512 .bf16) (x2 : Vec F S1x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R1RunB.lean ====
import proofs.«414095_j12086037971444_1_alg».proof.Proof.K.R1RunA

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun1_B (c : Dev nD) (i : grid1.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : ¬cond1_0 i) (hc1 : ¬cond1_1 i)
    (x0 : Vec F S2048x2048 .bf16) (x1 : Vec F S2048x512 .bf16) (x2 : Vec F S1x512 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R1RunC.lean ====
import proofs.«414095_j12086037971444_1_alg».proof.Proof.K.R1RunB

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun1_C (c : Dev nD) (i : grid1.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : ¬cond1_0 i) (hc1 : cond1_1 i)
    (x0 : Vec F S2048x2048 .bf16) (x1 : Vec F S2048x512 .bf16) (x2 : Vec F S1x512 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.R1Frame.lean ====
import proofs.«414095_j12086037971444_1_alg».proof.Proof.K.R1RunC

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Step
variable (c : Dev nD) (i : grid1.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)

def out1_A_3 (hc0 : cond1_0 i) (hc1 : ¬cond1_1 i)
    (x0 : Vec F S2048x2048 .bf16) (x1 : Vec F S2048x512 .bf16) (x2 : Vec F S1x512 .f32) : Vec F S2048x512 .f32 :=
  VO1_3.read (Elt F) (VO1_3.writes (Elt F) VO1_3.junk (kernelRun1_A c i arg3 harg3 arg4 harg4 arg5 harg5 arg6 harg6 arg7 harg7 hc0 hc1 x0 x1 x2).1)

theorem scover1_A_0 (hc0 : cond1_0 i) (hc1 : ¬cond1_1 i)
    (x0 : Vec F S2048x2048 .bf16) (x1 : Vec F S2048x512 .bf16) (x2 : Vec F S1x512 .f32) (y : S2048x512.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x512.size (by sl_kernel_rfl) y

def sout1_A_0 (hc0 : cond1_0 i) (hc1 : ¬cond1_1 i)
    (x0 : Vec F S2048x2048 .bf16) (x1 : Vec F S2048x512 .bf16) (x2 : Vec F S1x512 .f32) : Vec F S2048x512 .f32 :=
  VS1_0.read (Elt F) (VS1_0.writes (Elt F) VS1_0.junk (kernelRun1_A c i arg3 harg3 arg4 harg4 arg5 harg5 arg6 harg6 arg7 harg7 hc0 hc1 x0 x1 x2).2.1)

def out1_B_3 (hc0 : ¬cond1_0 i) (hc1 : ¬cond1_1 i)
    (x0 : Vec F S2048x2048 .bf16) (x1 : Vec F S2048x512 .bf16) (x2 : Vec F S1x512 .f32) (xs0 : Vec F S2048x512 .f32) : Vec F S2048x512 .f32 :=
  VO1_3.read (Elt F) (VO1_3.writes (Elt F) VO1_3.junk (kernelRun1_B c i arg3 harg3 arg4 harg4 arg5 harg5 arg6 harg6 arg7 harg7 hc0 hc1 x0 x1 x2 xs0).1)

theorem scover1_B_0 (hc0 : ¬cond1_0 i) (hc1 : ¬cond1_1 i)
    (x0 : Vec F S2048x2048 .bf16) (x1 : Vec F S2048x512 .bf16) (x2 : Vec F S1x512 .f32) (xs0 : Vec F S2048x512 .f32) (y : S2048x512.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x512.size (by sl_kernel_rfl) y

def sout1_B_0 (hc0 : ¬cond1_0 i) (hc1 : ¬cond1_1 i)
    (x0 : Vec F S2048x2048 .bf16) (x1 : Vec F S2048x512 .bf16) (x2 : Vec F S1x512 .f32) (xs0 : Vec F S2048x512 .f32) : Vec F S2048x512 .f32 :=
  VS1_0.read (Elt F) (VS1_0.writes (Elt F) VS1_0.junk (kernelRun1_B c i arg3 harg3 arg4 harg4 arg5 harg5 arg6 harg6 arg7 harg7 hc0 hc1 x0 x1 x2 xs0).2.1)

theorem cover1_C_3 (hc0 : ¬cond1_0 i) (hc1 : cond1_1 i)
    (x0 : Vec F S2048x2048 .bf16) (x1 : Vec F S2048x512 .bf16) (x2 : Vec F S1x512 .f32) (xs0 : Vec F S2048x512 .f32) (y : S2048x512.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x512.size (by sl_kernel_rfl) y

def out1_C_3 (hc0 : ¬cond1_0 i) (hc1 : cond1_1 i)
    (x0 : Vec F S2048x2048 .bf16) (x1 : Vec F S2048x512 .bf16) (x2 : Vec F S1x512 .f32) (xs0 : Vec F S2048x512 .f32) : Vec F S2048x512 .f32 :=
  VO1_3.read (Elt F) (VO1_3.writes (Elt F) VO1_3.junk (kernelRun1_C c i arg3 harg3 arg4 harg4 arg5 harg5 arg6 harg6 arg7 harg7 hc0 hc1 x0 x1 x2 xs0).1)

theorem scover1_C_0 (hc0 : ¬cond1_0 i) (hc1 : cond1_1 i)
    (x0 : Vec F S2048x2048 .bf16) (x1 : Vec F S2048x512 .bf16) (x2 : Vec F S1x512 .f32) (xs0 : Vec F S2048x512 .f32) (y : S2048x512.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x512.size (by sl_kernel_rfl) y

def sout1_C_0 (hc0 : ¬cond1_0 i) (hc1 : cond1_1 i)
    (x0 : Vec F S2048x2048 .bf16) (x1 : Vec F S2048x512 .bf16) (x2 : Vec F S1x512 .f32) (xs0 : Vec F S2048x512 .f32) : Vec F S2048x512 .f32 :=
  VS1_0.read (Elt F) (VS1_0.writes (Elt F) VS1_0.junk (kernelRun1_C c i arg3 harg3 arg4 harg4 arg5 harg5 arg6 harg6 arg7 harg7 hc0 hc1 x0 x1 x2 xs0).2.1)

end Step

def stepA1 (c : Dev nD) (t : Fin cfg1.N) (h0 : t.val % 5 = 0) (h1 : ¬t.val % 5 = 4) : Vec F S2048x512 .f32 × Vec F S2048x512 .f32 :=
  (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
    sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t))

def stepB1 (c : Dev nD) (t : Fin cfg1.N) (h0 : ¬t.val % 5 = 0) (h1 : ¬t.val % 5 = 4) (xs : Vec F S2048x512 .f32) : Vec F S2048x512 .f32 × Vec F S2048x512 .f32 :=
  (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs,
    sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs)

def stepC1 (c : Dev nD) (t : Fin cfg1.N) (h0 : ¬t.val % 5 = 0) (h1 : t.val % 5 = 4) (xs : Vec F S2048x512 .f32) : Vec F S2048x512 .f32 × Vec F S2048x512 .f32 :=
  (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs,
    sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs)

def outsAt1 (c : Dev nD) : (n : ℕ) → n < cfg1.N → Vec F S2048x512 .f32 × Vec F S2048x512 .f32
  | 0, hn => stepA1 V c ⟨0, hn⟩ (Nat.zero_mod _) (by show ¬(0 % 5 = 4); decide)
  | n + 1, hn =>
    if h0 : (n + 1) % 5 = 0 then
      if h1 : (n + 1) % 5 = 4 then False.elim (by omega) else stepA1 V c ⟨n + 1, hn⟩ h0 h1
    else
      if h1 : (n + 1) % 5 = 4 then stepC1 V c ⟨n + 1, hn⟩ h0 h1 (outsAt1 c n (Nat.lt_of_succ_lt hn)).2
      else stepB1 V c ⟨n + 1, hn⟩ h0 h1 (outsAt1 c n (Nat.lt_of_succ_lt hn)).2

theorem outsAt1_A (c : Dev nD) (t : Fin cfg1.N) (h0 : t.val % 5 = 0) (h1 : ¬t.val % 5 = 4) :
    outsAt1 V c t.val t.isLt = stepA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = stepB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 5 = 0) (h1 : t.val % 5 = 4) :
    outsAt1 V c t.val t.isLt = stepC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ restBut1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 (F := F) c) ∗ (∃ r, prngReg c r)) := by
  cases n with
  | zero => exact absurd rfl hz
  | succ n => rfl

/-- At any position the invariant gives the accumulator at some contents beside what it carries along. -/
theorem Phi_weak1 (c : Dev nD) (n : ℕ) (h : n ≤ cfg1.N) :
    PhiS1 V c n h ⊢ iprop(iprop(iprop((∃ d, owns (c : Thread nD τ) scM1_0 fullShare d)) ∗ restBut1 (F := F) c) ∗ (∃ r, prngReg c r)) := by
  by_cases hz : n = 0
  · rw [PhiS1_zero V c n h hz, PhiA1_eq]
    try exact Idealize.SL.BI.Entails.refl _
  · rw [PhiS1_pos V c n h hz]
    iintro ⟨⟨HS0, HR⟩, Hg⟩
    isplitl [HS0 HR]
    · isplitl [HS0]
      · iexists _; iexact HS0
      iexact HR
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 5 = 0
  · by_cases h1 : t.val % 5 = 4
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold stepA1 sout1_A_0; (try dsimp only)
      rw [PhiS1_castSucc V c t]
      iintro ⟨HΦ, Ho, ⟨%d0, H0⟩, ⟨%d1, H1⟩, ⟨%d2, H2⟩, ⟨%d3, H3⟩⟩
      ihave HΦ := (Phi_weak1 V c _ _) $$ HΦ
      icases HΦ with ⟨⟨HS0, HR⟩, Hg⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover1_A_0 c _ _ _ _ _ _ _ _ _ _ _ _ _ _ _ _)
      iexists _; iexact H3
  · by_cases h1 : t.val % 5 = 4
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold stepC1 out1_C_3 sout1_C_0; (try dsimp only)
      rw [PhiS1_castSucc V c t, PhiS1_pos V c _ _ (by omega)]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      iframe H0 H1 H2 HS0
      isplitl [H3]; · iexists _; iexact H3
      iintro ⟨H0, H1, H2, ⟨%e3, H3⟩, ⟨%es0, HS0⟩⟩
      iframe HR Hg Ho H0 H1 H2
      isplitl [HS0]
      · unfold owns; iexists _; isplitr
        swap; · iexact HS0
        ipureintro; exact View.read_writes_of_cover _ _ _ _ _ (scover1_C_0 c _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold stepB1 sout1_B_0; (try dsimp only)
      rw [PhiS1_castSucc V c t, PhiS1_pos V c _ _ (by omega)]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover1_B_0 c _ _ _ _ _ _ _ _ _ _ _ _ _ _ _ _ _)
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) : (dat1 V c).Φ t ⊢ Pipeline.ΦA spec1 c := by
  rw [PhiA1_eq]; exact Phi_weak1 V c t.val (Nat.le_of_lt_succ t.isLt)

theorem hout1 (c : Dev nD) : (dat1 V c).Φ (Fin.last cfg1.N) ⊢ Pipeline.ΦA spec1 c := Phi_out1 V c _

end Cert.Kernel.Hand

end
-- ==== Proof.K.R2Runs.lean ====
import proofs.«414095_j12086037971444_1_alg».proof.Proof.Gen.Kernel.Launch
import proofs.«414095_j12086037971444_1_alg».proof.Proof.Gen.Kernel.Skeleton
import proofs.«414095_j12086037971444_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 2).val) 0#32)) 0#32) = 1#1

theorem hcond2_0 : ∀ t : Fin cfg2.N, cond2_0 (grid2.coords t) :=
  (by decide +kernel : ∀ t : Fin grid2.N, cond2_0 (grid2.coords t))

abbrev cond2_1 (i : grid2.Coords) : Prop := k2_cond2 i = 1#1

theorem hcond2_1 : ∀ t : Fin cfg2.N, cond2_1 (grid2.coords t) :=
  (by decide +kernel : ∀ t : Fin grid2.N, cond2_1 (grid2.coords t))

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

theorem liveAt2_3 : ∀ t : Fin cfg2.N, cfg2.idle 3 (grid2.coords t) = false := by decide +kernel

abbrev VO2_3 : View sig .tc .vmem S2048x512 .f32 := (Memref.whole cc2_stg3_0 : Memref sig .tc .vmem S2048x512 .f32).view

abbrev scM2_0 : Memref sig .tc .vmem S2048x512 .f32 := Memref.whole cc2_scratch0

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.Hand

end
-- ==== Proof.K.R2RunA.lean ====
import proofs.«414095_j12086037971444_1_alg».proof.Proof.K.R2Runs

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun2_A (c : Dev nD) (i : grid2.Coords) (arg3 : Memref sig .tc .vmem S2048x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : cond2_0 i) (hc1 : cond2_1 i)
    (x0 : Vec F S2048x512 .bf16) (x1 : Vec F S512x512 .bf16) (x2 : Vec F S1x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc2__mm_kernel i arg3 harg3 arg4 harg4 arg5 harg5 arg6 harg6 arg7 harg7) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.R2Frame.lean ====
import proofs.«414095_j12086037971444_1_alg».proof.Proof.K.R2RunA

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Step
variable (c : Dev nD) (i : grid2.Coords) (arg3 : Memref sig .tc .vmem S2048x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)

theorem cover2_A_3 (hc0 : cond2_0 i) (hc1 : cond2_1 i)
    (x0 : Vec F S2048x512 .bf16) (x1 : Vec F S512x512 .bf16) (x2 : Vec F S1x512 .f32) (y : S2048x512.Idx) :
    ∃ pc ∈ (kernelRun2_A c i arg3 harg3 arg4 harg4 arg5 harg5 arg6 harg6 arg7 harg7 hc0 hc1 x0 x1 x2).1, y ∈ pc.1.set :=
  View.cover_of_tiledL (kernelRun2_A c i arg3 harg3 arg4 harg4 arg5 harg5 arg6 harg6 arg7 harg7 hc0 hc1 x0 x1 x2).1 S2048x512.size (by sl_kernel_rfl) y

def out2_A_3 (hc0 : cond2_0 i) (hc1 : cond2_1 i)
    (x0 : Vec F S2048x512 .bf16) (x1 : Vec F S512x512 .bf16) (x2 : Vec F S1x512 .f32) : Vec F S2048x512 .f32 :=
  VO2_3.read (Elt F) (VO2_3.writes (Elt F) VO2_3.junk (kernelRun2_A c i arg3 harg3 arg4 harg4 arg5 harg5 arg6 harg6 arg7 harg7 hc0 hc1 x0 x1 x2).1)

end Step

abbrev ms2_0 (t : Fin cfg2.N) : Memref sig .tc .vmem S2048x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x512 .f32 := win2_3.stage (cfg2.slots t 3)
abbrev hs2_3 (t : Fin cfg2.N) : (ms2_3 t).IsWhole := hstage2_3 ((cfg2.slots t 3).cast nbuf2_3)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_A_3 c (grid2.coords t) (ms2_0 t) (hs2_0 t) (ms2_1 t) (hs2_1 t) (ms2_2 t) (hs2_2 t) (ms2_3 t) (hs2_3 t) scM2_0 (Memref.isWhole_whole _) (hcond2_0 t) (hcond2_1 t) (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_A_3 c (grid2.coords t) (ms2_0 t) (hs2_0 t) (ms2_1 t) (hs2_1 t) (ms2_2 t) (hs2_2 t) (ms2_3 t) (hs2_3 t) scM2_0 (Memref.isWhole_whole _) (hcond2_0 t) (hcond2_1 t) (iblk2 V c 0 t) (iblk2 V c 1 t) (iblk2 V c 2 t) := by dsimp only [dat2]

theorem Phi2_eq (c : Dev nD) (n : Fin (cfg2.N + 1)) : (dat2 V c).Φ n = Pipeline.ΦA spec2 c := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [Phi2_eq, Phi2_eq]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  unfold out2_A_3; (try dsimp only)
  rw [PhiA2_eq]
  iintro ⟨⟨⟨HS0, Hrest⟩, Hg⟩, Ho, ⟨%d0, H0⟩, ⟨%d1, H1⟩, ⟨%d2, H2⟩, ⟨%d3, H3⟩⟩
  iapply ((kernelRun2_A c (grid2.coords t) _ _ _ _ _ _ _ _ _ _ (hcond2_0 t) (hcond2_1 t) (iblk2 V c 0 t) (iblk2 V c 1 t) (iblk2 V c 2 t)).2.2 Set.univ _)
  iframe H0 H1 H2 HS0
  isplitl [H3]; · iexists _; iexact H3
  iintro ⟨H0, H1, H2, ⟨%e3, H3⟩, ⟨%es0, HS0⟩⟩
  iframe Hrest Hg Ho H0 H1 H2
  isplitl [HS0]
  · iexists _; unfold owns; iexists _; isplitr
    swap; · iexact HS0
    ipureintro; rfl
  unfold owns; iexists _; isplitr
  swap; · iexact H3
  ipureintro; exact View.read_writes_of_cover _ _ _ _ _ (cover2_A_3 c _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [Phi2_eq]

theorem hout2 (c : Dev nD) : (dat2 V c).Φ (Fin.last cfg2.N) ⊢ Pipeline.ΦA spec2 c := by
  rw [Phi2_eq]

end Cert.Kernel.Hand

end
-- ==== Proof.K.R3Runs.lean ====
import proofs.«414095_j12086037971444_1_alg».proof.Proof.Gen.Kernel.Launch
import proofs.«414095_j12086037971444_1_alg».proof.Proof.Gen.Kernel.Skeleton
import proofs.«414095_j12086037971444_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 2).val) 0#32)) 0#32) = 1#1

theorem hcond3_0 : ∀ t : Fin cfg3.N, cond3_0 (grid3.coords t) ↔ t.val % 5 = 0 :=
  (by decide +kernel : ∀ t : Fin grid3.N, cond3_0 (grid3.coords t) ↔ t.val % 5 = 0)

abbrev cond3_1 (i : grid3.Coords) : Prop := k3_cond2 i = 1#1

theorem hcond3_1 : ∀ t : Fin cfg3.N, cond3_1 (grid3.coords t) ↔ t.val % 5 = 4 :=
  (by decide +kernel : ∀ t : Fin grid3.N, cond3_1 (grid3.coords t) ↔ t.val % 5 = 4)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

theorem idleAt3_3_A : ∀ t : Fin cfg3.N, cond3_0 (grid3.coords t) → ¬cond3_1 (grid3.coords t) → cfg3.idle 3 (grid3.coords t) = true := by decide +kernel

theorem noFlush3_3_A : ∀ t : Fin cfg3.N, cond3_0 (grid3.coords t) → ¬cond3_1 (grid3.coords t) → (cfg3.win 3).flush t = false := by decide +kernel

theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel

theorem liveAt3_3_C : ∀ t : Fin cfg3.N, ¬cond3_0 (grid3.coords t) → cond3_1 (grid3.coords t) → cfg3.idle 3 (grid3.coords t) = false := by decide +kernel

abbrev VO3_3 : View sig .tc .vmem S2048x512 .f32 := (Memref.whole cc3_stg3_0 : Memref sig .tc .vmem S2048x512 .f32).view

abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x512 .f32 := win3_3.stage (cfg3.slots t 3)
abbrev hs3_3 (t : Fin cfg3.N) : (ms3_3 t).IsWhole := hstage3_3 ((cfg3.slots t 3).cast nbuf3_3)

abbrev scM3_0 : Memref sig .tc .vmem S2048x512 .f32 := Memref.whole cc3_scratch0
abbrev VS3_0 : View sig .tc .vmem S2048x512 .f32 := scM3_0.view

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop((∃ d, owns (c : Thread nD τ) scM3_0 fullShare d)) ∗ restBut3 (F := F) c) ∗ (∃ r, prngReg c r)) := by
  unfold Pipeline.ΦA; rw [scopedRest3_split]; simp only [scM3_0, owns_whole]; try rfl

end Cert.Kernel.Hand

end
-- ==== Proof.K.R3RunA.lean ====
import proofs.«414095_j12086037971444_1_alg».proof.Proof.K.R3Runs

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun3_A (c : Dev nD) (i : grid3.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : cond3_0 i) (hc1 : ¬cond3_1 i)
    (x0 : Vec F S2048x2048 .bf16) (x1 : Vec F S2048x512 .bf16) (x2 : Vec F S1x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__mm_kernel i arg3 harg3 arg4 harg4 arg5 harg5 arg6 harg6 arg7 harg7) K } := by
  refine ⟨[], ?_, fun xi3 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R3RunB.lean ====
import proofs.«414095_j12086037971444_1_alg».proof.Proof.K.R3RunA

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun3_B (c : Dev nD) (i : grid3.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : ¬cond3_0 i) (hc1 : ¬cond3_1 i)
    (x0 : Vec F S2048x2048 .bf16) (x1 : Vec F S2048x512 .bf16) (x2 : Vec F S1x512 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__mm_kernel i arg3 harg3 arg4 harg4 arg5 harg5 arg6 harg6 arg7 harg7) K } := by
  refine ⟨[], ?_, fun xi3 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R3RunC.lean ====
import proofs.«414095_j12086037971444_1_alg».proof.Proof.K.R3RunB

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun3_C (c : Dev nD) (i : grid3.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : ¬cond3_0 i) (hc1 : cond3_1 i)
    (x0 : Vec F S2048x2048 .bf16) (x1 : Vec F S2048x512 .bf16) (x2 : Vec F S1x512 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc3__mm_kernel i arg3 harg3 arg4 harg4 arg5 harg5 arg6 harg6 arg7 harg7) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.R3Frame.lean ====
import proofs.«414095_j12086037971444_1_alg».proof.Proof.K.R3RunC

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Step
variable (c : Dev nD) (i : grid3.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)

def out3_A_3 (hc0 : cond3_0 i) (hc1 : ¬cond3_1 i)
    (x0 : Vec F S2048x2048 .bf16) (x1 : Vec F S2048x512 .bf16) (x2 : Vec F S1x512 .f32) : Vec F S2048x512 .f32 :=
  VO3_3.read (Elt F) (VO3_3.writes (Elt F) VO3_3.junk (kernelRun3_A c i arg3 harg3 arg4 harg4 arg5 harg5 arg6 harg6 arg7 harg7 hc0 hc1 x0 x1 x2).1)

theorem scover3_A_0 (hc0 : cond3_0 i) (hc1 : ¬cond3_1 i)
    (x0 : Vec F S2048x2048 .bf16) (x1 : Vec F S2048x512 .bf16) (x2 : Vec F S1x512 .f32) (y : S2048x512.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S2048x512.size (by sl_kernel_rfl) y

def sout3_A_0 (hc0 : cond3_0 i) (hc1 : ¬cond3_1 i)
    (x0 : Vec F S2048x2048 .bf16) (x1 : Vec F S2048x512 .bf16) (x2 : Vec F S1x512 .f32) : Vec F S2048x512 .f32 :=
  VS3_0.read (Elt F) (VS3_0.writes (Elt F) VS3_0.junk (kernelRun3_A c i arg3 harg3 arg4 harg4 arg5 harg5 arg6 harg6 arg7 harg7 hc0 hc1 x0 x1 x2).2.1)

def out3_B_3 (hc0 : ¬cond3_0 i) (hc1 : ¬cond3_1 i)
    (x0 : Vec F S2048x2048 .bf16) (x1 : Vec F S2048x512 .bf16) (x2 : Vec F S1x512 .f32) (xs0 : Vec F S2048x512 .f32) : Vec F S2048x512 .f32 :=
  VO3_3.read (Elt F) (VO3_3.writes (Elt F) VO3_3.junk (kernelRun3_B c i arg3 harg3 arg4 harg4 arg5 harg5 arg6 harg6 arg7 harg7 hc0 hc1 x0 x1 x2 xs0).1)

theorem scover3_B_0 (hc0 : ¬cond3_0 i) (hc1 : ¬cond3_1 i)
    (x0 : Vec F S2048x2048 .bf16) (x1 : Vec F S2048x512 .bf16) (x2 : Vec F S1x512 .f32) (xs0 : Vec F S2048x512 .f32) (y : S2048x512.Idx) :
    ∃ pc ∈ (kernelRun3_B c i arg3 harg3 arg4 harg4 arg5 harg5 arg6 harg6 arg7 harg7 hc0 hc1 x0 x1 x2 xs0).2.1, y ∈ pc.1.set :=
  View.cover_of_tiledL (kernelRun3_B c i arg3 harg3 arg4 harg4 arg5 harg5 arg6 harg6 arg7 harg7 hc0 hc1 x0 x1 x2 xs0).2.1 S2048x512.size (by sl_kernel_rfl) y

def sout3_B_0 (hc0 : ¬cond3_0 i) (hc1 : ¬cond3_1 i)
    (x0 : Vec F S2048x2048 .bf16) (x1 : Vec F S2048x512 .bf16) (x2 : Vec F S1x512 .f32) (xs0 : Vec F S2048x512 .f32) : Vec F S2048x512 .f32 :=
  VS3_0.read (Elt F) (VS3_0.writes (Elt F) VS3_0.junk (kernelRun3_B c i arg3 harg3 arg4 harg4 arg5 harg5 arg6 harg6 arg7 harg7 hc0 hc1 x0 x1 x2 xs0).2.1)

theorem cover3_C_3 (hc0 : ¬cond3_0 i) (hc1 : cond3_1 i)
    (x0 : Vec F S2048x2048 .bf16) (x1 : Vec F S2048x512 .bf16) (x2 : Vec F S1x512 .f32) (xs0 : Vec F S2048x512 .f32) (y : S2048x512.Idx) :
    ∃ pc ∈ (kernelRun3_C c i arg3 harg3 arg4 harg4 arg5 harg5 arg6 harg6 arg7 harg7 hc0 hc1 x0 x1 x2 xs0).1, y ∈ pc.1.set :=
  View.cover_of_tiledL (kernelRun3_C c i arg3 harg3 arg4 harg4 arg5 harg5 arg6 harg6 arg7 harg7 hc0 hc1 x0 x1 x2 xs0).1 S2048x512.size (by sl_kernel_rfl) y

def out3_C_3 (hc0 : ¬cond3_0 i) (hc1 : cond3_1 i)
    (x0 : Vec F S2048x2048 .bf16) (x1 : Vec F S2048x512 .bf16) (x2 : Vec F S1x512 .f32) (xs0 : Vec F S2048x512 .f32) : Vec F S2048x512 .f32 :=
  VO3_3.read (Elt F) (VO3_3.writes (Elt F) VO3_3.junk (kernelRun3_C c i arg3 harg3 arg4 harg4 arg5 harg5 arg6 harg6 arg7 harg7 hc0 hc1 x0 x1 x2 xs0).1)

theorem scover3_C_0 (hc0 : ¬cond3_0 i) (hc1 : cond3_1 i)
    (x0 : Vec F S2048x2048 .bf16) (x1 : Vec F S2048x512 .bf16) (x2 : Vec F S1x512 .f32) (xs0 : Vec F S2048x512 .f32) (y : S2048x512.Idx) :
    ∃ pc ∈ (kernelRun3_C c i arg3 harg3 arg4 harg4 arg5 harg5 arg6 harg6 arg7 harg7 hc0 hc1 x0 x1 x2 xs0).2.1, y ∈ pc.1.set :=
  View.cover_of_tiledL (kernelRun3_C c i arg3 harg3 arg4 harg4 arg5 harg5 arg6 harg6 arg7 harg7 hc0 hc1 x0 x1 x2 xs0).2.1 S2048x512.size (by sl_kernel_rfl) y

def sout3_C_0 (hc0 : ¬cond3_0 i) (hc1 : cond3_1 i)
    (x0 : Vec F S2048x2048 .bf16) (x1 : Vec F S2048x512 .bf16) (x2 : Vec F S1x512 .f32) (xs0 : Vec F S2048x512 .f32) : Vec F S2048x512 .f32 :=
  VS3_0.read (Elt F) (VS3_0.writes (Elt F) VS3_0.junk (kernelRun3_C c i arg3 harg3 arg4 harg4 arg5 harg5 arg6 harg6 arg7 harg7 hc0 hc1 x0 x1 x2 xs0).2.1)

end Step

def stepA3 (c : Dev nD) (t : Fin cfg3.N) (h0 : t.val % 5 = 0) (h1 : ¬t.val % 5 = 4) : Vec F S2048x512 .f32 × Vec F S2048x512 .f32 :=
  (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t),
    sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t))

def stepB3 (c : Dev nD) (t : Fin cfg3.N) (h0 : ¬t.val % 5 = 0) (h1 : ¬t.val % 5 = 4) (xs : Vec F S2048x512 .f32) : Vec F S2048x512 .f32 × Vec F S2048x512 .f32 :=
  (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) xs,
    sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) xs)

def stepC3 (c : Dev nD) (t : Fin cfg3.N) (h0 : ¬t.val % 5 = 0) (h1 : t.val % 5 = 4) (xs : Vec F S2048x512 .f32) : Vec F S2048x512 .f32 × Vec F S2048x512 .f32 :=
  (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) xs,
    sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) xs)

def outsAt3 (c : Dev nD) : (n : ℕ) → n < cfg3.N → Vec F S2048x512 .f32 × Vec F S2048x512 .f32
  | 0, hn => stepA3 V c ⟨0, hn⟩ (Nat.zero_mod _) (by show ¬(0 % 5 = 4); decide)
  | n + 1, hn =>
    if h0 : (n + 1) % 5 = 0 then
      if h1 : (n + 1) % 5 = 4 then False.elim (by omega) else stepA3 V c ⟨n + 1, hn⟩ h0 h1
    else
      if h1 : (n + 1) % 5 = 4 then stepC3 V c ⟨n + 1, hn⟩ h0 h1 (outsAt3 c n (Nat.lt_of_succ_lt hn)).2
      else stepB3 V c ⟨n + 1, hn⟩ h0 h1 (outsAt3 c n (Nat.lt_of_succ_lt hn)).2

theorem outsAt3_A (c : Dev nD) (t : Fin cfg3.N) (h0 : t.val % 5 = 0) (h1 : ¬t.val % 5 = 4) :
    outsAt3 V c t.val t.isLt = stepA3 V c t h0 h1 := by
  obtain ⟨n, hn⟩ := t
  cases n with
  | zero => exact rfl
  | succ n => exact (dif_pos h0).trans ((dif_neg h1).trans rfl)

theorem outsAt3_B (c : Dev nD) (t : Fin cfg3.N) (h0 : ¬t.val % 5 = 0) (h1 : ¬t.val % 5 = 4) :
    outsAt3 V c t.val t.isLt = stepB3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 5 = 0) (h1 : t.val % 5 = 4) :
    outsAt3 V c t.val t.isLt = stepC3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ restBut3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ restBut3 (F := F) c) ∗ (∃ r, prngReg c r)) := by
  cases n with
  | zero => exact absurd rfl hz
  | succ n => rfl

/-- At any position the invariant gives the accumulator at some contents beside what it carries along. -/
theorem Phi_weak3 (c : Dev nD) (n : ℕ) (h : n ≤ cfg3.N) :
    PhiS3 V c n h ⊢ iprop(iprop(iprop((∃ d, owns (c : Thread nD τ) scM3_0 fullShare d)) ∗ restBut3 (F := F) c) ∗ (∃ r, prngReg c r)) := by
  by_cases hz : n = 0
  · rw [PhiS3_zero V c n h hz, PhiA3_eq]
    try exact Idealize.SL.BI.Entails.refl _
  · rw [PhiS3_pos V c n h hz]
    iintro ⟨⟨HS0, HR⟩, Hg⟩
    isplitl [HS0 HR]
    · isplitl [HS0]
      · iexists _; iexact HS0
      iexact HR
    iexact Hg

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 5 = 0
  · by_cases h1 : t.val % 5 = 4
    · exfalso; omega
    · rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold stepA3 sout3_A_0; (try dsimp only)
      rw [PhiS3_castSucc V c t]
      iintro ⟨HΦ, Ho, ⟨%d0, H0⟩, ⟨%d1, H1⟩, ⟨%d2, H2⟩, ⟨%d3, H3⟩⟩
      ihave HΦ := (Phi_weak3 V c _ _) $$ HΦ
      icases HΦ with ⟨⟨HS0, HR⟩, Hg⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover3_A_0 c _ _ _ _ _ _ _ _ _ _ _ _ _ _ _ _)
      iexists _; iexact H3
  · by_cases h1 : t.val % 5 = 4
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold stepC3 out3_C_3 sout3_C_0; (try dsimp only)
      rw [PhiS3_castSucc V c t, PhiS3_pos V c _ _ (by omega)]
      iintro ⟨⟨⟨HS0, HR⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      iframe H0 H1 H2 HS0
      isplitl [H3]; · iexists _; iexact H3
      iintro ⟨H0, H1, H2, ⟨%e3, H3⟩, ⟨%es0, HS0⟩⟩
      iframe HR Hg Ho H0 H1 H2
      isplitl [HS0]
      · unfold owns; iexists _; isplitr
        swap; · iexact HS0
        ipureintro; exact View.read_writes_of_cover _ _ _ _ _ (scover3_C_0 c _ _ _ _ _ _ _ _ _ _ _ _ _ _ _ _ _)
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold stepB3 sout3_B_0; (try dsimp only)
      rw [PhiS3_castSucc V c t, PhiS3_pos V c _ _ (by omega)]
      iintro ⟨⟨⟨HS0, HR⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover3_B_0 c _ _ _ _ _ _ _ _ _ _ _ _ _ _ _ _ _)
      iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) : (dat3 V c).Φ t ⊢ Pipeline.ΦA spec3 c := by
  rw [PhiA3_eq]; exact Phi_weak3 V c t.val (Nat.le_of_lt_succ t.isLt)

theorem hout3 (c : Dev nD) : (dat3 V c).Φ (Fin.last cfg3.N) ⊢ Pipeline.ΦA spec3 c := Phi_out3 V c _

end Cert.Kernel.Hand

end
-- ==== Proof.K.R4Runs.lean ====
import proofs.«414095_j12086037971444_1_alg».proof.Proof.Gen.Kernel.Launch
import proofs.«414095_j12086037971444_1_alg».proof.Proof.Gen.Kernel.Skeleton
import proofs.«414095_j12086037971444_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 2).val) 0#32)) 0#32) = 1#1

theorem hcond4_0 : ∀ t : Fin cfg4.N, cond4_0 (grid4.coords t) :=
  (by decide +kernel : ∀ t : Fin grid4.N, cond4_0 (grid4.coords t))

abbrev cond4_1 (i : grid4.Coords) : Prop := k4_cond2 i = 1#1

theorem hcond4_1 : ∀ t : Fin cfg4.N, cond4_1 (grid4.coords t) :=
  (by decide +kernel : ∀ t : Fin grid4.N, cond4_1 (grid4.coords t))

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

theorem liveAt4_3 : ∀ t : Fin cfg4.N, cfg4.idle 3 (grid4.coords t) = false := by decide +kernel

abbrev VO4_3 : View sig .tc .vmem S2048x128 .f32 := (Memref.whole cc4_stg3_0 : Memref sig .tc .vmem S2048x128 .f32).view

abbrev scM4_0 : Memref sig .tc .vmem S2048x128 .f32 := Memref.whole cc4_scratch0

theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Hand

end
-- ==== Proof.K.R4RunA.lean ====
import proofs.«414095_j12086037971444_1_alg».proof.Proof.K.R4Runs

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun4_A (c : Dev nD) (i : grid4.Coords) (arg3 : Memref sig .tc .vmem S2048x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond4_0 i) (hc1 : cond4_1 i)
    (x0 : Vec F S2048x512 .bf16) (x1 : Vec F S512x128 .bf16) (x2 : Vec F S1x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc4__mm_kernel i arg3 harg3 arg4 harg4 arg5 harg5 arg6 harg6 arg7 harg7) K } := by
  refine ⟨?_, ?_, fun E K => ?run⟩
  case run =>
    simp only [cc4__mm_kernel_eq_skeleton]; unfold cc4__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.R4Frame.lean ====
import proofs.«414095_j12086037971444_1_alg».proof.Proof.K.R4RunA

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Step
variable (c : Dev nD) (i : grid4.Coords) (arg3 : Memref sig .tc .vmem S2048x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)

theorem cover4_A_3 (hc0 : cond4_0 i) (hc1 : cond4_1 i)
    (x0 : Vec F S2048x512 .bf16) (x1 : Vec F S512x128 .bf16) (x2 : Vec F S1x128 .f32) (y : S2048x128.Idx) :
    ∃ pc ∈ (kernelRun4_A c i arg3 harg3 arg4 harg4 arg5 harg5 arg6 harg6 arg7 harg7 hc0 hc1 x0 x1 x2).1, y ∈ pc.1.set :=
  View.cover_of_tiledL (kernelRun4_A c i arg3 harg3 arg4 harg4 arg5 harg5 arg6 harg6 arg7 harg7 hc0 hc1 x0 x1 x2).1 S2048x128.size (by sl_kernel_rfl) y

def out4_A_3 (hc0 : cond4_0 i) (hc1 : cond4_1 i)
    (x0 : Vec F S2048x512 .bf16) (x1 : Vec F S512x128 .bf16) (x2 : Vec F S1x128 .f32) : Vec F S2048x128 .f32 :=
  VO4_3.read (Elt F) (VO4_3.writes (Elt F) VO4_3.junk (kernelRun4_A c i arg3 harg3 arg4 harg4 arg5 harg5 arg6 harg6 arg7 harg7 hc0 hc1 x0 x1 x2).1)

end Step

abbrev ms4_0 (t : Fin cfg4.N) : Memref sig .tc .vmem S2048x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x128 .f32 := win4_3.stage (cfg4.slots t 3)
abbrev hs4_3 (t : Fin cfg4.N) : (ms4_3 t).IsWhole := hstage4_3 ((cfg4.slots t 3).cast nbuf4_3)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_A_3 c (grid4.coords t) (ms4_0 t) (hs4_0 t) (ms4_1 t) (hs4_1 t) (ms4_2 t) (hs4_2 t) (ms4_3 t) (hs4_3 t) scM4_0 (Memref.isWhole_whole _) (hcond4_0 t) (hcond4_1 t) (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_A_3 c (grid4.coords t) (ms4_0 t) (hs4_0 t) (ms4_1 t) (hs4_1 t) (ms4_2 t) (hs4_2 t) (ms4_3 t) (hs4_3 t) scM4_0 (Memref.isWhole_whole _) (hcond4_0 t) (hcond4_1 t) (iblk4 V c 0 t) (iblk4 V c 1 t) (iblk4 V c 2 t) := by dsimp only [dat4]

theorem Phi4_eq (c : Dev nD) (n : Fin (cfg4.N + 1)) : (dat4 V c).Φ n = Pipeline.ΦA spec4 c := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [Phi4_eq, Phi4_eq]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  unfold out4_A_3; (try dsimp only)
  rw [PhiA4_eq]
  iintro ⟨⟨⟨HS0, Hrest⟩, Hg⟩, Ho, ⟨%d0, H0⟩, ⟨%d1, H1⟩, ⟨%d2, H2⟩, ⟨%d3, H3⟩⟩
  iapply ((kernelRun4_A c (grid4.coords t) _ _ _ _ _ _ _ _ _ _ (hcond4_0 t) (hcond4_1 t) (iblk4 V c 0 t) (iblk4 V c 1 t) (iblk4 V c 2 t)).2.2 Set.univ _)
  iframe H0 H1 H2 HS0
  isplitl [H3]; · iexists _; iexact H3
  iintro ⟨H0, H1, H2, ⟨%e3, H3⟩, ⟨%es0, HS0⟩⟩
  iframe Hrest Hg Ho H0 H1 H2
  isplitl [HS0]
  · iexists _; unfold owns; iexists _; isplitr
    swap; · iexact HS0
    ipureintro; rfl
  unfold owns; iexists _; isplitr
  swap; · iexact H3
  ipureintro; exact View.read_writes_of_cover _ _ _ _ _ (cover4_A_3 c _ _ _ _ _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [Phi4_eq]

theorem hout4 (c : Dev nD) : (dat4 V c).Φ (Fin.last cfg4.N) ⊢ Pipeline.ΦA spec4 c := by
  rw [Phi4_eq]

end Cert.Kernel.Hand

end
-- ==== Proof.K.R5Runs.lean ====
import proofs.«414095_j12086037971444_1_alg».proof.Proof.Gen.Kernel.Launch
import proofs.«414095_j12086037971444_1_alg».proof.Proof.Gen.Kernel.Skeleton
import proofs.«414095_j12086037971444_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 2).val) 0#32)) 0#32) = 1#1

theorem hcond5_0 : ∀ t : Fin cfg5.N, cond5_0 (grid5.coords t) ↔ t.val % 5 = 0 :=
  (by decide +kernel : ∀ t : Fin grid5.N, cond5_0 (grid5.coords t) ↔ t.val % 5 = 0)

abbrev cond5_1 (i : grid5.Coords) : Prop := k5_cond2 i = 1#1

theorem hcond5_1 : ∀ t : Fin cfg5.N, cond5_1 (grid5.coords t) ↔ t.val % 5 = 4 :=
  (by decide +kernel : ∀ t : Fin grid5.N, cond5_1 (grid5.coords t) ↔ t.val % 5 = 4)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel

theorem idleAt5_3_A : ∀ t : Fin cfg5.N, cond5_0 (grid5.coords t) → ¬cond5_1 (grid5.coords t) → cfg5.idle 3 (grid5.coords t) = true := by decide +kernel

theorem noFlush5_3_A : ∀ t : Fin cfg5.N, cond5_0 (grid5.coords t) → ¬cond5_1 (grid5.coords t) → (cfg5.win 3).flush t = false := by decide +kernel

theorem idleAt5_3_B : ∀ t : Fin cfg5.N, ¬cond5_0 (grid5.coords t) → ¬cond5_1 (grid5.coords t) → cfg5.idle 3 (grid5.coords t) = true := by decide +kernel
theorem noFlush5_3_B : ∀ t : Fin cfg5.N, ¬cond5_0 (grid5.coords t) → ¬cond5_1 (grid5.coords t) → (cfg5.win 3).flush t = false := by decide +kernel

theorem liveAt5_3_C : ∀ t : Fin cfg5.N, ¬cond5_0 (grid5.coords t) → cond5_1 (grid5.coords t) → cfg5.idle 3 (grid5.coords t) = false := by decide +kernel

abbrev VO5_3 : View sig .tc .vmem S2048x128 .f32 := (Memref.whole cc5_stg3_0 : Memref sig .tc .vmem S2048x128 .f32).view

abbrev ms5_0 (t : Fin cfg5.N) : Memref sig .tc .vmem S2048x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x128 .f32 := win5_3.stage (cfg5.slots t 3)
abbrev hs5_3 (t : Fin cfg5.N) : (ms5_3 t).IsWhole := hstage5_3 ((cfg5.slots t 3).cast nbuf5_3)

abbrev scM5_0 : Memref sig .tc .vmem S2048x128 .f32 := Memref.whole cc5_scratch0
abbrev VS5_0 : View sig .tc .vmem S2048x128 .f32 := scM5_0.view

abbrev restBut5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop(iprop((∃ d, owns (c : Thread nD τ) scM5_0 fullShare d)) ∗ restBut5 (F := F) c) ∗ (∃ r, prngReg c r)) := by
  unfold Pipeline.ΦA; rw [scopedRest5_split]; simp only [scM5_0, owns_whole]; try rfl

end Cert.Kernel.Hand

end
-- ==== Proof.K.R5RunA.lean ====
import proofs.«414095_j12086037971444_1_alg».proof.Proof.K.R5Runs

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun5_A (c : Dev nD) (i : grid5.Coords) (arg3 : Memref sig .tc .vmem S2048x2048 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond5_0 i) (hc1 : ¬cond5_1 i)
    (x0 : Vec F S2048x2048 .bf16) (x1 : Vec F S2048x128 .bf16) (x2 : Vec F S1x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc5__mm_kernel i arg3 harg3 arg4 harg4 arg5 harg5 arg6 harg6 arg7 harg7) K } := by
  refine ⟨[], ?_, fun xi3 E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R5RunB.lean ====
import proofs.«414095_j12086037971444_1_alg».proof.Proof.K.R5RunA

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun5_B (c : Dev nD) (i : grid5.Coords) (arg3 : Memref sig .tc .vmem S2048x2048 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond5_0 i) (hc1 : ¬cond5_1 i)
    (x0 : Vec F S2048x2048 .bf16) (x1 : Vec F S2048x128 .bf16) (x2 : Vec F S1x128 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc5__mm_kernel i arg3 harg3 arg4 harg4 arg5 harg5 arg6 harg6 arg7 harg7) K } := by
  refine ⟨[], ?_, fun xi3 E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R5RunC.lean ====
import proofs.«414095_j12086037971444_1_alg».proof.Proof.K.R5RunB

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun5_C (c : Dev nD) (i : grid5.Coords) (arg3 : Memref sig .tc .vmem S2048x2048 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond5_0 i) (hc1 : cond5_1 i)
    (x0 : Vec F S2048x2048 .bf16) (x1 : Vec F S2048x128 .bf16) (x2 : Vec F S1x128 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc5__mm_kernel i arg3 harg3 arg4 harg4 arg5 harg5 arg6 harg6 arg7 harg7) K } := by
  refine ⟨?_, ?_, fun E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.R5Frame.lean ====
import proofs.«414095_j12086037971444_1_alg».proof.Proof.K.R5RunC

noncomputable section

namespace Cert.Kernel.Hand

open Cert.Kernel Cert.Kernel.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Step
variable (c : Dev nD) (i : grid5.Coords) (arg3 : Memref sig .tc .vmem S2048x2048 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)

def out5_A_3 (hc0 : cond5_0 i) (hc1 : ¬cond5_1 i)
    (x0 : Vec F S2048x2048 .bf16) (x1 : Vec F S2048x128 .bf16) (x2 : Vec F S1x128 .f32) : Vec F S2048x128 .f32 :=
  VO5_3.read (Elt F) (VO5_3.writes (Elt F) VO5_3.junk (kernelRun5_A c i arg3 harg3 arg4 harg4 arg5 harg5 arg6 harg6 arg7 harg7 hc0 hc1 x0 x1 x2).1)

theorem scover5_A_0 (hc0 : cond5_0 i) (hc1 : ¬cond5_1 i)
    (x0 : Vec F S2048x2048 .bf16) (x1 : Vec F S2048x128 .bf16) (x2 : Vec F S1x128 .f32) (y : S2048x128.Idx) :
    ∃ pc ∈ (kernelRun5_A c i arg3 harg3 arg4 harg4 arg5 harg5 arg6 harg6 arg7 harg7 hc0 hc1 x0 x1 x2).2.1, y ∈ pc.1.set :=
  View.cover_of_tiledL (kernelRun5_A c i arg3 harg3 arg4 harg4 arg5 harg5 arg6 harg6 arg7 harg7 hc0 hc1 x0 x1 x2).2.1 S2048x128.size (by sl_kernel_rfl) y

def sout5_A_0 (hc0 : cond5_0 i) (hc1 : ¬cond5_1 i)
    (x0 : Vec F S2048x2048 .bf16) (x1 : Vec F S2048x128 .bf16) (x2 : Vec F S1x128 .f32) : Vec F S2048x128 .f32 :=
  VS5_0.read (Elt F) (VS5_0.writes (Elt F) VS5_0.junk (kernelRun5_A c i arg3 harg3 arg4 harg4 arg5 harg5 arg6 harg6 arg7 harg7 hc0 hc1 x0 x1 x2).2.1)

def out5_B_3 (hc0 : ¬cond5_0 i) (hc1 : ¬cond5_1 i)
    (x0 : Vec F S2048x2048 .bf16) (x1 : Vec F S2048x128 .bf16) (x2 : Vec F S1x128 .f32) (xs0 : Vec F S2048x128 .f32) : Vec F S2048x128 .f32 :=
  VO5_3.read (Elt F) (VO5_3.writes (Elt F) VO5_3.junk (kernelRun5_B c i arg3 harg3 arg4 harg4 arg5 harg5 arg6 harg6 arg7 harg7 hc0 hc1 x0 x1 x2 xs0).1)

theorem scover5_B_0 (hc0 : ¬cond5_0 i) (hc1 : ¬cond5_1 i)
    (x0 : Vec F S2048x2048 .bf16) (x1 : Vec F S2048x128 .bf16) (x2 : Vec F S1x128 .f32) (xs0 : Vec F S2048x128 .f32) (y : S2048x128.Idx) :
    ∃ pc ∈ (kernelRun5_B c i arg3 harg3 arg4 harg4 arg5 harg5 arg6 harg6 arg7 harg7 hc0 hc1 x0 x1 x2 xs0).2.1, y ∈ pc.1.set :=
  View.cover_of_tiledL (kernelRun5_B c i arg3 harg3 arg4 harg4 arg5 harg5 arg6 harg6 arg7 harg7 hc0 hc1 x0 x1 x2 xs0).2.1 S2048x128.size (by sl_kernel_rfl) y

def sout5_B_0 (hc0 : ¬cond5_0 i) (hc1 : ¬cond5_1 i)
    (x0 : Vec F S2048x2048 .bf16) (x1 : Vec F S2048x128 .bf16) (x2 : Vec F S1x128 .f32) (xs0 : Vec F S2048x128 .f32) : Vec F S2048x128 .f32 :=
  VS5_0.read (Elt F) (VS5_0.writes (Elt F) VS5_0.junk (kernelRun5_B c i arg3 harg3 arg4 harg4 arg5 harg5 arg6 harg6 arg7 harg7 hc0 hc1 x0 x1 x2 xs0).2.1)

theorem cover5_C_3 (hc0 : ¬cond5_0 i) (hc1 : cond5_1 i)
    (x0 : Vec F S2048x2048 .bf16) (x1 : Vec F S2048x128 .bf16) (x2 : Vec F S1x128 .f32) (xs0 : Vec F S2048x128 .f32) (y : S2048x128.Idx) :
    ∃ pc ∈ (kernelRun5_C c i arg3 harg3 arg4 harg4 arg5 harg5 arg6 harg6 arg7 harg7 hc0 hc1 x0 x1 x2 xs0).1, y ∈ pc.1.set :=
  View.cover_of_tiledL (kernelRun5_C c i arg3 harg3 arg4 harg4 arg5 harg5 arg6 harg6 arg7 harg7 hc0 hc1 x0 x1 x2 xs0).1 S2048x128.size (by sl_kernel_rfl) y

def out5_C_3 (hc0 : ¬cond5_0 i) (hc1 : cond5_1 i)
    (x0 : Vec F S2048x2048 .bf16) (x1 : Vec F S2048x128 .bf16) (x2 : Vec F S1x128 .f32) (xs0 : Vec F S2048x128 .f32) : Vec F S2048x128 .f32 :=
  VO5_3.read (Elt F) (VO5_3.writes (Elt F) VO5_3.junk (kernelRun5_C c i arg3 harg3 arg4 harg4 arg5 harg5 arg6 harg6 arg7 harg7 hc0 hc1 x0 x1 x2 xs0).1)

theorem scover5_C_0 (hc0 : ¬cond5_0 i) (hc1 : cond5_1 i)
    (x0 : Vec F S2048x2048 .bf16) (x1 : Vec F S2048x128 .bf16) (x2 : Vec F S1x128 .f32) (xs0 : Vec F S2048x128 .f32) (y : S2048x128.Idx) :
    ∃ pc ∈ (kernelRun5_C c i arg3 harg3 arg4 harg4 arg5 harg5 arg6 harg6 arg7 harg7 hc0 hc1 x0 x1 x2 xs0).2.1, y ∈ pc.1.set :=
  View.cover_of_tiledL (kernelRun5_C c i arg3 harg3 arg4 harg4 arg5 harg5 arg6 harg6 arg7 harg7 hc0 hc1 x0 x1 x2 xs0).2.1 S2048x128.size (by sl_kernel_rfl) y

def sout5_C_0 (hc0 : ¬cond5_0 i) (hc1 : cond5_1 i)
    (x0 : Vec F S2048x2048 .bf16) (x1 : Vec F S2048x128 .bf16) (x2 : Vec F S1x128 .f32) (xs0 : Vec F S2048x128 .f32) : Vec F S2048x128 .f32 :=
  VS5_0.read (Elt F) (VS5_0.writes (Elt F) VS5_0.junk (kernelRun5_C c i arg3 harg3 arg4 harg4 arg5 harg5 arg6 harg6 arg7 harg7 hc0 hc1 x0 x1 x2 xs0).2.1)

end Step

def stepA5 (c : Dev nD) (t : Fin cfg5.N) (h0 : t.val % 5 = 0) (h1 : ¬t.val % 5 = 4) : Vec F S2048x128 .f32 × Vec F S2048x128 .f32 :=
  (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t),
    sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t))

def stepB5 (c : Dev nD) (t : Fin cfg5.N) (h0 : ¬t.val % 5 = 0) (h1 : ¬t.val % 5 = 4) (xs : Vec F S2048x128 .f32) : Vec F S2048x128 .f32 × Vec F S2048x128 .f32 :=
  (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) xs,
    sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) xs)

def stepC5 (c : Dev nD) (t : Fin cfg5.N) (h0 : ¬t.val % 5 = 0) (h1 : t.val % 5 = 4) (xs : Vec F S2048x128 .f32) : Vec F S2048x128 .f32 × Vec F S2048x128 .f32 :=
  (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) xs,
    sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) xs)

def outsAt5 (c : Dev nD) : (n : ℕ) → n < cfg5.N → Vec F S2048x128 .f32 × Vec F S2048x128 .f32
  | 0, hn => stepA5 V c ⟨0, hn⟩ (Nat.zero_mod _) (by show ¬(0 % 5 = 4); decide)
  | n + 1, hn =>
    if h0 : (n + 1) % 5 = 0 then
      if h1 : (n + 1) % 5 = 4 then False.elim (by omega) else stepA5 V c ⟨n + 1, hn⟩ h0 h1
    else
      if h1 : (n + 1) % 5 = 4 then stepC5 V c ⟨n + 1, hn⟩ h0 h1 (outsAt5 c n (Nat.lt_of_succ_lt hn)).2
      else stepB5 V c ⟨n + 1, hn⟩ h0 h1 (outsAt5 c n (Nat.lt_of_succ_lt hn)).2

theorem outsAt5_A (c : Dev nD) (t : Fin cfg5.N) (h0 : t.val % 5 = 0) (h1 : ¬t.val % 5 = 4) :
    outsAt5 V c t.val t.isLt = stepA5 V c t h0 h1 := by
  obtain ⟨n, hn⟩ := t
  cases n with
  | zero => exact rfl
  | succ n => exact (dif_pos h0).trans ((dif_neg h1).trans rfl)

theorem outsAt5_B (c : Dev nD) (t : Fin cfg5.N) (h0 : ¬t.val % 5 = 0) (h1 : ¬t.val % 5 = 4) :
    outsAt5 V c t.val t.isLt = stepB5 V c t h0 h1 (outsAt5 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt5_C (c : Dev nD) (t : Fin cfg5.N) (h0 : ¬t.val % 5 = 0) (h1 : t.val % 5 = 4) :
    outsAt5 V c t.val t.isLt = stepC5 V c t h0 h1 (outsAt5 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ restBut5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ restBut5 (F := F) c) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ restBut5 (F := F) c) ∗ (∃ r, prngReg c r)) := by
  cases n with
  | zero => exact absurd rfl hz
  | succ n => rfl

/-- At any position the invariant gives the accumulator at some contents beside what it carries along. -/
theorem Phi_weak5 (c : Dev nD) (n : ℕ) (h : n ≤ cfg5.N) :
    PhiS5 V c n h ⊢ iprop(iprop(iprop((∃ d, owns (c : Thread nD τ) scM5_0 fullShare d)) ∗ restBut5 (F := F) c) ∗ (∃ r, prngReg c r)) := by
  by_cases hz : n = 0
  · rw [PhiS5_zero V c n h hz, PhiA5_eq]
    try exact Idealize.SL.BI.Entails.refl _
  · rw [PhiS5_pos V c n h hz]
    iintro ⟨⟨HS0, HR⟩, Hg⟩
    isplitl [HS0 HR]
    · isplitl [HS0]
      · iexists _; iexact HS0
      iexact HR
    iexact Hg

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 25 := lt_of_lt_of_eq t.isLt (show cfg5.N = 25 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  by_cases h0 : t.val % 5 = 0
  · by_cases h1 : t.val % 5 = 4
    · exfalso; omega
    · rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
      rw [outsAt5_A V c t h0 h1]
      unfold stepA5 sout5_A_0; (try dsimp only)
      rw [PhiS5_castSucc V c t]
      iintro ⟨HΦ, Ho, ⟨%d0, H0⟩, ⟨%d1, H1⟩, ⟨%d2, H2⟩, ⟨%d3, H3⟩⟩
      ihave HΦ := (Phi_weak5 V c _ _) $$ HΦ
      icases HΦ with ⟨⟨HS0, HR⟩, Hg⟩
      iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover5_A_0 c _ _ _ _ _ _ _ _ _ _ _ _ _ _ _ _)
      iexists _; iexact H3
  · by_cases h1 : t.val % 5 = 4
    · rw [show (dat5 V c).leavesExact 3 t = owns (c : Thread nD τ) (ms5_3 t) fullShare ((dat5 V c).after 3 t) from by
        unfold Dat.leavesExact; rw [liveAt5_3_C t (fun h => h0 ((hcond5_0 t).mp h)) ((hcond5_1 t).mpr h1)], after5_3]
      rw [outsAt5_C V c t h0 h1]
      unfold stepC5 out5_C_3 sout5_C_0; (try dsimp only)
      rw [PhiS5_castSucc V c t, PhiS5_pos V c _ _ (by omega)]
      iintro ⟨⟨⟨HS0, HR⟩, Hg⟩, Ho, ⟨%d0, H0⟩, ⟨%d1, H1⟩, ⟨%d2, H2⟩, ⟨%d3, H3⟩⟩
      iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
      iframe H0 H1 H2 HS0
      isplitl [H3]; · iexists _; iexact H3
      iintro ⟨H0, H1, H2, ⟨%e3, H3⟩, ⟨%es0, HS0⟩⟩
      iframe HR Hg Ho H0 H1 H2
      isplitl [HS0]
      · unfold owns; iexists _; isplitr
        swap; · iexact HS0
        ipureintro; exact View.read_writes_of_cover _ _ _ _ _ (scover5_C_0 c _ _ _ _ _ _ _ _ _ _ _ _ _ _ _ _ _)
      unfold owns; iexists _; isplitr
      swap; · iexact H3
      ipureintro; exact View.read_writes_of_cover _ _ _ _ _ (cover5_C_3 c _ _ _ _ _ _ _ _ _ _ _ _ _ _ _ _ _)
    · rw [Dat.leavesExact_idle (dat5 V c) 3 t (idleAt5_3_B t (fun h => h0 ((hcond5_0 t).mp h)) (fun h => h1 ((hcond5_1 t).mp h))) (noFlush5_3_B t (fun h => h0 ((hcond5_0 t).mp h)) (fun h => h1 ((hcond5_1 t).mp h)))]
      rw [outsAt5_B V c t h0 h1]
      unfold stepB5 sout5_B_0; (try dsimp only)
      rw [PhiS5_castSucc V c t, PhiS5_pos V c _ _ (by omega)]
      iintro ⟨⟨⟨HS0, HR⟩, Hg⟩, Ho, ⟨%d0, H0⟩, ⟨%d1, H1⟩, ⟨%d2, H2⟩, ⟨%d3, H3⟩⟩
      iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover5_B_0 c _ _ _ _ _ _ _ _ _ _ _ _ _ _ _ _ _)
      iexists _; iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) : (dat5 V c).Φ t ⊢ Pipeline.ΦA spec5 c := by
  rw [PhiA5_eq]; exact Phi_weak5 V c t.val (Nat.le_of_lt_succ t.isLt)

theorem hout5 (c : Dev nD) : (dat5 V c).Φ (Fin.last cfg5.N) ⊢ Pipeline.ΦA spec5 c := Phi_out5 V c _

end Cert.Kernel.Hand

end
-- ==== Proof.K.Run.lean ====
import proofs.«414095_j12086037971444_1_alg».proof.Proof.Gen.Kernel.Launch
import proofs.«414095_j12086037971444_1_alg».proof.Proof.Gen.Kernel.Skeleton
import proofs.«414095_j12086037971444_1_alg».proof.Proof.Gen.Kernel.Points
import proofs.«414095_j12086037971444_1_alg».proof.Proof.K.R0Frame
import proofs.«414095_j12086037971444_1_alg».proof.Proof.K.R1Frame
import proofs.«414095_j12086037971444_1_alg».proof.Proof.K.R2Frame
import proofs.«414095_j12086037971444_1_alg».proof.Proof.K.R3Frame
import proofs.«414095_j12086037971444_1_alg».proof.Proof.K.R4Frame
import proofs.«414095_j12086037971444_1_alg».proof.Proof.K.R5Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of every buffer before each segment of the run, from the launch memory `W0` on. -/
abbrev W0 : Dev nD → Valuation τ sig (Elt F) := fun c b => (s₀ m ρ).mem ((c : Dev nD), b)

abbrev asV (W : Dev nD → Valuation τ sig (Elt F)) : (c : Dev nD) → (b : Ref sig .tc) → Buf (Elt F) ((c : Thread nD τ).loc b) := fun c b => W c b

abbrev W1 (c : Dev nD) := StableHlo.after hostOps0 (W0 m ρ c)

abbrev V1 := asV (W1 m ρ)

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 (c : Dev nD) := StableHlo.after hostOps1 (W2 m ρ c)

abbrev V3 := asV (W3 m ρ)

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev W5 (c : Dev nD) := StableHlo.after hostOps2 (W4 m ρ c)

abbrev V5 := asV (W5 m ρ)

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb

abbrev W7 (c : Dev nD) := StableHlo.after hostOps3 (W6 m ρ c)

abbrev V7 := asV (W7 m ρ)

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb

abbrev W9 (c : Dev nD) := StableHlo.after hostOps4 (W8 m ρ c)

abbrev V9 := asV (W9 m ρ)

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb

abbrev W11 (c : Dev nD) := StableHlo.after hostOps5 (W10 m ρ c)

abbrev V11 := asV (W11 m ρ)

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) :=
  Pipeline.withArrays_of_ne spec5 c _ _ b hb

abbrev W13 (c : Dev nD) := StableHlo.after hostOps6 (W12 m ρ c)

abbrev W14 (c : Dev nD) := StableHlo.after hostOps6_1 (W13 m ρ c)

abbrev argRefs : List (Ref sig .tc) :=
  [main_arg0, main_arg1, main_arg2, main_arg3, main_arg4, main_arg5, main_arg6, main_arg7]

/-- No host operation writes an argument. -/
theorem host_keeps (b : Ref sig .tc) (hb : b ∈ argRefs) :
    (∀ W : Valuation τ sig (Elt F), StableHlo.after hostOps0 W (Proc.devRef .tc b) = W (Proc.devRef .tc b))
    ∧ (∀ W : Valuation τ sig (Elt F), StableHlo.after hostOps1 W (Proc.devRef .tc b) = W (Proc.devRef .tc b))
    ∧ (∀ W : Valuation τ sig (Elt F), StableHlo.after hostOps2 W (Proc.devRef .tc b) = W (Proc.devRef .tc b))
    ∧ (∀ W : Valuation τ sig (Elt F), StableHlo.after hostOps3 W (Proc.devRef .tc b) = W (Proc.devRef .tc b))
    ∧ (∀ W : Valuation τ sig (Elt F), StableHlo.after hostOps4 W (Proc.devRef .tc b) = W (Proc.devRef .tc b))
    ∧ (∀ W : Valuation τ sig (Elt F), StableHlo.after hostOps5 W (Proc.devRef .tc b) = W (Proc.devRef .tc b))
    ∧ (∀ W : Valuation τ sig (Elt F), StableHlo.after hostOps6 W (Proc.devRef .tc b) = W (Proc.devRef .tc b))
    ∧ (∀ W : Valuation τ sig (Elt F), StableHlo.after hostOps6_1 W (Proc.devRef .tc b) = W (Proc.devRef .tc b)) := by
  refine ⟨?_, ?_, ?_, ?_, ?_, ?_, ?_, ?_⟩ <;> intro W <;>
    refine StableHlo.after_of_forall_not_mem (b := Proc.devRef .tc b) _ _ (List.forall_iff_forall_mem.mp ?_) <;>
    simp only [hostOps0, hostOps1, hostOps2, hostOps3, hostOps4, hostOps5, hostOps6, hostOps6_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton] <;>
    repeat' apply And.intro
  all_goals exact StableHlo.devRef_ne_of_ne fun e => by subst e; exact absurd hb (by decide)

/-- No window's array is an argument. -/
theorem arrs_not_args : (∀ w, Pipeline.arrRef spec0 w ∉ argRefs) ∧ (∀ w, Pipeline.arrRef spec1 w ∉ argRefs) ∧ (∀ w, Pipeline.arrRef spec2 w ∉ argRefs) ∧ (∀ w, Pipeline.arrRef spec3 w ∉ argRefs) ∧ (∀ w, Pipeline.arrRef spec4 w ∉ argRefs) ∧ (∀ w, Pipeline.arrRef spec5 w ∉ argRefs) := by
  decide

/-- Hence an argument's contents stay as launched throughout. -/
theorem W_args (c : Dev nD) (b : Ref sig .tc) (hb : b ∈ argRefs) :
    W2 m ρ c (Proc.devRef .tc b) = m ((c : Thread nD τ).loc b) ∧ W4 m ρ c (Proc.devRef .tc b) = m ((c : Thread nD τ).loc b)
      ∧ W6 m ρ c (Proc.devRef .tc b) = m ((c : Thread nD τ).loc b) ∧ W14 m ρ c (Proc.devRef .tc b) = m ((c : Thread nD τ).loc b) := by
  obtain ⟨k0, k1, k2, k3, k4, k5, k6, k7⟩ := host_keeps (F := F) b hb
  obtain ⟨a0, a1, a2, a3, a4, a5⟩ := arrs_not_args
  have e2 :=
    (W2_of_ne m ρ c b fun w e => a0 w (e.symm ▸ hb)).trans (k0 _)
  have e4 :=
    (W4_of_ne m ρ c b fun w e => a1 w (e.symm ▸ hb)).trans <| (k1 _).trans e2
  have e6 :=
    (W6_of_ne m ρ c b fun w e => a2 w (e.symm ▸ hb)).trans <| (k2 _).trans e4
  exact ⟨e2, e4, e6, (k7 _).trans <| (k6 _).trans <| (W12_of_ne m ρ c b fun w e => a5 w (e.symm ▸ hb)).trans <| (k5 _).trans <|
    (W10_of_ne m ρ c b fun w e => a4 w (e.symm ▸ hb)).trans <| (k4 _).trans <|
    (W8_of_ne m ρ c b fun w e => a3 w (e.symm ▸ hb)).trans <| (k3 _).trans e6⟩

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W14 m ρ c) ∗ ∃ r, prngReg c r)

/-- A call's region from the contents `W` to `W'`: `W'` is `W` off the windows' arrays and the proof data's last values at them. -/
def mkReg (p : Fin 6) (launch : Pipeline.LaunchFacts (nD := nD) (τ := τ) cfgs p) (W W' : Dev nD → Valuation τ sig (Elt F))
    (hbody : ∀ c, BodyObligation (pdats m ρ p c) (defs₀ (F := F)) 𝒱₀ () Set.univ)
    (hin : ∀ c, Pipeline.ΦA (cfgs p).spec c ⊢ (pdats m ρ p c).Φ 0)
    (hout : ∀ c, (pdats m ρ p c).Φ (Fin.last (cfgs p).N) ⊢ Pipeline.ΦA (cfgs p).spec c)
    (hA : ∀ c w, (pdats m ρ p c).A w = asV W c (Pipeline.arrRef (cfgs p).spec w))
    (harr : ∀ c w, W' c (Proc.devRef .tc (Pipeline.arrRef (cfgs p).spec w)) = (pdats m ρ p c).arrAt w (cfgs p).N)
    (hne : ∀ c (b : Ref sig .tc), (∀ w, Pipeline.arrRef (cfgs p).spec w ≠ b) → W' c (Proc.devRef .tc b) = W c (Proc.devRef .tc b))
    (hq : ∀ c w, (pdats m ρ p c).q w = fullShare := by exact fun _ _ => rfl) (howed : ∀ c t, (pdats m ρ p c).owed t = 0 := by exact fun _ _ => rfl)
    (hrec : ∀ c t, (pdats m ρ p c).recorded t = Set.univ := by exact fun _ _ => rfl) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (cfgs p).spec c (asV W c)
  hentry c := by
    rw [Pipeline.ownSems0_none]
    have hsplit := Pipeline.arrays_of_unscopedBufs (p := p) (pcfgs (F := F)) adm (pdats m ρ) launch.win launch.arr_whole c
      ((pdats m ρ p c).share_full (hq c)) (asV W c) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound
    rw [howed, hrec]
    icases HO with ⟨%W, HO⟩; iexists W; isplitr; · ipureintro; exact fun _ _ => Or.inl trivial
    iexact HO
  hin c := by
    refine Idealize.SL.BI.BIBase.Entails.trans ?_ (hin c)
    unfold Pipeline.ΦA
    iintro ⟨Hp, -, Hr⟩
    iframe Hr Hp
  hout c := by
    rw [Pipeline.ownSems0_none]
    refine (hout c).trans ?_
    unfold Pipeline.ΦA
    iintro ⟨Hr, Hp⟩
    iframe Hp Hr; iempintro
  hexit c := by
    have hjoin := Pipeline.unscopedBufs_of_arrays (p := p) (pcfgs (F := F)) adm
      launch.win launch.arr_whole c (pdats m ρ) ((pdats m ρ p c).share_full (hq c))
      (asV W c) (asV W' c) ((pdats m ρ p c).arrAt · (cfgs p).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    rw [howed]
    icases HO with ⟨%W, -, HO⟩; iexists W; iexact HO

set_option backward.isDefEq.respectTransparency.types false in
def reg0 := mkReg m ρ 0 launch0 (W1 m ρ) (W2 m ρ) (body_obligation0 (V1 m ρ))
  (hin0 (V1 m ρ)) (hout0 (V1 m ρ)) (A_eq0 (V1 m ρ)) (W2_arr m ρ) (W2_of_ne m ρ)

set_option backward.isDefEq.respectTransparency.types false in
def reg1 := mkReg m ρ 1 launch1 (W3 m ρ) (W4 m ρ) (body_obligation1 (V3 m ρ))
  (hin1 (V3 m ρ)) (hout1 (V3 m ρ)) (A_eq1 (V3 m ρ)) (W4_arr m ρ) (W4_of_ne m ρ)

set_option backward.isDefEq.respectTransparency.types false in
def reg2 := mkReg m ρ 2 launch2 (W5 m ρ) (W6 m ρ) (body_obligation2 (V5 m ρ))
  (hin2 (V5 m ρ)) (hout2 (V5 m ρ)) (A_eq2 (V5 m ρ)) (W6_arr m ρ) (W6_of_ne m ρ)

set_option backward.isDefEq.respectTransparency.types false in
def reg3 := mkReg m ρ 3 launch3 (W7 m ρ) (W8 m ρ) (body_obligation3 (V7 m ρ))
  (hin3 (V7 m ρ)) (hout3 (V7 m ρ)) (A_eq3 (V7 m ρ)) (W8_arr m ρ) (W8_of_ne m ρ)

set_option backward.isDefEq.respectTransparency.types false in
def reg4 := mkReg m ρ 4 launch4 (W9 m ρ) (W10 m ρ) (body_obligation4 (V9 m ρ))
  (hin4 (V9 m ρ)) (hout4 (V9 m ρ)) (A_eq4 (V9 m ρ)) (W10_arr m ρ) (W10_of_ne m ρ)

set_option backward.isDefEq.respectTransparency.types false in
def reg5 := mkReg m ρ 5 launch5 (W11 m ρ) (W12 m ρ) (body_obligation5 (V11 m ρ))
  (hin5 (V11 m ρ)) (hout5 (V11 m ρ)) (A_eq5 (V11 m ρ)) (W12_arr m ρ) (W12_of_ne m ρ)

abbrev segs : List (Pipeline.Seg (pcfgs (F := F)) adm (pdats m ρ) () defs₀ 𝒱₀ L lv) :=
  [ .host (hseg hostOps0 hostOps0_sub (W0 m ρ)),
    .region (reg0 m ρ),
    .host (hseg hostOps1 hostOps1_sub (W2 m ρ)),
    .region (reg1 m ρ),
    .host (hseg hostOps2 hostOps2_sub (W4 m ρ)),
    .region (reg2 m ρ),
    .host (hseg hostOps3 hostOps3_sub (W6 m ρ)),
    .region (reg3 m ρ),
    .host (hseg hostOps4 hostOps4_sub (W8 m ρ)),
    .region (reg4 m ρ),
    .host (hseg hostOps5 hostOps5_sub (W10 m ρ)),
    .region (reg5 m ρ),
    .host (hseg hostOps6 hostOps6_sub (W12 m ρ)),
    .host (hseg hostOps6_1 hostOps6_1_sub (W13 m ρ)) ]

theorem main_run (c : Dev nD) : main (F := F) c = Pipeline.Seg.run (segs m ρ) := (main_chain c).trans (by chain_rfl)

set_option backward.isDefEq.respectTransparency.types false in

/-- The run terminates without fault and ends with every unscoped buffer at `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

theorem args_unscoped : ∀ b ∈ argRefs, ¬ (Proc.devRef .tc b : DevRef τ sig).isScoped := by decide

theorem kept_arg (c : Dev nD) {mem : (ℓ : Loc nD τ sig) → Buf (Elt F) ℓ}
    (h : ∀ b ∈ Pipeline.ucRefs τ sig, mem (((c : Thread nD τ)).1, b) = W14 m ρ c b) (b : Ref sig .tc) (hb : b ∈ argRefs) :
    mem ((c.tc : Thread nD τ).loc b) = m ((c.tc : Thread nD τ).loc b) :=
  (h _ (mem_uc b (args_unscoped b hb))).trans (W_args m ρ c b hb).2.2.2

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => have k := kept_arg m ρ c (h c)
    ⟨k _ (by decide), k _ (by decide), k _ (by decide), k _ (by decide), k _ (by decide), k _ (by decide), k _ (by decide), k _ (by decide)⟩) (run_all m ρ)

end Cert.Kernel.Hand

end
-- ==== Proof.KI.R0Runs.lean ====
import proofs.«414095_j12086037971444_1_alg».proof.Proof.Gen.KernelIdeal.Launch
import proofs.«414095_j12086037971444_1_alg».proof.Proof.Gen.KernelIdeal.Skeleton
import proofs.«414095_j12086037971444_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 2).val) 0#32)) 0#32) = 1#1

theorem hcond0_0 : ∀ t : Fin cfg0.N, cond0_0 (grid0.coords t) :=
  (by decide +kernel : ∀ t : Fin grid0.N, cond0_0 (grid0.coords t))

abbrev cond0_1 (i : grid0.Coords) : Prop := k0_cond2 i = 1#1

theorem hcond0_1 : ∀ t : Fin cfg0.N, cond0_1 (grid0.coords t) :=
  (by decide +kernel : ∀ t : Fin grid0.N, cond0_1 (grid0.coords t))

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

theorem liveAt0_3 : ∀ t : Fin cfg0.N, cfg0.idle 3 (grid0.coords t) = false := by decide +kernel

abbrev VO0_3 : View sig .tc .vmem S2048x512 .f32 := (Memref.whole cc0_stg3_0 : Memref sig .tc .vmem S2048x512 .f32).view

abbrev scM0_0 : Memref sig .tc .vmem S2048x512 .f32 := Memref.whole cc0_scratch0

theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Hand

end
-- ==== Proof.KI.R0RunA.lean ====
import proofs.«414095_j12086037971444_1_alg».proof.Proof.KI.R0Runs

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun0_A (c : Dev nD) (i : grid0.Coords) (arg3 : Memref sig .tc .vmem S2048x896 .bf16) (harg3 : arg3.IsWhole) (arg4 : Memref sig .tc .vmem S896x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : cond0_0 i) (hc1 : cond0_1 i)
    (x0 : Vec F S2048x896 .bf16) (x1 : Vec F S896x512 .bf16) (x2 : Vec F S1x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc0__mm_kernel i arg3 harg3 arg4 harg4 arg5 harg5 arg6 harg6 arg7 harg7) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.R0Frame.lean ====
import proofs.«414095_j12086037971444_1_alg».proof.Proof.KI.R0RunA

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Step
variable (c : Dev nD) (i : grid0.Coords) (arg3 : Memref sig .tc .vmem S2048x896 .bf16) (harg3 : arg3.IsWhole) (arg4 : Memref sig .tc .vmem S896x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)

theorem cover0_A_3 (hc0 : cond0_0 i) (hc1 : cond0_1 i)
    (x0 : Vec F S2048x896 .bf16) (x1 : Vec F S896x512 .bf16) (x2 : Vec F S1x512 .f32) (y : S2048x512.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S2048x512.size (by sl_kernel_rfl) y

def out0_A_3 (hc0 : cond0_0 i) (hc1 : cond0_1 i)
    (x0 : Vec F S2048x896 .bf16) (x1 : Vec F S896x512 .bf16) (x2 : Vec F S1x512 .f32) : Vec F S2048x512 .f32 :=
  VO0_3.read (Elt F) (VO0_3.writes (Elt F) VO0_3.junk (kernelRun0_A c i arg3 harg3 arg4 harg4 arg5 harg5 arg6 harg6 arg7 harg7 hc0 hc1 x0 x1 x2).1)

end Step

abbrev ms0_0 (t : Fin cfg0.N) : Memref sig .tc .vmem S2048x896 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S896x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .f32 := win0_3.stage (cfg0.slots t 3)
abbrev hs0_3 (t : Fin cfg0.N) : (ms0_3 t).IsWhole := hstage0_3 ((cfg0.slots t 3).cast nbuf0_3)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_A_3 c (grid0.coords t) (ms0_0 t) (hs0_0 t) (ms0_1 t) (hs0_1 t) (ms0_2 t) (hs0_2 t) (ms0_3 t) (hs0_3 t) scM0_0 (Memref.isWhole_whole _) (hcond0_0 t) (hcond0_1 t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_A_3 c (grid0.coords t) (ms0_0 t) (hs0_0 t) (ms0_1 t) (hs0_1 t) (ms0_2 t) (hs0_2 t) (ms0_3 t) (hs0_3 t) scM0_0 (Memref.isWhole_whole _) (hcond0_0 t) (hcond0_1 t) (iblk0 V c 0 t) (iblk0 V c 1 t) (iblk0 V c 2 t) := by dsimp only [dat0]

theorem Phi0_eq (c : Dev nD) (n : Fin (cfg0.N + 1)) : (dat0 V c).Φ n = Pipeline.ΦA spec0 c := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [Phi0_eq, Phi0_eq]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  unfold out0_A_3; (try dsimp only)
  rw [PhiA0_eq]
  iintro ⟨⟨⟨HS0, Hrest⟩, Hg⟩, Ho, ⟨%d0, H0⟩, ⟨%d1, H1⟩, ⟨%d2, H2⟩, ⟨%d3, H3⟩⟩
  iapply ((kernelRun0_A c (grid0.coords t) _ _ _ _ _ _ _ _ _ _ (hcond0_0 t) (hcond0_1 t) (iblk0 V c 0 t) (iblk0 V c 1 t) (iblk0 V c 2 t)).2.2 Set.univ _)
  iframe H0 H1 H2 HS0
  isplitl [H3]; · iexists _; iexact H3
  iintro ⟨H0, H1, H2, ⟨%e3, H3⟩, ⟨%es0, HS0⟩⟩
  iframe Hrest Hg Ho H0 H1 H2
  isplitl [HS0]
  · iexists _; unfold owns; iexists _; isplitr
    swap; · iexact HS0
    ipureintro; rfl
  unfold owns; iexists _; isplitr
  swap; · iexact H3
  ipureintro; exact View.read_writes_of_cover _ _ _ _ _ (cover0_A_3 c _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [Phi0_eq]

theorem hout0 (c : Dev nD) : (dat0 V c).Φ (Fin.last cfg0.N) ⊢ Pipeline.ΦA spec0 c := by
  rw [Phi0_eq]

end Cert.KernelIdeal.Hand

end
-- ==== Proof.KI.R1Runs.lean ====
import proofs.«414095_j12086037971444_1_alg».proof.Proof.Gen.KernelIdeal.Launch
import proofs.«414095_j12086037971444_1_alg».proof.Proof.Gen.KernelIdeal.Skeleton
import proofs.«414095_j12086037971444_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev cond1_0 (i : grid1.Coords) : Prop := (Scalar.cmpi .ne (Scalar.extui (Scalar.cmpi .eq (BitVec.ofNat 32 (i 2).val) 0#32)) 0#32) = 1#1

theorem hcond1_0 : ∀ t : Fin cfg1.N, cond1_0 (grid1.coords t) ↔ t.val % 5 = 0 :=
  (by decide +kernel : ∀ t : Fin grid1.N, cond1_0 (grid1.coords t) ↔ t.val % 5 = 0)

abbrev cond1_1 (i : grid1.Coords) : Prop := k1_cond2 i = 1#1

theorem hcond1_1 : ∀ t : Fin cfg1.N, cond1_1 (grid1.coords t) ↔ t.val % 5 = 4 :=
  (by decide +kernel : ∀ t : Fin grid1.N, cond1_1 (grid1.coords t) ↔ t.val % 5 = 4)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

theorem idleAt1_3_A : ∀ t : Fin cfg1.N, cond1_0 (grid1.coords t) → ¬cond1_1 (grid1.coords t) → cfg1.idle 3 (grid1.coords t) = true := by decide +kernel

theorem noFlush1_3_A : ∀ t : Fin cfg1.N, cond1_0 (grid1.coords t) → ¬cond1_1 (grid1.coords t) → (cfg1.win 3).flush t = false := by decide +kernel

theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel

theorem liveAt1_3_C : ∀ t : Fin cfg1.N, ¬cond1_0 (grid1.coords t) → cond1_1 (grid1.coords t) → cfg1.idle 3 (grid1.coords t) = false := by decide +kernel

abbrev VO1_3 : View sig .tc .vmem S2048x512 .f32 := (Memref.whole cc1_stg3_0 : Memref sig .tc .vmem S2048x512 .f32).view

abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x512 .f32 := win1_3.stage (cfg1.slots t 3)
abbrev hs1_3 (t : Fin cfg1.N) : (ms1_3 t).IsWhole := hstage1_3 ((cfg1.slots t 3).cast nbuf1_3)

abbrev scM1_0 : Memref sig .tc .vmem S2048x512 .f32 := Memref.whole cc1_scratch0
abbrev VS1_0 : View sig .tc .vmem S2048x512 .f32 := scM1_0.view

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop((∃ d, owns (c : Thread nD τ) scM1_0 fullShare d)) ∗ restBut1 (F := F) c) ∗ (∃ r, prngReg c r)) := by
  unfold Pipeline.ΦA; rw [scopedRest1_split]; simp only [scM1_0, owns_whole]; try rfl

end Cert.KernelIdeal.Hand

end
-- ==== Proof.KI.R1RunA.lean ====
import proofs.«414095_j12086037971444_1_alg».proof.Proof.KI.R1Runs

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun1_A (c : Dev nD) (i : grid1.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : cond1_0 i) (hc1 : ¬cond1_1 i)
    (x0 : Vec F S2048x2048 .bf16) (x1 : Vec F S2048x512 .bf16) (x2 : Vec F S1x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R1RunB.lean ====
import proofs.«414095_j12086037971444_1_alg».proof.Proof.KI.R1RunA

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun1_B (c : Dev nD) (i : grid1.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : ¬cond1_0 i) (hc1 : ¬cond1_1 i)
    (x0 : Vec F S2048x2048 .bf16) (x1 : Vec F S2048x512 .bf16) (x2 : Vec F S1x512 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨[], ?_, fun xi3 E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R1RunC.lean ====
import proofs.«414095_j12086037971444_1_alg».proof.Proof.KI.R1RunB

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun1_C (c : Dev nD) (i : grid1.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : ¬cond1_0 i) (hc1 : cond1_1 i)
    (x0 : Vec F S2048x2048 .bf16) (x1 : Vec F S2048x512 .bf16) (x2 : Vec F S1x512 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__mm_kernel i arg3 harg3 arg4 harg4 arg5 harg5 arg6 harg6 arg7 harg7) K } := by
  refine ⟨?_, ?_, fun E K => ?run⟩
  case run =>
    simp only [cc1__mm_kernel_eq_skeleton]; unfold cc1__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.R1Frame.lean ====
import proofs.«414095_j12086037971444_1_alg».proof.Proof.KI.R1RunC

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Step
variable (c : Dev nD) (i : grid1.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)

def out1_A_3 (hc0 : cond1_0 i) (hc1 : ¬cond1_1 i)
    (x0 : Vec F S2048x2048 .bf16) (x1 : Vec F S2048x512 .bf16) (x2 : Vec F S1x512 .f32) : Vec F S2048x512 .f32 :=
  VO1_3.read (Elt F) (VO1_3.writes (Elt F) VO1_3.junk (kernelRun1_A c i arg3 harg3 arg4 harg4 arg5 harg5 arg6 harg6 arg7 harg7 hc0 hc1 x0 x1 x2).1)

theorem scover1_A_0 (hc0 : cond1_0 i) (hc1 : ¬cond1_1 i)
    (x0 : Vec F S2048x2048 .bf16) (x1 : Vec F S2048x512 .bf16) (x2 : Vec F S1x512 .f32) (y : S2048x512.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x512.size (by sl_kernel_rfl) y

def sout1_A_0 (hc0 : cond1_0 i) (hc1 : ¬cond1_1 i)
    (x0 : Vec F S2048x2048 .bf16) (x1 : Vec F S2048x512 .bf16) (x2 : Vec F S1x512 .f32) : Vec F S2048x512 .f32 :=
  VS1_0.read (Elt F) (VS1_0.writes (Elt F) VS1_0.junk (kernelRun1_A c i arg3 harg3 arg4 harg4 arg5 harg5 arg6 harg6 arg7 harg7 hc0 hc1 x0 x1 x2).2.1)

def out1_B_3 (hc0 : ¬cond1_0 i) (hc1 : ¬cond1_1 i)
    (x0 : Vec F S2048x2048 .bf16) (x1 : Vec F S2048x512 .bf16) (x2 : Vec F S1x512 .f32) (xs0 : Vec F S2048x512 .f32) : Vec F S2048x512 .f32 :=
  VO1_3.read (Elt F) (VO1_3.writes (Elt F) VO1_3.junk (kernelRun1_B c i arg3 harg3 arg4 harg4 arg5 harg5 arg6 harg6 arg7 harg7 hc0 hc1 x0 x1 x2 xs0).1)

theorem scover1_B_0 (hc0 : ¬cond1_0 i) (hc1 : ¬cond1_1 i)
    (x0 : Vec F S2048x2048 .bf16) (x1 : Vec F S2048x512 .bf16) (x2 : Vec F S1x512 .f32) (xs0 : Vec F S2048x512 .f32) (y : S2048x512.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x512.size (by sl_kernel_rfl) y

def sout1_B_0 (hc0 : ¬cond1_0 i) (hc1 : ¬cond1_1 i)
    (x0 : Vec F S2048x2048 .bf16) (x1 : Vec F S2048x512 .bf16) (x2 : Vec F S1x512 .f32) (xs0 : Vec F S2048x512 .f32) : Vec F S2048x512 .f32 :=
  VS1_0.read (Elt F) (VS1_0.writes (Elt F) VS1_0.junk (kernelRun1_B c i arg3 harg3 arg4 harg4 arg5 harg5 arg6 harg6 arg7 harg7 hc0 hc1 x0 x1 x2 xs0).2.1)

theorem cover1_C_3 (hc0 : ¬cond1_0 i) (hc1 : cond1_1 i)
    (x0 : Vec F S2048x2048 .bf16) (x1 : Vec F S2048x512 .bf16) (x2 : Vec F S1x512 .f32) (xs0 : Vec F S2048x512 .f32) (y : S2048x512.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x512.size (by sl_kernel_rfl) y

def out1_C_3 (hc0 : ¬cond1_0 i) (hc1 : cond1_1 i)
    (x0 : Vec F S2048x2048 .bf16) (x1 : Vec F S2048x512 .bf16) (x2 : Vec F S1x512 .f32) (xs0 : Vec F S2048x512 .f32) : Vec F S2048x512 .f32 :=
  VO1_3.read (Elt F) (VO1_3.writes (Elt F) VO1_3.junk (kernelRun1_C c i arg3 harg3 arg4 harg4 arg5 harg5 arg6 harg6 arg7 harg7 hc0 hc1 x0 x1 x2 xs0).1)

theorem scover1_C_0 (hc0 : ¬cond1_0 i) (hc1 : cond1_1 i)
    (x0 : Vec F S2048x2048 .bf16) (x1 : Vec F S2048x512 .bf16) (x2 : Vec F S1x512 .f32) (xs0 : Vec F S2048x512 .f32) (y : S2048x512.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x512.size (by sl_kernel_rfl) y

def sout1_C_0 (hc0 : ¬cond1_0 i) (hc1 : cond1_1 i)
    (x0 : Vec F S2048x2048 .bf16) (x1 : Vec F S2048x512 .bf16) (x2 : Vec F S1x512 .f32) (xs0 : Vec F S2048x512 .f32) : Vec F S2048x512 .f32 :=
  VS1_0.read (Elt F) (VS1_0.writes (Elt F) VS1_0.junk (kernelRun1_C c i arg3 harg3 arg4 harg4 arg5 harg5 arg6 harg6 arg7 harg7 hc0 hc1 x0 x1 x2 xs0).2.1)

end Step

def stepA1 (c : Dev nD) (t : Fin cfg1.N) (h0 : t.val % 5 = 0) (h1 : ¬t.val % 5 = 4) : Vec F S2048x512 .f32 × Vec F S2048x512 .f32 :=
  (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
    sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t))

def stepB1 (c : Dev nD) (t : Fin cfg1.N) (h0 : ¬t.val % 5 = 0) (h1 : ¬t.val % 5 = 4) (xs : Vec F S2048x512 .f32) : Vec F S2048x512 .f32 × Vec F S2048x512 .f32 :=
  (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs,
    sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) xs)

def stepC1 (c : Dev nD) (t : Fin cfg1.N) (h0 : ¬t.val % 5 = 0) (h1 : t.val % 5 = 4) (xs : Vec F S2048x512 .f32) : Vec F S2048x512 .f32 × Vec F S2048x512 .f32 :=
  (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs,
    sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) xs)

def outsAt1 (c : Dev nD) : (n : ℕ) → n < cfg1.N → Vec F S2048x512 .f32 × Vec F S2048x512 .f32
  | 0, hn => stepA1 V c ⟨0, hn⟩ (Nat.zero_mod _) (by show ¬(0 % 5 = 4); decide)
  | n + 1, hn =>
    if h0 : (n + 1) % 5 = 0 then
      if h1 : (n + 1) % 5 = 4 then False.elim (by omega) else stepA1 V c ⟨n + 1, hn⟩ h0 h1
    else
      if h1 : (n + 1) % 5 = 4 then stepC1 V c ⟨n + 1, hn⟩ h0 h1 (outsAt1 c n (Nat.lt_of_succ_lt hn)).2
      else stepB1 V c ⟨n + 1, hn⟩ h0 h1 (outsAt1 c n (Nat.lt_of_succ_lt hn)).2

theorem outsAt1_A (c : Dev nD) (t : Fin cfg1.N) (h0 : t.val % 5 = 0) (h1 : ¬t.val % 5 = 4) :
    outsAt1 V c t.val t.isLt = stepA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 5 = 0) (h1 : ¬t.val % 5 = 4) :
    outsAt1 V c t.val t.isLt = stepB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 5 = 0) (h1 : t.val % 5 = 4) :
    outsAt1 V c t.val t.isLt = stepC1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ restBut1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 (F := F) c) ∗ (∃ r, prngReg c r)) := by
  cases n with
  | zero => exact absurd rfl hz
  | succ n => rfl

/-- At any position the invariant gives the accumulator at some contents beside what it carries along. -/
theorem Phi_weak1 (c : Dev nD) (n : ℕ) (h : n ≤ cfg1.N) :
    PhiS1 V c n h ⊢ iprop(iprop(iprop((∃ d, owns (c : Thread nD τ) scM1_0 fullShare d)) ∗ restBut1 (F := F) c) ∗ (∃ r, prngReg c r)) := by
  by_cases hz : n = 0
  · rw [PhiS1_zero V c n h hz, PhiA1_eq]
    try exact Idealize.SL.BI.Entails.refl _
  · rw [PhiS1_pos V c n h hz]
    iintro ⟨⟨HS0, HR⟩, Hg⟩
    isplitl [HS0 HR]
    · isplitl [HS0]
      · iexists _; iexact HS0
      iexact HR
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 5 = 0
  · by_cases h1 : t.val % 5 = 4
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold stepA1 sout1_A_0; (try dsimp only)
      rw [PhiS1_castSucc V c t]
      iintro ⟨HΦ, Ho, ⟨%d0, H0⟩, ⟨%d1, H1⟩, ⟨%d2, H2⟩, ⟨%d3, H3⟩⟩
      ihave HΦ := (Phi_weak1 V c _ _) $$ HΦ
      icases HΦ with ⟨⟨HS0, HR⟩, Hg⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover1_A_0 c _ _ _ _ _ _ _ _ _ _ _ _ _ _ _ _)
      iexists _; iexact H3
  · by_cases h1 : t.val % 5 = 4
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold stepC1 out1_C_3 sout1_C_0; (try dsimp only)
      rw [PhiS1_castSucc V c t, PhiS1_pos V c _ _ (by omega)]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      iframe H0 H1 H2 HS0
      isplitl [H3]; · iexists _; iexact H3
      iintro ⟨H0, H1, H2, ⟨%e3, H3⟩, ⟨%es0, HS0⟩⟩
      iframe HR Hg Ho H0 H1 H2
      isplitl [HS0]
      · unfold owns; iexists _; isplitr
        swap; · iexact HS0
        ipureintro; exact View.read_writes_of_cover _ _ _ _ _ (scover1_C_0 c _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold stepB1 sout1_B_0; (try dsimp only)
      rw [PhiS1_castSucc V c t, PhiS1_pos V c _ _ (by omega)]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover1_B_0 c _ _ _ _ _ _ _ _ _ _ _ _ _ _ _ _ _)
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) : (dat1 V c).Φ t ⊢ Pipeline.ΦA spec1 c := by
  rw [PhiA1_eq]; exact Phi_weak1 V c t.val (Nat.le_of_lt_succ t.isLt)

theorem hout1 (c : Dev nD) : (dat1 V c).Φ (Fin.last cfg1.N) ⊢ Pipeline.ΦA spec1 c := Phi_out1 V c _

end Cert.KernelIdeal.Hand

end
-- ==== Proof.KI.R2Runs.lean ====
import proofs.«414095_j12086037971444_1_alg».proof.Proof.Gen.KernelIdeal.Launch
import proofs.«414095_j12086037971444_1_alg».proof.Proof.Gen.KernelIdeal.Skeleton
import proofs.«414095_j12086037971444_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 2).val) 0#32)) 0#32) = 1#1

theorem hcond2_0 : ∀ t : Fin cfg2.N, cond2_0 (grid2.coords t) :=
  (by decide +kernel : ∀ t : Fin grid2.N, cond2_0 (grid2.coords t))

abbrev cond2_1 (i : grid2.Coords) : Prop := k2_cond2 i = 1#1

theorem hcond2_1 : ∀ t : Fin cfg2.N, cond2_1 (grid2.coords t) :=
  (by decide +kernel : ∀ t : Fin grid2.N, cond2_1 (grid2.coords t))

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel

theorem liveAt2_3 : ∀ t : Fin cfg2.N, cfg2.idle 3 (grid2.coords t) = false := by decide +kernel

abbrev VO2_3 : View sig .tc .vmem S2048x512 .f32 := (Memref.whole cc2_stg3_0 : Memref sig .tc .vmem S2048x512 .f32).view

abbrev scM2_0 : Memref sig .tc .vmem S2048x512 .f32 := Memref.whole cc2_scratch0

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Hand

end
-- ==== Proof.KI.R2RunA.lean ====
import proofs.«414095_j12086037971444_1_alg».proof.Proof.KI.R2Runs

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun2_A (c : Dev nD) (i : grid2.Coords) (arg3 : Memref sig .tc .vmem S2048x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : cond2_0 i) (hc1 : cond2_1 i)
    (x0 : Vec F S2048x512 .bf16) (x1 : Vec F S512x512 .bf16) (x2 : Vec F S1x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc2__mm_kernel i arg3 harg3 arg4 harg4 arg5 harg5 arg6 harg6 arg7 harg7) K } := by
  refine ⟨?_, ?_, fun E K => ?run⟩
  case run =>
    simp only [cc2__mm_kernel_eq_skeleton]; unfold cc2__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.R2Frame.lean ====
import proofs.«414095_j12086037971444_1_alg».proof.Proof.KI.R2RunA

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Step
variable (c : Dev nD) (i : grid2.Coords) (arg3 : Memref sig .tc .vmem S2048x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)

theorem cover2_A_3 (hc0 : cond2_0 i) (hc1 : cond2_1 i)
    (x0 : Vec F S2048x512 .bf16) (x1 : Vec F S512x512 .bf16) (x2 : Vec F S1x512 .f32) (y : S2048x512.Idx) :
    ∃ pc ∈ (kernelRun2_A c i arg3 harg3 arg4 harg4 arg5 harg5 arg6 harg6 arg7 harg7 hc0 hc1 x0 x1 x2).1, y ∈ pc.1.set :=
  View.cover_of_tiledL (kernelRun2_A c i arg3 harg3 arg4 harg4 arg5 harg5 arg6 harg6 arg7 harg7 hc0 hc1 x0 x1 x2).1 S2048x512.size (by sl_kernel_rfl) y

def out2_A_3 (hc0 : cond2_0 i) (hc1 : cond2_1 i)
    (x0 : Vec F S2048x512 .bf16) (x1 : Vec F S512x512 .bf16) (x2 : Vec F S1x512 .f32) : Vec F S2048x512 .f32 :=
  VO2_3.read (Elt F) (VO2_3.writes (Elt F) VO2_3.junk (kernelRun2_A c i arg3 harg3 arg4 harg4 arg5 harg5 arg6 harg6 arg7 harg7 hc0 hc1 x0 x1 x2).1)

end Step

abbrev ms2_0 (t : Fin cfg2.N) : Memref sig .tc .vmem S2048x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x512 .f32 := win2_3.stage (cfg2.slots t 3)
abbrev hs2_3 (t : Fin cfg2.N) : (ms2_3 t).IsWhole := hstage2_3 ((cfg2.slots t 3).cast nbuf2_3)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_A_3 c (grid2.coords t) (ms2_0 t) (hs2_0 t) (ms2_1 t) (hs2_1 t) (ms2_2 t) (hs2_2 t) (ms2_3 t) (hs2_3 t) scM2_0 (Memref.isWhole_whole _) (hcond2_0 t) (hcond2_1 t) (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_A_3 c (grid2.coords t) (ms2_0 t) (hs2_0 t) (ms2_1 t) (hs2_1 t) (ms2_2 t) (hs2_2 t) (ms2_3 t) (hs2_3 t) scM2_0 (Memref.isWhole_whole _) (hcond2_0 t) (hcond2_1 t) (iblk2 V c 0 t) (iblk2 V c 1 t) (iblk2 V c 2 t) := by dsimp only [dat2]

theorem Phi2_eq (c : Dev nD) (n : Fin (cfg2.N + 1)) : (dat2 V c).Φ n = Pipeline.ΦA spec2 c := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [Phi2_eq, Phi2_eq]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  unfold out2_A_3; (try dsimp only)
  rw [PhiA2_eq]
  iintro ⟨⟨⟨HS0, Hrest⟩, Hg⟩, Ho, ⟨%d0, H0⟩, ⟨%d1, H1⟩, ⟨%d2, H2⟩, ⟨%d3, H3⟩⟩
  iapply ((kernelRun2_A c (grid2.coords t) _ _ _ _ _ _ _ _ _ _ (hcond2_0 t) (hcond2_1 t) (iblk2 V c 0 t) (iblk2 V c 1 t) (iblk2 V c 2 t)).2.2 Set.univ _)
  iframe H0 H1 H2 HS0
  isplitl [H3]; · iexists _; iexact H3
  iintro ⟨H0, H1, H2, ⟨%e3, H3⟩, ⟨%es0, HS0⟩⟩
  iframe Hrest Hg Ho H0 H1 H2
  isplitl [HS0]
  · iexists _; unfold owns; iexists _; isplitr
    swap; · iexact HS0
    ipureintro; rfl
  unfold owns; iexists _; isplitr
  swap; · iexact H3
  ipureintro; exact View.read_writes_of_cover _ _ _ _ _ (cover2_A_3 c _ _ _ _ _ _ _ _ _ _ _ _ _ _ _ _)

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [Phi2_eq]

theorem hout2 (c : Dev nD) : (dat2 V c).Φ (Fin.last cfg2.N) ⊢ Pipeline.ΦA spec2 c := by
  rw [Phi2_eq]

end Cert.KernelIdeal.Hand

end
-- ==== Proof.KI.R3Runs.lean ====
import proofs.«414095_j12086037971444_1_alg».proof.Proof.Gen.KernelIdeal.Launch
import proofs.«414095_j12086037971444_1_alg».proof.Proof.Gen.KernelIdeal.Skeleton
import proofs.«414095_j12086037971444_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 2).val) 0#32)) 0#32) = 1#1

theorem hcond3_0 : ∀ t : Fin cfg3.N, cond3_0 (grid3.coords t) ↔ t.val % 5 = 0 :=
  (by decide +kernel : ∀ t : Fin grid3.N, cond3_0 (grid3.coords t) ↔ t.val % 5 = 0)

abbrev cond3_1 (i : grid3.Coords) : Prop := k3_cond2 i = 1#1

theorem hcond3_1 : ∀ t : Fin cfg3.N, cond3_1 (grid3.coords t) ↔ t.val % 5 = 4 :=
  (by decide +kernel : ∀ t : Fin grid3.N, cond3_1 (grid3.coords t) ↔ t.val % 5 = 4)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

theorem idleAt3_3_A : ∀ t : Fin cfg3.N, cond3_0 (grid3.coords t) → ¬cond3_1 (grid3.coords t) → cfg3.idle 3 (grid3.coords t) = true := by decide +kernel

theorem noFlush3_3_A : ∀ t : Fin cfg3.N, cond3_0 (grid3.coords t) → ¬cond3_1 (grid3.coords t) → (cfg3.win 3).flush t = false := by decide +kernel

theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel

theorem liveAt3_3_C : ∀ t : Fin cfg3.N, ¬cond3_0 (grid3.coords t) → cond3_1 (grid3.coords t) → cfg3.idle 3 (grid3.coords t) = false := by decide +kernel

abbrev VO3_3 : View sig .tc .vmem S2048x512 .f32 := (Memref.whole cc3_stg3_0 : Memref sig .tc .vmem S2048x512 .f32).view

abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2048x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x512 .f32 := win3_3.stage (cfg3.slots t 3)
abbrev hs3_3 (t : Fin cfg3.N) : (ms3_3 t).IsWhole := hstage3_3 ((cfg3.slots t 3).cast nbuf3_3)

abbrev scM3_0 : Memref sig .tc .vmem S2048x512 .f32 := Memref.whole cc3_scratch0
abbrev VS3_0 : View sig .tc .vmem S2048x512 .f32 := scM3_0.view

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop(iprop((∃ d, owns (c : Thread nD τ) scM3_0 fullShare d)) ∗ restBut3 (F := F) c) ∗ (∃ r, prngReg c r)) := by
  unfold Pipeline.ΦA; rw [scopedRest3_split]; simp only [scM3_0, owns_whole]; try rfl

end Cert.KernelIdeal.Hand

end
-- ==== Proof.KI.R3RunA.lean ====
import proofs.«414095_j12086037971444_1_alg».proof.Proof.KI.R3Runs

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun3_A (c : Dev nD) (i : grid3.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : cond3_0 i) (hc1 : ¬cond3_1 i)
    (x0 : Vec F S2048x2048 .bf16) (x1 : Vec F S2048x512 .bf16) (x2 : Vec F S1x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__mm_kernel i arg3 harg3 arg4 harg4 arg5 harg5 arg6 harg6 arg7 harg7) K } := by
  refine ⟨[], ?_, fun xi3 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R3RunB.lean ====
import proofs.«414095_j12086037971444_1_alg».proof.Proof.KI.R3RunA

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun3_B (c : Dev nD) (i : grid3.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : ¬cond3_0 i) (hc1 : ¬cond3_1 i)
    (x0 : Vec F S2048x2048 .bf16) (x1 : Vec F S2048x512 .bf16) (x2 : Vec F S1x512 .f32) (xs0 : Vec F S2048x512 .f32) :
    Σ' (L3 : List (View.Piece (Elt F) S2048x512 .f32)), { LS0 : List (View.Piece (Elt F) S2048x512 .f32) //
      ∀ (xi3 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__mm_kernel i arg3 harg3 arg4 harg4 arg5 harg5 arg6 harg6 arg7 harg7) K } := by
  refine ⟨[], ?_, fun xi3 E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R3RunC.lean ====
import proofs.«414095_j12086037971444_1_alg».proof.Proof.KI.R3RunB

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun3_C (c : Dev nD) (i : grid3.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : ¬cond3_0 i) (hc1 : cond3_1 i)
    (x0 : Vec F S2048x2048 .bf16) (x1 : Vec F S2048x512 .bf16) (x2 : Vec F S1x512 .f32) (xs0 : Vec F S2048x512 .f32) :
    Σ' (L3 : List (View.Piece (Elt F) S2048x512 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc3__mm_kernel i arg3 harg3 arg4 harg4 arg5 harg5 arg6 harg6 arg7 harg7) K } := by
  refine ⟨?_, ?_, fun E K => ?run⟩
  case run =>
    simp only [cc3__mm_kernel_eq_skeleton]; unfold cc3__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.R3Frame.lean ====
import proofs.«414095_j12086037971444_1_alg».proof.Proof.KI.R3RunC

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Step
variable (c : Dev nD) (i : grid3.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)

def out3_A_3 (hc0 : cond3_0 i) (hc1 : ¬cond3_1 i)
    (x0 : Vec F S2048x2048 .bf16) (x1 : Vec F S2048x512 .bf16) (x2 : Vec F S1x512 .f32) : Vec F S2048x512 .f32 :=
  VO3_3.read (Elt F) (VO3_3.writes (Elt F) VO3_3.junk (kernelRun3_A c i arg3 harg3 arg4 harg4 arg5 harg5 arg6 harg6 arg7 harg7 hc0 hc1 x0 x1 x2).1)

theorem scover3_A_0 (hc0 : cond3_0 i) (hc1 : ¬cond3_1 i)
    (x0 : Vec F S2048x2048 .bf16) (x1 : Vec F S2048x512 .bf16) (x2 : Vec F S1x512 .f32) (y : S2048x512.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S2048x512.size (by sl_kernel_rfl) y

def sout3_A_0 (hc0 : cond3_0 i) (hc1 : ¬cond3_1 i)
    (x0 : Vec F S2048x2048 .bf16) (x1 : Vec F S2048x512 .bf16) (x2 : Vec F S1x512 .f32) : Vec F S2048x512 .f32 :=
  VS3_0.read (Elt F) (VS3_0.writes (Elt F) VS3_0.junk (kernelRun3_A c i arg3 harg3 arg4 harg4 arg5 harg5 arg6 harg6 arg7 harg7 hc0 hc1 x0 x1 x2).2.1)

def out3_B_3 (hc0 : ¬cond3_0 i) (hc1 : ¬cond3_1 i)
    (x0 : Vec F S2048x2048 .bf16) (x1 : Vec F S2048x512 .bf16) (x2 : Vec F S1x512 .f32) (xs0 : Vec F S2048x512 .f32) : Vec F S2048x512 .f32 :=
  VO3_3.read (Elt F) (VO3_3.writes (Elt F) VO3_3.junk (kernelRun3_B c i arg3 harg3 arg4 harg4 arg5 harg5 arg6 harg6 arg7 harg7 hc0 hc1 x0 x1 x2 xs0).1)

theorem scover3_B_0 (hc0 : ¬cond3_0 i) (hc1 : ¬cond3_1 i)
    (x0 : Vec F S2048x2048 .bf16) (x1 : Vec F S2048x512 .bf16) (x2 : Vec F S1x512 .f32) (xs0 : Vec F S2048x512 .f32) (y : S2048x512.Idx) :
    ∃ pc ∈ (kernelRun3_B c i arg3 harg3 arg4 harg4 arg5 harg5 arg6 harg6 arg7 harg7 hc0 hc1 x0 x1 x2 xs0).2.1, y ∈ pc.1.set :=
  View.cover_of_tiledL (kernelRun3_B c i arg3 harg3 arg4 harg4 arg5 harg5 arg6 harg6 arg7 harg7 hc0 hc1 x0 x1 x2 xs0).2.1 S2048x512.size (by sl_kernel_rfl) y

def sout3_B_0 (hc0 : ¬cond3_0 i) (hc1 : ¬cond3_1 i)
    (x0 : Vec F S2048x2048 .bf16) (x1 : Vec F S2048x512 .bf16) (x2 : Vec F S1x512 .f32) (xs0 : Vec F S2048x512 .f32) : Vec F S2048x512 .f32 :=
  VS3_0.read (Elt F) (VS3_0.writes (Elt F) VS3_0.junk (kernelRun3_B c i arg3 harg3 arg4 harg4 arg5 harg5 arg6 harg6 arg7 harg7 hc0 hc1 x0 x1 x2 xs0).2.1)

theorem cover3_C_3 (hc0 : ¬cond3_0 i) (hc1 : cond3_1 i)
    (x0 : Vec F S2048x2048 .bf16) (x1 : Vec F S2048x512 .bf16) (x2 : Vec F S1x512 .f32) (xs0 : Vec F S2048x512 .f32) (y : S2048x512.Idx) :
    ∃ pc ∈ (kernelRun3_C c i arg3 harg3 arg4 harg4 arg5 harg5 arg6 harg6 arg7 harg7 hc0 hc1 x0 x1 x2 xs0).1, y ∈ pc.1.set :=
  View.cover_of_tiledL (kernelRun3_C c i arg3 harg3 arg4 harg4 arg5 harg5 arg6 harg6 arg7 harg7 hc0 hc1 x0 x1 x2 xs0).1 S2048x512.size (by sl_kernel_rfl) y

def out3_C_3 (hc0 : ¬cond3_0 i) (hc1 : cond3_1 i)
    (x0 : Vec F S2048x2048 .bf16) (x1 : Vec F S2048x512 .bf16) (x2 : Vec F S1x512 .f32) (xs0 : Vec F S2048x512 .f32) : Vec F S2048x512 .f32 :=
  VO3_3.read (Elt F) (VO3_3.writes (Elt F) VO3_3.junk (kernelRun3_C c i arg3 harg3 arg4 harg4 arg5 harg5 arg6 harg6 arg7 harg7 hc0 hc1 x0 x1 x2 xs0).1)

theorem scover3_C_0 (hc0 : ¬cond3_0 i) (hc1 : cond3_1 i)
    (x0 : Vec F S2048x2048 .bf16) (x1 : Vec F S2048x512 .bf16) (x2 : Vec F S1x512 .f32) (xs0 : Vec F S2048x512 .f32) (y : S2048x512.Idx) :
    ∃ pc ∈ (kernelRun3_C c i arg3 harg3 arg4 harg4 arg5 harg5 arg6 harg6 arg7 harg7 hc0 hc1 x0 x1 x2 xs0).2.1, y ∈ pc.1.set :=
  View.cover_of_tiledL (kernelRun3_C c i arg3 harg3 arg4 harg4 arg5 harg5 arg6 harg6 arg7 harg7 hc0 hc1 x0 x1 x2 xs0).2.1 S2048x512.size (by sl_kernel_rfl) y

def sout3_C_0 (hc0 : ¬cond3_0 i) (hc1 : cond3_1 i)
    (x0 : Vec F S2048x2048 .bf16) (x1 : Vec F S2048x512 .bf16) (x2 : Vec F S1x512 .f32) (xs0 : Vec F S2048x512 .f32) : Vec F S2048x512 .f32 :=
  VS3_0.read (Elt F) (VS3_0.writes (Elt F) VS3_0.junk (kernelRun3_C c i arg3 harg3 arg4 harg4 arg5 harg5 arg6 harg6 arg7 harg7 hc0 hc1 x0 x1 x2 xs0).2.1)

end Step

def stepA3 (c : Dev nD) (t : Fin cfg3.N) (h0 : t.val % 5 = 0) (h1 : ¬t.val % 5 = 4) : Vec F S2048x512 .f32 × Vec F S2048x512 .f32 :=
  (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t),
    sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t))

def stepB3 (c : Dev nD) (t : Fin cfg3.N) (h0 : ¬t.val % 5 = 0) (h1 : ¬t.val % 5 = 4) (xs : Vec F S2048x512 .f32) : Vec F S2048x512 .f32 × Vec F S2048x512 .f32 :=
  (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) xs,
    sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) xs)

def stepC3 (c : Dev nD) (t : Fin cfg3.N) (h0 : ¬t.val % 5 = 0) (h1 : t.val % 5 = 4) (xs : Vec F S2048x512 .f32) : Vec F S2048x512 .f32 × Vec F S2048x512 .f32 :=
  (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) xs,
    sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) xs)

def outsAt3 (c : Dev nD) : (n : ℕ) → n < cfg3.N → Vec F S2048x512 .f32 × Vec F S2048x512 .f32
  | 0, hn => stepA3 V c ⟨0, hn⟩ (Nat.zero_mod _) (by show ¬(0 % 5 = 4); decide)
  | n + 1, hn =>
    if h0 : (n + 1) % 5 = 0 then
      if h1 : (n + 1) % 5 = 4 then False.elim (by omega) else stepA3 V c ⟨n + 1, hn⟩ h0 h1
    else
      if h1 : (n + 1) % 5 = 4 then stepC3 V c ⟨n + 1, hn⟩ h0 h1 (outsAt3 c n (Nat.lt_of_succ_lt hn)).2
      else stepB3 V c ⟨n + 1, hn⟩ h0 h1 (outsAt3 c n (Nat.lt_of_succ_lt hn)).2

theorem outsAt3_A (c : Dev nD) (t : Fin cfg3.N) (h0 : t.val % 5 = 0) (h1 : ¬t.val % 5 = 4) :
    outsAt3 V c t.val t.isLt = stepA3 V c t h0 h1 := by
  obtain ⟨n, hn⟩ := t
  cases n with
  | zero => exact rfl
  | succ n => exact (dif_pos h0).trans ((dif_neg h1).trans rfl)

theorem outsAt3_B (c : Dev nD) (t : Fin cfg3.N) (h0 : ¬t.val % 5 = 0) (h1 : ¬t.val % 5 = 4) :
    outsAt3 V c t.val t.isLt = stepB3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt3_C (c : Dev nD) (t : Fin cfg3.N) (h0 : ¬t.val % 5 = 0) (h1 : t.val % 5 = 4) :
    outsAt3 V c t.val t.isLt = stepC3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ restBut3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ restBut3 (F := F) c) ∗ (∃ r, prngReg c r)) := by
  cases n with
  | zero => exact absurd rfl hz
  | succ n => rfl

/-- At any position the invariant gives the accumulator at some contents beside what it carries along. -/
theorem Phi_weak3 (c : Dev nD) (n : ℕ) (h : n ≤ cfg3.N) :
    PhiS3 V c n h ⊢ iprop(iprop(iprop((∃ d, owns (c : Thread nD τ) scM3_0 fullShare d)) ∗ restBut3 (F := F) c) ∗ (∃ r, prngReg c r)) := by
  by_cases hz : n = 0
  · rw [PhiS3_zero V c n h hz, PhiA3_eq]
    try exact Idealize.SL.BI.Entails.refl _
  · rw [PhiS3_pos V c n h hz]
    iintro ⟨⟨HS0, HR⟩, Hg⟩
    isplitl [HS0 HR]
    · isplitl [HS0]
      · iexists _; iexact HS0
      iexact HR
    iexact Hg

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 25 := lt_of_lt_of_eq t.isLt (show cfg3.N = 25 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  by_cases h0 : t.val % 5 = 0
  · by_cases h1 : t.val % 5 = 4
    · exfalso; omega
    · rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold stepA3 sout3_A_0; (try dsimp only)
      rw [PhiS3_castSucc V c t]
      iintro ⟨HΦ, Ho, ⟨%d0, H0⟩, ⟨%d1, H1⟩, ⟨%d2, H2⟩, ⟨%d3, H3⟩⟩
      ihave HΦ := (Phi_weak3 V c _ _) $$ HΦ
      icases HΦ with ⟨⟨HS0, HR⟩, Hg⟩
      iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover3_A_0 c _ _ _ _ _ _ _ _ _ _ _ _ _ _ _ _)
      iexists _; iexact H3
  · by_cases h1 : t.val % 5 = 4
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold stepC3 out3_C_3 sout3_C_0; (try dsimp only)
      rw [PhiS3_castSucc V c t, PhiS3_pos V c _ _ (by omega)]
      iintro ⟨⟨⟨HS0, HR⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      iframe H0 H1 H2 HS0
      isplitl [H3]; · iexists _; iexact H3
      iintro ⟨H0, H1, H2, ⟨%e3, H3⟩, ⟨%es0, HS0⟩⟩
      iframe HR Hg Ho H0 H1 H2
      isplitl [HS0]
      · unfold owns; iexists _; isplitr
        swap; · iexact HS0
        ipureintro; exact View.read_writes_of_cover _ _ _ _ _ (scover3_C_0 c _ _ _ _ _ _ _ _ _ _ _ _ _ _ _ _ _)
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold stepB3 sout3_B_0; (try dsimp only)
      rw [PhiS3_castSucc V c t, PhiS3_pos V c _ _ (by omega)]
      iintro ⟨⟨⟨HS0, HR⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover3_B_0 c _ _ _ _ _ _ _ _ _ _ _ _ _ _ _ _ _)
      iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

theorem Phi_out3 (c : Dev nD) (t : Fin (cfg3.N + 1)) : (dat3 V c).Φ t ⊢ Pipeline.ΦA spec3 c := by
  rw [PhiA3_eq]; exact Phi_weak3 V c t.val (Nat.le_of_lt_succ t.isLt)

theorem hout3 (c : Dev nD) : (dat3 V c).Φ (Fin.last cfg3.N) ⊢ Pipeline.ΦA spec3 c := Phi_out3 V c _

end Cert.KernelIdeal.Hand

end
-- ==== Proof.KI.R4Runs.lean ====
import proofs.«414095_j12086037971444_1_alg».proof.Proof.Gen.KernelIdeal.Launch
import proofs.«414095_j12086037971444_1_alg».proof.Proof.Gen.KernelIdeal.Skeleton
import proofs.«414095_j12086037971444_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 2).val) 0#32)) 0#32) = 1#1

theorem hcond4_0 : ∀ t : Fin cfg4.N, cond4_0 (grid4.coords t) :=
  (by decide +kernel : ∀ t : Fin grid4.N, cond4_0 (grid4.coords t))

abbrev cond4_1 (i : grid4.Coords) : Prop := k4_cond2 i = 1#1

theorem hcond4_1 : ∀ t : Fin cfg4.N, cond4_1 (grid4.coords t) :=
  (by decide +kernel : ∀ t : Fin grid4.N, cond4_1 (grid4.coords t))

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel

theorem liveAt4_3 : ∀ t : Fin cfg4.N, cfg4.idle 3 (grid4.coords t) = false := by decide +kernel

abbrev VO4_3 : View sig .tc .vmem S2048x128 .f32 := (Memref.whole cc4_stg3_0 : Memref sig .tc .vmem S2048x128 .f32).view

abbrev scM4_0 : Memref sig .tc .vmem S2048x128 .f32 := Memref.whole cc4_scratch0

theorem PhiA4_eq (c : Dev nD) :
    (Pipeline.ΦA spec4 c : sProp 𝕄)
      = iprop(iprop(iprop((∃ d, owns (c : Thread nD τ) scM4_0 fullShare d))
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KI.R4RunA.lean ====
import proofs.«414095_j12086037971444_1_alg».proof.Proof.KI.R4Runs

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun4_A (c : Dev nD) (i : grid4.Coords) (arg3 : Memref sig .tc .vmem S2048x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond4_0 i) (hc1 : cond4_1 i)
    (x0 : Vec F S2048x512 .bf16) (x1 : Vec F S512x128 .bf16) (x2 : Vec F S1x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc4__mm_kernel i arg3 harg3 arg4 harg4 arg5 harg5 arg6 harg6 arg7 harg7) K } := by
  refine ⟨?_, ?_, fun E K => ?run⟩
  case run =>
    simp only [cc4__mm_kernel_eq_skeleton]; unfold cc4__mm_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.R4Frame.lean ====
import proofs.«414095_j12086037971444_1_alg».proof.Proof.KI.R4RunA

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Step
variable (c : Dev nD) (i : grid4.Coords) (arg3 : Memref sig .tc .vmem S2048x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)

theorem cover4_A_3 (hc0 : cond4_0 i) (hc1 : cond4_1 i)
    (x0 : Vec F S2048x512 .bf16) (x1 : Vec F S512x128 .bf16) (x2 : Vec F S1x128 .f32) (y : S2048x128.Idx) :
    ∃ pc ∈ (kernelRun4_A c i arg3 harg3 arg4 harg4 arg5 harg5 arg6 harg6 arg7 harg7 hc0 hc1 x0 x1 x2).1, y ∈ pc.1.set :=
  View.cover_of_tiledL (kernelRun4_A c i arg3 harg3 arg4 harg4 arg5 harg5 arg6 harg6 arg7 harg7 hc0 hc1 x0 x1 x2).1 S2048x128.size (by sl_kernel_rfl) y

def out4_A_3 (hc0 : cond4_0 i) (hc1 : cond4_1 i)
    (x0 : Vec F S2048x512 .bf16) (x1 : Vec F S512x128 .bf16) (x2 : Vec F S1x128 .f32) : Vec F S2048x128 .f32 :=
  VO4_3.read (Elt F) (VO4_3.writes (Elt F) VO4_3.junk (kernelRun4_A c i arg3 harg3 arg4 harg4 arg5 harg5 arg6 harg6 arg7 harg7 hc0 hc1 x0 x1 x2).1)

end Step

abbrev ms4_0 (t : Fin cfg4.N) : Memref sig .tc .vmem S2048x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x128 .f32 := win4_3.stage (cfg4.slots t 3)
abbrev hs4_3 (t : Fin cfg4.N) : (ms4_3 t).IsWhole := hstage4_3 ((cfg4.slots t 3).cast nbuf4_3)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_A_3 c (grid4.coords t) (ms4_0 t) (hs4_0 t) (ms4_1 t) (hs4_1 t) (ms4_2 t) (hs4_2 t) (ms4_3 t) (hs4_3 t) scM4_0 (Memref.isWhole_whole _) (hcond4_0 t) (hcond4_1 t) (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_A_3 c (grid4.coords t) (ms4_0 t) (hs4_0 t) (ms4_1 t) (hs4_1 t) (ms4_2 t) (hs4_2 t) (ms4_3 t) (hs4_3 t) scM4_0 (Memref.isWhole_whole _) (hcond4_0 t) (hcond4_1 t) (iblk4 V c 0 t) (iblk4 V c 1 t) (iblk4 V c 2 t) := by dsimp only [dat4]

theorem Phi4_eq (c : Dev nD) (n : Fin (cfg4.N + 1)) : (dat4 V c).Φ n = Pipeline.ΦA spec4 c := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [Phi4_eq, Phi4_eq]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  unfold out4_A_3; (try dsimp only)
  rw [PhiA4_eq]
  iintro ⟨⟨⟨HS0, Hrest⟩, Hg⟩, Ho, ⟨%d0, H0⟩, ⟨%d1, H1⟩, ⟨%d2, H2⟩, ⟨%d3, H3⟩⟩
  iapply ((kernelRun4_A c (grid4.coords t) _ _ _ _ _ _ _ _ _ _ (hcond4_0 t) (hcond4_1 t) (iblk4 V c 0 t) (iblk4 V c 1 t) (iblk4 V c 2 t)).2.2 Set.univ _)
  iframe H0 H1 H2 HS0
  isplitl [H3]; · iexists _; iexact H3
  iintro ⟨H0, H1, H2, ⟨%e3, H3⟩, ⟨%es0, HS0⟩⟩
  iframe Hrest Hg Ho H0 H1 H2
  isplitl [HS0]
  · iexists _; unfold owns; iexists _; isplitr
    swap; · iexact HS0
    ipureintro; rfl
  unfold owns; iexists _; isplitr
  swap; · iexact H3
  ipureintro; exact View.read_writes_of_cover _ _ _ _ _ (cover4_A_3 c _ _ _ _ _ _ _ _ _ _ _ _ _ _ _ _)

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [Phi4_eq]

theorem hout4 (c : Dev nD) : (dat4 V c).Φ (Fin.last cfg4.N) ⊢ Pipeline.ΦA spec4 c := by
  rw [Phi4_eq]

end Cert.KernelIdeal.Hand

end
-- ==== Proof.KI.R5Runs.lean ====
import proofs.«414095_j12086037971444_1_alg».proof.Proof.Gen.KernelIdeal.Launch
import proofs.«414095_j12086037971444_1_alg».proof.Proof.Gen.KernelIdeal.Skeleton
import proofs.«414095_j12086037971444_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase
open Idealize.ShloMosaic.Pipeline (Dat)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

abbrev cond5_0 (i : grid5.Coords) : Prop := (Scalar.cmpi .ne (Scalar.extui (Scalar.cmpi .eq (BitVec.ofNat 32 (i 2).val) 0#32)) 0#32) = 1#1

theorem hcond5_0 : ∀ t : Fin cfg5.N, cond5_0 (grid5.coords t) ↔ t.val % 5 = 0 :=
  (by decide +kernel : ∀ t : Fin grid5.N, cond5_0 (grid5.coords t) ↔ t.val % 5 = 0)

abbrev cond5_1 (i : grid5.Coords) : Prop := k5_cond2 i = 1#1

theorem hcond5_1 : ∀ t : Fin cfg5.N, cond5_1 (grid5.coords t) ↔ t.val % 5 = 4 :=
  (by decide +kernel : ∀ t : Fin grid5.N, cond5_1 (grid5.coords t) ↔ t.val % 5 = 4)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel

theorem idleAt5_3_A : ∀ t : Fin cfg5.N, cond5_0 (grid5.coords t) → ¬cond5_1 (grid5.coords t) → cfg5.idle 3 (grid5.coords t) = true := by decide +kernel

theorem noFlush5_3_A : ∀ t : Fin cfg5.N, cond5_0 (grid5.coords t) → ¬cond5_1 (grid5.coords t) → (cfg5.win 3).flush t = false := by decide +kernel

theorem idleAt5_3_B : ∀ t : Fin cfg5.N, ¬cond5_0 (grid5.coords t) → ¬cond5_1 (grid5.coords t) → cfg5.idle 3 (grid5.coords t) = true := by decide +kernel
theorem noFlush5_3_B : ∀ t : Fin cfg5.N, ¬cond5_0 (grid5.coords t) → ¬cond5_1 (grid5.coords t) → (cfg5.win 3).flush t = false := by decide +kernel

theorem liveAt5_3_C : ∀ t : Fin cfg5.N, ¬cond5_0 (grid5.coords t) → cond5_1 (grid5.coords t) → cfg5.idle 3 (grid5.coords t) = false := by decide +kernel

abbrev VO5_3 : View sig .tc .vmem S2048x128 .f32 := (Memref.whole cc5_stg3_0 : Memref sig .tc .vmem S2048x128 .f32).view

abbrev ms5_0 (t : Fin cfg5.N) : Memref sig .tc .vmem S2048x2048 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S2048x128 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S2048x128 .f32 := win5_3.stage (cfg5.slots t 3)
abbrev hs5_3 (t : Fin cfg5.N) : (ms5_3 t).IsWhole := hstage5_3 ((cfg5.slots t 3).cast nbuf5_3)

abbrev scM5_0 : Memref sig .tc .vmem S2048x128 .f32 := Memref.whole cc5_scratch0
abbrev VS5_0 : View sig .tc .vmem S2048x128 .f32 := scM5_0.view

abbrev restBut5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop(iprop((∃ d, owns (c : Thread nD τ) scM5_0 fullShare d)) ∗ restBut5 (F := F) c) ∗ (∃ r, prngReg c r)) := by
  unfold Pipeline.ΦA; rw [scopedRest5_split]; simp only [scM5_0, owns_whole]; try rfl

end Cert.KernelIdeal.Hand

end
-- ==== Proof.KI.R5RunA.lean ====
import proofs.«414095_j12086037971444_1_alg».proof.Proof.KI.R5Runs

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun5_A (c : Dev nD) (i : grid5.Coords) (arg3 : Memref sig .tc .vmem S2048x2048 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond5_0 i) (hc1 : ¬cond5_1 i)
    (x0 : Vec F S2048x2048 .bf16) (x1 : Vec F S2048x128 .bf16) (x2 : Vec F S1x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc5__mm_kernel i arg3 harg3 arg4 harg4 arg5 harg5 arg6 harg6 arg7 harg7) K } := by
  refine ⟨[], ?_, fun xi3 E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R5RunB.lean ====
import proofs.«414095_j12086037971444_1_alg».proof.Proof.KI.R5RunA

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun5_B (c : Dev nD) (i : grid5.Coords) (arg3 : Memref sig .tc .vmem S2048x2048 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond5_0 i) (hc1 : ¬cond5_1 i)
    (x0 : Vec F S2048x2048 .bf16) (x1 : Vec F S2048x128 .bf16) (x2 : Vec F S1x128 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc5__mm_kernel i arg3 harg3 arg4 harg4 arg5 harg5 arg6 harg6 arg7 harg7) K } := by
  refine ⟨[], ?_, fun xi3 E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R5RunC.lean ====
import proofs.«414095_j12086037971444_1_alg».proof.Proof.KI.R5RunB

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem

variable {F : FTy → Type} [FloatOps F]

local notation "𝕄" => MT nD τ sig Unit (Elt F) ℕ (UR sig nD τ) ℕ

set_option maxHeartbeats 1000000 in

noncomputable def kernelRun5_C (c : Dev nD) (i : grid5.Coords) (arg3 : Memref sig .tc .vmem S2048x2048 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond5_0 i) (hc1 : cond5_1 i)
    (x0 : Vec F S2048x2048 .bf16) (x1 : Vec F S2048x128 .bf16) (x2 : Vec F S1x128 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc5__mm_kernel i arg3 harg3 arg4 harg4 arg5 harg5 arg6 harg6 arg7 harg7) K } := by
  refine ⟨?_, ?_, fun E K => ?run⟩
  case run =>
    simp only [cc5__mm_kernel_eq_skeleton]; unfold cc5__mm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.R5Frame.lean ====
import proofs.«414095_j12086037971444_1_alg».proof.Proof.KI.R5RunC

noncomputable section

namespace Cert.KernelIdeal.Hand

open Cert.KernelIdeal Cert.KernelIdeal.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Step
variable (c : Dev nD) (i : grid5.Coords) (arg3 : Memref sig .tc .vmem S2048x2048 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)

def out5_A_3 (hc0 : cond5_0 i) (hc1 : ¬cond5_1 i)
    (x0 : Vec F S2048x2048 .bf16) (x1 : Vec F S2048x128 .bf16) (x2 : Vec F S1x128 .f32) : Vec F S2048x128 .f32 :=
  VO5_3.read (Elt F) (VO5_3.writes (Elt F) VO5_3.junk (kernelRun5_A c i arg3 harg3 arg4 harg4 arg5 harg5 arg6 harg6 arg7 harg7 hc0 hc1 x0 x1 x2).1)

theorem scover5_A_0 (hc0 : cond5_0 i) (hc1 : ¬cond5_1 i)
    (x0 : Vec F S2048x2048 .bf16) (x1 : Vec F S2048x128 .bf16) (x2 : Vec F S1x128 .f32) (y : S2048x128.Idx) :
    ∃ pc ∈ (kernelRun5_A c i arg3 harg3 arg4 harg4 arg5 harg5 arg6 harg6 arg7 harg7 hc0 hc1 x0 x1 x2).2.1, y ∈ pc.1.set :=
  View.cover_of_tiledL (kernelRun5_A c i arg3 harg3 arg4 harg4 arg5 harg5 arg6 harg6 arg7 harg7 hc0 hc1 x0 x1 x2).2.1 S2048x128.size (by sl_kernel_rfl) y

def sout5_A_0 (hc0 : cond5_0 i) (hc1 : ¬cond5_1 i)
    (x0 : Vec F S2048x2048 .bf16) (x1 : Vec F S2048x128 .bf16) (x2 : Vec F S1x128 .f32) : Vec F S2048x128 .f32 :=
  VS5_0.read (Elt F) (VS5_0.writes (Elt F) VS5_0.junk (kernelRun5_A c i arg3 harg3 arg4 harg4 arg5 harg5 arg6 harg6 arg7 harg7 hc0 hc1 x0 x1 x2).2.1)

def out5_B_3 (hc0 : ¬cond5_0 i) (hc1 : ¬cond5_1 i)
    (x0 : Vec F S2048x2048 .bf16) (x1 : Vec F S2048x128 .bf16) (x2 : Vec F S1x128 .f32) (xs0 : Vec F S2048x128 .f32) : Vec F S2048x128 .f32 :=
  VO5_3.read (Elt F) (VO5_3.writes (Elt F) VO5_3.junk (kernelRun5_B c i arg3 harg3 arg4 harg4 arg5 harg5 arg6 harg6 arg7 harg7 hc0 hc1 x0 x1 x2 xs0).1)

theorem scover5_B_0 (hc0 : ¬cond5_0 i) (hc1 : ¬cond5_1 i)
    (x0 : Vec F S2048x2048 .bf16) (x1 : Vec F S2048x128 .bf16) (x2 : Vec F S1x128 .f32) (xs0 : Vec F S2048x128 .f32) (y : S2048x128.Idx) :
    ∃ pc ∈ (kernelRun5_B c i arg3 harg3 arg4 harg4 arg5 harg5 arg6 harg6 arg7 harg7 hc0 hc1 x0 x1 x2 xs0).2.1, y ∈ pc.1.set :=
  View.cover_of_tiledL (kernelRun5_B c i arg3 harg3 arg4 harg4 arg5 harg5 arg6 harg6 arg7 harg7 hc0 hc1 x0 x1 x2 xs0).2.1 S2048x128.size (by sl_kernel_rfl) y

def sout5_B_0 (hc0 : ¬cond5_0 i) (hc1 : ¬cond5_1 i)
    (x0 : Vec F S2048x2048 .bf16) (x1 : Vec F S2048x128 .bf16) (x2 : Vec F S1x128 .f32) (xs0 : Vec F S2048x128 .f32) : Vec F S2048x128 .f32 :=
  VS5_0.read (Elt F) (VS5_0.writes (Elt F) VS5_0.junk (kernelRun5_B c i arg3 harg3 arg4 harg4 arg5 harg5 arg6 harg6 arg7 harg7 hc0 hc1 x0 x1 x2 xs0).2.1)

theorem cover5_C_3 (hc0 : ¬cond5_0 i) (hc1 : cond5_1 i)
    (x0 : Vec F S2048x2048 .bf16) (x1 : Vec F S2048x128 .bf16) (x2 : Vec F S1x128 .f32) (xs0 : Vec F S2048x128 .f32) (y : S2048x128.Idx) :
    ∃ pc ∈ (kernelRun5_C c i arg3 harg3 arg4 harg4 arg5 harg5 arg6 harg6 arg7 harg7 hc0 hc1 x0 x1 x2 xs0).1, y ∈ pc.1.set :=
  View.cover_of_tiledL (kernelRun5_C c i arg3 harg3 arg4 harg4 arg5 harg5 arg6 harg6 arg7 harg7 hc0 hc1 x0 x1 x2 xs0).1 S2048x128.size (by sl_kernel_rfl) y

def out5_C_3 (hc0 : ¬cond5_0 i) (hc1 : cond5_1 i)
    (x0 : Vec F S2048x2048 .bf16) (x1 : Vec F S2048x128 .bf16) (x2 : Vec F S1x128 .f32) (xs0 : Vec F S2048x128 .f32) : Vec F S2048x128 .f32 :=
  VO5_3.read (Elt F) (VO5_3.writes (Elt F) VO5_3.junk (kernelRun5_C c i arg3 harg3 arg4 harg4 arg5 harg5 arg6 harg6 arg7 harg7 hc0 hc1 x0 x1 x2 xs0).1)

theorem scover5_C_0 (hc0 : ¬cond5_0 i) (hc1 : cond5_1 i)
    (x0 : Vec F S2048x2048 .bf16) (x1 : Vec F S2048x128 .bf16) (x2 : Vec F S1x128 .f32) (xs0 : Vec F S2048x128 .f32) (y : S2048x128.Idx) :
    ∃ pc ∈ (kernelRun5_C c i arg3 harg3 arg4 harg4 arg5 harg5 arg6 harg6 arg7 harg7 hc0 hc1 x0 x1 x2 xs0).2.1, y ∈ pc.1.set :=
  View.cover_of_tiledL (kernelRun5_C c i arg3 harg3 arg4 harg4 arg5 harg5 arg6 harg6 arg7 harg7 hc0 hc1 x0 x1 x2 xs0).2.1 S2048x128.size (by sl_kernel_rfl) y

def sout5_C_0 (hc0 : ¬cond5_0 i) (hc1 : cond5_1 i)
    (x0 : Vec F S2048x2048 .bf16) (x1 : Vec F S2048x128 .bf16) (x2 : Vec F S1x128 .f32) (xs0 : Vec F S2048x128 .f32) : Vec F S2048x128 .f32 :=
  VS5_0.read (Elt F) (VS5_0.writes (Elt F) VS5_0.junk (kernelRun5_C c i arg3 harg3 arg4 harg4 arg5 harg5 arg6 harg6 arg7 harg7 hc0 hc1 x0 x1 x2 xs0).2.1)

end Step

def stepA5 (c : Dev nD) (t : Fin cfg5.N) (h0 : t.val % 5 = 0) (h1 : ¬t.val % 5 = 4) : Vec F S2048x128 .f32 × Vec F S2048x128 .f32 :=
  (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t),
    sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t))

def stepB5 (c : Dev nD) (t : Fin cfg5.N) (h0 : ¬t.val % 5 = 0) (h1 : ¬t.val % 5 = 4) (xs : Vec F S2048x128 .f32) : Vec F S2048x128 .f32 × Vec F S2048x128 .f32 :=
  (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) xs,
    sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) xs)

def stepC5 (c : Dev nD) (t : Fin cfg5.N) (h0 : ¬t.val % 5 = 0) (h1 : t.val % 5 = 4) (xs : Vec F S2048x128 .f32) : Vec F S2048x128 .f32 × Vec F S2048x128 .f32 :=
  (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) xs,
    sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) xs)

def outsAt5 (c : Dev nD) : (n : ℕ) → n < cfg5.N → Vec F S2048x128 .f32 × Vec F S2048x128 .f32
  | 0, hn => stepA5 V c ⟨0, hn⟩ (Nat.zero_mod _) (by show ¬(0 % 5 = 4); decide)
  | n + 1, hn =>
    if h0 : (n + 1) % 5 = 0 then
      if h1 : (n + 1) % 5 = 4 then False.elim (by omega) else stepA5 V c ⟨n + 1, hn⟩ h0 h1
    else
      if h1 : (n + 1) % 5 = 4 then stepC5 V c ⟨n + 1, hn⟩ h0 h1 (outsAt5 c n (Nat.lt_of_succ_lt hn)).2
      else stepB5 V c ⟨n + 1, hn⟩ h0 h1 (outsAt5 c n (Nat.lt_of_succ_lt hn)).2

theorem outsAt5_A (c : Dev nD) (t : Fin cfg5.N) (h0 : t.val % 5 = 0) (h1 : ¬t.val % 5 = 4) :
    outsAt5 V c t.val t.isLt = stepA5 V c t h0 h1 := by
  obtain ⟨n, hn⟩ := t
  cases n with
  | zero => exact rfl
  | succ n => exact (dif_pos h0).trans ((dif_neg h1).trans rfl)

theorem outsAt5_B (c : Dev nD) (t : Fin cfg5.N) (h0 : ¬t.val % 5 = 0) (h1 : ¬t.val % 5 = 4) :
    outsAt5 V c t.val t.isLt = stepB5 V c t h0 h1 (outsAt5 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt5_C (c : Dev nD) (t : Fin cfg5.N) (h0 : ¬t.val % 5 = 0) (h1 : t.val % 5 = 4) :
    outsAt5 V c t.val t.isLt = stepC5 V c t h0 h1 (outsAt5 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h1).trans rfl)

def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ restBut5 (F := F) c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ restBut5 (F := F) c) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ restBut5 (F := F) c) ∗ (∃ r, prngReg c r)) := by
  cases n with
  | zero => exact absurd rfl hz
  | succ n => rfl

/-- At any position the invariant gives the accumulator at some contents beside what it carries along. -/
theorem Phi_weak5 (c : Dev nD) (n : ℕ) (h : n ≤ cfg5.N) :
    PhiS5 V c n h ⊢ iprop(iprop(iprop((∃ d, owns (c : Thread nD τ) scM5_0 fullShare d)) ∗ restBut5 (F := F) c) ∗ (∃ r, prngReg c r)) := by
  by_cases hz : n = 0
  · rw [PhiS5_zero V c n h hz, PhiA5_eq]
    try exact Idealize.SL.BI.Entails.refl _
  · rw [PhiS5_pos V c n h hz]
    iintro ⟨⟨HS0, HR⟩, Hg⟩
    isplitl [HS0 HR]
    · isplitl [HS0]
      · iexists _; iexact HS0
      iexact HR
    iexact Hg

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 25 := lt_of_lt_of_eq t.isLt (show cfg5.N = 25 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  by_cases h0 : t.val % 5 = 0
  · by_cases h1 : t.val % 5 = 4
    · exfalso; omega
    · rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
      rw [outsAt5_A V c t h0 h1]
      unfold stepA5 sout5_A_0; (try dsimp only)
      rw [PhiS5_castSucc V c t]
      iintro ⟨HΦ, Ho, ⟨%d0, H0⟩, ⟨%d1, H1⟩, ⟨%d2, H2⟩, ⟨%d3, H3⟩⟩
      ihave HΦ := (Phi_weak5 V c _ _) $$ HΦ
      icases HΦ with ⟨⟨HS0, HR⟩, Hg⟩
      iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover5_A_0 c _ _ _ _ _ _ _ _ _ _ _ _ _ _ _ _)
      iexists _; iexact H3
  · by_cases h1 : t.val % 5 = 4
    · rw [show (dat5 V c).leavesExact 3 t = owns (c : Thread nD τ) (ms5_3 t) fullShare ((dat5 V c).after 3 t) from by
        unfold Dat.leavesExact; rw [liveAt5_3_C t (fun h => h0 ((hcond5_0 t).mp h)) ((hcond5_1 t).mpr h1)], after5_3]
      rw [outsAt5_C V c t h0 h1]
      unfold stepC5 out5_C_3 sout5_C_0; (try dsimp only)
      rw [PhiS5_castSucc V c t, PhiS5_pos V c _ _ (by omega)]
      iintro ⟨⟨⟨HS0, HR⟩, Hg⟩, Ho, ⟨%d0, H0⟩, ⟨%d1, H1⟩, ⟨%d2, H2⟩, ⟨%d3, H3⟩⟩
      iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
      iframe H0 H1 H2 HS0
      isplitl [H3]; · iexists _; iexact H3
      iintro ⟨H0, H1, H2, ⟨%e3, H3⟩, ⟨%es0, HS0⟩⟩
      iframe HR Hg Ho H0 H1 H2
      isplitl [HS0]
      · unfold owns; iexists _; isplitr
        swap; · iexact HS0
        ipureintro; exact View.read_writes_of_cover _ _ _ _ _ (scover5_C_0 c _ _ _ _ _ _ _ _ _ _ _ _ _ _ _ _ _)
      unfold owns; iexists _; isplitr
      swap; · iexact H3
      ipureintro; exact View.read_writes_of_cover _ _ _ _ _ (cover5_C_3 c _ _ _ _ _ _ _ _ _ _ _ _ _ _ _ _ _)
    · rw [Dat.leavesExact_idle (dat5 V c) 3 t (idleAt5_3_B t (fun h => h0 ((hcond5_0 t).mp h)) (fun h => h1 ((hcond5_1 t).mp h))) (noFlush5_3_B t (fun h => h0 ((hcond5_0 t).mp h)) (fun h => h1 ((hcond5_1 t).mp h)))]
      rw [outsAt5_B V c t h0 h1]
      unfold stepB5 sout5_B_0; (try dsimp only)
      rw [PhiS5_castSucc V c t, PhiS5_pos V c _ _ (by omega)]
      iintro ⟨⟨⟨HS0, HR⟩, Hg⟩, Ho, ⟨%d0, H0⟩, ⟨%d1, H1⟩, ⟨%d2, H2⟩, ⟨%d3, H3⟩⟩
      iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
      iframe H0 H1 H2 H3 HS0
      iintro ⟨H0, H1, H2, H3, ⟨%es0, HS0⟩⟩
      iframe HR Hg Ho H0 H1 H2
      isplitl [HS0]
      · unfold owns; iexists _; isplitr
        swap; · iexact HS0
        ipureintro; exact View.read_writes_of_cover _ _ _ _ _ (scover5_B_0 c _ _ _ _ _ _ _ _ _ _ _ _ _ _ _ _ _)
      iexists _; iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

theorem Phi_out5 (c : Dev nD) (t : Fin (cfg5.N + 1)) : (dat5 V c).Φ t ⊢ Pipeline.ΦA spec5 c := by
  rw [PhiA5_eq]; exact Phi_weak5 V c t.val (Nat.le_of_lt_succ t.isLt)

theorem hout5 (c : Dev nD) : (dat5 V c).Φ (Fin.last cfg5.N) ⊢ Pipeline.ΦA spec5 c := Phi_out5 V c _

end Cert.KernelIdeal.Hand

end
-- ==== Proof.KI.Run.lean ====
import proofs.«414095_j12086037971444_1_alg».proof.Proof.Gen.KernelIdeal.Launch
import proofs.«414095_j12086037971444_1_alg».proof.Proof.Gen.KernelIdeal.Skeleton
import proofs.«414095_j12086037971444_1_alg».proof.Proof.Gen.KernelIdeal.Points
import proofs.«414095_j12086037971444_1_alg».proof.Proof.KI.R0Frame
import proofs.«414095_j12086037971444_1_alg».proof.Proof.KI.R1Frame
import proofs.«414095_j12086037971444_1_alg».proof.Proof.KI.R2Frame
import proofs.«414095_j12086037971444_1_alg».proof.Proof.KI.R3Frame
import proofs.«414095_j12086037971444_1_alg».proof.Proof.KI.R4Frame
import proofs.«414095_j12086037971444_1_alg».proof.Proof.KI.R5Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.SL Idealize.SL.RA Idealize.SL.BI
open Idealize.SL.BI.BIBase Idealize.SL.Sem
open Idealize.ShloMosaic.Rounds
open Idealize.ShloMosaic.Pipeline (Dat BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of every buffer before each segment of the run, from the launch memory `W0` on. -/
abbrev W0 : Dev nD → Valuation τ sig (Elt F) := fun c b => (s₀ m ρ).mem ((c : Dev nD), b)

abbrev asV (W : Dev nD → Valuation τ sig (Elt F)) : (c : Dev nD) → (b : Ref sig .tc) → Buf (Elt F) ((c : Thread nD τ).loc b) := fun c b => W c b

abbrev W1 (c : Dev nD) := StableHlo.after hostOps0 (W0 m ρ c)

abbrev V1 := asV (W1 m ρ)

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 (c : Dev nD) := StableHlo.after hostOps1 (W2 m ρ c)

abbrev V3 := asV (W3 m ρ)

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N :=
  Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev W5 (c : Dev nD) := StableHlo.after hostOps2 (W4 m ρ c)

abbrev V5 := asV (W5 m ρ)

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb

abbrev W7 (c : Dev nD) := StableHlo.after hostOps3 (W6 m ρ c)

abbrev V7 := asV (W7 m ρ)

def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N :=
  Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) :=
  Pipeline.withArrays_of_ne spec3 c _ _ b hb

abbrev W9 (c : Dev nD) := StableHlo.after hostOps4 (W8 m ρ c)

abbrev V9 := asV (W9 m ρ)

def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) :=
  Pipeline.withArrays_of_ne spec4 c _ _ b hb

abbrev W11 (c : Dev nD) := StableHlo.after hostOps5 (W10 m ρ c)

abbrev V11 := asV (W11 m ρ)

def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) :=
  Pipeline.withArrays_of_ne spec5 c _ _ b hb

abbrev W13 (c : Dev nD) := StableHlo.after hostOps6 (W12 m ρ c)

abbrev W14 (c : Dev nD) := StableHlo.after hostOps6_1 (W13 m ρ c)

abbrev argRefs : List (Ref sig .tc) :=
  [main_arg0, main_arg1, main_arg2, main_arg3, main_arg4, main_arg5, main_arg6, main_arg7]

/-- No host operation writes an argument. -/
theorem host_keeps (b : Ref sig .tc) (hb : b ∈ argRefs) :
    (∀ W : Valuation τ sig (Elt F), StableHlo.after hostOps0 W (Proc.devRef .tc b) = W (Proc.devRef .tc b))
    ∧ (∀ W : Valuation τ sig (Elt F), StableHlo.after hostOps1 W (Proc.devRef .tc b) = W (Proc.devRef .tc b))
    ∧ (∀ W : Valuation τ sig (Elt F), StableHlo.after hostOps2 W (Proc.devRef .tc b) = W (Proc.devRef .tc b))
    ∧ (∀ W : Valuation τ sig (Elt F), StableHlo.after hostOps3 W (Proc.devRef .tc b) = W (Proc.devRef .tc b))
    ∧ (∀ W : Valuation τ sig (Elt F), StableHlo.after hostOps4 W (Proc.devRef .tc b) = W (Proc.devRef .tc b))
    ∧ (∀ W : Valuation τ sig (Elt F), StableHlo.after hostOps5 W (Proc.devRef .tc b) = W (Proc.devRef .tc b))
    ∧ (∀ W : Valuation τ sig (Elt F), StableHlo.after hostOps6 W (Proc.devRef .tc b) = W (Proc.devRef .tc b))
    ∧ (∀ W : Valuation τ sig (Elt F), StableHlo.after hostOps6_1 W (Proc.devRef .tc b) = W (Proc.devRef .tc b)) := by
  refine ⟨?_, ?_, ?_, ?_, ?_, ?_, ?_, ?_⟩ <;> intro W <;>
    refine StableHlo.after_of_forall_not_mem (b := Proc.devRef .tc b) _ _ (List.forall_iff_forall_mem.mp ?_) <;>
    simp only [hostOps0, hostOps1, hostOps2, hostOps3, hostOps4, hostOps5, hostOps6, hostOps6_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton] <;>
    repeat' apply And.intro
  all_goals exact StableHlo.devRef_ne_of_ne fun e => by subst e; exact absurd hb (by decide)

/-- No window's array is an argument. -/
theorem arrs_not_args : (∀ w, Pipeline.arrRef spec0 w ∉ argRefs) ∧ (∀ w, Pipeline.arrRef spec1 w ∉ argRefs) ∧ (∀ w, Pipeline.arrRef spec2 w ∉ argRefs) ∧ (∀ w, Pipeline.arrRef spec3 w ∉ argRefs) ∧ (∀ w, Pipeline.arrRef spec4 w ∉ argRefs) ∧ (∀ w, Pipeline.arrRef spec5 w ∉ argRefs) := by
  decide

/-- Hence an argument's contents stay as launched throughout. -/
theorem W_args (c : Dev nD) (b : Ref sig .tc) (hb : b ∈ argRefs) :
    W2 m ρ c (Proc.devRef .tc b) = m ((c : Thread nD τ).loc b) ∧ W4 m ρ c (Proc.devRef .tc b) = m ((c : Thread nD τ).loc b)
      ∧ W6 m ρ c (Proc.devRef .tc b) = m ((c : Thread nD τ).loc b) ∧ W14 m ρ c (Proc.devRef .tc b) = m ((c : Thread nD τ).loc b) := by
  obtain ⟨k0, k1, k2, k3, k4, k5, k6, k7⟩ := host_keeps (F := F) b hb
  obtain ⟨a0, a1, a2, a3, a4, a5⟩ := arrs_not_args
  have e2 :=
    (W2_of_ne m ρ c b fun w e => a0 w (e.symm ▸ hb)).trans (k0 _)
  have e4 :=
    (W4_of_ne m ρ c b fun w e => a1 w (e.symm ▸ hb)).trans <| (k1 _).trans e2
  have e6 :=
    (W6_of_ne m ρ c b fun w e => a2 w (e.symm ▸ hb)).trans <| (k2 _).trans e4
  exact ⟨e2, e4, e6, (k7 _).trans <| (k6 _).trans <| (W12_of_ne m ρ c b fun w e => a5 w (e.symm ▸ hb)).trans <| (k5 _).trans <|
    (W10_of_ne m ρ c b fun w e => a4 w (e.symm ▸ hb)).trans <| (k4 _).trans <|
    (W8_of_ne m ρ c b fun w e => a3 w (e.symm ▸ hb)).trans <| (k3 _).trans e6⟩

abbrev adm : (p : Fin 6) → (pcfgs (F := F) p).Adm := fun p => (cfgs p).toPCfg_adm

def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W14 m ρ c) ∗ ∃ r, prngReg c r)

/-- A call's region from the contents `W` to `W'`: `W'` is `W` off the windows' arrays and the proof data's last values at them. -/
def mkReg (p : Fin 6) (launch : Pipeline.LaunchFacts (nD := nD) (τ := τ) cfgs p) (W W' : Dev nD → Valuation τ sig (Elt F))
    (hbody : ∀ c, BodyObligation (pdats m ρ p c) (defs₀ (F := F)) 𝒱₀ () Set.univ)
    (hin : ∀ c, Pipeline.ΦA (cfgs p).spec c ⊢ (pdats m ρ p c).Φ 0)
    (hout : ∀ c, (pdats m ρ p c).Φ (Fin.last (cfgs p).N) ⊢ Pipeline.ΦA (cfgs p).spec c)
    (hA : ∀ c w, (pdats m ρ p c).A w = asV W c (Pipeline.arrRef (cfgs p).spec w))
    (harr : ∀ c w, W' c (Proc.devRef .tc (Pipeline.arrRef (cfgs p).spec w)) = (pdats m ρ p c).arrAt w (cfgs p).N)
    (hne : ∀ c (b : Ref sig .tc), (∀ w, Pipeline.arrRef (cfgs p).spec w ≠ b) → W' c (Proc.devRef .tc b) = W c (Proc.devRef .tc b))
    (hq : ∀ c w, (pdats m ρ p c).q w = fullShare := by exact fun _ _ => rfl) (howed : ∀ c t, (pdats m ρ p c).owed t = 0 := by exact fun _ _ => rfl)
    (hrec : ∀ c t, (pdats m ρ p c).recorded t = Set.univ := by exact fun _ _ => rfl) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (cfgs p).spec c (asV W c)
  hentry c := by
    rw [Pipeline.ownSems0_none]
    have hsplit := Pipeline.arrays_of_unscopedBufs (p := p) (pcfgs (F := F)) adm (pdats m ρ) launch.win launch.arr_whole c
      ((pdats m ρ p c).share_full (hq c)) (asV W c) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin Pipeline.Dat.bound
    rw [howed, hrec]
    icases HO with ⟨%W, HO⟩; iexists W; isplitr; · ipureintro; exact fun _ _ => Or.inl trivial
    iexact HO
  hin c := by
    refine Idealize.SL.BI.BIBase.Entails.trans ?_ (hin c)
    unfold Pipeline.ΦA
    iintro ⟨Hp, -, Hr⟩
    iframe Hr Hp
  hout c := by
    rw [Pipeline.ownSems0_none]
    refine (hout c).trans ?_
    unfold Pipeline.ΦA
    iintro ⟨Hr, Hp⟩
    iframe Hp Hr; iempintro
  hexit c := by
    have hjoin := Pipeline.unscopedBufs_of_arrays (p := p) (pcfgs (F := F)) adm
      launch.win launch.arr_whole c (pdats m ρ) ((pdats m ρ p c).share_full (hq c))
      (asV W c) (asV W' c) ((pdats m ρ p c).arrAt · (cfgs p).N) (fun w => (harr c w).symm)
      fun b hb => hne c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe Ha Hrest
    isplitl [HY]; · iexact HY
    unfold Pipeline.Dat.owesAt Pipeline.owesWithin
    rw [howed]
    icases HO with ⟨%W, -, HO⟩; iexists W; iexact HO

set_option backward.isDefEq.respectTransparency.types false in
def reg0 := mkReg m ρ 0 launch0 (W1 m ρ) (W2 m ρ) (body_obligation0 (V1 m ρ))
  (hin0 (V1 m ρ)) (hout0 (V1 m ρ)) (A_eq0 (V1 m ρ)) (W2_arr m ρ) (W2_of_ne m ρ)

set_option backward.isDefEq.respectTransparency.types false in
def reg1 := mkReg m ρ 1 launch1 (W3 m ρ) (W4 m ρ) (body_obligation1 (V3 m ρ))
  (hin1 (V3 m ρ)) (hout1 (V3 m ρ)) (A_eq1 (V3 m ρ)) (W4_arr m ρ) (W4_of_ne m ρ)

set_option backward.isDefEq.respectTransparency.types false in
def reg2 := mkReg m ρ 2 launch2 (W5 m ρ) (W6 m ρ) (body_obligation2 (V5 m ρ))
  (hin2 (V5 m ρ)) (hout2 (V5 m ρ)) (A_eq2 (V5 m ρ)) (W6_arr m ρ) (W6_of_ne m ρ)

set_option backward.isDefEq.respectTransparency.types false in
def reg3 := mkReg m ρ 3 launch3 (W7 m ρ) (W8 m ρ) (body_obligation3 (V7 m ρ))
  (hin3 (V7 m ρ)) (hout3 (V7 m ρ)) (A_eq3 (V7 m ρ)) (W8_arr m ρ) (W8_of_ne m ρ)

set_option backward.isDefEq.respectTransparency.types false in
def reg4 := mkReg m ρ 4 launch4 (W9 m ρ) (W10 m ρ) (body_obligation4 (V9 m ρ))
  (hin4 (V9 m ρ)) (hout4 (V9 m ρ)) (A_eq4 (V9 m ρ)) (W10_arr m ρ) (W10_of_ne m ρ)

set_option backward.isDefEq.respectTransparency.types false in
def reg5 := mkReg m ρ 5 launch5 (W11 m ρ) (W12 m ρ) (body_obligation5 (V11 m ρ))
  (hin5 (V11 m ρ)) (hout5 (V11 m ρ)) (A_eq5 (V11 m ρ)) (W12_arr m ρ) (W12_of_ne m ρ)

abbrev segs : List (Pipeline.Seg (pcfgs (F := F)) adm (pdats m ρ) () defs₀ 𝒱₀ L lv) :=
  [ .host (hseg hostOps0 hostOps0_sub (W0 m ρ)),
    .region (reg0 m ρ),
    .host (hseg hostOps1 hostOps1_sub (W2 m ρ)),
    .region (reg1 m ρ),
    .host (hseg hostOps2 hostOps2_sub (W4 m ρ)),
    .region (reg2 m ρ),
    .host (hseg hostOps3 hostOps3_sub (W6 m ρ)),
    .region (reg3 m ρ),
    .host (hseg hostOps4 hostOps4_sub (W8 m ρ)),
    .region (reg4 m ρ),
    .host (hseg hostOps5 hostOps5_sub (W10 m ρ)),
    .region (reg5 m ρ),
    .host (hseg hostOps6 hostOps6_sub (W12 m ρ)),
    .host (hseg hostOps6_1 hostOps6_1_sub (W13 m ρ)) ]

theorem main_run (c : Dev nD) : main (F := F) c = Pipeline.Seg.run (segs m ρ) := (main_chain c).trans (by chain_rfl)

set_option backward.isDefEq.respectTransparency.types false in

/-- The run terminates without fault and ends with every unscoped buffer at `W14`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

theorem args_unscoped : ∀ b ∈ argRefs, ¬ (Proc.devRef .tc b : DevRef τ sig).isScoped := by decide

theorem kept_arg (c : Dev nD) {mem : (ℓ : Loc nD τ sig) → Buf (Elt F) ℓ}
    (h : ∀ b ∈ Pipeline.ucRefs τ sig, mem (((c : Thread nD τ)).1, b) = W14 m ρ c b) (b : Ref sig .tc) (hb : b ∈ argRefs) :
    mem ((c.tc : Thread nD τ).loc b) = m ((c.tc : Thread nD τ).loc b) :=
  (h _ (mem_uc b (args_unscoped b hb))).trans (W_args m ρ c b hb).2.2.2

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => have k := kept_arg m ρ c (h c)
    ⟨k _ (by decide), k _ (by decide), k _ (by decide), k _ (by decide), k _ (by decide), k _ (by decide), k _ (by decide), k _ (by decide)⟩) (run_all m ρ)

end Cert.KernelIdeal.Hand

end
-- ==== Proof.Spec.lean ====
import Idealize.ShloMosaic.PureOps.Ideal
import Idealize.ShloMosaic.Lib.ValueIdx

noncomputable section

namespace Gcn

open Finset

def dense {M K N : Nat} (A : Fin M → Fin K → EReal) (B : Fin K → Fin N → EReal) (b : Fin N → EReal)
    (r : Fin M) (c : Fin N) : EReal :=
  (∑ k : Fin K, A r k * B k c) + b c

def relu {M N : Nat} (f : Fin M → Fin N → EReal) (r : Fin M) (c : Fin N) : EReal := max (f r c) 0

def zeroBias (N : Nat) : Fin N → EReal := fun _ => 0

section Kernel
variable (xp : Fin 10240 → Fin 896 → EReal) (w1p : Fin 896 → Fin 512 → EReal) (Ah : Fin 10240 → Fin 10240 → EReal)
  (b1 : Fin 512 → EReal) (W2 : Fin 512 → Fin 512 → EReal) (b2 : Fin 512 → EReal)
  (wcp : Fin 512 → Fin 128 → EReal) (bcp : Fin 128 → EReal)

def kL0 : Fin 10240 → Fin 512 → EReal := dense xp w1p (zeroBias 512)
def kL1 : Fin 10240 → Fin 512 → EReal := relu (dense Ah (kL0 xp w1p) b1)
def kL2 : Fin 10240 → Fin 512 → EReal := dense (kL1 xp w1p Ah b1) W2 (zeroBias 512)
def kL3 : Fin 10240 → Fin 512 → EReal := relu (dense Ah (kL2 xp w1p Ah b1 W2) b2)
def kL4 : Fin 10240 → Fin 128 → EReal := dense (kL3 xp w1p Ah b1 W2 b2) wcp (zeroBias 128)
def kL5 : Fin 10240 → Fin 128 → EReal := dense Ah (kL4 xp w1p Ah b1 W2 b2 wcp) bcp

def kLogits (i : Fin 10000) (c : Fin 10) : EReal :=
  kL5 xp w1p Ah b1 W2 b2 wcp bcp (Fin.castLE (by decide) i) (Fin.castLE (by decide) c)
end Kernel

section Reference
variable (src dst : Fin 160000 → Fin 10000) (dinv : Fin 10000 → EReal) (norm : Fin 160000 → EReal)

def conv {D : Nat} (H : Fin 10000 → Fin D → EReal) (b : Fin D → EReal) (i : Fin 10000) (c : Fin D) : EReal :=
  ((0 + ∑ e ∈ univ.filter (fun e : Fin 160000 => dst e = i), H (src e) c * norm e) + H i c * (dinv i * dinv i)) + b c

def proj {K D : Nat} (X : Fin 10000 → Fin K → EReal) (W : Fin K → Fin D → EReal) (i : Fin 10000) (c : Fin D) : EReal :=
  ∑ k : Fin K, X i k * W k c

variable (x : Fin 10000 → Fin 784 → EReal) (W1 : Fin 784 → Fin 512 → EReal) (b1 : Fin 512 → EReal)
  (W2 : Fin 512 → Fin 512 → EReal) (b2 : Fin 512 → EReal) (Wc : Fin 512 → Fin 10 → EReal) (bc : Fin 10 → EReal)

def rL1 : Fin 10000 → Fin 512 → EReal := relu (conv src dst dinv norm (proj x W1) b1)
def rL2 : Fin 10000 → Fin 512 → EReal := relu (conv src dst dinv norm (proj (rL1 src dst dinv norm x W1 b1) W2) b2)

def rLogits : Fin 10000 → Fin 10 → EReal :=
  conv src dst dinv norm (proj (rL2 src dst dinv norm x W1 b1 W2 b2) Wc) bc
end Reference

def pad2 {m k : Nat} (M K : Nat) (a : Fin m → Fin k → EReal) (r : Fin M) (c : Fin K) : EReal :=
  if h : r.val < m ∧ c.val < k then a ⟨r.val, h.1⟩ ⟨c.val, h.2⟩ else 0

def pad1 {k : Nat} (K : Nat) (a : Fin k → EReal) (c : Fin K) : EReal :=
  if h : c.val < k then a ⟨c.val, h⟩ else 0

def Ahat (src dst : Fin 160000 → Fin 10000) (dinv : Fin 10000 → EReal) (norm : Fin 160000 → EReal)
    (i j : Fin 10240) : EReal :=
  (0 + ∑ e ∈ univ.filter (fun e : Fin 160000 => (dst e).val = i.val ∧ (src e).val = j.val), norm e)
    + ∑ n ∈ univ.filter (fun n : Fin 10000 => n.val = i.val ∧ n.val = j.val), dinv n * dinv n

def InRange (E : (⟨2, ![2, 160000]⟩ : Idealize.ShloMosaic.Shape).Idx → BitVec 32) : Prop :=
  ∀ i, 0 ≤ (E i).toInt ∧ (E i).toInt < 10000

def nodeOf (E : (⟨2, ![2, 160000]⟩ : Idealize.ShloMosaic.Shape).Idx → BitVec 32) (h : InRange E)
    (r : Fin 2) (e : Fin 160000) : Fin 10000 :=
  ⟨(E (Idealize.ShloMosaic.ValueIdx.ix2 r e)).toInt.toNat, by have := h (Idealize.ShloMosaic.ValueIdx.ix2 r e); omega⟩

def srcOf (E : (⟨2, ![2, 160000]⟩ : Idealize.ShloMosaic.Shape).Idx → BitVec 32) (h : InRange E) : Fin 160000 → Fin 10000 := nodeOf E h 0
def dstOf (E : (⟨2, ![2, 160000]⟩ : Idealize.ShloMosaic.Shape).Idx → BitVec 32) (h : InRange E) : Fin 160000 → Fin 10000 := nodeOf E h 1

theorem nodeOf_val (E : (⟨2, ![2, 160000]⟩ : Idealize.ShloMosaic.Shape).Idx → BitVec 32) (h : InRange E) (r : Fin 2) (e : Fin 160000) :
    ((nodeOf E h r e).val : Int) = (E (Idealize.ShloMosaic.ValueIdx.ix2 r e)).toInt := by
  have := h (Idealize.ShloMosaic.ValueIdx.ix2 r e)
  simp only [nodeOf]; omega

def Real2 {M N : Nat} (f : Fin M → Fin N → EReal) : Prop := ∀ r c, ∃ v : ℝ, f r c = (v : EReal)
def Real1 {N : Nat} (f : Fin N → EReal) : Prop := ∀ c, ∃ v : ℝ, f c = (v : EReal)

end Gcn

end
-- ==== Proof.KI.HostB.lean ====
import proofs.«414095_j12086037971444_1_alg».proof.Proof.Gen.KernelIdeal.Launch
import proofs.«414095_j12086037971444_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.StableHlo Idealize.ShloMosaic.ValueIdx

variable [Cert.KernelIdeal.Facts]

theorem hostOps1_v78 (W : Valuation τ sig (Elt Ideal)) (c : Fin 512) :
    (StableHlo.after hostOps1 W (Proc.devRef .tc main_v78) : S1x512.Idx → EReal) (ix2 0 c)
      = (W (Proc.devRef .tc main_arg3) : S512.Idx → EReal) (ix1 c) := by
  show StableHlo.after hostOps1 W (Proc.devRef .tc main_v78) (ix2 0 c) = _
  after_results
  exact shapeCast_a_1a_apply _ _ 0 c

theorem hostOps1_v79 (W : Valuation τ sig (Elt Ideal)) :
    (StableHlo.after hostOps1 W (Proc.devRef .tc main_v79) : S10240x512.Idx → EReal)
      = (W (Proc.devRef .tc main_v77) : S10240x512.Idx → EReal) := by
  show StableHlo.after hostOps1 W (Proc.devRef .tc main_v79) = _
  after_results
  rfl

theorem hostOps2_v81 (W : Valuation τ sig (Elt Ideal)) (c : Fin 512) :
    (StableHlo.after hostOps2 W (Proc.devRef .tc main_v81) : S1x512.Idx → EReal) (ix2 0 c)
      = (W (Proc.devRef .tc main_v72) : S512.Idx → EReal) (ix1 c) := by
  show StableHlo.after hostOps2 W (Proc.devRef .tc main_v81) (ix2 0 c) = _
  after_results
  exact shapeCast_a_1a_apply _ _ 0 c

theorem hostOps2_v82 (W : Valuation τ sig (Elt Ideal)) :
    (StableHlo.after hostOps2 W (Proc.devRef .tc main_v82) : S10240x512.Idx → EReal)
      = (W (Proc.devRef .tc main_v80) : S10240x512.Idx → EReal) := by
  show StableHlo.after hostOps2 W (Proc.devRef .tc main_v82) = _
  after_results
  rfl

theorem hostOps2_v83 (W : Valuation τ sig (Elt Ideal)) :
    (StableHlo.after hostOps2 W (Proc.devRef .tc main_v83) : S512x512.Idx → EReal)
      = (W (Proc.devRef .tc main_arg4) : S512x512.Idx → EReal) := by
  show StableHlo.after hostOps2 W (Proc.devRef .tc main_v83) = _
  after_results
  rfl

theorem hostOps3_v85 (W : Valuation τ sig (Elt Ideal)) (c : Fin 512) :
    (StableHlo.after hostOps3 W (Proc.devRef .tc main_v85) : S1x512.Idx → EReal) (ix2 0 c)
      = (W (Proc.devRef .tc main_arg5) : S512.Idx → EReal) (ix1 c) := by
  show StableHlo.after hostOps3 W (Proc.devRef .tc main_v85) (ix2 0 c) = _
  after_results
  exact shapeCast_a_1a_apply _ _ 0 c

theorem hostOps3_v86 (W : Valuation τ sig (Elt Ideal)) :
    (StableHlo.after hostOps3 W (Proc.devRef .tc main_v86) : S10240x512.Idx → EReal)
      = (W (Proc.devRef .tc main_v84) : S10240x512.Idx → EReal) := by
  show StableHlo.after hostOps3 W (Proc.devRef .tc main_v86) = _
  after_results
  rfl

theorem hostOps4_v88 (W : Valuation τ sig (Elt Ideal)) (c : Fin 128) :
    (StableHlo.after hostOps4 W (Proc.devRef .tc main_v88) : S1x128.Idx → EReal) (ix2 0 c)
      = (W (Proc.devRef .tc main_v73) : S128.Idx → EReal) (ix1 c) := by
  show StableHlo.after hostOps4 W (Proc.devRef .tc main_v88) (ix2 0 c) = _
  after_results
  exact shapeCast_a_1a_apply _ _ 0 c

theorem hostOps4_v89 (W : Valuation τ sig (Elt Ideal)) :
    (StableHlo.after hostOps4 W (Proc.devRef .tc main_v89) : S10240x512.Idx → EReal)
      = (W (Proc.devRef .tc main_v87) : S10240x512.Idx → EReal) := by
  show StableHlo.after hostOps4 W (Proc.devRef .tc main_v89) = _
  after_results
  rfl

theorem hostOps4_v90 (W : Valuation τ sig (Elt Ideal)) :
    (StableHlo.after hostOps4 W (Proc.devRef .tc main_v90) : S512x128.Idx → EReal)
      = (W (Proc.devRef .tc main_v10) : S512x128.Idx → EReal) := by
  show StableHlo.after hostOps4 W (Proc.devRef .tc main_v90) = _
  after_results
  rfl

theorem hostOps5_v92 (W : Valuation τ sig (Elt Ideal)) (c : Fin 128) :
    (StableHlo.after hostOps5 W (Proc.devRef .tc main_v92) : S1x128.Idx → EReal) (ix2 0 c)
      = (W (Proc.devRef .tc main_v13) : S128.Idx → EReal) (ix1 c) := by
  show StableHlo.after hostOps5 W (Proc.devRef .tc main_v92) (ix2 0 c) = _
  after_results
  exact shapeCast_a_1a_apply _ _ 0 c

theorem hostOps5_v93 (W : Valuation τ sig (Elt Ideal)) :
    (StableHlo.after hostOps5 W (Proc.devRef .tc main_v93) : S10240x128.Idx → EReal)
      = (W (Proc.devRef .tc main_v91) : S10240x128.Idx → EReal) := by
  show StableHlo.after hostOps5 W (Proc.devRef .tc main_v93) = _
  after_results
  rfl

theorem hostOps6_v95 (W : Valuation τ sig (Elt Ideal)) (i : Fin 10000) (c : Fin 10) :
    (StableHlo.after hostOps6 W (Proc.devRef .tc main_v95) : S10000x10.Idx → EReal) (ix2 i c)
      = (W (Proc.devRef .tc main_v94) : S10240x128.Idx → EReal)
          (ix2 (Fin.castLE (by decide) i) (Fin.castLE (by decide) c)) := by
  show StableHlo.after hostOps6 W (Proc.devRef .tc main_v95) (ix2 i c) = _
  after_results
  exact extractStridedSlice_apply _ _ _ _ _ (fun ax => by
    match ax with
    | ⟨0, _⟩ => exact (Nat.zero_add _).symm
    | ⟨1, _⟩ => exact (Nat.zero_add _).symm)

def tailK (l : FVec Ideal S10000x10 .f32) : FVec Ideal S10000x10 .f32 :=
  subf
    (subf l
      (broadcastInDim S10000x10 ![0, 1] bcast_S10000x1_S10000x10_0_1
        (broadcastInDim S10000x1 ![0] bcast_S10000_S10000x1_0
          (maximumf (broadcastInDim S10000 ![] bcast_S_S10000 (constant S_ .f32 0xFF800000#32))
            (Host.reduce FloatOps.maximumf l (constant S_ .f32 0xFF800000#32) reducesTo_S10000x10_S10000_d1 h_S_)))))
    (broadcastInDim S10000x10 ![0, 1] bcast_S10000x1_S10000x10_0_1
      (Host.log
        (broadcastInDim S10000x1 ![0] bcast_S10000_S10000x1_0
          (Host.reduceAdd
            (Host.exp
              (subf l
                (broadcastInDim S10000x10 ![0, 1] bcast_S10000x1_S10000x10_0_1
                  (broadcastInDim S10000x1 ![0] bcast_S10000_S10000x1_0
                    (maximumf (broadcastInDim S10000 ![] bcast_S_S10000 (constant S_ .f32 0xFF800000#32))
                      (Host.reduce FloatOps.maximumf l (constant S_ .f32 0xFF800000#32) reducesTo_S10000x10_S10000_d1 h_S_))))))
            (constant S_ .f32 0x00000000#32) reducesTo_S10000x10_S10000_d1 h_S_))))

theorem hostOps6_1_v96 (W : Valuation τ sig (Elt Ideal)) :
    (StableHlo.after hostOps6_1 W (Proc.devRef .tc main_v96) : FVec Ideal S10000x10 .f32)
      = tailK (W (Proc.devRef .tc main_v95)) := by
  show StableHlo.after hostOps6_1 W (Proc.devRef .tc main_v96) = _
  after_results
  simp only [TRef.ofBuf, TRef.toBuf, cast_eq]
  rfl

end Cert.KernelIdeal.Hand
-- ==== Proof.KI.HostA0.lean ====
import proofs.«414095_j12086037971444_1_alg».proof.Proof.Gen.KernelIdeal.Launch
import proofs.«414095_j12086037971444_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.StableHlo Idealize.ShloMosaic.ValueIdx

variable [Cert.KernelIdeal.Facts]

def srcW (E : IVec S2x160000 32) : IVec S160000 32 :=
  shapeCast S160000 (extractStridedSlice S1x160000 ![0, 0] E slices_S2x160000_S1x160000_0_0) shapeCasts_S1x160000_S160000

def dstW (E : IVec S2x160000 32) : IVec S160000 32 :=
  shapeCast S160000 (extractStridedSlice S1x160000 ![1, 0] E slices_S2x160000_S1x160000_1_0) shapeCasts_S1x160000_S160000

def degK (E : IVec S2x160000 32) : FVec Ideal S10000 .f32 :=
  addf
    (Host.scatterAdd scatter_S10000_S160000x1_S160000_n_0_0_1
      (broadcastInDim S10000 ![] bcast_S_S10000 (constant (F := Ideal) S_ .f32 0x00000000#32))
      (broadcastInDim S160000x1 ![0] bcast_S160000_S160000x1_0 (dstW E))
      (broadcastInDim S160000 ![] bcast_S_S160000 (constant (F := Ideal) S_ .f32 0x3F800000#32)))
    (broadcastInDim S10000 ![] bcast_S_S10000 (constant (F := Ideal) S_ .f32 0x3F800000#32))

def dinvK (E : IVec S2x160000 32) : S10000.Idx → EReal := Host.rsqrt (F := Ideal) (φ := .f32) (degK E)

def wrapW (c : BitVec 32) (v : IVec S160000 32) : IVec S160000 32 :=
  select (cmpi .slt v (broadcastInDim S160000 ![] bcast_S_S160000 (constantI S_ 32 0#32)))
    (addi v (broadcastInDim S160000 ![] bcast_S_S160000 (constantI S_ 32 c))) v

def normK (E : IVec S2x160000 32) : S160000.Idx → EReal :=
  mulf (F := Ideal) (φ := .f32)
    (Host.gather gather_S10000_S160000x1_S160000_n_0_n_n_0_1_1 (dinvK E)
      (broadcastInDim S160000x1 ![0] bcast_S160000_S160000x1_0 (wrapW 10000#32 (srcW E))))
    (Host.gather gather_S10000_S160000x1_S160000_n_0_n_n_0_1_1 (dinvK E)
      (broadcastInDim S160000x1 ![0] bcast_S160000_S160000x1_0 (wrapW 10000#32 (dstW E))))

def idxE (E : IVec S2x160000 32) : IVec S160000x2 32 :=
  concatenate S160000x2 1
    [⟨S160000x1, broadcastInDim S160000x1 ![0] bcast_S160000_S160000x1_0 (wrapW 10240#32 (dstW E))⟩,
     ⟨S160000x1, broadcastInDim S160000x1 ![0] bcast_S160000_S160000x1_0 (wrapW 10240#32 (srcW E))⟩]
    concatenates_S160000x1_S160000x1_S160000x2_d1

def wrapN : IVec S10000 32 :=
  select (cmpi .slt (iotaInDim S10000 32 0) (broadcastInDim S10000 ![] bcast_S_S10000 (constantI S_ 32 0#32)))
    (addi (iotaInDim S10000 32 0) (broadcastInDim S10000 ![] bcast_S_S10000 (constantI S_ 32 10240#32))) (iotaInDim S10000 32 0)

def idxN : IVec S10000x2 32 :=
  concatenate S10000x2 1
    [⟨S10000x1, broadcastInDim S10000x1 ![0] bcast_S10000_S10000x1_0 wrapN⟩,
     ⟨S10000x1, broadcastInDim S10000x1 ![0] bcast_S10000_S10000x1_0 wrapN⟩]
    concatenates_S10000x1_S10000x1_S10000x2_d1

def AK (E : IVec S2x160000 32) : FVec Ideal S10240x10240 .bf16 :=
  truncf .bf16
    (Host.scatterAdd scatter_S10240x10240_S10000x2_S10000_n_01_01_1
      (Host.scatterAdd scatter_S10240x10240_S160000x2_S160000_n_01_01_1
        (broadcastInDim S10240x10240 ![] bcast_S_S10240x10240 (constant (F := Ideal) S_ .f32 0x00000000#32))
        (idxE E) (normK E))
      idxN (mulf (F := Ideal) (φ := .f32) (dinvK E) (dinvK E)))
    bitsLt_bf16_f32

theorem concat_pair_congr {α : Type} {t s₁ s₂ : Shape} {a : Fin t.rank} {x₁ x₁' : s₁.Idx → α} {x₂ x₂' : s₂.Idx → α}
    {h : Shape.Concatenates [s₁, s₂] t a} (e₁ : x₁ = x₁') (e₂ : x₂ = x₂') :
    concatenate t a [⟨s₁, x₁⟩, ⟨s₂, x₂⟩] h = concatenate t a [⟨s₁, x₁'⟩, ⟨s₂, x₂'⟩] h := by
  subst e₁; subst e₂; rfl

attribute [local congr] concat_pair_congr

set_option maxHeartbeats 40000000 in

theorem v71_eq (W : Valuation τ sig (Elt Ideal)) :
    StableHlo.after hostOps0 W (Proc.devRef .tc main_v71) = AK (W (Proc.devRef .tc main_arg1)) := by
  show StableHlo.after hostOps0 W (Proc.devRef .tc main_v71) = _
  after_results_simp
  rfl

end Cert.KernelIdeal.Hand
-- ==== Proof.Ops.lean ====
import Idealize.ShloMosaic.PureOps.Ideal
import Idealize.ShloMosaic.Lib.ValueIdx
import Idealize.ShloMosaic.Lib.ValueIdxRank1
import Idealize.ShloMosaic.Lib.StableHlo.Predicate

noncomputable section
open scoped BigOperators
namespace Gcn.Ops
open Idealize.ShloMosaic Idealize.ShloMosaic.ValueIdx

private theorem sum_idx1 {M : Type*} [AddCommMonoid M] {n : Nat} (f : (⟨1, ![n]⟩ : Shape).Idx → M) :
    ∑ j, f j = ∑ e : Fin n, f (ix1 e) := by
  rw [← Equiv.sum_comp (idxEquiv1 (n := n)).symm f]
  rfl

private theorem start1 {N n w : Nat} (d : ScatterDims ⟨1, ![N]⟩ ⟨2, ![n, 1]⟩ ⟨1, ![n]⟩) (huw : d.updateWindowDims = [])
    (hiw : d.insertedWindowDims = [0]) (hsd : d.scatterDimsToOperandDims = [0]) (hiv : d.indexVectorDim = 1)
    (idx : IVec ⟨2, ![n, 1]⟩ w) (e : Fin n) (a : Fin 1) :
    d.start (ix1 e) idx a = (idx (ix2 e 0)).toInt := by
  obtain rfl : a = 0 := Subsingleton.elim _ _
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => exact Fin.ext rfl
  | ⟨1, _⟩ => exact Fin.ext rfl

private theorem window1 {N n : Nat} (d : ScatterDims ⟨1, ![N]⟩ ⟨2, ![n, 1]⟩ ⟨1, ![n]⟩) (huw : d.updateWindowDims = [])
    (hiw : d.insertedWindowDims = [0]) (hsd : d.scatterDimsToOperandDims = [0]) (hiv : d.indexVectorDim = 1)
    (e : Fin n) (a : Fin 1) :
    d.window (ix1 e) a = 0 := by
  obtain rfl : a = 0 := Subsingleton.elim _ _
  obtain ⟨uw, iw, sd, iv, wf⟩ := d
  simp only at huw hiw hsd hiv
  subst huw hiw hsd hiv
  unfold ScatterDims.window
  rw [dif_neg]
  simp [ScatterDims.sKept, Shape.kept]

private theorem resultIdx1_iff {N n w : Nat} (d : ScatterDims ⟨1, ![N]⟩ ⟨2, ![n, 1]⟩ ⟨1, ![n]⟩) (huw : d.updateWindowDims = [])
    (hiw : d.insertedWindowDims = [0]) (hsd : d.scatterDimsToOperandDims = [0]) (hiv : d.indexVectorDim = 1)
    (idx : IVec ⟨2, ![n, 1]⟩ w) (e : Fin n) (i : Fin N) :
    d.resultIdx? (ix1 e) idx = some (ix1 i) ↔ (idx (ix2 e 0)).toInt = (i.val : Int) := by
  have hs := start1 d huw hiw hsd hiv idx e
  have hw := window1 d huw hiw hsd hiv e
  unfold ScatterDims.resultIdx?
  split
  · rename_i h
    rw [Option.some.injEq]
    constructor
    · intro hf
      have h0 := congrArg Fin.val (congrFun hf 0)
      have hb := (h 0).1
      simp only [hs, hw] at h0 hb
      change ((idx (ix2 e 0)).toInt + ((0 : Nat) : Int)).toNat = i.val at h0
      omega
    · intro heq
      funext a
      obtain rfl : a = 0 := Subsingleton.elim _ _
      apply Fin.ext
      show (d.start (ix1 e) idx 0 + ((d.window (ix1 e) 0 : Nat) : Int)).toNat = i.val
      rw [hs, hw, heq]
      simp
  · rename_i h
    constructor
    · intro hf; cases hf
    · intro heq
      exfalso
      apply h
      intro a
      obtain rfl : a = 0 := Subsingleton.elim _ _
      rw [hs, hw, heq]
      have := i.isLt
      show (0 : Int) ≤ (i.val : Int) + ((0 : Nat) : Int) ∧ (i.val : Int) + ((0 : Nat) : Int) < ((N : Nat) : Int)
      omega

theorem scatterAdd1_apply {N n w : Nat} (d : ScatterDims ⟨1, ![N]⟩ ⟨2, ![n, 1]⟩ ⟨1, ![n]⟩) (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![n, 1]⟩ w) (upd : (⟨1, ![n]⟩ : Shape).Idx → EReal) (i : Fin N) :
    Ideal.hostScatterAdd d x idx upd (ix1 i) = x (ix1 i) + ∑ e ∈ Finset.univ.filter (fun e : Fin n => (idx (ix2 e 0)).toInt = (i.val : Int)), upd (ix1 e) := by
  unfold Ideal.hostScatterAdd
  congr 1
  rw [Finset.sum_filter, Finset.sum_filter, sum_idx1]
  refine Finset.sum_congr rfl fun e _ => ?_
  simp only [resultIdx1_iff d huw hiw hsd hiv idx e i]

private theorem startRows0 {N D n w : Nat} (d : ScatterDims ⟨2, ![N, D]⟩ ⟨2, ![n, 1]⟩ ⟨2, ![n, D]⟩) (huw : d.updateWindowDims = [1])
    (hiw : d.insertedWindowDims = [0]) (hsd : d.scatterDimsToOperandDims = [0]) (hiv : d.indexVectorDim = 1)
    (idx : IVec ⟨2, ![n, 1]⟩ w) (e : Fin n) (c' : Fin D) :
    d.start (ix2 e c') idx 0 = (idx (ix2 e 0)).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => exact Fin.ext rfl
  | ⟨1, _⟩ => exact Fin.ext rfl

private theorem startRows1 {N D n w : Nat} (d : ScatterDims ⟨2, ![N, D]⟩ ⟨2, ![n, 1]⟩ ⟨2, ![n, D]⟩) (huw : d.updateWindowDims = [1])
    (hiw : d.insertedWindowDims = [0]) (hsd : d.scatterDimsToOperandDims = [0]) (hiv : d.indexVectorDim = 1)
    (idx : IVec ⟨2, ![n, 1]⟩ w) (e : Fin n) (c' : Fin D) :
    d.start (ix2 e c') idx 1 = 0 := by
  obtain ⟨uw, iw, sd, iv, wf⟩ := d
  simp only at huw hiw hsd hiv
  subst huw hiw hsd hiv
  unfold ScatterDims.start
  rw [dif_neg (by simp)]

private theorem windowRows0 {N D n : Nat} (d : ScatterDims ⟨2, ![N, D]⟩ ⟨2, ![n, 1]⟩ ⟨2, ![n, D]⟩) (huw : d.updateWindowDims = [1])
    (hiw : d.insertedWindowDims = [0]) (hsd : d.scatterDimsToOperandDims = [0]) (hiv : d.indexVectorDim = 1)
    (e : Fin n) (c' : Fin D) :
    d.window (ix2 e c') 0 = 0 := by
  obtain ⟨uw, iw, sd, iv, wf⟩ := d
  simp only at huw hiw hsd hiv
  subst huw hiw hsd hiv
  unfold ScatterDims.window
  rw [dif_neg]
  simp [ScatterDims.sKept, Shape.kept]

private theorem windowRows1 {N D n : Nat} (d : ScatterDims ⟨2, ![N, D]⟩ ⟨2, ![n, 1]⟩ ⟨2, ![n, D]⟩) (huw : d.updateWindowDims = [1])
    (hiw : d.insertedWindowDims = [0]) (hsd : d.scatterDimsToOperandDims = [0]) (hiv : d.indexVectorDim = 1)
    (e : Fin n) (c' : Fin D) :
    d.window (ix2 e c') 1 = c'.val := by
  obtain ⟨uw, iw, sd, iv, wf⟩ := d
  simp only at huw hiw hsd hiv
  subst huw hiw hsd hiv
  unfold ScatterDims.window
  have hm : (1 : Fin 2) ∈ Shape.kept ⟨2, ![N, D]⟩ [0] := by simp [Shape.kept]
  rw [dif_pos hm]
  rfl

private theorem resultIdxRows_iff {N D n w : Nat} (d : ScatterDims ⟨2, ![N, D]⟩ ⟨2, ![n, 1]⟩ ⟨2, ![n, D]⟩) (huw : d.updateWindowDims = [1])
    (hiw : d.insertedWindowDims = [0]) (hsd : d.scatterDimsToOperandDims = [0]) (hiv : d.indexVectorDim = 1)
    (idx : IVec ⟨2, ![n, 1]⟩ w) (e : Fin n) (c' : Fin D) (i : Fin N) (c : Fin D) :
    d.resultIdx? (ix2 e c') idx = some (ix2 i c) ↔ ((idx (ix2 e 0)).toInt = (i.val : Int) ∧ c' = c) := by
  have hs0 := startRows0 d huw hiw hsd hiv idx e c'
  have hs1 := startRows1 d huw hiw hsd hiv idx e c'
  have hw0 := windowRows0 d huw hiw hsd hiv e c'
  have hw1 := windowRows1 d huw hiw hsd hiv e c'
  unfold ScatterDims.resultIdx?
  split
  · rename_i h
    rw [Option.some.injEq]
    constructor
    · intro hf
      have h0 : (d.start (ix2 e c') idx 0 + ((d.window (ix2 e c') 0 : Nat) : Int)).toNat = i.val :=
        congrArg Fin.val (congrFun hf 0)
      have h1 : (d.start (ix2 e c') idx 1 + ((d.window (ix2 e c') 1 : Nat) : Int)).toNat = c.val :=
        congrArg Fin.val (congrFun hf 1)
      have hb := (h 0).1
      rw [hs0, hw0] at h0 hb
      rw [hs1, hw1] at h1
      exact ⟨by omega, Fin.ext (by omega)⟩
    · rintro ⟨heq, rfl⟩
      funext a
      match a with
      | ⟨0, _⟩ =>
        apply Fin.ext
        show (d.start (ix2 e c') idx 0 + ((d.window (ix2 e c') 0 : Nat) : Int)).toNat = i.val
        rw [hs0, hw0, heq]; simp
      | ⟨1, _⟩ =>
        apply Fin.ext
        show (d.start (ix2 e c') idx 1 + ((d.window (ix2 e c') 1 : Nat) : Int)).toNat = c'.val
        rw [hs1, hw1]; simp
  · rename_i h
    constructor
    · intro hf; cases hf
    · rintro ⟨heq, rfl⟩
      exfalso
      apply h
      intro a
      match a with
      | ⟨0, _⟩ =>
        show (0 : Int) ≤ d.start (ix2 e c') idx 0 + ((d.window (ix2 e c') 0 : Nat) : Int) ∧
          d.start (ix2 e c') idx 0 + ((d.window (ix2 e c') 0 : Nat) : Int) < ((N : Nat) : Int)
        rw [hs0, hw0, heq]
        have := i.isLt
        omega
      | ⟨1, _⟩ =>
        show (0 : Int) ≤ d.start (ix2 e c') idx 1 + ((d.window (ix2 e c') 1 : Nat) : Int) ∧
          d.start (ix2 e c') idx 1 + ((d.window (ix2 e c') 1 : Nat) : Int) < ((D : Nat) : Int)
        rw [hs1, hw1]
        have := c'.isLt
        omega

theorem scatterAddRows_apply {N D n w : Nat} (d : ScatterDims ⟨2, ![N, D]⟩ ⟨2, ![n, 1]⟩ ⟨2, ![n, D]⟩) (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![n, 1]⟩ w) (upd : (⟨2, ![n, D]⟩ : Shape).Idx → EReal) (i : Fin N) (c : Fin D) :
    Ideal.hostScatterAdd d x idx upd (ix2 i c) = x (ix2 i c) + ∑ e ∈ Finset.univ.filter (fun e : Fin n => (idx (ix2 e 0)).toInt = (i.val : Int)), upd (ix2 e c) := by
  unfold Ideal.hostScatterAdd
  congr 1
  rw [Finset.sum_filter, Finset.sum_filter, sum_idx2]
  refine Finset.sum_congr rfl fun e _ => ?_
  simp only [resultIdxRows_iff d huw hiw hsd hiv idx e _ i c]
  by_cases hq : (idx (ix2 e 0)).toInt = (i.val : Int)
  · simp only [hq, true_and, if_true]
    rw [Finset.sum_eq_single c]
    · rw [if_pos rfl]
    · intro b _ hb; rw [if_neg hb]
    · intro hc; exact absurd (Finset.mem_univ c) hc
  · simp only [hq, false_and, if_false]
    exact Finset.sum_const_zero

private theorem start2_0 {N M n w : Nat} (d : ScatterDims ⟨2, ![N, M]⟩ ⟨2, ![n, 2]⟩ ⟨1, ![n]⟩) (huw : d.updateWindowDims = [])
    (hiw : d.insertedWindowDims = [0, 1]) (hsd : d.scatterDimsToOperandDims = [0, 1]) (hiv : d.indexVectorDim = 1)
    (idx : IVec ⟨2, ![n, 2]⟩ w) (e : Fin n) :
    d.start (ix1 e) idx 0 = (idx (ix2 e 0)).toInt := by
  obtain ⟨uw, iw, sd, iv, wf⟩ := d
  simp only at huw hiw hsd hiv
  subst huw hiw hsd hiv
  unfold ScatterDims.start
  rw [dif_pos (by simp)]
  congr 2
  funext b
  match b with
  | ⟨0, _⟩ => exact Fin.ext rfl
  | ⟨1, _⟩ => exact Fin.ext rfl

private theorem start2_1 {N M n w : Nat} (d : ScatterDims ⟨2, ![N, M]⟩ ⟨2, ![n, 2]⟩ ⟨1, ![n]⟩) (huw : d.updateWindowDims = [])
    (hiw : d.insertedWindowDims = [0, 1]) (hsd : d.scatterDimsToOperandDims = [0, 1]) (hiv : d.indexVectorDim = 1)
    (idx : IVec ⟨2, ![n, 2]⟩ w) (e : Fin n) :
    d.start (ix1 e) idx 1 = (idx (ix2 e 1)).toInt := by
  obtain ⟨uw, iw, sd, iv, wf⟩ := d
  simp only at huw hiw hsd hiv
  subst huw hiw hsd hiv
  unfold ScatterDims.start
  rw [dif_pos (by simp)]
  congr 2
  funext b
  match b with
  | ⟨0, _⟩ => exact Fin.ext rfl
  | ⟨1, _⟩ => exact Fin.ext rfl

private theorem window2 {N M n : Nat} (d : ScatterDims ⟨2, ![N, M]⟩ ⟨2, ![n, 2]⟩ ⟨1, ![n]⟩) (huw : d.updateWindowDims = [])
    (hiw : d.insertedWindowDims = [0, 1]) (hsd : d.scatterDimsToOperandDims = [0, 1]) (hiv : d.indexVectorDim = 1)
    (e : Fin n) (a : Fin 2) :
    d.window (ix1 e) a = 0 := by
  obtain ⟨uw, iw, sd, iv, wf⟩ := d
  simp only at huw hiw hsd hiv
  subst huw hiw hsd hiv
  unfold ScatterDims.window
  rw [dif_neg]
  match a with
  | ⟨0, _⟩ => simp [ScatterDims.sKept, Shape.kept]
  | ⟨1, _⟩ => simp [ScatterDims.sKept, Shape.kept]

private theorem resultIdx2_iff {N M n w : Nat} (d : ScatterDims ⟨2, ![N, M]⟩ ⟨2, ![n, 2]⟩ ⟨1, ![n]⟩) (huw : d.updateWindowDims = [])
    (hiw : d.insertedWindowDims = [0, 1]) (hsd : d.scatterDimsToOperandDims = [0, 1]) (hiv : d.indexVectorDim = 1)
    (idx : IVec ⟨2, ![n, 2]⟩ w) (e : Fin n) (i : Fin N) (j : Fin M) :
    d.resultIdx? (ix1 e) idx = some (ix2 i j) ↔
      ((idx (ix2 e 0)).toInt = (i.val : Int) ∧ (idx (ix2 e 1)).toInt = (j.val : Int)) := by
  have hs0 := start2_0 d huw hiw hsd hiv idx e
  have hs1 := start2_1 d huw hiw hsd hiv idx e
  have hw0 := window2 d huw hiw hsd hiv e 0
  have hw1 := window2 d huw hiw hsd hiv e 1
  unfold ScatterDims.resultIdx?
  split
  · rename_i h
    rw [Option.some.injEq]
    constructor
    · intro hf
      have h0 : (d.start (ix1 e) idx 0 + ((d.window (ix1 e) 0 : Nat) : Int)).toNat = i.val :=
        congrArg Fin.val (congrFun hf 0)
      have h1 : (d.start (ix1 e) idx 1 + ((d.window (ix1 e) 1 : Nat) : Int)).toNat = j.val :=
        congrArg Fin.val (congrFun hf 1)
      have hb0 := (h 0).1
      have hb1 := (h 1).1
      rw [hs0, hw0] at h0 hb0
      rw [hs1, hw1] at h1 hb1
      exact ⟨by omega, by omega⟩
    · rintro ⟨heq0, heq1⟩
      funext a
      match a with
      | ⟨0, _⟩ =>
        apply Fin.ext
        show (d.start (ix1 e) idx 0 + ((d.window (ix1 e) 0 : Nat) : Int)).toNat = i.val
        rw [hs0, hw0, heq0]; simp
      | ⟨1, _⟩ =>
        apply Fin.ext
        show (d.start (ix1 e) idx 1 + ((d.window (ix1 e) 1 : Nat) : Int)).toNat = j.val
        rw [hs1, hw1, heq1]; simp
  · rename_i h
    constructor
    · intro hf; cases hf
    · rintro ⟨heq0, heq1⟩
      exfalso
      apply h
      intro a
      match a with
      | ⟨0, _⟩ =>
        show (0 : Int) ≤ d.start (ix1 e) idx 0 + ((d.window (ix1 e) 0 : Nat) : Int) ∧
          d.start (ix1 e) idx 0 + ((d.window (ix1 e) 0 : Nat) : Int) < ((N : Nat) : Int)
        rw [hs0, hw0, heq0]
        have := i.isLt
        omega
      | ⟨1, _⟩ =>
        show (0 : Int) ≤ d.start (ix1 e) idx 1 + ((d.window (ix1 e) 1 : Nat) : Int) ∧
          d.start (ix1 e) idx 1 + ((d.window (ix1 e) 1 : Nat) : Int) < ((M : Nat) : Int)
        rw [hs1, hw1, heq1]
        have := j.isLt
        omega

theorem scatterAdd2_apply {N M n w : Nat} (d : ScatterDims ⟨2, ![N, M]⟩ ⟨2, ![n, 2]⟩ ⟨1, ![n]⟩) (huw : d.updateWindowDims = []) (hiw : d.insertedWindowDims = [0, 1]) (hsd : d.scatterDimsToOperandDims = [0, 1]) (hiv : d.indexVectorDim = 1)
    (x : (⟨2, ![N, M]⟩ : Shape).Idx → EReal) (idx : IVec ⟨2, ![n, 2]⟩ w) (upd : (⟨1, ![n]⟩ : Shape).Idx → EReal) (i : Fin N) (j : Fin M) :
    Ideal.hostScatterAdd d x idx upd (ix2 i j) = x (ix2 i j) + ∑ e ∈ Finset.univ.filter (fun e : Fin n => (idx (ix2 e 0)).toInt = (i.val : Int) ∧ (idx (ix2 e 1)).toInt = (j.val : Int)), upd (ix1 e) := by
  unfold Ideal.hostScatterAdd
  congr 1
  rw [Finset.sum_filter, Finset.sum_filter, sum_idx1]
  refine Finset.sum_congr rfl fun e _ => ?_
  simp only [resultIdx2_iff d huw hiw hsd hiv idx e i j]

private theorem gatherRows_row {N D n w : Nat} (d : GatherDims ⟨2, ![N, D]⟩ ⟨2, ![n, 1]⟩ ⟨2, ![n, D]⟩) (hod : d.offsetDims = [1]) (hcoll : d.collapsedSliceDims = [0]) (hob : d.operandBatchingDims = []) (hsb : d.startIndicesBatchingDims = []) (hsim : d.startIndexMap = [0]) (hivd : d.indexVectorDim = 1) (hss : d.sliceSizes = ![1, D])
    (idx : IVec ⟨2, ![n, 1]⟩ w) (e : Fin n) (c : Fin D) :
    (d.operandIdx (ix2 e c) idx 0).val = min (idx (ix2 e 0)).toInt.toNat (N - 1) := by
  obtain ⟨od, cd, ob, sb, sim, ivd, ss, wf⟩ := d
  simp only at hod hcoll hob hsb hsim hivd hss
  subst hod hcoll hob hsb hsim hivd hss
  simp only [GatherDims.operandIdx]
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  show min (idx _).toInt.toNat (N - 1) = min (idx (ix2 e 0)).toInt.toNat (N - 1)
  congr 3
  congr 1
  funext b
  match b with
  | ⟨0, _⟩ => exact Fin.ext rfl
  | ⟨1, _⟩ => exact Fin.ext rfl

private theorem gatherRows_col {N D n w : Nat} (d : GatherDims ⟨2, ![N, D]⟩ ⟨2, ![n, 1]⟩ ⟨2, ![n, D]⟩) (hod : d.offsetDims = [1]) (hcoll : d.collapsedSliceDims = [0]) (hob : d.operandBatchingDims = []) (hsb : d.startIndicesBatchingDims = []) (hsim : d.startIndexMap = [0]) (hivd : d.indexVectorDim = 1) (hss : d.sliceSizes = ![1, D])
    (idx : IVec ⟨2, ![n, 1]⟩ w) (e : Fin n) (c : Fin D) :
    (d.operandIdx (ix2 e c) idx 1).val = c.val := by
  obtain ⟨od, cd, ob, sb, sim, ivd, ss, wf⟩ := d
  simp only at hod hcoll hob hsb hsim hivd hss
  subst hod hcoll hob hsb hsim hivd hss
  simp only [GatherDims.operandIdx]
  rw [GatherDims.batchCoord_eq_zero _ _ _ List.not_mem_nil]
  unfold GatherDims.start
  rw [dif_neg (by simp)]
  unfold GatherDims.offCoord
  rw [dif_pos (by simp [GatherDims.sKept, Shape.kept])]
  show 0 + 0 + c.val = c.val
  omega

theorem gatherRows_apply {α : Type} {N D n w : Nat} (hN : 0 < N) (d : GatherDims ⟨2, ![N, D]⟩ ⟨2, ![n, 1]⟩ ⟨2, ![n, D]⟩) (hod : d.offsetDims = [1]) (hcoll : d.collapsedSliceDims = [0]) (hob : d.operandBatchingDims = []) (hsb : d.startIndicesBatchingDims = []) (hsim : d.startIndexMap = [0]) (hivd : d.indexVectorDim = 1) (hss : d.sliceSizes = ![1, D])
    (x : (⟨2, ![N, D]⟩ : Shape).Idx → α) (idx : IVec ⟨2, ![n, 1]⟩ w) (e : Fin n) (c : Fin D) :
    Host.gather d x idx (ix2 e c) = x (ix2 ⟨min (idx (ix2 e 0)).toInt.toNat (N - 1), by omega⟩ c) := by
  unfold Host.gather
  congr 1
  funext a
  match a with
  | ⟨0, _⟩ => exact Fin.ext (gatherRows_row d hod hcoll hob hsb hsim hivd hss idx e c)
  | ⟨1, _⟩ => exact Fin.ext (gatherRows_col d hod hcoll hob hsb hsim hivd hss idx e c)

end Gcn.Ops

end
-- ==== Proof.KI.HostA.lean ====
import proofs.«414095_j12086037971444_1_alg».proof.Proof.KI.HostA0
import proofs.«414095_j12086037971444_1_alg».proof.Proof.Spec
import proofs.«414095_j12086037971444_1_alg».proof.Proof.Ops
import Idealize.ShloMosaic.Lib.StableHlo.Run
import Idealize.ShloMosaic.Lib.ValueIdx
import Idealize.ShloMosaic.Lib.Pipeline.Value
import Idealize.ShloMosaic.Lib.ValueLayout
import Idealize.ShloMosaic.Lib.StableHlo.Predicate
import Idealize.ShloMosaic.Lib.IdealHost
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.StableHlo Idealize.ShloMosaic.ValueIdx
open scoped BigOperators

variable [Cert.KernelIdeal.Facts]

theorem ofFin_eq_ix1 {n : Nat} (k : Fin n) : Shape.Idx.ofFin k = ix1 k := by
  funext a
  obtain rfl : a = 0 := Subsingleton.elim _ _
  exact Fin.ext rfl

theorem ixP_eq_ix2 {n : Nat} (p : Fin n) : Predicate.ixP p = ix2 p (0 : Fin 1) := by
  funext d
  match d with
  | ⟨0, _⟩ => rfl
  | ⟨1, _⟩ => rfl

theorem bcast_col_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  have e := Predicate.bcast_col1 h v p
  rwa [ixP_eq_ix2, ofFin_eq_ix1] at e

theorem slt_zero_eq_zero (w : BitVec 32) (h : 0 ≤ w.toInt) : IntOp.cmpi .slt w 0#32 = 0#1 := by
  unfold IntOp.cmpi
  have e : w.slt 0#32 = false := by
    simp only [BitVec.slt, BitVec.toInt_zero, decide_eq_false_iff_not, not_lt]
    exact h
  simp only [e]
  rfl

theorem srcW_apply (E : IVec S2x160000 32) (e : Fin 160000) : srcW E (ix1 e) = E (ix2 (0 : Fin 2) e) :=
  (shapeCast_1a_a_apply _ _ e).trans (slice2_axis0_apply 0 E _ (0 : Fin 1) e (0 : Fin 2) rfl)

theorem dstW_apply (E : IVec S2x160000 32) (e : Fin 160000) : dstW E (ix1 e) = E (ix2 (1 : Fin 2) e) :=
  (shapeCast_1a_a_apply _ _ e).trans (slice2_axis0_apply 1 E _ (0 : Fin 1) e (1 : Fin 2) rfl)

theorem wrapW_apply (c : BitVec 32) (v : IVec S160000 32) (e : Fin 160000) (h : 0 ≤ (v (ix1 e)).toInt) :
    wrapW c v (ix1 e) = v (ix1 e) := by
  show Scalar.select (IntOp.cmpi .slt (v (ix1 e)) 0#32) (IntOp.addi (v (ix1 e)) c) (v (ix1 e)) = _
  rw [slt_zero_eq_zero _ h, select_zero]

theorem wrapN_apply (n : Fin 10000) : wrapN (ix1 n) = BitVec.ofNat 32 n.val := by
  show Scalar.select (IntOp.cmpi .slt (BitVec.ofNat 32 n.val) 0#32) (IntOp.addi (BitVec.ofNat 32 n.val) 10240#32) (BitVec.ofNat 32 n.val) = _
  rw [slt_zero_eq_zero _ (by rw [Predicate.toInt_ofNat_small _ (by have := n.isLt; omega)]; omega), select_zero]

theorem idxE_dst (E : IVec S2x160000 32) (e : Fin 160000) :
    idxE E (ix2 e (0 : Fin 2)) = wrapW 10240#32 (dstW E) (ix1 e) := by
  unfold idxE
  refine (concatenate_pair_apply_left (t := S160000x2) (s₁ := S160000x1) (s₂ := S160000x1) (1 : Fin 2) _ _ _ (ix2 e (0 : Fin 2)) rfl (ix2 e (0 : Fin 1)) ?_).trans (bcast_col_apply _ _ e)
  intro b
  match b with
  | ⟨0, _⟩ => rfl
  | ⟨1, _⟩ => rfl

theorem idxE_src (E : IVec S2x160000 32) (e : Fin 160000) :
    idxE E (ix2 e (1 : Fin 2)) = wrapW 10240#32 (srcW E) (ix1 e) := by
  unfold idxE
  refine (concatenate_pair_apply_right (t := S160000x2) (s₁ := S160000x1) (s₂ := S160000x1) (1 : Fin 2) _ _ _ (ix2 e (1 : Fin 2)) rfl rfl (ix2 e (0 : Fin 1)) ?_ rfl).trans (bcast_col_apply _ _ e)
  intro b hb
  match b, hb with
  | ⟨0, _⟩, _ => rfl
  | ⟨1, _⟩, hb => exact absurd rfl hb

theorem idxN_fst (n : Fin 10000) : idxN (ix2 n (0 : Fin 2)) = BitVec.ofNat 32 n.val := by
  unfold idxN
  refine ((concatenate_pair_apply_left (t := S10000x2) (s₁ := S10000x1) (s₂ := S10000x1) (1 : Fin 2) _ _ _ (ix2 n (0 : Fin 2)) rfl (ix2 n (0 : Fin 1)) ?_).trans (bcast_col_apply _ _ n)).trans (wrapN_apply n)
  intro b
  match b with
  | ⟨0, _⟩ => rfl
  | ⟨1, _⟩ => rfl

theorem idxN_snd (n : Fin 10000) : idxN (ix2 n (1 : Fin 2)) = BitVec.ofNat 32 n.val := by
  unfold idxN
  refine ((concatenate_pair_apply_right (t := S10000x2) (s₁ := S10000x1) (s₂ := S10000x1) (1 : Fin 2) _ _ _ (ix2 n (1 : Fin 2)) rfl rfl (ix2 n (0 : Fin 1)) ?_ rfl).trans (bcast_col_apply _ _ n)).trans (wrapN_apply n)
  intro b hb
  match b, hb with
  | ⟨0, _⟩, _ => rfl
  | ⟨1, _⟩, hb => exact absurd rfl hb

theorem sum_one_real {ι : Type} (s : Finset ι) : ∃ v : ℝ, 0 ≤ v ∧ ∑ _e ∈ s, (1 : EReal) = (v : EReal) := by
  refine ⟨s.card • (1 : ℝ), by positivity, ?_⟩
  rw [Finset.sum_const, ← EReal.coe_one, ← EReal.coe_nsmul]

theorem degK_apply (E : IVec S2x160000 32) (n : Fin 10000) :
    degK E (ix1 n) = (0 + ∑ _e ∈ Finset.univ.filter (fun e : Fin 160000 => (dstW E (ix1 e)).toInt = (n.val : Int)), (1 : EReal)) + 1 := by
  unfold degK
  rw [addf_apply]
  refine congrArg₂ (· + ·) ?_ Ideal.ofBits_one_f32
  refine (Gcn.Ops.scatterAdd1_apply _ rfl rfl rfl rfl _ _ _ n).trans ?_
  refine congrArg₂ (· + ·) Ideal.ofBits_zero_f32 ?_
  refine Finset.sum_congr (Finset.filter_congr fun e _ => ?_) (fun e _ => Ideal.ofBits_one_f32)
  rw [bcast_col_apply]

theorem degK_real (E : IVec S2x160000 32) (n : Fin 10000) : ∃ r : ℝ, 0 < r ∧ degK E (ix1 n) = (r : EReal) := by
  obtain ⟨v, hv, e⟩ := sum_one_real (Finset.univ.filter (fun e : Fin 160000 => (dstW E (ix1 e)).toInt = (n.val : Int)))
  refine ⟨v + 1, by linarith, ?_⟩
  rw [degK_apply, e, zero_add, EReal.coe_add, EReal.coe_one]

theorem dinvK_apply (E : IVec S2x160000 32) (n : Fin 10000) : dinvK E (ix1 n) = Ideal.rsqrt (degK E (ix1 n)) := by
  unfold dinvK Host.rsqrt
  exact Ideal.hostUnary_rsqrt_def _

theorem dinvK_real (E : IVec S2x160000 32) (n : Fin 10000) : ∃ v : ℝ, dinvK E (ix1 n) = (v : EReal) := by
  obtain ⟨r, hr, e⟩ := degK_real E n
  refine ⟨(Real.sqrt r)⁻¹, ?_⟩
  rw [dinvK_apply, e, Ideal.rsqrt_coe, if_neg (not_lt.mpr hr.le), if_neg hr.ne']

theorem real_dinvK (E : IVec S2x160000 32) (hE : Gcn.InRange E) : Gcn.Real1 (fun n => dinvK E (ix1 n)) :=
  fun n => dinvK_real E n

theorem gather_col_apply (x : S10000.Idx → EReal) (v : IVec S160000 32) (e : Fin 160000) :
    Host.gather gather_S10000_S160000x1_S160000_n_0_n_n_0_1_1 x (broadcastInDim S160000x1 ![0] bcast_S160000_S160000x1_0 v) (ix1 e)
      = x (ix1 ⟨min (v (ix1 e)).toInt.toNat (10000 - 1), by omega⟩) := by
  have h := Predicate.gather_take gather_S10000_S160000x1_S160000_n_0_n_n_0_1_1 rfl rfl rfl rfl x
    (broadcastInDim S160000x1 ![0] bcast_S160000_S160000x1_0 v) e (by norm_num)
  rw [ofFin_eq_ix1, ofFin_eq_ix1] at h
  refine h.trans (congrArg x (congrArg ix1 (Fin.ext ?_)))
  show min ((broadcastInDim S160000x1 ![0] bcast_S160000_S160000x1_0 v) (Predicate.ixP e)).toInt.toNat (10000 - 1) = _
  rw [ixP_eq_ix2, bcast_col_apply]

theorem normK_apply (E : IVec S2x160000 32) (e : Fin 160000) :
    normK E (ix1 e)
      = dinvK E (ix1 ⟨min (wrapW 10000#32 (srcW E) (ix1 e)).toInt.toNat (10000 - 1), by omega⟩)
        * dinvK E (ix1 ⟨min (wrapW 10000#32 (dstW E) (ix1 e)).toInt.toNat (10000 - 1), by omega⟩) := by
  unfold normK
  rw [mulf_apply, gather_col_apply, gather_col_apply]

theorem normK_real (E : IVec S2x160000 32) (e : Fin 160000) : ∃ v : ℝ, normK E (ix1 e) = (v : EReal) := by
  obtain ⟨a, ha⟩ := dinvK_real E ⟨min (wrapW 10000#32 (srcW E) (ix1 e)).toInt.toNat (10000 - 1), by omega⟩
  obtain ⟨b, hb⟩ := dinvK_real E ⟨min (wrapW 10000#32 (dstW E) (ix1 e)).toInt.toNat (10000 - 1), by omega⟩
  exact ⟨a * b, by rw [normK_apply, ha, hb, EReal.coe_mul]⟩

theorem real_normK (E : IVec S2x160000 32) (hE : Gcn.InRange E) : Gcn.Real1 (fun e => normK E (ix1 e)) :=
  fun e => normK_real E e

theorem AK_apply (E : IVec S2x160000 32) (hE : Gcn.InRange E) (i j : Fin 10240) :
    AK E (ix2 i j) = Gcn.Ahat (Gcn.srcOf E hE) (Gcn.dstOf E hE) (fun n => dinvK E (ix1 n)) (fun e => normK E (ix1 e)) i j := by
  have hd : ∀ e : Fin 160000, idxE E (ix2 e (0 : Fin 2)) = E (ix2 (1 : Fin 2) e) := fun e => by
    rw [idxE_dst, wrapW_apply _ _ _ (by rw [dstW_apply]; exact (hE _).1), dstW_apply]
  have hs : ∀ e : Fin 160000, idxE E (ix2 e (1 : Fin 2)) = E (ix2 (0 : Fin 2) e) := fun e => by
    rw [idxE_src, wrapW_apply _ _ _ (by rw [srcW_apply]; exact (hE _).1), srcW_apply]
  unfold AK Gcn.Ahat
  rw [truncf_apply]
  refine (Gcn.Ops.scatterAdd2_apply _ rfl rfl rfl rfl _ _ _ i j).trans ?_
  refine congrArg₂ (· + ·) ((Gcn.Ops.scatterAdd2_apply _ rfl rfl rfl rfl _ _ _ i j).trans ?_) ?_
  · refine congrArg₂ (· + ·) Ideal.ofBits_zero_f32 ?_
    refine Finset.sum_congr (Finset.filter_congr fun e _ => ?_) (fun _ _ => rfl)
    rw [hd, hs, ← Gcn.nodeOf_val E hE 1 e, ← Gcn.nodeOf_val E hE 0 e]
    simp only [Gcn.dstOf, Gcn.srcOf, Nat.cast_inj]
  · refine Finset.sum_congr (Finset.filter_congr fun n _ => ?_) (fun _ _ => rfl)
    rw [idxN_fst, idxN_snd, Predicate.toInt_ofNat_small _ (by have := n.isLt; omega)]
    simp only [Nat.cast_inj]

theorem hostOps0_v71 (W : Valuation τ sig (Elt Ideal)) (hE : Gcn.InRange (W (Proc.devRef .tc main_arg1))) (i j : Fin 10240) :
    (StableHlo.after hostOps0 W (Proc.devRef .tc main_v71) : S10240x10240.Idx → EReal) (ix2 i j)
      = Gcn.Ahat (Gcn.srcOf _ hE) (Gcn.dstOf _ hE) (fun n => dinvK (W (Proc.devRef .tc main_arg1)) (ix1 n))
          (fun e => normK (W (Proc.devRef .tc main_arg1)) (ix1 e)) i j :=
  (congrFun (v71_eq W) (ix2 i j)).trans (AK_apply _ hE i j)

end Cert.KernelIdeal.Hand

end
-- ==== Proof.KI.HostB0.lean ====
import proofs.«414095_j12086037971444_1_alg».proof.Proof.Gen.KernelIdeal.Launch
import proofs.«414095_j12086037971444_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.StableHlo Idealize.ShloMosaic.ValueIdx

variable [Cert.KernelIdeal.Facts]

section SetAt
variable {s si u : Shape} {α : Type} {w : Nat}

private def setStep (e : u.Idx → s.Idx) (upd : u.Idx → α) (r : s.Idx → α) (n : Fin u.numel) : s.Idx → α :=
  fun i' => if i' = e (u.rowMajor.symm n) then upd (u.rowMajor.symm n) else r i'

private theorem foldl_setStep_miss (e : u.Idx → s.Idx) (upd : u.Idx → α) (i : s.Idx) :
    ∀ (L : List (Fin u.numel)) (r : s.Idx → α), (∀ n ∈ L, e (u.rowMajor.symm n) ≠ i) →
      L.foldl (setStep e upd) r i = r i := by
  intro L
  induction L with
  | nil => intro r _; rfl
  | cons n L ih =>
    intro r h
    rw [List.foldl_cons, ih _ (fun m hm => h m (List.mem_cons_of_mem _ hm))]
    exact if_neg (fun hi => h n (List.mem_cons_self) hi.symm)

private theorem foldl_setStep_hit (e : u.Idx → s.Idx) (he : Function.Injective e) (upd : u.Idx → α) (n0 : Fin u.numel) :
    ∀ (L : List (Fin u.numel)) (r : s.Idx → α), L.Nodup → n0 ∈ L →
      L.foldl (setStep e upd) r (e (u.rowMajor.symm n0)) = upd (u.rowMajor.symm n0) := by
  intro L
  induction L with
  | nil => intro r _ h; exact absurd h (List.not_mem_nil)
  | cons n L ih =>
    intro r hnd hmem
    rw [List.foldl_cons]
    rcases List.mem_cons.1 hmem with h | h
    · subst h
      rw [foldl_setStep_miss e upd _ L _ (fun m hm hEq => by
        have : m = n0 := u.rowMajor.symm.injective (he hEq)
        subst this
        exact (List.nodup_cons.1 hnd).1 hm)]
      exact if_pos rfl
    · exact ih _ (List.nodup_cons.1 hnd).2 h

private theorem scatter_eq_foldl (d : ScatterDims s si u) (x : s.Idx → α) (idx : IVec si w) (upd : u.Idx → α)
    (e : u.Idx → s.Idx) (hres : ∀ j, d.resultIdx? j idx = some (e j)) :
    Host.scatter d (fun _ b => b) x idx upd = (List.finRange u.numel).foldl (setStep e upd) x := by
  unfold Host.scatter
  congr 1
  funext r n
  rw [hres]
  rfl

theorem scatter_set_hit (d : ScatterDims s si u) (x : s.Idx → α) (idx : IVec si w) (upd : u.Idx → α)
    (e : u.Idx → s.Idx) (hres : ∀ j, d.resultIdx? j idx = some (e j)) (he : Function.Injective e) (j : u.Idx) :
    Host.scatter d (fun _ b => b) x idx upd (e j) = upd j := by
  rw [scatter_eq_foldl d x idx upd e hres]
  have := foldl_setStep_hit e he upd (u.rowMajor j) (List.finRange u.numel) x (List.nodup_finRange _) (List.mem_finRange _)
  rwa [Equiv.symm_apply_apply] at this

theorem scatter_set_miss (d : ScatterDims s si u) (x : s.Idx → α) (idx : IVec si w) (upd : u.Idx → α)
    (e : u.Idx → s.Idx) (hres : ∀ j, d.resultIdx? j idx = some (e j)) (i : s.Idx) (hi : ∀ j, e j ≠ i) :
    Host.scatter d (fun _ b => b) x idx upd i = x i := by
  rw [scatter_eq_foldl d x idx upd e hres]
  exact foldl_setStep_miss e upd i _ x (fun n _ => hi _)

theorem resultIdx_of_zero_start (d : ScatterDims s si u) (idx : IVec si w) (hidx : ∀ k, (idx k).toInt = 0)
    (e : u.Idx → s.Idx) (he : ∀ j a, (e j a).val = d.window j a) (j : u.Idx) :
    d.resultIdx? j idx = some (e j) := by
  have hs : ∀ a, d.start j idx a = 0 := fun a => by
    unfold ScatterDims.start
    split
    · exact hidx _
    · rfl
  unfold ScatterDims.resultIdx?
  rw [dif_pos (fun a => by
    rw [hs a, Int.zero_add, ← he j a]
    exact ⟨Int.natCast_nonneg _, by exact_mod_cast (e j a).isLt⟩)]
  congr 1
  funext a
  apply Fin.ext
  show (d.start j idx a + (d.window j a : Int)).toNat = (e j a).val
  rw [hs a, Int.zero_add, Int.toNat_natCast, he j a]

end SetAt

section PadAt
variable {si : Shape} {w : Nat}

theorem scatter_origin_pad2 {M K m k : Nat} (hm : m ≤ M) (hk : k ≤ K)
    (d : ScatterDims (⟨2, ![M, K]⟩ : Shape) si (⟨2, ![m, k]⟩ : Shape))
    (hw0 : ∀ j, d.window j 0 = (j 0).val) (hw1 : ∀ j, d.window j 1 = (j 1).val)
    (x : (⟨2, ![M, K]⟩ : Shape).Idx → EReal) (hx : ∀ i, x i = 0)
    (idx : IVec si w) (hidx : ∀ q, (idx q).toInt = 0)
    (upd : (⟨2, ![m, k]⟩ : Shape).Idx → EReal) (r : Fin M) (c : Fin K) :
    Host.scatter d (fun _ b => b) x idx upd (ix2 r c) = Gcn.pad2 M K (fun i j => upd (ix2 i j)) r c := by
  let e : (⟨2, ![m, k]⟩ : Shape).Idx → (⟨2, ![M, K]⟩ : Shape).Idx :=
    fun j => ix2 (Fin.castLE hm (j 0)) (Fin.castLE hk (j 1))
  have hres : ∀ j, d.resultIdx? j idx = some (e j) :=
    resultIdx_of_zero_start d idx hidx e (fun j a => by
      match a with
      | ⟨0, _⟩ => exact (hw0 j).symm
      | ⟨1, _⟩ => exact (hw1 j).symm)
  unfold Gcn.pad2
  split
  · next h =>
    have he : Function.Injective e := fun j j' hjj => by
      rw [eq_ix2 j, eq_ix2 j']
      have h0 : (j 0).val = (j' 0).val := congrArg (fun v : (⟨2, ![M, K]⟩ : Shape).Idx => (v 0).val) hjj
      have h1 : (j 1).val = (j' 1).val := congrArg (fun v : (⟨2, ![M, K]⟩ : Shape).Idx => (v 1).val) hjj
      rw [Fin.ext h0, Fin.ext h1]
    exact scatter_set_hit d x idx upd e hres he (ix2 ⟨r.val, h.1⟩ ⟨c.val, h.2⟩)
  · next h =>
    rw [scatter_set_miss d x idx upd e hres (ix2 r c) (fun j hj => h ⟨by
        have : (j 0).val = r.val := congrArg (fun v : (⟨2, ![M, K]⟩ : Shape).Idx => (v 0).val) hj
        rw [← this]; exact (j 0).isLt, by
        have : (j 1).val = c.val := congrArg (fun v : (⟨2, ![M, K]⟩ : Shape).Idx => (v 1).val) hj
        rw [← this]; exact (j 1).isLt⟩)]
    exact hx _

theorem scatter_origin_pad1 {K k : Nat} (hk : k ≤ K)
    (d : ScatterDims (⟨1, ![K]⟩ : Shape) si (⟨1, ![k]⟩ : Shape))
    (hw0 : ∀ j, d.window j 0 = (j 0).val)
    (x : (⟨1, ![K]⟩ : Shape).Idx → EReal) (hx : ∀ i, x i = 0)
    (idx : IVec si w) (hidx : ∀ q, (idx q).toInt = 0)
    (upd : (⟨1, ![k]⟩ : Shape).Idx → EReal) (c : Fin K) :
    Host.scatter d (fun _ b => b) x idx upd (ix1 c) = Gcn.pad1 K (fun j => upd (ix1 j)) c := by
  let e : (⟨1, ![k]⟩ : Shape).Idx → (⟨1, ![K]⟩ : Shape).Idx := fun j => ix1 (Fin.castLE hk (j 0))
  have hres : ∀ j, d.resultIdx? j idx = some (e j) :=
    resultIdx_of_zero_start d idx hidx e (fun j a => by
      match a with
      | ⟨0, _⟩ => exact (hw0 j).symm)
  unfold Gcn.pad1
  split
  · next h =>
    have he : Function.Injective e := fun j j' hjj => by
      rw [eq_ix1 j, eq_ix1 j']
      have h0 : (j 0).val = (j' 0).val := congrArg (fun v : (⟨1, ![K]⟩ : Shape).Idx => (v 0).val) hjj
      rw [Fin.ext h0]
    exact scatter_set_hit d x idx upd e hres he (ix1 ⟨c.val, h⟩)
  · next h =>
    rw [scatter_set_miss d x idx upd e hres (ix1 c) (fun j hj => h (by
        have : (j 0).val = c.val := congrArg (fun v : (⟨1, ![K]⟩ : Shape).Idx => (v 0).val) hj
        rw [← this]; exact (j 0).isLt))]
    exact hx _

end PadAt

theorem window_x_0 (j : S10000x784.Idx) : scatter_S10240x896_S2_S10000x784_01_n_01_0.window j 0 = (j 0).val := by
  unfold ScatterDims.window
  rw [dif_pos (by decide)]
  rfl
theorem window_x_1 (j : S10000x784.Idx) : scatter_S10240x896_S2_S10000x784_01_n_01_0.window j 1 = (j 1).val := by
  unfold ScatterDims.window
  rw [dif_pos (by decide)]
  rfl
theorem window_w1_0 (j : S784x512.Idx) : scatter_S896x512_S1_S784x512_01_n_0_0.window j 0 = (j 0).val := by
  unfold ScatterDims.window
  rw [dif_pos (by decide)]
  rfl
theorem window_w1_1 (j : S784x512.Idx) : scatter_S896x512_S1_S784x512_01_n_0_0.window j 1 = (j 1).val := by
  unfold ScatterDims.window
  rw [dif_pos (by decide)]
  rfl
theorem window_wc_0 (j : S512x10.Idx) : scatter_S512x128_S1_S512x10_01_n_1_0.window j 0 = (j 0).val := by
  unfold ScatterDims.window
  rw [dif_pos (by decide)]
  rfl
theorem window_wc_1 (j : S512x10.Idx) : scatter_S512x128_S1_S512x10_01_n_1_0.window j 1 = (j 1).val := by
  unfold ScatterDims.window
  rw [dif_pos (by decide)]
  rfl
theorem window_bc_0 (j : S10.Idx) : scatter_S128_S1_S10_0_n_0_0.window j 0 = (j 0).val := by
  unfold ScatterDims.window
  rw [dif_pos (by decide)]
  rfl

theorem zeros_apply {t : Shape} (hb : S_.BroadcastsInDim t (![] : Fin 0 → Fin t.rank)) (i : t.Idx) :
    broadcastInDim (α := EReal) t ![] hb (constant (F := Ideal) S_ .f32 0x00000000#32) i = 0 := by
  show Ideal.ofBits .f32 0x00000000#32 = 0
  exact Ideal.ofBits_zero_f32

theorem zeroStart1 (q : S1.Idx) : ((broadcastInDim S1 ![] bcast_S_S1 (constantI S_ 32 0#32) : IVec S1 32) q).toInt = 0 := rfl

theorem zeroStart2 (q : S2.Idx) :
    ((concatenate S2 0 [⟨S1, (broadcastInDim S1 ![] bcast_S_S1 (constantI S_ 32 0#32) : IVec S1 32)⟩,
        ⟨S1, (broadcastInDim S1 ![] bcast_S_S1 (constantI S_ 32 0#32) : IVec S1 32)⟩] concatenates_S1_S1_S2_d0 : IVec S2 32) q).toInt = 0 := by
  have hz : ∀ p ∈ ([⟨S1, (broadcastInDim S1 ![] bcast_S_S1 (constantI S_ 32 0#32) : IVec S1 32)⟩,
        ⟨S1, (broadcastInDim S1 ![] bcast_S_S1 (constantI S_ 32 0#32) : IVec S1 32)⟩] : List ((r : Shape) × IVec r 32)),
      ∀ i, (p.2 i).toInt = 0 := by
    intro p hp i
    rcases List.mem_cons.1 hp with h | h
    · subst h; rfl
    · rcases List.mem_cons.1 h with h | h
      · subst h; rfl
      · exact absurd h (List.not_mem_nil)
  unfold concatenate
  exact hz _ (List.getElem_mem _) _

set_option maxHeartbeats 4000000 in

theorem hostOps0_v75 (W : Valuation τ sig (Elt Ideal)) (r : Fin 10240) (k : Fin 896) :
    (StableHlo.after hostOps0 W (Proc.devRef .tc main_v75) : S10240x896.Idx → EReal) (ix2 r k)
      = Gcn.pad2 10240 896 (fun i k => (W (Proc.devRef .tc main_arg0) : S10000x784.Idx → EReal) (ix2 i k)) r k := by
  show StableHlo.after hostOps0 W (Proc.devRef .tc main_v75) (ix2 r k) = _
  after_results_simp
  repeat (first
    | rw [unary_result] | rw [nullary_result]
    | (rw [unary_result_ne]; rotate_left; decide) | (rw [nullary_result_ne]; rotate_left; decide))
  rw [truncf_apply]
  exact scatter_origin_pad2 (by decide) (by decide) scatter_S10240x896_S2_S10000x784_01_n_01_0 window_x_0 window_x_1
    _ (zeros_apply _) _ zeroStart2 _ r k

set_option maxHeartbeats 4000000 in

theorem hostOps0_v76 (W : Valuation τ sig (Elt Ideal)) (k : Fin 896) (c : Fin 512) :
    (StableHlo.after hostOps0 W (Proc.devRef .tc main_v76) : S896x512.Idx → EReal) (ix2 k c)
      = Gcn.pad2 896 512 (fun k c => (W (Proc.devRef .tc main_arg2) : S784x512.Idx → EReal) (ix2 k c)) k c := by
  show StableHlo.after hostOps0 W (Proc.devRef .tc main_v76) (ix2 k c) = _
  after_results_simp
  rw [truncf_apply]
  exact scatter_origin_pad2 (by decide) (by decide) scatter_S896x512_S1_S784x512_01_n_0_0 window_w1_0 window_w1_1
    _ (zeros_apply _) _ zeroStart1 _ k c

set_option maxHeartbeats 4000000 in

theorem hostOps0_v10 (W : Valuation τ sig (Elt Ideal)) (k : Fin 512) (c : Fin 128) :
    (StableHlo.after hostOps0 W (Proc.devRef .tc main_v10) : S512x128.Idx → EReal) (ix2 k c)
      = Gcn.pad2 512 128 (fun k c => (W (Proc.devRef .tc main_arg6) : S512x10.Idx → EReal) (ix2 k c)) k c := by
  show StableHlo.after hostOps0 W (Proc.devRef .tc main_v10) (ix2 k c) = _
  after_results_simp
  exact scatter_origin_pad2 (by decide) (by decide) scatter_S512x128_S1_S512x10_01_n_1_0 window_wc_0 window_wc_1
    _ (zeros_apply _) _ zeroStart1 _ k c

set_option maxHeartbeats 4000000 in

theorem hostOps0_v13 (W : Valuation τ sig (Elt Ideal)) (c : Fin 128) :
    (StableHlo.after hostOps0 W (Proc.devRef .tc main_v13) : S128.Idx → EReal) (ix1 c)
      = Gcn.pad1 128 (fun c => (W (Proc.devRef .tc main_arg7) : S10.Idx → EReal) (ix1 c)) c := by
  show StableHlo.after hostOps0 W (Proc.devRef .tc main_v13) (ix1 c) = _
  after_results_simp
  exact scatter_origin_pad1 (by decide) scatter_S128_S1_S10_0_n_0_0 window_bc_0
    _ (zeros_apply _) _ zeroStart1 _ c

set_option maxHeartbeats 4000000 in

theorem hostOps0_v72 (W : Valuation τ sig (Elt Ideal)) (c : Fin 512) :
    (StableHlo.after hostOps0 W (Proc.devRef .tc main_v72) : S512.Idx → EReal) (ix1 c) = (0 : EReal) := by
  show StableHlo.after hostOps0 W (Proc.devRef .tc main_v72) (ix1 c) = _
  after_results_simp
  exact zeros_apply _ _

set_option maxHeartbeats 4000000 in

theorem hostOps0_v73 (W : Valuation τ sig (Elt Ideal)) (c : Fin 128) :
    (StableHlo.after hostOps0 W (Proc.devRef .tc main_v73) : S128.Idx → EReal) (ix1 c) = (0 : EReal) := by
  show StableHlo.after hostOps0 W (Proc.devRef .tc main_v73) (ix1 c) = _
  after_results_simp
  exact zeros_apply _ _

set_option maxHeartbeats 4000000 in

theorem hostOps0_v74 (W : Valuation τ sig (Elt Ideal)) (c : Fin 512) :
    (StableHlo.after hostOps0 W (Proc.devRef .tc main_v74) : S1x512.Idx → EReal) (ix2 0 c) = (0 : EReal) := by
  show StableHlo.after hostOps0 W (Proc.devRef .tc main_v74) (ix2 0 c) = _
  after_results_simp
  exact (shapeCast_a_1a_apply _ _ 0 c).trans (zeros_apply _ _)

end Cert.KernelIdeal.Hand
-- ==== Proof.KI.Keeps.lean ====
import proofs.«414095_j12086037971444_1_alg».proof.Proof.Gen.KernelIdeal.Launch
import proofs.«414095_j12086037971444_1_alg».proof.Proof.Gen.KernelIdeal.Skeleton
import proofs.«414095_j12086037971444_1_alg».proof.Proof.Gen.KernelIdeal.Points
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev builtRefs : List (Ref sig .tc) := [main_v71, main_v72, main_v73, main_v10, main_v13]

/-- The first stretch builds the adjacency, the zero vectors and the padded classifier operands once; each later
    stretch writes only its own results, so it keeps them. -/
theorem built_keeps (b : Ref sig .tc) (hb : b ∈ builtRefs) :
    (∀ W : Valuation τ sig (Elt F), StableHlo.after hostOps1 W (Proc.devRef .tc b) = W (Proc.devRef .tc b))
    ∧ (∀ W : Valuation τ sig (Elt F), StableHlo.after hostOps2 W (Proc.devRef .tc b) = W (Proc.devRef .tc b))
    ∧ (∀ W : Valuation τ sig (Elt F), StableHlo.after hostOps3 W (Proc.devRef .tc b) = W (Proc.devRef .tc b))
    ∧ (∀ W : Valuation τ sig (Elt F), StableHlo.after hostOps4 W (Proc.devRef .tc b) = W (Proc.devRef .tc b))
    ∧ (∀ W : Valuation τ sig (Elt F), StableHlo.after hostOps5 W (Proc.devRef .tc b) = W (Proc.devRef .tc b)) := by
  refine ⟨?_, ?_, ?_, ?_, ?_⟩ <;> intro W <;>
    refine StableHlo.after_of_forall_not_mem (b := Proc.devRef .tc b) _ _ (List.forall_iff_forall_mem.mp ?_) <;>
    simp only [hostOps1, hostOps2, hostOps3, hostOps4, hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton] <;>
    repeat' apply And.intro
  all_goals exact StableHlo.devRef_ne_of_ne fun e => by subst e; exact absurd hb (by decide)

end Cert.KernelIdeal.Hand

end
-- ==== Proof.KI.Pay0.lean ====
/- GENERATED by: bun scripts/gen_pay.js  (run from the unit's directory; no arguments). Template: proof/Proof/KI/Pay1.lean (the text written for kernel 1). This file is that text for kernel 0 with these substitutions, applied in this order:
     no final maximum (sentence): ", clamped below at zero. - /" -> ". - /"
     no final maximum (right-hand side): "= max (v16 (ix2 p q) + v17 (ix2 0 q)) 0 := by" -> "= v16 (ix2 p q) + v17 (ix2 0 q) := by"
     no final maximum (closing steps): "rw [shapeCast_self, maximumf_apply, addf_apply, broadcastTo_1b_ab_apply, broadcast_apply]\n  show max _ (Ideal.ofBits .f32 0x00000000#32) = _\n  rw [Ideal.ofBits_zero_f32]\n" -> "rw [shapeCast_self, addf_apply, broadcastTo_1b_ab_apply]\n"
     heading: "## Kernel 1: a [2048, 2048] block times a [2048, 512] block" -> "## Kernel 0: a [2048, 896] block times a [896, 512] block"
     prefix: "k1_" -> "k0_"
     dot record (held aside): "dot_S2048x2048_S2048x512_S2048x512_1_0_0_1_n_n" -> "@@D@@"
     contraction length (re-indexing): "@@D@@ 2048 rfl rfl" -> "@@D@@ 896 rfl rfl"
     contraction length (sum): "j : Fin 2048" -> "j : Fin 896"
     left block as an operand (held aside): "S2048x2048 .bf16" -> "@@L@@ .bf16"
     left block's axis (held aside): "Fin S2048x2048.rank" -> "Fin @@L@@.rank"
     right block as an operand (held aside): "S2048x512 .bf16" -> "@@R@@ .bf16"
     right block's axis (held aside): "Fin S2048x512.rank" -> "Fin @@R@@.rank"
     output block: "S2048x512" -> "S2048x512"
     bias row: "S1x512" -> "S1x512"
     column count: "(q : Fin 512)" -> "(q : Fin 512)"
     left block: "@@L@@" -> "S2048x896"
     right block: "@@R@@" -> "S896x512"
     dot record: "@@D@@" -> "dot_S2048x896_S896x512_S2048x512_1_0_0_1_n_n"
   Do not edit: change the template or the script and run it again. -/
import proofs.«414095_j12086037971444_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! The arithmetic of the six matrix-product kernels, read one element at a time over the extended reals.
    Each kernel keeps a scratch block: it is reset to zero, then a block product is added to it, and at the end the
    bias row is added (and, for two of the kernels, the result is clamped below at zero). Read at row p and column q:
    the reset value is 0; the update is the old scratch element plus the inner product of row p of the left block with
    column q of the right block; the output is the scratch element plus the bias at column q (clamped at 0 where the
    kernel has a rectifier). -/

noncomputable section

open scoped BigOperators

namespace Cert.KernelIdeal.Hand

open Cert.KernelIdeal Cert.KernelIdeal.Gen Idealize.ShloMosaic Idealize.ShloMosaic.ValueIdx

/-! ## Kernel 0: a [2048, 896] block times a [896, 512] block -/

/-- The left operand's row coordinate is the output's row. -/
theorem k0_lhs_0 (i : S2048x512.Idx) (c : dot_S2048x896_S896x512_S2048x512_1_0_0_1_n_n.contr.Idx) :
    (dot_S2048x896_S896x512_S2048x512_1_0_0_1_n_n.lhsIdx i c 0).val = (i 0).val := by
  unfold DotDims.lhsIdx
  rw [dif_neg (show ¬(0 : Fin S2048x896.rank) ∈ dot_S2048x896_S896x512_S2048x512_1_0_0_1_n_n.lhsBatch by decide), dif_pos (show (0 : Fin S2048x896.rank) ∈ dot_S2048x896_S896x512_S2048x512_1_0_0_1_n_n.lhsNonContracting by decide)]
  rfl
/-- The left operand's column coordinate is the contraction coordinate. -/
theorem k0_lhs_1 (i : S2048x512.Idx) (c : dot_S2048x896_S896x512_S2048x512_1_0_0_1_n_n.contr.Idx) :
    (dot_S2048x896_S896x512_S2048x512_1_0_0_1_n_n.lhsIdx i c 1).val = (c ⟨0, by decide⟩).val :=
  dot_S2048x896_S896x512_S2048x512_1_0_0_1_n_n.lhsIdx_val_of_single rfl i c
/-- The right operand's row coordinate is the contraction coordinate. -/
theorem k0_rhs_0 (i : S2048x512.Idx) (c : dot_S2048x896_S896x512_S2048x512_1_0_0_1_n_n.contr.Idx) :
    (dot_S2048x896_S896x512_S2048x512_1_0_0_1_n_n.rhsIdx i c 0).val = (c ⟨0, by decide⟩).val :=
  dot_S2048x896_S896x512_S2048x512_1_0_0_1_n_n.rhsIdx_val_of_single rfl i c
/-- The right operand's column coordinate is the output's column. -/
theorem k0_rhs_1 (i : S2048x512.Idx) (c : dot_S2048x896_S896x512_S2048x512_1_0_0_1_n_n.contr.Idx) :
    (dot_S2048x896_S896x512_S2048x512_1_0_0_1_n_n.rhsIdx i c 1).val = (i 1).val := by
  unfold DotDims.rhsIdx
  rw [dif_neg (show ¬(1 : Fin S896x512.rank) ∈ dot_S2048x896_S896x512_S2048x512_1_0_0_1_n_n.rhsBatch by decide), dif_pos (show (1 : Fin S896x512.rank) ∈ dot_S2048x896_S896x512_S2048x512_1_0_0_1_n_n.rhsNonContracting by decide)]
  rfl

/-- The block product into a zero accumulator, at (p, q): the inner product of row p with column q. -/
theorem k0_matmul_apply (a : FVec Ideal S2048x896 .bf16) (b : FVec Ideal S896x512 .bf16) (p : Fin 2048) (q : Fin 512) :
    matmul dot_S2048x896_S896x512_S2048x512_1_0_0_1_n_n none a b (constant (F := Ideal) S2048x512 .f32 0x00000000#32) (ix2 p q)
      = ∑ j : Fin 896, a (ix2 p j) * b (ix2 j q) := by
  show FloatOps.matmul dot_S2048x896_S896x512_S2048x512_1_0_0_1_n_n none a b (constant (F := Ideal) S2048x512 .f32 0x00000000#32) (ix2 p q) = _
  rw [Ideal.matmul_constant_zero_apply, ← Equiv.sum_comp (contrEquiv1 dot_S2048x896_S896x512_S2048x512_1_0_0_1_n_n 896 rfl rfl).symm]
  refine Finset.sum_congr rfl fun j _ => ?_
  have hj := contrEquiv1_symm_val dot_S2048x896_S896x512_S2048x512_1_0_0_1_n_n 896 rfl rfl j
  have el : dot_S2048x896_S896x512_S2048x512_1_0_0_1_n_n.lhsIdx (ix2 p q) ((contrEquiv1 dot_S2048x896_S896x512_S2048x512_1_0_0_1_n_n 896 rfl rfl).symm j) = ix2 p j := funext fun ax => Fin.ext (by
    match ax with
    | ⟨0, _⟩ => exact k0_lhs_0 _ _
    | ⟨1, _⟩ => exact (k0_lhs_1 _ _).trans hj)
  have er : dot_S2048x896_S896x512_S2048x512_1_0_0_1_n_n.rhsIdx (ix2 p q) ((contrEquiv1 dot_S2048x896_S896x512_S2048x512_1_0_0_1_n_n 896 rfl rfl).symm j) = ix2 j q := funext fun ax => Fin.ext (by
    match ax with
    | ⟨0, _⟩ => exact (k0_rhs_0 _ _).trans hj
    | ⟨1, _⟩ => exact k0_rhs_1 _ _)
  rw [el, er]

/-- The reset value is zero everywhere. -/
theorem k0_pay1_apply (p : Fin 2048) (q : Fin 512) : k0_pay1 (F := Ideal) (ix2 p q) = 0 := by
  unfold k0_pay1
  rw [shapeCast_self, broadcast_apply]
  exact Ideal.ofBits_zero_f32

/-- The update: the old scratch element plus the inner product of row p of the left block and column q of the right. -/
theorem k0_pay2_apply (v3 : Vec Ideal S2048x512 .f32) (v4 : Vec Ideal S2048x896 .bf16) (v6 : Vec Ideal S896x512 .bf16)
    (p : Fin 2048) (q : Fin 512) :
    k0_pay2 (F := Ideal) v3 v4 v6 (ix2 p q) = v3 (ix2 p q) + ∑ j : Fin 896, v4 (ix2 p j) * v6 (ix2 j q) := by
  unfold k0_pay2
  rw [shapeCast_self, shapeCast_self, shapeCast_self, addf_apply, k0_matmul_apply]

/-- The output: the scratch element plus the bias of its column. -/
theorem k0_pay3_apply (v16 : Vec Ideal S2048x512 .f32) (v17 : Vec Ideal S1x512 .f32) (p : Fin 2048) (q : Fin 512) :
    k0_pay3 (F := Ideal) v16 v17 (ix2 p q) = v16 (ix2 p q) + v17 (ix2 0 q) := by
  unfold k0_pay3
  rw [shapeCast_self, addf_apply, broadcastTo_1b_ab_apply]

end Cert.KernelIdeal.Hand
-- ==== Proof.KI.V0.lean ====
import proofs.«414095_j12086037971444_1_alg».proof.Proof.KI.R0Frame
import proofs.«414095_j12086037971444_1_alg».proof.Proof.KI.Pay0
import proofs.«414095_j12086037971444_1_alg».proof.Proof.Spec
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

theorem zero_offsets0 : (![0, 0] : Fin 2 → Nat) = fun _ => 0 := funext fun a => by fin_cases a <;> rfl

section Piece
variable {F : FTy → Type} [FloatOps F]

theorem out0_piece (c : Dev nD) (i : grid0.Coords) (arg3 : Memref sig .tc .vmem S2048x896 .bf16) (harg3 : arg3.IsWhole) (arg4 : Memref sig .tc .vmem S896x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : cond0_0 i) (hc1 : cond0_1 i)
    (x0 : Vec F S2048x896 .bf16) (x1 : Vec F S896x512 .bf16) (x2 : Vec F S1x512 .f32) :
    out0_A_3 c i arg3 harg3 arg4 harg4 arg5 harg5 arg6 harg6 arg7 harg7 hc0 hc1 x0 x1 x2
      = k0_pay3 (k0_pay2 (k0_pay1 (F := F)) x0 x1) x2 := by
  unfold out0_A_3
  rw [View.read_writes_eq_canon _ _ _ (cover0_A_3 c i arg3 harg3 arg4 harg4 arg5 harg5 arg6 harg6 arg7 harg7 hc0 hc1 x0 x1 x2)]
  unfold kernelRun0_A
  dsimp only
  sl_unfold_words
  rw [View.canon_unit_zero zero_offsets0]
  simp only [View.readAt_eq_ld, harg3.read_unread, harg4.read_unread, harg5.read_unread, harg7.read_unread,
    View.ld_unit_zero (S := S2048x512) zero_offsets0, View.ld_unit_zero (S := S2048x896) zero_offsets0,
    View.ld_unit_zero (S := S896x512) zero_offsets0, View.ld_unit_zero (S := S1x512) zero_offsets0,
    View.readCov_unit_zero (S := S2048x512) _ zero_offsets0]
  rw [View.readCov_cons_toLoadRect]

end Piece

theorem block_value0 (x0 : Vec Ideal S2048x896 .bf16) (x1 : Vec Ideal S896x512 .bf16) (x2 : Vec Ideal S1x512 .f32)
    (p : Fin 2048) (q : Fin 512) :
    k0_pay3 (F := Ideal) (k0_pay2 (F := Ideal) (k0_pay1 (F := Ideal)) x0 x1) x2 (ix2 p q)
      = (0 + ∑ k : Fin 896, x0 (ix2 p k) * x1 (ix2 k q)) + x2 (ix2 0 q) := by
  rw [k0_pay3_apply, k0_pay2_apply, k0_pay1_apply]

section Arrays
variable (V : (c : Dev nD) → (b : Ref sig .tc) → Buf (Elt Ideal) ((c : Thread nD τ).loc b))

abbrev lhsArr0 (c : Dev nD) : S10240x896.Idx → EReal := V c main_v75
abbrev rhsArr0 (c : Dev nD) : S896x512.Idx → EReal := V c main_v76
abbrev biasArr0 (c : Dev nD) : S1x512.Idx → EReal := V c main_v74

abbrev lhsBlk0 (c : Dev nD) (t : Fin cfg0.N) : Vec Ideal S2048x896 .bf16 := iblk0 V c 0 t
abbrev rhsBlk0 (c : Dev nD) (t : Fin cfg0.N) : Vec Ideal S896x512 .bf16 := iblk0 V c 1 t
abbrev biasBlk0 (c : Dev nD) (t : Fin cfg0.N) : Vec Ideal S1x512 .f32 := iblk0 V c 2 t

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lhsBlk0_apply (c : Dev nD) (t : Fin cfg0.N) (p : Fin 2048) (k : Fin 896) (hp : 2048 * t.val + p.val < 10240) :
    lhsBlk0 V c t (ix2 p k) = lhsArr0 V c (ix2 ⟨2048 * t.val + p.val, hp⟩ k) := by
  obtain ⟨e0, e1, -⟩ := idx_facts0 t
  show V c main_v75 (((cfg0.win 0).blk t).view.emb (ix2 p k)) = V c main_v75 _
  refine congrArg (V c main_v75) (funext fun a => Fin.ext ?_)
  match a with
  | ⟨0, _⟩ => show win0_0.index t (0 : Fin 2) * 2048 + 1 * p.val = 2048 * t.val + p.val; rw [e0]; omega
  | ⟨1, _⟩ => show win0_0.index t (1 : Fin 2) * 896 + 1 * k.val = k.val; rw [e1]; omega

theorem rhsBlk0_apply (c : Dev nD) (t : Fin cfg0.N) (k : Fin 896) (q : Fin 512) :
    rhsBlk0 V c t (ix2 k q) = rhsArr0 V c (ix2 k q) := by
  obtain ⟨-, -, e0, e1, -⟩ := idx_facts0 t
  show V c main_v76 (((cfg0.win 1).blk t).view.emb (ix2 k q)) = V c main_v76 _
  refine congrArg (V c main_v76) (funext fun a => Fin.ext ?_)
  match a with
  | ⟨0, _⟩ => show win0_1.index t (0 : Fin 2) * 896 + 1 * k.val = k.val; rw [e0]; omega
  | ⟨1, _⟩ => show win0_1.index t (1 : Fin 2) * 512 + 1 * q.val = q.val; rw [e1]; omega

theorem biasBlk0_apply (c : Dev nD) (t : Fin cfg0.N) (q : Fin 512) :
    biasBlk0 V c t (ix2 0 q) = biasArr0 V c (ix2 0 q) := by
  obtain ⟨-, -, -, -, e0, e1, -⟩ := idx_facts0 t
  show V c main_v74 (((cfg0.win 2).blk t).view.emb (ix2 (0 : Fin 1) q)) = V c main_v74 _
  refine congrArg (V c main_v74) (funext fun a => Fin.ext ?_)
  match a with
  | ⟨0, _⟩ => show win0_2.index t (0 : Fin 2) * 1 + 1 * 0 = 0; rw [e0]
  | ⟨1, _⟩ => show win0_2.index t (1 : Fin 2) * 512 + 1 * q.val = q.val; rw [e1]; omega

abbrev denseArr0 (c : Dev nD) : S10240x512.Idx → EReal := fun i =>
  Gcn.dense (fun r k => lhsArr0 V c (ix2 r k)) (fun k q => rhsArr0 V c (ix2 k q)) (fun q => biasArr0 V c (ix2 0 q))
    (i 0 : Fin 10240) (i 1 : Fin 512)

theorem flushed0_eq (c : Dev nD) (t : Fin cfg0.N) :
    (dat0 (F := Ideal) V c).flushed 3 t = ((cfg0.win 3).blk t).view.read (Elt Ideal) (denseArr0 V c) := by
  show (cfg0.win 3).cut (grid0.coords t) ((dat0 (F := Ideal) V c).after 3 t) = _
  rw [after0_3, out0_piece]
  have hN : t.val < 5 := by have h5 : cfg0.N = 5 := N_0; have := t.isLt; omega
  obtain ⟨-, -, -, -, -, -, e0, e1⟩ := idx_facts0 t
  funext j
  obtain ⟨p, q, rfl⟩ : ∃ (p : Fin 2048) (q : Fin 512), j = ix2 p q := ⟨j 0, j 1, eq_ix2 j⟩
  have hp : 2048 * t.val + p.val < 10240 := by have := p.isLt; omega
  have hemb : ((cfg0.win 3).blk t).view.emb (ix2 p q) = (ix2 ⟨2048 * t.val + p.val, hp⟩ q : S10240x512.Idx) := by
    funext a; apply Fin.ext
    match a with
    | ⟨0, _⟩ => show win0_3.index t (0 : Fin 2) * 2048 + 1 * p.val = 2048 * t.val + p.val; rw [e0]; omega
    | ⟨1, _⟩ => show win0_3.index t (1 : Fin 2) * 512 + 1 * q.val = q.val; rw [e1]; omega
  show k0_pay3 (F := Ideal) (k0_pay2 (F := Ideal) (k0_pay1 (F := Ideal)) (lhsBlk0 V c t) (rhsBlk0 V c t)) (biasBlk0 V c t) (ix2 p q)
    = denseArr0 V c (((cfg0.win 3).blk t).view.emb (ix2 p q))
  rw [hemb]
  refine (block_value0 (lhsBlk0 V c t) (rhsBlk0 V c t) (biasBlk0 V c t) p q).trans ?_
  show (0 + ∑ k : Fin 896, lhsBlk0 V c t (ix2 p k) * rhsBlk0 V c t (ix2 k q)) + biasBlk0 V c t (ix2 0 q)
    = (∑ k : Fin 896, lhsArr0 V c (ix2 ⟨2048 * t.val + p.val, hp⟩ k) * rhsArr0 V c (ix2 k q)) + biasArr0 V c (ix2 0 q)
  rw [zero_add, biasBlk0_apply]
  exact congrArg (· + biasArr0 V c (ix2 0 q)) (Finset.sum_congr rfl fun k _ => by rw [lhsBlk0_apply V c t p k hp, rhsBlk0_apply])

theorem mem_blk0 (t : Fin cfg0.N) (i : S10240x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v77).slice (win0_3.rect t)).set ↔ _
  rw [View.set_slice_whole, Rect.mem_set_unit]
  exact Iff.rfl

theorem cover0 (i : S10240x512.Idx) :
    ∃ t : Fin cfg0.N, (cfg0.win 3).flush t = true ∧ i ∈ ((cfg0.win 3).blk t).view.set := by
  have hi0 : (i 0).val < 10240 := (i 0).isLt
  have hi1 : (i 1).val < 512 := (i 1).isLt
  have hN : cfg0.N = 5 := N_0
  let t : Fin cfg0.N := ⟨(i 0).val / 2048, by rw [hN]; omega⟩
  obtain ⟨-, -, -, -, -, -, e0, e1⟩ := idx_facts0 t
  have ht : t.val = (i 0).val / 2048 := rfl
  refine ⟨t, flush0_3 t, ?_⟩
  rw [mem_blk0]
  intro a
  match a with
  | ⟨0, _⟩ => show win0_3.index t (0 : Fin 2) * 2048 ≤ (i 0).val ∧ (i 0).val < win0_3.index t (0 : Fin 2) * 2048 + 2048; rw [e0, ht]; omega
  | ⟨1, _⟩ => show win0_3.index t (1 : Fin 2) * 512 ≤ (i 1).val ∧ (i 1).val < win0_3.index t (1 : Fin 2) * 512 + 512; rw [e1]; omega

theorem arr0_eq (c : Dev nD) : (dat0 (F := Ideal) V c).arrAt 3 cfg0.N = denseArr0 V c :=
  (dat0 (F := Ideal) V c).arrAt_eq_of_cover 3 (denseArr0 V c) (fun t _ => flushed0_eq V c t) cover0

theorem value0 (c : Dev nD) (r : Fin 10240) (q : Fin 512) :
    ((dat0 (F := Ideal) V c).arrAt 3 cfg0.N : S10240x512.Idx → EReal) (ix2 r q)
      = Gcn.dense (fun r k => (V c main_v75 : S10240x896.Idx → EReal) (ix2 r k)) (fun k q => (V c main_v76 : S896x512.Idx → EReal) (ix2 k q))
          (fun q => (V c main_v74 : S1x512.Idx → EReal) (ix2 0 q)) r q := by
  rw [arr0_eq]

end Arrays

end Cert.KernelIdeal.Hand
-- ==== Proof.KI.Pay1.lean ====
import proofs.«414095_j12086037971444_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

theorem k1_lhs_0 (i : S2048x512.Idx) (c : dot_S2048x2048_S2048x512_S2048x512_1_0_0_1_n_n.contr.Idx) :
    (dot_S2048x2048_S2048x512_S2048x512_1_0_0_1_n_n.lhsIdx i c 0).val = (i 0).val := by
  unfold DotDims.lhsIdx
  rw [dif_neg (show ¬(0 : Fin S2048x2048.rank) ∈ dot_S2048x2048_S2048x512_S2048x512_1_0_0_1_n_n.lhsBatch by decide), dif_pos (show (0 : Fin S2048x2048.rank) ∈ dot_S2048x2048_S2048x512_S2048x512_1_0_0_1_n_n.lhsNonContracting by decide)]
  rfl

theorem k1_lhs_1 (i : S2048x512.Idx) (c : dot_S2048x2048_S2048x512_S2048x512_1_0_0_1_n_n.contr.Idx) :
    (dot_S2048x2048_S2048x512_S2048x512_1_0_0_1_n_n.lhsIdx i c 1).val = (c ⟨0, by decide⟩).val :=
  dot_S2048x2048_S2048x512_S2048x512_1_0_0_1_n_n.lhsIdx_val_of_single rfl i c

theorem k1_rhs_0 (i : S2048x512.Idx) (c : dot_S2048x2048_S2048x512_S2048x512_1_0_0_1_n_n.contr.Idx) :
    (dot_S2048x2048_S2048x512_S2048x512_1_0_0_1_n_n.rhsIdx i c 0).val = (c ⟨0, by decide⟩).val :=
  dot_S2048x2048_S2048x512_S2048x512_1_0_0_1_n_n.rhsIdx_val_of_single rfl i c

theorem k1_rhs_1 (i : S2048x512.Idx) (c : dot_S2048x2048_S2048x512_S2048x512_1_0_0_1_n_n.contr.Idx) :
    (dot_S2048x2048_S2048x512_S2048x512_1_0_0_1_n_n.rhsIdx i c 1).val = (i 1).val := by
  unfold DotDims.rhsIdx
  rw [dif_neg (show ¬(1 : Fin S2048x512.rank) ∈ dot_S2048x2048_S2048x512_S2048x512_1_0_0_1_n_n.rhsBatch by decide), dif_pos (show (1 : Fin S2048x512.rank) ∈ dot_S2048x2048_S2048x512_S2048x512_1_0_0_1_n_n.rhsNonContracting by decide)]
  rfl

theorem k1_matmul_apply (a : FVec Ideal S2048x2048 .bf16) (b : FVec Ideal S2048x512 .bf16) (p : Fin 2048) (q : Fin 512) :
    matmul dot_S2048x2048_S2048x512_S2048x512_1_0_0_1_n_n none a b (constant (F := Ideal) S2048x512 .f32 0x00000000#32) (ix2 p q)
      = ∑ j : Fin 2048, a (ix2 p j) * b (ix2 j q) := by
  show FloatOps.matmul dot_S2048x2048_S2048x512_S2048x512_1_0_0_1_n_n none a b (constant (F := Ideal) S2048x512 .f32 0x00000000#32) (ix2 p q) = _
  rw [Ideal.matmul_constant_zero_apply, ← Equiv.sum_comp (contrEquiv1 dot_S2048x2048_S2048x512_S2048x512_1_0_0_1_n_n 2048 rfl rfl).symm]
  refine Finset.sum_congr rfl fun j _ => ?_
  have hj := contrEquiv1_symm_val dot_S2048x2048_S2048x512_S2048x512_1_0_0_1_n_n 2048 rfl rfl j
  have el : dot_S2048x2048_S2048x512_S2048x512_1_0_0_1_n_n.lhsIdx (ix2 p q) ((contrEquiv1 dot_S2048x2048_S2048x512_S2048x512_1_0_0_1_n_n 2048 rfl rfl).symm j) = ix2 p j := funext fun ax => Fin.ext (by
    match ax with
    | ⟨0, _⟩ => exact k1_lhs_0 _ _
    | ⟨1, _⟩ => exact (k1_lhs_1 _ _).trans hj)
  have er : dot_S2048x2048_S2048x512_S2048x512_1_0_0_1_n_n.rhsIdx (ix2 p q) ((contrEquiv1 dot_S2048x2048_S2048x512_S2048x512_1_0_0_1_n_n 2048 rfl rfl).symm j) = ix2 j q := funext fun ax => Fin.ext (by
    match ax with
    | ⟨0, _⟩ => exact (k1_rhs_0 _ _).trans hj
    | ⟨1, _⟩ => exact k1_rhs_1 _ _)
  rw [el, er]

theorem k1_pay1_apply (p : Fin 2048) (q : Fin 512) : k1_pay1 (F := Ideal) (ix2 p q) = 0 := by
  unfold k1_pay1
  rw [shapeCast_self, broadcast_apply]
  exact Ideal.ofBits_zero_f32

theorem k1_pay2_apply (v3 : Vec Ideal S2048x512 .f32) (v4 : Vec Ideal S2048x2048 .bf16) (v6 : Vec Ideal S2048x512 .bf16)
    (p : Fin 2048) (q : Fin 512) :
    k1_pay2 (F := Ideal) v3 v4 v6 (ix2 p q) = v3 (ix2 p q) + ∑ j : Fin 2048, v4 (ix2 p j) * v6 (ix2 j q) := by
  unfold k1_pay2
  rw [shapeCast_self, shapeCast_self, shapeCast_self, addf_apply, k1_matmul_apply]

theorem k1_pay3_apply (v16 : Vec Ideal S2048x512 .f32) (v17 : Vec Ideal S1x512 .f32) (p : Fin 2048) (q : Fin 512) :
    k1_pay3 (F := Ideal) v16 v17 (ix2 p q) = max (v16 (ix2 p q) + v17 (ix2 0 q)) 0 := by
  unfold k1_pay3
  rw [shapeCast_self, maximumf_apply, addf_apply, broadcastTo_1b_ab_apply, broadcast_apply]
  show max _ (Ideal.ofBits .f32 0x00000000#32) = _
  rw [Ideal.ofBits_zero_f32]

end Cert.KernelIdeal.Hand
-- ==== Proof.MatBlocks.lean ====
import Mathlib.Algebra.BigOperators.Fin
import Mathlib.Data.Fintype.BigOperators
import Mathlib.Logic.Equiv.Fin.Basic

namespace Gcn

open Finset

theorem blk_lt {nb bs : Nat} (k : Fin nb) (j : Fin bs) : k.val * bs + j.val < nb * bs :=
  calc k.val * bs + j.val < k.val * bs + bs := Nat.add_lt_add_left j.isLt _
    _ = (k.val + 1) * bs := (Nat.succ_mul _ _).symm
    _ ≤ nb * bs := Nat.mul_le_mul_right _ k.isLt

theorem sum_blocks {M : Type*} [AddCommMonoid M] (nb bs : Nat) (f : Fin (nb * bs) → M) :
    ∑ j : Fin (nb * bs), f j = ∑ k : Fin nb, ∑ j : Fin bs, f ⟨k.val * bs + j.val, blk_lt k j⟩ := by
  rw [← Equiv.sum_comp finProdFinEquiv f, Fintype.sum_prod_type]
  refine Finset.sum_congr rfl (fun k _ => Finset.sum_congr rfl (fun j _ => ?_))
  congr 1
  apply Fin.ext
  simp only [finProdFinEquiv_apply_val]
  rw [Nat.add_comm, Nat.mul_comm]

theorem sum_blocks_5_2048 {M : Type*} [AddCommMonoid M] (f : Fin 10240 → M) :
    ∑ j, f j = ∑ k : Fin 5, ∑ j : Fin 2048, f ⟨k.val * 2048 + j.val, by omega⟩ :=
  sum_blocks 5 2048 f

def accUpTo {M : Type*} [AddCommMonoid M] (s : Nat → M) : Nat → M
  | 0 => 0
  | n + 1 => accUpTo s n + s n

theorem accUpTo_zero {M : Type*} [AddCommMonoid M] (s : Nat → M) : accUpTo s 0 = 0 := rfl

theorem accUpTo_succ {M : Type*} [AddCommMonoid M] (s : Nat → M) (n : Nat) :
    accUpTo s (n + 1) = accUpTo s n + s n := rfl

theorem accUpTo_five {M : Type*} [AddCommMonoid M] (s : Nat → M) :
    accUpTo s 5 = ((((0 + s 0) + s 1) + s 2) + s 3) + s 4 := rfl

theorem acc_five {M : Type*} [AddCommMonoid M] (s : Fin 5 → M) :
    ((((0 + s 0) + s 1) + s 2) + s 3) + s 4 = ∑ k : Fin 5, s k := by
  rw [Fin.sum_univ_five, zero_add]

end Gcn
-- ==== Proof.KI.V1.lean ====
import proofs.«414095_j12086037971444_1_alg».proof.Proof.KI.R1Frame
import proofs.«414095_j12086037971444_1_alg».proof.Proof.KI.Pay1
import proofs.«414095_j12086037971444_1_alg».proof.Proof.MatBlocks
import proofs.«414095_j12086037971444_1_alg».proof.Proof.Spec
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

theorem zero_offsets1 : (![0, 0] : Fin 2 → Nat) = fun _ => 0 := funext fun a => by fin_cases a <;> rfl

section Piece
variable {F : FTy → Type} [FloatOps F]
variable (c : Dev nD) (i : grid1.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)

theorem sout1_A_piece (hc0 : cond1_0 i) (hc1 : ¬cond1_1 i)
    (x0 : Vec F S2048x2048 .bf16) (x1 : Vec F S2048x512 .bf16) (x2 : Vec F S1x512 .f32) :
    sout1_A_0 c i arg3 harg3 arg4 harg4 arg5 harg5 arg6 harg6 arg7 harg7 hc0 hc1 x0 x1 x2 = k1_pay2 (k1_pay1 (F := F)) x0 x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S2048x512) zero_offsets1, View.readCov_unit_zero (S := S2048x512) _ zero_offsets1]
  simp only [View.readAt_eq_ld, harg3.read_unread, harg4.read_unread, harg5.read_unread, harg6.read_unread, harg7.read_unread,
    View.ld_unit_zero (S := S2048x512) zero_offsets1, View.ld_unit_zero (S := S2048x2048) zero_offsets1,
    View.ld_unit_zero (S := S1x512) zero_offsets1, View.readCov_unit_zero (S := S2048x512) _ zero_offsets1]

theorem sout1_B_piece (hc0 : ¬cond1_0 i) (hc1 : ¬cond1_1 i)
    (x0 : Vec F S2048x2048 .bf16) (x1 : Vec F S2048x512 .bf16) (x2 : Vec F S1x512 .f32) (xs0 : Vec F S2048x512 .f32) :
    sout1_B_0 c i arg3 harg3 arg4 harg4 arg5 harg5 arg6 harg6 arg7 harg7 hc0 hc1 x0 x1 x2 xs0 = k1_pay2 xs0 x0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero zero_offsets1]
  simp only [View.readAt_eq_ld, harg3.read_unread, harg4.read_unread, harg5.read_unread, harg6.read_unread, harg7.read_unread,
    View.ld_unit_zero (S := S2048x512) zero_offsets1, View.ld_unit_zero (S := S2048x2048) zero_offsets1,
    View.ld_unit_zero (S := S1x512) zero_offsets1, View.readCov_unit_zero (S := S2048x512) _ zero_offsets1]

theorem sout1_C_piece (hc0 : ¬cond1_0 i) (hc1 : cond1_1 i)
    (x0 : Vec F S2048x2048 .bf16) (x1 : Vec F S2048x512 .bf16) (x2 : Vec F S1x512 .f32) (xs0 : Vec F S2048x512 .f32) :
    sout1_C_0 c i arg3 harg3 arg4 harg4 arg5 harg5 arg6 harg6 arg7 harg7 hc0 hc1 x0 x1 x2 xs0 = k1_pay2 xs0 x0 x1 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero zero_offsets1]
  simp only [View.readAt_eq_ld, harg3.read_unread, harg4.read_unread, harg5.read_unread, harg6.read_unread, harg7.read_unread,
    View.ld_unit_zero (S := S2048x512) zero_offsets1, View.ld_unit_zero (S := S2048x2048) zero_offsets1,
    View.ld_unit_zero (S := S1x512) zero_offsets1, View.readCov_unit_zero (S := S2048x512) _ zero_offsets1]

theorem out1_C_piece (hc0 : ¬cond1_0 i) (hc1 : cond1_1 i)
    (x0 : Vec F S2048x2048 .bf16) (x1 : Vec F S2048x512 .bf16) (x2 : Vec F S1x512 .f32) (xs0 : Vec F S2048x512 .f32) :
    out1_C_3 c i arg3 harg3 arg4 harg4 arg5 harg5 arg6 harg6 arg7 harg7 hc0 hc1 x0 x1 x2 xs0 = k1_pay3 (k1_pay2 xs0 x0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero zero_offsets1]
  simp only [View.readAt_eq_ld, harg3.read_unread, harg4.read_unread, harg5.read_unread, harg6.read_unread, harg7.read_unread,
    View.ld_unit_zero (S := S2048x512) zero_offsets1, View.ld_unit_zero (S := S2048x2048) zero_offsets1,
    View.ld_unit_zero (S := S1x512) zero_offsets1, View.readCov_unit_zero (S := S2048x512) _ zero_offsets1]

end Piece

section Arrays
variable (V : (c : Dev nD) → (b : Ref sig .tc) → Buf (Elt Ideal) ((c : Thread nD τ).loc b))

abbrev adjArr1 (c : Dev nD) : S10240x10240.Idx → EReal := V c main_v71
abbrev featArr1 (c : Dev nD) : S10240x512.Idx → EReal := V c main_v79
abbrev biasArr1 (c : Dev nD) : S1x512.Idx → EReal := V c main_v78

abbrev adjBlk1 (c : Dev nD) (t : Fin cfg1.N) : Vec Ideal S2048x2048 .bf16 := iblk1 V c 0 t
abbrev featBlk1 (c : Dev nD) (t : Fin cfg1.N) : Vec Ideal S2048x512 .bf16 := iblk1 V c 1 t
abbrev biasBlk1 (c : Dev nD) (t : Fin cfg1.N) : Vec Ideal S1x512 .f32 := iblk1 V c 2 t

theorem idx_facts1 : ∀ t : Fin cfg1.N,
    win1_0.index t (0 : Fin 2) = t.val / 5 ∧ win1_0.index t (1 : Fin 2) = t.val % 5
    ∧ win1_1.index t (0 : Fin 2) = t.val % 5 ∧ win1_1.index t (1 : Fin 2) = 0
    ∧ win1_2.index t (0 : Fin 2) = 0 ∧ win1_2.index t (1 : Fin 2) = 0
    ∧ win1_3.index t (0 : Fin 2) = t.val / 5 ∧ win1_3.index t (1 : Fin 2) = 0 :=
  (by decide +kernel : ∀ t : Fin grid1.N, _)

def adjN (c : Dev nD) (r k : ℕ) : EReal :=
  if h : r < 10240 ∧ k < 10240 then adjArr1 V c (ix2 ⟨r, h.1⟩ ⟨k, h.2⟩) else 0
def featN (c : Dev nD) (k : ℕ) (q : Fin 512) : EReal :=
  if h : k < 10240 then featArr1 V c (ix2 ⟨k, h⟩ q) else 0

theorem adjN_of_lt (c : Dev nD) (r k : ℕ) (hr : r < 10240) (hk : k < 10240) :
    adjN V c r k = adjArr1 V c (ix2 ⟨r, hr⟩ ⟨k, hk⟩) := dif_pos ⟨hr, hk⟩
theorem featN_of_lt (c : Dev nD) (k : ℕ) (q : Fin 512) (hk : k < 10240) :
    featN V c k q = featArr1 V c (ix2 ⟨k, hk⟩ q) := dif_pos hk

theorem adjBlk1_apply (c : Dev nD) (t : Fin cfg1.N) (p j : Fin 2048) :
    adjBlk1 V c t (ix2 p j) = adjN V c (2048 * (t.val / 5) + p.val) (t.val % 5 * 2048 + j.val) := by
  have hN : t.val < 25 := lt_of_lt_of_eq t.isLt (show cfg1.N = 25 from N_1)
  have hr : 2048 * (t.val / 5) + p.val < 10240 := by have := p.isLt; omega
  have hk : t.val % 5 * 2048 + j.val < 10240 := by have := j.isLt; omega
  rw [adjN_of_lt V c _ _ hr hk]
  obtain ⟨e0, e1, -⟩ := idx_facts1 t
  show V c main_v71 (((cfg1.win 0).blk t).view.emb (ix2 p j)) = V c main_v71 _
  refine congrArg (V c main_v71) (funext fun a => Fin.ext ?_)
  match a with
  | ⟨0, _⟩ => show win1_0.index t (0 : Fin 2) * 2048 + 1 * p.val = 2048 * (t.val / 5) + p.val; rw [e0]; omega
  | ⟨1, _⟩ => show win1_0.index t (1 : Fin 2) * 2048 + 1 * j.val = t.val % 5 * 2048 + j.val; rw [e1]; omega

theorem featBlk1_apply (c : Dev nD) (t : Fin cfg1.N) (j : Fin 2048) (q : Fin 512) :
    featBlk1 V c t (ix2 j q) = featN V c (t.val % 5 * 2048 + j.val) q := by
  have hk : t.val % 5 * 2048 + j.val < 10240 := by have := j.isLt; omega
  rw [featN_of_lt V c _ q hk]
  obtain ⟨-, -, e0, e1, -⟩ := idx_facts1 t
  show V c main_v79 (((cfg1.win 1).blk t).view.emb (ix2 j q)) = V c main_v79 _
  refine congrArg (V c main_v79) (funext fun a => Fin.ext ?_)
  match a with
  | ⟨0, _⟩ => show win1_1.index t (0 : Fin 2) * 2048 + 1 * j.val = t.val % 5 * 2048 + j.val; rw [e0]; omega
  | ⟨1, _⟩ => show win1_1.index t (1 : Fin 2) * 512 + 1 * q.val = q.val; rw [e1]; omega

theorem biasBlk1_apply (c : Dev nD) (t : Fin cfg1.N) (q : Fin 512) :
    biasBlk1 V c t (ix2 0 q) = biasArr1 V c (ix2 0 q) := by
  obtain ⟨-, -, -, -, e0, e1, -⟩ := idx_facts1 t
  show V c main_v78 (((cfg1.win 2).blk t).view.emb (ix2 (0 : Fin 1) q)) = V c main_v78 _
  refine congrArg (V c main_v78) (funext fun a => Fin.ext ?_)
  match a with
  | ⟨0, _⟩ => show win1_2.index t (0 : Fin 2) * 1 + 1 * 0 = 0; rw [e0]
  | ⟨1, _⟩ => show win1_2.index t (1 : Fin 2) * 512 + 1 * q.val = q.val; rw [e1]; omega

def blkTerm (c : Dev nD) (r : ℕ) (q : Fin 512) (k : ℕ) : EReal :=
  ∑ j : Fin 2048, adjN V c r (k * 2048 + j.val) * featN V c (k * 2048 + j.val) q

theorem blk_sum_eq (c : Dev nD) (t : Fin cfg1.N) (p : Fin 2048) (q : Fin 512) :
    ∑ j : Fin 2048, adjBlk1 V c t (ix2 p j) * featBlk1 V c t (ix2 j q)
      = blkTerm V c (2048 * (t.val / 5) + p.val) q (t.val % 5) :=
  Finset.sum_congr rfl fun j _ => by rw [adjBlk1_apply, featBlk1_apply]

theorem dense_row_eq (c : Dev nD) (r : Fin 10240) (q : Fin 512) :
    ∑ k : Fin 10240, adjArr1 V c (ix2 r k) * featArr1 V c (ix2 k q) = Gcn.accUpTo (blkTerm V c r.val q) 5 :=
  calc ∑ k : Fin 10240, adjArr1 V c (ix2 r k) * featArr1 V c (ix2 k q)
      = ∑ k : Fin 5, ∑ j : Fin 2048, adjArr1 V c (ix2 r ⟨k.val * 2048 + j.val, by omega⟩) * featArr1 V c (ix2 ⟨k.val * 2048 + j.val, by omega⟩ q) :=
        Gcn.sum_blocks_5_2048 (fun k : Fin 10240 => adjArr1 V c (ix2 r k) * featArr1 V c (ix2 k q))
    _ = ∑ k : Fin 5, blkTerm V c r.val q k.val :=
        Finset.sum_congr rfl fun k _ => Finset.sum_congr rfl fun j _ => by
          have hk : k.val * 2048 + j.val < 10240 := by have := k.isLt; have := j.isLt; omega
          rw [adjN_of_lt V c r.val _ r.isLt hk, featN_of_lt V c _ q hk]
    _ = Gcn.accUpTo (blkTerm V c r.val q) 5 :=
        ((Gcn.accUpTo_five (blkTerm V c r.val q)).trans (Gcn.acc_five (fun k : Fin 5 => blkTerm V c r.val q k.val))).symm

theorem scratch1_first (c : Dev nD) (t : Fin cfg1.N) (h0 : t.val % 5 = 0) (h1 : ¬t.val % 5 = 4) (p : Fin 2048) (q : Fin 512) :
    ((outsAt1 (F := Ideal) V c t.val t.isLt).2 : S2048x512.Idx → EReal) (ix2 p q)
      = Gcn.accUpTo (blkTerm V c (2048 * (t.val / 5) + p.val) q) (t.val % 5 + 1) := by
  rw [outsAt1_A V c t h0 h1]
  dsimp only [stepA1]
  refine (congrFun (sout1_A_piece (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (adjBlk1 V c t) (featBlk1 V c t) (biasBlk1 V c t)) (ix2 p q)).trans ?_
  refine (k1_pay2_apply (k1_pay1 (F := Ideal)) (adjBlk1 V c t) (featBlk1 V c t) p q).trans ?_
  rw [k1_pay1_apply, blk_sum_eq, h0]
  rfl

theorem scratch1_next (c : Dev nD) (t : Fin cfg1.N) (h0 : ¬t.val % 5 = 0)
    (hprev : ∀ (p : Fin 2048) (q : Fin 512),
      ((outsAt1 (F := Ideal) V c (t.val - 1) (Nat.lt_of_le_of_lt (Nat.sub_le _ _) t.isLt)).2 : S2048x512.Idx → EReal) (ix2 p q)
        = Gcn.accUpTo (blkTerm V c (2048 * ((t.val - 1) / 5) + p.val) q) ((t.val - 1) % 5 + 1))
    (p : Fin 2048) (q : Fin 512) :
    ((outsAt1 (F := Ideal) V c t.val t.isLt).2 : S2048x512.Idx → EReal) (ix2 p q)
      = Gcn.accUpTo (blkTerm V c (2048 * (t.val / 5) + p.val) q) (t.val % 5 + 1) := by
  have e1 : (t.val - 1) / 5 = t.val / 5 := by omega
  have e2 : (t.val - 1) % 5 + 1 = t.val % 5 := by omega
  by_cases h1 : t.val % 5 = 4
  · rw [outsAt1_C V c t h0 h1]
    dsimp only [stepC1]
    refine (congrFun (sout1_C_piece (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (adjBlk1 V c t) (featBlk1 V c t) (biasBlk1 V c t) (outsAt1 (F := Ideal) V c (t.val - 1) (Nat.lt_of_le_of_lt (Nat.sub_le _ _) t.isLt)).2) (ix2 p q)).trans ?_
    refine (k1_pay2_apply (outsAt1 (F := Ideal) V c (t.val - 1) (Nat.lt_of_le_of_lt (Nat.sub_le _ _) t.isLt)).2 (adjBlk1 V c t) (featBlk1 V c t) p q).trans ?_
    rw [hprev p q, blk_sum_eq, e1, e2]
    exact (Gcn.accUpTo_succ _ _).symm
  · rw [outsAt1_B V c t h0 h1]
    dsimp only [stepB1]
    refine (congrFun (sout1_B_piece (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (adjBlk1 V c t) (featBlk1 V c t) (biasBlk1 V c t) (outsAt1 (F := Ideal) V c (t.val - 1) (Nat.lt_of_le_of_lt (Nat.sub_le _ _) t.isLt)).2) (ix2 p q)).trans ?_
    refine (k1_pay2_apply (outsAt1 (F := Ideal) V c (t.val - 1) (Nat.lt_of_le_of_lt (Nat.sub_le _ _) t.isLt)).2 (adjBlk1 V c t) (featBlk1 V c t) p q).trans ?_
    rw [hprev p q, blk_sum_eq, e1, e2]
    exact (Gcn.accUpTo_succ _ _).symm

theorem scratch1_eq (c : Dev nD) : ∀ (n : ℕ) (h : n < cfg1.N) (p : Fin 2048) (q : Fin 512),
    ((outsAt1 (F := Ideal) V c n h).2 : S2048x512.Idx → EReal) (ix2 p q)
      = Gcn.accUpTo (blkTerm V c (2048 * (n / 5) + p.val) q) (n % 5 + 1) := by
  intro n
  induction n with
  | zero => intro h p q; exact scratch1_first V c ⟨0, h⟩ (Nat.zero_mod _) (fun h4 => absurd (show (0 : ℕ) % 5 = 4 from h4) (by decide)) p q
  | succ n ih =>
    intro h p q
    by_cases h0 : (n + 1) % 5 = 0
    · exact scratch1_first V c ⟨n + 1, h⟩ h0 (fun h4 => by have h4' : (n + 1) % 5 = 4 := h4; omega) p q
    · exact scratch1_next V c ⟨n + 1, h⟩ h0 (fun p q => ih (Nat.lt_of_succ_lt h) p q) p q

abbrev denseArr1 (c : Dev nD) : S10240x512.Idx → EReal := fun i =>
  Gcn.relu (Gcn.dense (fun r k => adjArr1 V c (ix2 r k)) (fun k q => featArr1 V c (ix2 k q)) (fun q => biasArr1 V c (ix2 0 q)))
    (i 0 : Fin 10240) (i 1 : Fin 512)

theorem flushed1_eq (c : Dev nD) (t : Fin cfg1.N) (hf : (cfg1.win 3).flush t = true) :
    (dat1 (F := Ideal) V c).flushed 3 t = ((cfg1.win 3).blk t).view.read (Elt Ideal) (denseArr1 V c) := by
  have h1 : t.val % 5 = 4 := (flush1_3 t).mp hf
  have h0 : ¬t.val % 5 = 0 := by omega
  have hN : t.val < 25 := lt_of_lt_of_eq t.isLt (show cfg1.N = 25 from N_1)
  have e1 : (t.val - 1) / 5 = t.val / 5 := by omega
  have e2 : (t.val - 1) % 5 + 1 = 4 := by omega
  show (cfg1.win 3).cut (grid1.coords t) ((dat1 (F := Ideal) V c).after 3 t) = _
  rw [after1_3, outsAt1_C V c t h0 h1]
  dsimp only [stepC1]
  rw [out1_C_piece (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (adjBlk1 V c t) (featBlk1 V c t) (biasBlk1 V c t) (outsAt1 (F := Ideal) V c (t.val - 1) (Nat.lt_of_le_of_lt (Nat.sub_le _ _) t.isLt)).2]
  obtain ⟨-, -, -, -, -, -, i0, i1⟩ := idx_facts1 t
  funext j
  obtain ⟨p, q, rfl⟩ : ∃ (p : Fin 2048) (q : Fin 512), j = ix2 p q := ⟨j 0, j 1, eq_ix2 j⟩
  have hp : 2048 * (t.val / 5) + p.val < 10240 := by have := p.isLt; omega
  have hemb : ((cfg1.win 3).blk t).view.emb (ix2 p q) = (ix2 ⟨2048 * (t.val / 5) + p.val, hp⟩ q : S10240x512.Idx) := by
    funext a; apply Fin.ext
    match a with
    | ⟨0, _⟩ => show win1_3.index t (0 : Fin 2) * 2048 + 1 * p.val = 2048 * (t.val / 5) + p.val; rw [i0]; omega
    | ⟨1, _⟩ => show win1_3.index t (1 : Fin 2) * 512 + 1 * q.val = q.val; rw [i1]; omega
  show k1_pay3 (F := Ideal) (k1_pay2 (F := Ideal) (outsAt1 (F := Ideal) V c (t.val - 1) (Nat.lt_of_le_of_lt (Nat.sub_le _ _) t.isLt)).2 (adjBlk1 V c t) (featBlk1 V c t)) (biasBlk1 V c t) (ix2 p q)
    = denseArr1 V c (((cfg1.win 3).blk t).view.emb (ix2 p q))
  rw [hemb]
  refine (k1_pay3_apply _ (biasBlk1 V c t) p q).trans ?_
  refine (congrArg (fun z => max (z + biasBlk1 V c t (ix2 0 q)) 0)
    (k1_pay2_apply (outsAt1 (F := Ideal) V c (t.val - 1) (Nat.lt_of_le_of_lt (Nat.sub_le _ _) t.isLt)).2 (adjBlk1 V c t) (featBlk1 V c t) p q)).trans ?_
  show max ((((outsAt1 (F := Ideal) V c (t.val - 1) (Nat.lt_of_le_of_lt (Nat.sub_le _ _) t.isLt)).2 : S2048x512.Idx → EReal) (ix2 p q)
        + ∑ j : Fin 2048, adjBlk1 V c t (ix2 p j) * featBlk1 V c t (ix2 j q)) + biasBlk1 V c t (ix2 0 q)) 0
    = max ((∑ k : Fin 10240, adjArr1 V c (ix2 ⟨2048 * (t.val / 5) + p.val, hp⟩ k) * featArr1 V c (ix2 k q)) + biasArr1 V c (ix2 0 q)) 0
  rw [scratch1_eq V c (t.val - 1) (Nat.lt_of_le_of_lt (Nat.sub_le _ _) t.isLt) p q, blk_sum_eq, biasBlk1_apply,
    dense_row_eq V c ⟨2048 * (t.val / 5) + p.val, hp⟩ q, e1, e2, h1]
  rfl

theorem mem_blk1 (t : Fin cfg1.N) (i : S10240x512.Idx) :
    i ∈ ((cfg1.win 3).blk t).view.set ↔ ∀ a : Fin 2, win1_3.index t a * S2048x512.size a ≤ (i a).val ∧ (i a).val < win1_3.index t a * S2048x512.size a + S2048x512.size a := by
  show i ∈ ((View.whole main_v80).slice (win1_3.rect t)).set ↔ _
  rw [View.set_slice_whole, Rect.mem_set_unit]
  exact Iff.rfl

theorem cover1 (i : S10240x512.Idx) :
    ∃ t : Fin cfg1.N, (cfg1.win 3).flush t = true ∧ i ∈ ((cfg1.win 3).blk t).view.set := by
  have hi0 : (i 0).val < 10240 := (i 0).isLt
  have hi1 : (i 1).val < 512 := (i 1).isLt
  have hN : cfg1.N = 25 := N_1
  let t : Fin cfg1.N := ⟨5 * ((i 0).val / 2048) + 4, by rw [hN]; omega⟩
  obtain ⟨-, -, -, -, -, -, e0, e1⟩ := idx_facts1 t
  have ht : t.val = 5 * ((i 0).val / 2048) + 4 := rfl
  refine ⟨t, (flush1_3 t).mpr (by rw [ht]; omega), ?_⟩
  rw [mem_blk1]
  intro a
  match a with
  | ⟨0, _⟩ => show win1_3.index t (0 : Fin 2) * 2048 ≤ (i 0).val ∧ (i 0).val < win1_3.index t (0 : Fin 2) * 2048 + 2048; rw [e0, ht]; omega
  | ⟨1, _⟩ => show win1_3.index t (1 : Fin 2) * 512 ≤ (i 1).val ∧ (i 1).val < win1_3.index t (1 : Fin 2) * 512 + 512; rw [e1]; omega

theorem arr1_eq (c : Dev nD) : (dat1 (F := Ideal) V c).arrAt 3 cfg1.N = denseArr1 V c :=
  (dat1 (F := Ideal) V c).arrAt_eq_of_cover 3 (denseArr1 V c) (fun t hf => flushed1_eq V c t hf) cover1

theorem value1 (c : Dev nD) (r : Fin 10240) (q : Fin 512) :
    ((dat1 (F := Ideal) V c).arrAt 3 cfg1.N : S10240x512.Idx → EReal) (ix2 r q)
      = Gcn.relu (Gcn.dense (fun r k => (V c main_v71 : S10240x10240.Idx → EReal) (ix2 r k)) (fun k q => (V c main_v79 : S10240x512.Idx → EReal) (ix2 k q))
          (fun q => (V c main_v78 : S1x512.Idx → EReal) (ix2 0 q))) r q := by
  rw [arr1_eq]

end Arrays

end Cert.KernelIdeal.Hand
-- ==== Proof.KI.Pay2.lean ====
/- GENERATED by: bun scripts/gen_pay.js  (run from the unit's directory; no arguments). Template: proof/Proof/KI/Pay1.lean (the text written for kernel 1). This file is that text for kernel 2 with these substitutions, applied in this order:
     no final maximum (sentence): ", clamped below at zero. - /" -> ". - /"
     no final maximum (right-hand side): "= max (v16 (ix2 p q) + v17 (ix2 0 q)) 0 := by" -> "= v16 (ix2 p q) + v17 (ix2 0 q) := by"
     no final maximum (closing steps): "rw [shapeCast_self, maximumf_apply, addf_apply, broadcastTo_1b_ab_apply, broadcast_apply]\n  show max _ (Ideal.ofBits .f32 0x00000000#32) = _\n  rw [Ideal.ofBits_zero_f32]\n" -> "rw [shapeCast_self, addf_apply, broadcastTo_1b_ab_apply]\n"
     heading: "## Kernel 1: a [2048, 2048] block times a [2048, 512] block" -> "## Kernel 2: a [2048, 512] block times a [512, 512] block"
     prefix: "k1_" -> "k2_"
     dot record (held aside): "dot_S2048x2048_S2048x512_S2048x512_1_0_0_1_n_n" -> "@@D@@"
     contraction length (re-indexing): "@@D@@ 2048 rfl rfl" -> "@@D@@ 512 rfl rfl"
     contraction length (sum): "j : Fin 2048" -> "j : Fin 512"
     left block as an operand (held aside): "S2048x2048 .bf16" -> "@@L@@ .bf16"
     left block's axis (held aside): "Fin S2048x2048.rank" -> "Fin @@L@@.rank"
     right block as an operand (held aside): "S2048x512 .bf16" -> "@@R@@ .bf16"
     right block's axis (held aside): "Fin S2048x512.rank" -> "Fin @@R@@.rank"
     output block: "S2048x512" -> "S2048x512"
     bias row: "S1x512" -> "S1x512"
     column count: "(q : Fin 512)" -> "(q : Fin 512)"
     left block: "@@L@@" -> "S2048x512"
     right block: "@@R@@" -> "S512x512"
     dot record: "@@D@@" -> "dot_S2048x512_S512x512_S2048x512_1_0_0_1_n_n"
   Do not edit: change the template or the script and run it again. -/
import proofs.«414095_j12086037971444_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! The arithmetic of the six matrix-product kernels, read one element at a time over the extended reals.
    Each kernel keeps a scratch block: it is reset to zero, then a block product is added to it, and at the end the
    bias row is added (and, for two of the kernels, the result is clamped below at zero). Read at row p and column q:
    the reset value is 0; the update is the old scratch element plus the inner product of row p of the left block with
    column q of the right block; the output is the scratch element plus the bias at column q (clamped at 0 where the
    kernel has a rectifier). -/

noncomputable section

open scoped BigOperators

namespace Cert.KernelIdeal.Hand

open Cert.KernelIdeal Cert.KernelIdeal.Gen Idealize.ShloMosaic Idealize.ShloMosaic.ValueIdx

/-! ## Kernel 2: a [2048, 512] block times a [512, 512] block -/

/-- The left operand's row coordinate is the output's row. -/
theorem k2_lhs_0 (i : S2048x512.Idx) (c : dot_S2048x512_S512x512_S2048x512_1_0_0_1_n_n.contr.Idx) :
    (dot_S2048x512_S512x512_S2048x512_1_0_0_1_n_n.lhsIdx i c 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
/-- The left operand's column coordinate is the contraction coordinate. -/
theorem k2_lhs_1 (i : S2048x512.Idx) (c : dot_S2048x512_S512x512_S2048x512_1_0_0_1_n_n.contr.Idx) :
    (dot_S2048x512_S512x512_S2048x512_1_0_0_1_n_n.lhsIdx i c 1).val = (c ⟨0, by decide⟩).val :=
  dot_S2048x512_S512x512_S2048x512_1_0_0_1_n_n.lhsIdx_val_of_single rfl i c
/-- The right operand's row coordinate is the contraction coordinate. -/
theorem k2_rhs_0 (i : S2048x512.Idx) (c : dot_S2048x512_S512x512_S2048x512_1_0_0_1_n_n.contr.Idx) :
    (dot_S2048x512_S512x512_S2048x512_1_0_0_1_n_n.rhsIdx i c 0).val = (c ⟨0, by decide⟩).val :=
  dot_S2048x512_S512x512_S2048x512_1_0_0_1_n_n.rhsIdx_val_of_single rfl i c
/-- The right operand's column coordinate is the output's column. -/
theorem k2_rhs_1 (i : S2048x512.Idx) (c : dot_S2048x512_S512x512_S2048x512_1_0_0_1_n_n.contr.Idx) :
    (dot_S2048x512_S512x512_S2048x512_1_0_0_1_n_n.rhsIdx i c 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The block product into a zero accumulator, at (p, q): the inner product of row p with column q. -/
theorem k2_matmul_apply (a : FVec Ideal S2048x512 .bf16) (b : FVec Ideal S512x512 .bf16) (p : Fin 2048) (q : Fin 512) :
    matmul dot_S2048x512_S512x512_S2048x512_1_0_0_1_n_n none a b (constant (F := Ideal) S2048x512 .f32 0x00000000#32) (ix2 p q)
      = ∑ j : Fin 512, a (ix2 p j) * b (ix2 j q) := by
  show FloatOps.matmul dot_S2048x512_S512x512_S2048x512_1_0_0_1_n_n none a b (constant (F := Ideal) S2048x512 .f32 0x00000000#32) (ix2 p q) = _
  rw [Ideal.matmul_constant_zero_apply, ← Equiv.sum_comp (contrEquiv1 dot_S2048x512_S512x512_S2048x512_1_0_0_1_n_n 512 rfl rfl).symm]
  refine Finset.sum_congr rfl fun j _ => ?_
  have hj := contrEquiv1_symm_val dot_S2048x512_S512x512_S2048x512_1_0_0_1_n_n 512 rfl rfl j
  have el : dot_S2048x512_S512x512_S2048x512_1_0_0_1_n_n.lhsIdx (ix2 p q) ((contrEquiv1 dot_S2048x512_S512x512_S2048x512_1_0_0_1_n_n 512 rfl rfl).symm j) = ix2 p j := funext fun ax => Fin.ext (by
    match ax with
    | ⟨0, _⟩ => exact k2_lhs_0 _ _
    | ⟨1, _⟩ => exact (k2_lhs_1 _ _).trans hj)
  have er : dot_S2048x512_S512x512_S2048x512_1_0_0_1_n_n.rhsIdx (ix2 p q) ((contrEquiv1 dot_S2048x512_S512x512_S2048x512_1_0_0_1_n_n 512 rfl rfl).symm j) = ix2 j q := funext fun ax => Fin.ext (by
    match ax with
    | ⟨0, _⟩ => exact (k2_rhs_0 _ _).trans hj
    | ⟨1, _⟩ => exact k2_rhs_1 _ _)
  rw [el, er]

/-- The reset value is zero everywhere. -/
theorem k2_pay1_apply (p : Fin 2048) (q : Fin 512) : k2_pay1 (F := Ideal) (ix2 p q) = 0 := by
  unfold k2_pay1
  rw [shapeCast_self, broadcast_apply]
  exact Ideal.ofBits_zero_f32

/-- The update: the old scratch element plus the inner product of row p of the left block and column q of the right. -/
theorem k2_pay2_apply (v3 : Vec Ideal S2048x512 .f32) (v4 : Vec Ideal S2048x512 .bf16) (v6 : Vec Ideal S512x512 .bf16)
    (p : Fin 2048) (q : Fin 512) :
    k2_pay2 (F := Ideal) v3 v4 v6 (ix2 p q) = v3 (ix2 p q) + ∑ j : Fin 512, v4 (ix2 p j) * v6 (ix2 j q) := by
  unfold k2_pay2
  rw [shapeCast_self, shapeCast_self, shapeCast_self, addf_apply, k2_matmul_apply]

/-- The output: the scratch element plus the bias of its column. -/
theorem k2_pay3_apply (v16 : Vec Ideal S2048x512 .f32) (v17 : Vec Ideal S1x512 .f32) (p : Fin 2048) (q : Fin 512) :
    k2_pay3 (F := Ideal) v16 v17 (ix2 p q) = v16 (ix2 p q) + v17 (ix2 0 q) := by
  unfold k2_pay3
  rw [shapeCast_self, addf_apply, broadcastTo_1b_ab_apply]

end Cert.KernelIdeal.Hand
-- ==== Proof.KI.V2.lean ====
/- GENERATED by: bun scripts/gen_v.js  (run from the unit's directory; no arguments). Template: proof/Proof/KI/V0.lean (the text written for region 0). This file is that text for region 2 with these substitutions, applied in this order:
     heading: "# Region 0 read" -> "# Region 2 read" (1 places)
     name: "R0Frame" -> "R2Frame" (1 places)
     name: "Pay0" -> "Pay2" (1 places)
     name: "zero_offsets0" -> "zero_offsets2" (7 places)
     name: "out0_piece" -> "out2_piece" (2 places)
     name: "out0_A_3" -> "out2_A_3" (2 places)
     name: "cover0_A_3" -> "cover2_A_3" (1 places)
     name: "kernelRun0_A" -> "kernelRun2_A" (1 places)
     name: "grid0" -> "grid2" (3 places)
     name: "cfg0" -> "cfg2" (25 places)
     name: "cond0_0" -> "cond2_0" (1 places)
     name: "cond0_1" -> "cond2_1" (1 places)
     name: "k0_pay1_apply" -> "k2_pay1_apply" (1 places)
     name: "k0_pay2_apply" -> "k2_pay2_apply" (1 places)
     name: "k0_pay3_apply" -> "k2_pay3_apply" (1 places)
     name: "k0_pay1" -> "k2_pay1" (3 places)
     name: "k0_pay2" -> "k2_pay2" (3 places)
     name: "k0_pay3" -> "k2_pay3" (3 places)
     name: "block_value0" -> "block_value2" (2 places)
     name: "lhsArr0" -> "lhsArr2" (4 places)
     name: "rhsArr0" -> "rhsArr2" (4 places)
     name: "biasArr0" -> "biasArr2" (5 places)
     name: "lhsBlk0_apply" -> "lhsBlk2_apply" (2 places)
     name: "rhsBlk0_apply" -> "rhsBlk2_apply" (2 places)
     name: "biasBlk0_apply" -> "biasBlk2_apply" (2 places)
     name: "lhsBlk0" -> "lhsBlk2" (5 places)
     name: "rhsBlk0" -> "rhsBlk2" (5 places)
     name: "biasBlk0" -> "biasBlk2" (5 places)
     name: "iblk0" -> "iblk2" (3 places)
     name: "idx_facts0" -> "idx_facts2" (6 places)
     name: "win0_0" -> "win2_0" (4 places)
     name: "win0_1" -> "win2_1" (4 places)
     name: "win0_2" -> "win2_2" (4 places)
     name: "win0_3" -> "win2_3" (11 places)
     name: "denseArr0" -> "denseArr2" (5 places)
     name: "flushed0_eq" -> "flushed2_eq" (2 places)
     name: "dat0" -> "dat2" (5 places)
     name: "after0_3" -> "after2_3" (1 places)
     name: "N_0" -> "N_2" (2 places)
     name: "mem_blk0" -> "mem_blk2" (2 places)
     name: "cover0" -> "cover2" (2 places)
     name: "flush0_3" -> "flush2_3" (1 places)
     name: "arr0_eq" -> "arr2_eq" (2 places)
     name: "value0" -> "value2" (1 places)
     left factor array: "main_v75" -> "@@a0@@" (5 places)
     right factor array: "main_v76" -> "@@a1@@" (5 places)
     bias row array: "main_v74" -> "@@a2@@" (5 places)
     output array: "main_v77" -> "@@a3@@" (1 places)
     left block's shape (set aside): "S2048x896" -> "@@LB@@" (5 places)
     right factor's shape (set aside): "S896x512" -> "@@RB@@" (7 places)
     bias row's shape (set aside): "S1x512" -> "@@BB@@" (7 places)
     output block's shape (set aside): "S2048x512" -> "@@OB@@" (7 places)
     left factor's shape (set aside): "S10240x896" -> "@@LA@@" (2 places)
     output array's shape (set aside): "S10240x512" -> "@@OA@@" (5 places)
     contraction length (set aside): "896" -> "@@K@@" (7 places)
     column count (set aside): "512" -> "@@N@@" (13 places)
     contraction length: "@@K@@" -> "512" (7 places)
     column count: "@@N@@" -> "512" (13 places)
     left factor array: "@@a0@@" -> "main_v82" (5 places)
     right factor array: "@@a1@@" -> "main_v83" (5 places)
     bias row array: "@@a2@@" -> "main_v81" (5 places)
     output array: "@@a3@@" -> "main_v84" (1 places)
     left block's shape: "@@LB@@" -> "S2048x512" (5 places)
     right factor's shape: "@@RB@@" -> "S512x512" (7 places)
     bias row's shape: "@@BB@@" -> "S1x512" (7 places)
     output block's shape: "@@OB@@" -> "S2048x512" (7 places)
     left factor's shape: "@@LA@@" -> "S10240x512" (2 places)
     output array's shape: "@@OA@@" -> "S10240x512" (5 places)
   Do not edit: change the template or the script and run it again. -/
import proofs.«414095_j12086037971444_1_alg».proof.Proof.KI.R2Frame
import proofs.«414095_j12086037971444_1_alg».proof.Proof.KI.Pay2
import proofs.«414095_j12086037971444_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

/-! # Region 2 read as mathematics: the output array is the dense product of the two factor arrays plus the bias row

    The region walks five row blocks of 2048 rows. At each it clears its accumulator, adds the product of the left
    factor's row block with the whole right factor, adds the bias row and writes the block back. So entry (r, q) of the
    output array is the inner product of row r of the left factor with column q of the right factor, plus the bias at
    q: the block that holds row r is number r / 2048, and inside it the row is r mod 2048. -/

/-- The two zero offsets, written as a constant function. -/
theorem zero_offsets2 : (![0, 0] : Fin 2 → Nat) = fun _ => 0 := funext fun a => by fin_cases a <;> rfl

/-! ## What the body leaves in the output buffer, as one term of the three input blocks -/

section Piece
variable {F : FTy → Type} [FloatOps F]

/-- The one stored piece covers the buffer; its payload is the bias stage applied to the accumulator, and the
    accumulator it reads back is the update stage applied to the cleared accumulator and the two factor blocks. -/
theorem out2_piece (c : Dev nD) (i : grid2.Coords) (arg3 : Memref sig .tc .vmem S2048x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : cond2_0 i) (hc1 : cond2_1 i)
    (x0 : Vec F S2048x512 .bf16) (x1 : Vec F S512x512 .bf16) (x2 : Vec F S1x512 .f32) :
    out2_A_3 c i arg3 harg3 arg4 harg4 arg5 harg5 arg6 harg6 arg7 harg7 hc0 hc1 x0 x1 x2
      = k2_pay3 (k2_pay2 (k2_pay1 (F := F)) x0 x1) x2 := by
  unfold out2_A_3
  rw [View.read_writes_eq_canon _ _ _ (cover2_A_3 c i arg3 harg3 arg4 harg4 arg5 harg5 arg6 harg6 arg7 harg7 hc0 hc1 x0 x1 x2)]
  unfold kernelRun2_A
  dsimp only
  sl_unfold_words
  rw [View.canon_unit_zero zero_offsets2]
  simp only [View.readAt_eq_ld, harg3.read_unread, harg4.read_unread, harg5.read_unread, harg7.read_unread,
    View.ld_unit_zero (S := S2048x512) zero_offsets2, View.ld_unit_zero (S := S2048x512) zero_offsets2,
    View.ld_unit_zero (S := S512x512) zero_offsets2, View.ld_unit_zero (S := S1x512) zero_offsets2,
    View.readCov_unit_zero (S := S2048x512) _ zero_offsets2]
  rw [View.readCov_cons_toLoadRect]

end Piece

/-! ## The same term at one element, over the extended reals -/

/-- Element (p, q) of what the body leaves: zero plus the inner product of row p of the left block with column q of
    the right block, plus the bias at q. -/
theorem block_value2 (x0 : Vec Ideal S2048x512 .bf16) (x1 : Vec Ideal S512x512 .bf16) (x2 : Vec Ideal S1x512 .f32)
    (p : Fin 2048) (q : Fin 512) :
    k2_pay3 (F := Ideal) (k2_pay2 (F := Ideal) (k2_pay1 (F := Ideal)) x0 x1) x2 (ix2 p q)
      = (0 + ∑ k : Fin 512, x0 (ix2 p k) * x1 (ix2 k q)) + x2 (ix2 0 q) := by
  rw [k2_pay3_apply, k2_pay2_apply, k2_pay1_apply]

/-! ## The arrays and the blocks, named at their literal types -/

section Arrays
variable (V : (c : Dev nD) → (b : Ref sig .tc) → Buf (Elt Ideal) ((c : Thread nD τ).loc b))

/-- The left factor, the right factor and the bias row as the region finds them. -/
abbrev lhsArr2 (c : Dev nD) : S10240x512.Idx → EReal := V c main_v82
abbrev rhsArr2 (c : Dev nD) : S512x512.Idx → EReal := V c main_v83
abbrev biasArr2 (c : Dev nD) : S1x512.Idx → EReal := V c main_v81

/-- Their blocks at a point. -/
abbrev lhsBlk2 (c : Dev nD) (t : Fin cfg2.N) : Vec Ideal S2048x512 .bf16 := iblk2 V c 0 t
abbrev rhsBlk2 (c : Dev nD) (t : Fin cfg2.N) : Vec Ideal S512x512 .bf16 := iblk2 V c 1 t
abbrev biasBlk2 (c : Dev nD) (t : Fin cfg2.N) : Vec Ideal S1x512 .f32 := iblk2 V c 2 t

/-- The block indices at a point: the left factor and the output move down one row block per point; the right factor
    and the bias row stay at their one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the left block at point t is row 2048·t + p of the left factor. -/
theorem lhsBlk2_apply (c : Dev nD) (t : Fin cfg2.N) (p : Fin 2048) (k : Fin 512) (hp : 2048 * t.val + p.val < 10240) :
    lhsBlk2 V c t (ix2 p k) = lhsArr2 V c (ix2 ⟨2048 * t.val + p.val, hp⟩ k) := by
  obtain ⟨e0, e1, -⟩ := idx_facts2 t
  show V c main_v82 (((cfg2.win 0).blk t).view.emb (ix2 p k)) = V c main_v82 _
  refine congrArg (V c main_v82) (funext fun a => Fin.ext ?_)
  match a with
  | ⟨0, _⟩ => show win2_0.index t (0 : Fin 2) * 2048 + 1 * p.val = 2048 * t.val + p.val; rw [e0]; omega
  | ⟨1, _⟩ => show win2_0.index t (1 : Fin 2) * 512 + 1 * k.val = k.val; rw [e1]; omega

/-- The right block is the right factor. -/
theorem rhsBlk2_apply (c : Dev nD) (t : Fin cfg2.N) (k : Fin 512) (q : Fin 512) :
    rhsBlk2 V c t (ix2 k q) = rhsArr2 V c (ix2 k q) := by
  obtain ⟨-, -, e0, e1, -⟩ := idx_facts2 t
  show V c main_v83 (((cfg2.win 1).blk t).view.emb (ix2 k q)) = V c main_v83 _
  refine congrArg (V c main_v83) (funext fun a => Fin.ext ?_)
  match a with
  | ⟨0, _⟩ => show win2_1.index t (0 : Fin 2) * 512 + 1 * k.val = k.val; rw [e0]; omega
  | ⟨1, _⟩ => show win2_1.index t (1 : Fin 2) * 512 + 1 * q.val = q.val; rw [e1]; omega

/-- The bias block is the bias row. -/
theorem biasBlk2_apply (c : Dev nD) (t : Fin cfg2.N) (q : Fin 512) :
    biasBlk2 V c t (ix2 0 q) = biasArr2 V c (ix2 0 q) := by
  obtain ⟨-, -, -, -, e0, e1, -⟩ := idx_facts2 t
  show V c main_v81 (((cfg2.win 2).blk t).view.emb (ix2 (0 : Fin 1) q)) = V c main_v81 _
  refine congrArg (V c main_v81) (funext fun a => Fin.ext ?_)
  match a with
  | ⟨0, _⟩ => show win2_2.index t (0 : Fin 2) * 1 + 1 * 0 = 0; rw [e0]
  | ⟨1, _⟩ => show win2_2.index t (1 : Fin 2) * 512 + 1 * q.val = q.val; rw [e1]; omega

/-! ## From the blocks to the array -/

/-- The whole output array: the dense product with bias, entry by entry. -/
abbrev denseArr2 (c : Dev nD) : S10240x512.Idx → EReal := fun i =>
  Gcn.dense (fun r k => lhsArr2 V c (ix2 r k)) (fun k q => rhsArr2 V c (ix2 k q)) (fun q => biasArr2 V c (ix2 0 q))
    (i 0 : Fin 10240) (i 1 : Fin 512)

/-- What point t writes back is block t of that array. -/
theorem flushed2_eq (c : Dev nD) (t : Fin cfg2.N) :
    (dat2 (F := Ideal) V c).flushed 3 t = ((cfg2.win 3).blk t).view.read (Elt Ideal) (denseArr2 V c) := by
  show (cfg2.win 3).cut (grid2.coords t) ((dat2 (F := Ideal) V c).after 3 t) = _
  rw [after2_3, out2_piece]
  have hN : t.val < 5 := by have h5 : cfg2.N = 5 := N_2; have := t.isLt; omega
  obtain ⟨-, -, -, -, -, -, e0, e1⟩ := idx_facts2 t
  funext j
  obtain ⟨p, q, rfl⟩ : ∃ (p : Fin 2048) (q : Fin 512), j = ix2 p q := ⟨j 0, j 1, eq_ix2 j⟩
  have hp : 2048 * t.val + p.val < 10240 := by have := p.isLt; omega
  have hemb : ((cfg2.win 3).blk t).view.emb (ix2 p q) = (ix2 ⟨2048 * t.val + p.val, hp⟩ q : S10240x512.Idx) := by
    funext a; apply Fin.ext
    match a with
    | ⟨0, _⟩ => show win2_3.index t (0 : Fin 2) * 2048 + 1 * p.val = 2048 * t.val + p.val; rw [e0]; omega
    | ⟨1, _⟩ => show win2_3.index t (1 : Fin 2) * 512 + 1 * q.val = q.val; rw [e1]; omega
  show k2_pay3 (F := Ideal) (k2_pay2 (F := Ideal) (k2_pay1 (F := Ideal)) (lhsBlk2 V c t) (rhsBlk2 V c t)) (biasBlk2 V c t) (ix2 p q)
    = denseArr2 V c (((cfg2.win 3).blk t).view.emb (ix2 p q))
  rw [hemb]
  refine (block_value2 (lhsBlk2 V c t) (rhsBlk2 V c t) (biasBlk2 V c t) p q).trans ?_
  show (0 + ∑ k : Fin 512, lhsBlk2 V c t (ix2 p k) * rhsBlk2 V c t (ix2 k q)) + biasBlk2 V c t (ix2 0 q)
    = (∑ k : Fin 512, lhsArr2 V c (ix2 ⟨2048 * t.val + p.val, hp⟩ k) * rhsArr2 V c (ix2 k q)) + biasArr2 V c (ix2 0 q)
  rw [zero_add, biasBlk2_apply]
  exact congrArg (· + biasArr2 V c (ix2 0 q)) (Finset.sum_congr rfl fun k _ => by rw [lhsBlk2_apply V c t p k hp, rhsBlk2_apply])

/-- An entry of the output array is in point t's block exactly when each of its coordinates is in the block's range. -/
theorem mem_blk2 (t : Fin cfg2.N) (i : S10240x512.Idx) :
    i ∈ ((cfg2.win 3).blk t).view.set ↔ ∀ a : Fin 2, win2_3.index t a * S2048x512.size a ≤ (i a).val ∧ (i a).val < win2_3.index t a * S2048x512.size a + S2048x512.size a := by
  show i ∈ ((View.whole main_v84).slice (win2_3.rect t)).set ↔ _
  rw [View.set_slice_whole, Rect.mem_set_unit]
  exact Iff.rfl

/-- Every entry is written back by some point: row r by point r / 2048. -/
theorem cover2 (i : S10240x512.Idx) :
    ∃ t : Fin cfg2.N, (cfg2.win 3).flush t = true ∧ i ∈ ((cfg2.win 3).blk t).view.set := by
  have hi0 : (i 0).val < 10240 := (i 0).isLt
  have hi1 : (i 1).val < 512 := (i 1).isLt
  have hN : cfg2.N = 5 := N_2
  let t : Fin cfg2.N := ⟨(i 0).val / 2048, by rw [hN]; omega⟩
  obtain ⟨-, -, -, -, -, -, e0, e1⟩ := idx_facts2 t
  have ht : t.val = (i 0).val / 2048 := rfl
  refine ⟨t, flush2_3 t, ?_⟩
  rw [mem_blk2]
  intro a
  match a with
  | ⟨0, _⟩ => show win2_3.index t (0 : Fin 2) * 2048 ≤ (i 0).val ∧ (i 0).val < win2_3.index t (0 : Fin 2) * 2048 + 2048; rw [e0, ht]; omega
  | ⟨1, _⟩ => show win2_3.index t (1 : Fin 2) * 512 ≤ (i 1).val ∧ (i 1).val < win2_3.index t (1 : Fin 2) * 512 + 512; rw [e1]; omega

/-- So after the region the output array is the dense product with bias. -/
theorem arr2_eq (c : Dev nD) : (dat2 (F := Ideal) V c).arrAt 3 cfg2.N = denseArr2 V c :=
  (dat2 (F := Ideal) V c).arrAt_eq_of_cover 3 (denseArr2 V c) (fun t _ => flushed2_eq V c t) cover2

/-- Entry (r, q) of the region's output array. -/
theorem value2 (c : Dev nD) (r : Fin 10240) (q : Fin 512) :
    ((dat2 (F := Ideal) V c).arrAt 3 cfg2.N : S10240x512.Idx → EReal) (ix2 r q)
      = Gcn.dense (fun r k => (V c main_v82 : S10240x512.Idx → EReal) (ix2 r k)) (fun k q => (V c main_v83 : S512x512.Idx → EReal) (ix2 k q))
          (fun q => (V c main_v81 : S1x512.Idx → EReal) (ix2 0 q)) r q := by
  rw [arr2_eq]

end Arrays

end Cert.KernelIdeal.Hand
-- ==== Proof.KI.Pay3.lean ====
/- GENERATED by: bun scripts/gen_pay.js  (run from the unit's directory; no arguments). Template: proof/Proof/KI/Pay1.lean (the text written for kernel 1). This file is that text for kernel 3 with these substitutions, applied in this order:
     heading: "## Kernel 1: a [2048, 2048] block times a [2048, 512] block" -> "## Kernel 3: a [2048, 2048] block times a [2048, 512] block"
     prefix: "k1_" -> "k3_"
     dot record (held aside): "dot_S2048x2048_S2048x512_S2048x512_1_0_0_1_n_n" -> "@@D@@"
     contraction length (re-indexing): "@@D@@ 2048 rfl rfl" -> "@@D@@ 2048 rfl rfl"
     contraction length (sum): "j : Fin 2048" -> "j : Fin 2048"
     left block as an operand (held aside): "S2048x2048 .bf16" -> "@@L@@ .bf16"
     left block's axis (held aside): "Fin S2048x2048.rank" -> "Fin @@L@@.rank"
     right block as an operand (held aside): "S2048x512 .bf16" -> "@@R@@ .bf16"
     right block's axis (held aside): "Fin S2048x512.rank" -> "Fin @@R@@.rank"
     output block: "S2048x512" -> "S2048x512"
     bias row: "S1x512" -> "S1x512"
     column count: "(q : Fin 512)" -> "(q : Fin 512)"
     left block: "@@L@@" -> "S2048x2048"
     right block: "@@R@@" -> "S2048x512"
     dot record: "@@D@@" -> "dot_S2048x2048_S2048x512_S2048x512_1_0_0_1_n_n"
   Do not edit: change the template or the script and run it again. -/
import proofs.«414095_j12086037971444_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! The arithmetic of the six matrix-product kernels, read one element at a time over the extended reals.
    Each kernel keeps a scratch block: it is reset to zero, then a block product is added to it, and at the end the
    bias row is added (and, for two of the kernels, the result is clamped below at zero). Read at row p and column q:
    the reset value is 0; the update is the old scratch element plus the inner product of row p of the left block with
    column q of the right block; the output is the scratch element plus the bias at column q (clamped at 0 where the
    kernel has a rectifier). -/

noncomputable section

open scoped BigOperators

namespace Cert.KernelIdeal.Hand

open Cert.KernelIdeal Cert.KernelIdeal.Gen Idealize.ShloMosaic Idealize.ShloMosaic.ValueIdx

/-! ## Kernel 3: a [2048, 2048] block times a [2048, 512] block -/

/-- The left operand's row coordinate is the output's row. -/
theorem k3_lhs_0 (i : S2048x512.Idx) (c : dot_S2048x2048_S2048x512_S2048x512_1_0_0_1_n_n.contr.Idx) :
    (dot_S2048x2048_S2048x512_S2048x512_1_0_0_1_n_n.lhsIdx i c 0).val = (i 0).val := by
  unfold DotDims.lhsIdx
  rw [dif_neg (show ¬(0 : Fin S2048x2048.rank) ∈ dot_S2048x2048_S2048x512_S2048x512_1_0_0_1_n_n.lhsBatch by decide), dif_pos (show (0 : Fin S2048x2048.rank) ∈ dot_S2048x2048_S2048x512_S2048x512_1_0_0_1_n_n.lhsNonContracting by decide)]
  rfl
/-- The left operand's column coordinate is the contraction coordinate. -/
theorem k3_lhs_1 (i : S2048x512.Idx) (c : dot_S2048x2048_S2048x512_S2048x512_1_0_0_1_n_n.contr.Idx) :
    (dot_S2048x2048_S2048x512_S2048x512_1_0_0_1_n_n.lhsIdx i c 1).val = (c ⟨0, by decide⟩).val :=
  dot_S2048x2048_S2048x512_S2048x512_1_0_0_1_n_n.lhsIdx_val_of_single rfl i c
/-- The right operand's row coordinate is the contraction coordinate. -/
theorem k3_rhs_0 (i : S2048x512.Idx) (c : dot_S2048x2048_S2048x512_S2048x512_1_0_0_1_n_n.contr.Idx) :
    (dot_S2048x2048_S2048x512_S2048x512_1_0_0_1_n_n.rhsIdx i c 0).val = (c ⟨0, by decide⟩).val :=
  dot_S2048x2048_S2048x512_S2048x512_1_0_0_1_n_n.rhsIdx_val_of_single rfl i c
/-- The right operand's column coordinate is the output's column. -/
theorem k3_rhs_1 (i : S2048x512.Idx) (c : dot_S2048x2048_S2048x512_S2048x512_1_0_0_1_n_n.contr.Idx) :
    (dot_S2048x2048_S2048x512_S2048x512_1_0_0_1_n_n.rhsIdx i c 1).val = (i 1).val := by
  unfold DotDims.rhsIdx
  rw [dif_neg (show ¬(1 : Fin S2048x512.rank) ∈ dot_S2048x2048_S2048x512_S2048x512_1_0_0_1_n_n.rhsBatch by decide), dif_pos (show (1 : Fin S2048x512.rank) ∈ dot_S2048x2048_S2048x512_S2048x512_1_0_0_1_n_n.rhsNonContracting by decide)]
  rfl

/-- The block product into a zero accumulator, at (p, q): the inner product of row p with column q. -/
theorem k3_matmul_apply (a : FVec Ideal S2048x2048 .bf16) (b : FVec Ideal S2048x512 .bf16) (p : Fin 2048) (q : Fin 512) :
    matmul dot_S2048x2048_S2048x512_S2048x512_1_0_0_1_n_n none a b (constant (F := Ideal) S2048x512 .f32 0x00000000#32) (ix2 p q)
      = ∑ j : Fin 2048, a (ix2 p j) * b (ix2 j q) := by
  show FloatOps.matmul dot_S2048x2048_S2048x512_S2048x512_1_0_0_1_n_n none a b (constant (F := Ideal) S2048x512 .f32 0x00000000#32) (ix2 p q) = _
  rw [Ideal.matmul_constant_zero_apply, ← Equiv.sum_comp (contrEquiv1 dot_S2048x2048_S2048x512_S2048x512_1_0_0_1_n_n 2048 rfl rfl).symm]
  refine Finset.sum_congr rfl fun j _ => ?_
  have hj := contrEquiv1_symm_val dot_S2048x2048_S2048x512_S2048x512_1_0_0_1_n_n 2048 rfl rfl j
  have el : dot_S2048x2048_S2048x512_S2048x512_1_0_0_1_n_n.lhsIdx (ix2 p q) ((contrEquiv1 dot_S2048x2048_S2048x512_S2048x512_1_0_0_1_n_n 2048 rfl rfl).symm j) = ix2 p j := funext fun ax => Fin.ext (by
    match ax with
    | ⟨0, _⟩ => exact k3_lhs_0 _ _
    | ⟨1, _⟩ => exact (k3_lhs_1 _ _).trans hj)
  have er : dot_S2048x2048_S2048x512_S2048x512_1_0_0_1_n_n.rhsIdx (ix2 p q) ((contrEquiv1 dot_S2048x2048_S2048x512_S2048x512_1_0_0_1_n_n 2048 rfl rfl).symm j) = ix2 j q := funext fun ax => Fin.ext (by
    match ax with
    | ⟨0, _⟩ => exact (k3_rhs_0 _ _).trans hj
    | ⟨1, _⟩ => exact k3_rhs_1 _ _)
  rw [el, er]

/-- The reset value is zero everywhere. -/
theorem k3_pay1_apply (p : Fin 2048) (q : Fin 512) : k3_pay1 (F := Ideal) (ix2 p q) = 0 := by
  unfold k3_pay1
  rw [shapeCast_self, broadcast_apply]
  exact Ideal.ofBits_zero_f32

/-- The update: the old scratch element plus the inner product of row p of the left block and column q of the right. -/
theorem k3_pay2_apply (v3 : Vec Ideal S2048x512 .f32) (v4 : Vec Ideal S2048x2048 .bf16) (v6 : Vec Ideal S2048x512 .bf16)
    (p : Fin 2048) (q : Fin 512) :
    k3_pay2 (F := Ideal) v3 v4 v6 (ix2 p q) = v3 (ix2 p q) + ∑ j : Fin 2048, v4 (ix2 p j) * v6 (ix2 j q) := by
  unfold k3_pay2
  rw [shapeCast_self, shapeCast_self, shapeCast_self, addf_apply, k3_matmul_apply]

/-- The output: the scratch element plus the bias of its column, clamped below at zero. -/
theorem k3_pay3_apply (v16 : Vec Ideal S2048x512 .f32) (v17 : Vec Ideal S1x512 .f32) (p : Fin 2048) (q : Fin 512) :
    k3_pay3 (F := Ideal) v16 v17 (ix2 p q) = max (v16 (ix2 p q) + v17 (ix2 0 q)) 0 := by
  unfold k3_pay3
  rw [shapeCast_self, maximumf_apply, addf_apply, broadcastTo_1b_ab_apply, broadcast_apply]
  show max _ (Ideal.ofBits .f32 0x00000000#32) = _
  rw [Ideal.ofBits_zero_f32]

end Cert.KernelIdeal.Hand
-- ==== Proof.KI.V3.lean ====
import proofs.«414095_j12086037971444_1_alg».proof.Proof.KI.R3Frame
import proofs.«414095_j12086037971444_1_alg».proof.Proof.KI.Pay3
import proofs.«414095_j12086037971444_1_alg».proof.Proof.MatBlocks
import proofs.«414095_j12086037971444_1_alg».proof.Proof.Spec
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

theorem zero_offsets3 : (![0, 0] : Fin 2 → Nat) = fun _ => 0 := funext fun a => by fin_cases a <;> rfl

section Piece
variable {F : FTy → Type} [FloatOps F]
variable (c : Dev nD) (i : grid3.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole)

theorem sout3_A_piece (hc0 : cond3_0 i) (hc1 : ¬cond3_1 i)
    (x0 : Vec F S2048x2048 .bf16) (x1 : Vec F S2048x512 .bf16) (x2 : Vec F S1x512 .f32) :
    sout3_A_0 c i arg3 harg3 arg4 harg4 arg5 harg5 arg6 harg6 arg7 harg7 hc0 hc1 x0 x1 x2 = k3_pay2 (k3_pay1 (F := F)) x0 x1 := by
  unfold sout3_A_0
  rw [View.read_writes_eq_canon _ _ _ (scover3_A_0 c i arg3 harg3 arg4 harg4 arg5 harg5 arg6 harg6 arg7 harg7 hc0 hc1 x0 x1 x2)]
  unfold kernelRun3_A
  dsimp only
  sl_unfold_words
  rw [View.canon_cons_unit_zero (S := S2048x512) zero_offsets3, View.readCov_unit_zero (S := S2048x512) _ zero_offsets3]
  simp only [View.readAt_eq_ld, harg3.read_unread, harg4.read_unread, harg5.read_unread, harg6.read_unread, harg7.read_unread,
    View.ld_unit_zero (S := S2048x512) zero_offsets3, View.ld_unit_zero (S := S2048x2048) zero_offsets3,
    View.ld_unit_zero (S := S1x512) zero_offsets3, View.readCov_unit_zero (S := S2048x512) _ zero_offsets3]

theorem sout3_B_piece (hc0 : ¬cond3_0 i) (hc1 : ¬cond3_1 i)
    (x0 : Vec F S2048x2048 .bf16) (x1 : Vec F S2048x512 .bf16) (x2 : Vec F S1x512 .f32) (xs0 : Vec F S2048x512 .f32) :
    sout3_B_0 c i arg3 harg3 arg4 harg4 arg5 harg5 arg6 harg6 arg7 harg7 hc0 hc1 x0 x1 x2 xs0 = k3_pay2 xs0 x0 x1 := by
  unfold sout3_B_0
  rw [View.read_writes_eq_canon _ _ _ (scover3_B_0 c i arg3 harg3 arg4 harg4 arg5 harg5 arg6 harg6 arg7 harg7 hc0 hc1 x0 x1 x2 xs0)]
  unfold kernelRun3_B
  dsimp only
  sl_unfold_words
  rw [View.canon_unit_zero zero_offsets3]
  simp only [View.readAt_eq_ld, harg3.read_unread, harg4.read_unread, harg5.read_unread, harg6.read_unread, harg7.read_unread,
    View.ld_unit_zero (S := S2048x512) zero_offsets3, View.ld_unit_zero (S := S2048x2048) zero_offsets3,
    View.ld_unit_zero (S := S1x512) zero_offsets3, View.readCov_unit_zero (S := S2048x512) _ zero_offsets3]

theorem sout3_C_piece (hc0 : ¬cond3_0 i) (hc1 : cond3_1 i)
    (x0 : Vec F S2048x2048 .bf16) (x1 : Vec F S2048x512 .bf16) (x2 : Vec F S1x512 .f32) (xs0 : Vec F S2048x512 .f32) :
    sout3_C_0 c i arg3 harg3 arg4 harg4 arg5 harg5 arg6 harg6 arg7 harg7 hc0 hc1 x0 x1 x2 xs0 = k3_pay2 xs0 x0 x1 := by
  unfold sout3_C_0
  rw [View.read_writes_eq_canon _ _ _ (scover3_C_0 c i arg3 harg3 arg4 harg4 arg5 harg5 arg6 harg6 arg7 harg7 hc0 hc1 x0 x1 x2 xs0)]
  unfold kernelRun3_C
  dsimp only
  sl_unfold_words
  rw [View.canon_unit_zero zero_offsets3]
  simp only [View.readAt_eq_ld, harg3.read_unread, harg4.read_unread, harg5.read_unread, harg6.read_unread, harg7.read_unread,
    View.ld_unit_zero (S := S2048x512) zero_offsets3, View.ld_unit_zero (S := S2048x2048) zero_offsets3,
    View.ld_unit_zero (S := S1x512) zero_offsets3, View.readCov_unit_zero (S := S2048x512) _ zero_offsets3]

theorem out3_C_piece (hc0 : ¬cond3_0 i) (hc1 : cond3_1 i)
    (x0 : Vec F S2048x2048 .bf16) (x1 : Vec F S2048x512 .bf16) (x2 : Vec F S1x512 .f32) (xs0 : Vec F S2048x512 .f32) :
    out3_C_3 c i arg3 harg3 arg4 harg4 arg5 harg5 arg6 harg6 arg7 harg7 hc0 hc1 x0 x1 x2 xs0 = k3_pay3 (k3_pay2 xs0 x0 x1) x2 := by
  unfold out3_C_3
  rw [View.read_writes_eq_canon _ _ _ (cover3_C_3 c i arg3 harg3 arg4 harg4 arg5 harg5 arg6 harg6 arg7 harg7 hc0 hc1 x0 x1 x2 xs0)]
  unfold kernelRun3_C
  dsimp only
  sl_unfold_words
  rw [View.canon_unit_zero zero_offsets3]
  simp only [View.readAt_eq_ld, harg3.read_unread, harg4.read_unread, harg5.read_unread, harg6.read_unread, harg7.read_unread,
    View.ld_unit_zero (S := S2048x512) zero_offsets3, View.ld_unit_zero (S := S2048x2048) zero_offsets3,
    View.ld_unit_zero (S := S1x512) zero_offsets3, View.readCov_unit_zero (S := S2048x512) _ zero_offsets3]

end Piece

section Arrays
variable (V : (c : Dev nD) → (b : Ref sig .tc) → Buf (Elt Ideal) ((c : Thread nD τ).loc b))

abbrev adjArr3 (c : Dev nD) : S10240x10240.Idx → EReal := V c main_v71
abbrev featArr3 (c : Dev nD) : S10240x512.Idx → EReal := V c main_v86
abbrev biasArr3 (c : Dev nD) : S1x512.Idx → EReal := V c main_v85

abbrev adjBlk3 (c : Dev nD) (t : Fin cfg3.N) : Vec Ideal S2048x2048 .bf16 := iblk3 V c 0 t
abbrev featBlk3 (c : Dev nD) (t : Fin cfg3.N) : Vec Ideal S2048x512 .bf16 := iblk3 V c 1 t
abbrev biasBlk3 (c : Dev nD) (t : Fin cfg3.N) : Vec Ideal S1x512 .f32 := iblk3 V c 2 t

theorem idx_facts3 : ∀ t : Fin cfg3.N,
    win3_0.index t (0 : Fin 2) = t.val / 5 ∧ win3_0.index t (1 : Fin 2) = t.val % 5
    ∧ win3_1.index t (0 : Fin 2) = t.val % 5 ∧ win3_1.index t (1 : Fin 2) = 0
    ∧ win3_2.index t (0 : Fin 2) = 0 ∧ win3_2.index t (1 : Fin 2) = 0
    ∧ win3_3.index t (0 : Fin 2) = t.val / 5 ∧ win3_3.index t (1 : Fin 2) = 0 :=
  (by decide +kernel : ∀ t : Fin grid3.N, _)

def adjN3 (c : Dev nD) (r k : ℕ) : EReal :=
  if h : r < 10240 ∧ k < 10240 then adjArr3 V c (ix2 ⟨r, h.1⟩ ⟨k, h.2⟩) else 0
def featN3 (c : Dev nD) (k : ℕ) (q : Fin 512) : EReal :=
  if h : k < 10240 then featArr3 V c (ix2 ⟨k, h⟩ q) else 0

theorem adjN3_of_lt (c : Dev nD) (r k : ℕ) (hr : r < 10240) (hk : k < 10240) :
    adjN3 V c r k = adjArr3 V c (ix2 ⟨r, hr⟩ ⟨k, hk⟩) := dif_pos ⟨hr, hk⟩
theorem featN3_of_lt (c : Dev nD) (k : ℕ) (q : Fin 512) (hk : k < 10240) :
    featN3 V c k q = featArr3 V c (ix2 ⟨k, hk⟩ q) := dif_pos hk

theorem adjBlk3_apply (c : Dev nD) (t : Fin cfg3.N) (p j : Fin 2048) :
    adjBlk3 V c t (ix2 p j) = adjN3 V c (2048 * (t.val / 5) + p.val) (t.val % 5 * 2048 + j.val) := by
  have hN : t.val < 25 := lt_of_lt_of_eq t.isLt (show cfg3.N = 25 from N_3)
  have hr : 2048 * (t.val / 5) + p.val < 10240 := by have := p.isLt; omega
  have hk : t.val % 5 * 2048 + j.val < 10240 := by have := j.isLt; omega
  rw [adjN3_of_lt V c _ _ hr hk]
  obtain ⟨e0, e1, -⟩ := idx_facts3 t
  show V c main_v71 (((cfg3.win 0).blk t).view.emb (ix2 p j)) = V c main_v71 _
  refine congrArg (V c main_v71) (funext fun a => Fin.ext ?_)
  match a with
  | ⟨0, _⟩ => show win3_0.index t (0 : Fin 2) * 2048 + 1 * p.val = 2048 * (t.val / 5) + p.val; rw [e0]; omega
  | ⟨1, _⟩ => show win3_0.index t (1 : Fin 2) * 2048 + 1 * j.val = t.val % 5 * 2048 + j.val; rw [e1]; omega

theorem featBlk3_apply (c : Dev nD) (t : Fin cfg3.N) (j : Fin 2048) (q : Fin 512) :
    featBlk3 V c t (ix2 j q) = featN3 V c (t.val % 5 * 2048 + j.val) q := by
  have hk : t.val % 5 * 2048 + j.val < 10240 := by have := j.isLt; omega
  rw [featN3_of_lt V c _ q hk]
  obtain ⟨-, -, e0, e1, -⟩ := idx_facts3 t
  show V c main_v86 (((cfg3.win 1).blk t).view.emb (ix2 j q)) = V c main_v86 _
  refine congrArg (V c main_v86) (funext fun a => Fin.ext ?_)
  match a with
  | ⟨0, _⟩ => show win3_1.index t (0 : Fin 2) * 2048 + 1 * j.val = t.val % 5 * 2048 + j.val; rw [e0]; omega
  | ⟨1, _⟩ => show win3_1.index t (1 : Fin 2) * 512 + 1 * q.val = q.val; rw [e1]; omega

theorem biasBlk3_apply (c : Dev nD) (t : Fin cfg3.N) (q : Fin 512) :
    biasBlk3 V c t (ix2 0 q) = biasArr3 V c (ix2 0 q) := by
  obtain ⟨-, -, -, -, e0, e1, -⟩ := idx_facts3 t
  show V c main_v85 (((cfg3.win 2).blk t).view.emb (ix2 (0 : Fin 1) q)) = V c main_v85 _
  refine congrArg (V c main_v85) (funext fun a => Fin.ext ?_)
  match a with
  | ⟨0, _⟩ => show win3_2.index t (0 : Fin 2) * 1 + 1 * 0 = 0; rw [e0]
  | ⟨1, _⟩ => show win3_2.index t (1 : Fin 2) * 512 + 1 * q.val = q.val; rw [e1]; omega

def blkTerm3 (c : Dev nD) (r : ℕ) (q : Fin 512) (k : ℕ) : EReal :=
  ∑ j : Fin 2048, adjN3 V c r (k * 2048 + j.val) * featN3 V c (k * 2048 + j.val) q

theorem blk_sum3_eq (c : Dev nD) (t : Fin cfg3.N) (p : Fin 2048) (q : Fin 512) :
    ∑ j : Fin 2048, adjBlk3 V c t (ix2 p j) * featBlk3 V c t (ix2 j q)
      = blkTerm3 V c (2048 * (t.val / 5) + p.val) q (t.val % 5) :=
  Finset.sum_congr rfl fun j _ => by rw [adjBlk3_apply, featBlk3_apply]

theorem dense_row3_eq (c : Dev nD) (r : Fin 10240) (q : Fin 512) :
    ∑ k : Fin 10240, adjArr3 V c (ix2 r k) * featArr3 V c (ix2 k q) = Gcn.accUpTo (blkTerm3 V c r.val q) 5 :=
  calc ∑ k : Fin 10240, adjArr3 V c (ix2 r k) * featArr3 V c (ix2 k q)
      = ∑ k : Fin 5, ∑ j : Fin 2048, adjArr3 V c (ix2 r ⟨k.val * 2048 + j.val, by omega⟩) * featArr3 V c (ix2 ⟨k.val * 2048 + j.val, by omega⟩ q) :=
        Gcn.sum_blocks_5_2048 (fun k : Fin 10240 => adjArr3 V c (ix2 r k) * featArr3 V c (ix2 k q))
    _ = ∑ k : Fin 5, blkTerm3 V c r.val q k.val :=
        Finset.sum_congr rfl fun k _ => Finset.sum_congr rfl fun j _ => by
          have hk : k.val * 2048 + j.val < 10240 := by have := k.isLt; have := j.isLt; omega
          rw [adjN3_of_lt V c r.val _ r.isLt hk, featN3_of_lt V c _ q hk]
    _ = Gcn.accUpTo (blkTerm3 V c r.val q) 5 :=
        ((Gcn.accUpTo_five (blkTerm3 V c r.val q)).trans (Gcn.acc_five (fun k : Fin 5 => blkTerm3 V c r.val q k.val))).symm

theorem scratch3_first (c : Dev nD) (t : Fin cfg3.N) (h0 : t.val % 5 = 0) (h1 : ¬t.val % 5 = 4) (p : Fin 2048) (q : Fin 512) :
    ((outsAt3 (F := Ideal) V c t.val t.isLt).2 : S2048x512.Idx → EReal) (ix2 p q)
      = Gcn.accUpTo (blkTerm3 V c (2048 * (t.val / 5) + p.val) q) (t.val % 5 + 1) := by
  rw [outsAt3_A V c t h0 h1]
  dsimp only [stepA3]
  refine (congrFun (sout3_A_piece (F := Ideal) c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (adjBlk3 V c t) (featBlk3 V c t) (biasBlk3 V c t)) (ix2 p q)).trans ?_
  refine (k3_pay2_apply (k3_pay1 (F := Ideal)) (adjBlk3 V c t) (featBlk3 V c t) p q).trans ?_
  rw [k3_pay1_apply, blk_sum3_eq, h0]
  rfl

theorem scratch3_next (c : Dev nD) (t : Fin cfg3.N) (h0 : ¬t.val % 5 = 0)
    (hprev : ∀ (p : Fin 2048) (q : Fin 512),
      ((outsAt3 (F := Ideal) V c (t.val - 1) (Nat.lt_of_le_of_lt (Nat.sub_le _ _) t.isLt)).2 : S2048x512.Idx → EReal) (ix2 p q)
        = Gcn.accUpTo (blkTerm3 V c (2048 * ((t.val - 1) / 5) + p.val) q) ((t.val - 1) % 5 + 1))
    (p : Fin 2048) (q : Fin 512) :
    ((outsAt3 (F := Ideal) V c t.val t.isLt).2 : S2048x512.Idx → EReal) (ix2 p q)
      = Gcn.accUpTo (blkTerm3 V c (2048 * (t.val / 5) + p.val) q) (t.val % 5 + 1) := by
  have e1 : (t.val - 1) / 5 = t.val / 5 := by omega
  have e2 : (t.val - 1) % 5 + 1 = t.val % 5 := by omega
  by_cases h1 : t.val % 5 = 4
  · rw [outsAt3_C V c t h0 h1]
    dsimp only [stepC3]
    refine (congrFun (sout3_C_piece (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (adjBlk3 V c t) (featBlk3 V c t) (biasBlk3 V c t) (outsAt3 (F := Ideal) V c (t.val - 1) (Nat.lt_of_le_of_lt (Nat.sub_le _ _) t.isLt)).2) (ix2 p q)).trans ?_
    refine (k3_pay2_apply (outsAt3 (F := Ideal) V c (t.val - 1) (Nat.lt_of_le_of_lt (Nat.sub_le _ _) t.isLt)).2 (adjBlk3 V c t) (featBlk3 V c t) p q).trans ?_
    rw [hprev p q, blk_sum3_eq, e1, e2]
    exact (Gcn.accUpTo_succ _ _).symm
  · rw [outsAt3_B V c t h0 h1]
    dsimp only [stepB3]
    refine (congrFun (sout3_B_piece (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (adjBlk3 V c t) (featBlk3 V c t) (biasBlk3 V c t) (outsAt3 (F := Ideal) V c (t.val - 1) (Nat.lt_of_le_of_lt (Nat.sub_le _ _) t.isLt)).2) (ix2 p q)).trans ?_
    refine (k3_pay2_apply (outsAt3 (F := Ideal) V c (t.val - 1) (Nat.lt_of_le_of_lt (Nat.sub_le _ _) t.isLt)).2 (adjBlk3 V c t) (featBlk3 V c t) p q).trans ?_
    rw [hprev p q, blk_sum3_eq, e1, e2]
    exact (Gcn.accUpTo_succ _ _).symm

theorem scratch3_eq (c : Dev nD) : ∀ (n : ℕ) (h : n < cfg3.N) (p : Fin 2048) (q : Fin 512),
    ((outsAt3 (F := Ideal) V c n h).2 : S2048x512.Idx → EReal) (ix2 p q)
      = Gcn.accUpTo (blkTerm3 V c (2048 * (n / 5) + p.val) q) (n % 5 + 1) := by
  intro n
  induction n with
  | zero => intro h p q; exact scratch3_first V c ⟨0, h⟩ (Nat.zero_mod _) (fun h4 => absurd (show (0 : ℕ) % 5 = 4 from h4) (by decide)) p q
  | succ n ih =>
    intro h p q
    by_cases h0 : (n + 1) % 5 = 0
    · exact scratch3_first V c ⟨n + 1, h⟩ h0 (fun h4 => by have h4' : (n + 1) % 5 = 4 := h4; omega) p q
    · exact scratch3_next V c ⟨n + 1, h⟩ h0 (fun p q => ih (Nat.lt_of_succ_lt h) p q) p q

abbrev denseArr3 (c : Dev nD) : S10240x512.Idx → EReal := fun i =>
  Gcn.relu (Gcn.dense (fun r k => adjArr3 V c (ix2 r k)) (fun k q => featArr3 V c (ix2 k q)) (fun q => biasArr3 V c (ix2 0 q)))
    (i 0 : Fin 10240) (i 1 : Fin 512)

theorem flushed3_eq (c : Dev nD) (t : Fin cfg3.N) (hf : (cfg3.win 3).flush t = true) :
    (dat3 (F := Ideal) V c).flushed 3 t = ((cfg3.win 3).blk t).view.read (Elt Ideal) (denseArr3 V c) := by
  have h1 : t.val % 5 = 4 := (flush3_3 t).mp hf
  have h0 : ¬t.val % 5 = 0 := by omega
  have hN : t.val < 25 := lt_of_lt_of_eq t.isLt (show cfg3.N = 25 from N_3)
  have e1 : (t.val - 1) / 5 = t.val / 5 := by omega
  have e2 : (t.val - 1) % 5 + 1 = 4 := by omega
  show (cfg3.win 3).cut (grid3.coords t) ((dat3 (F := Ideal) V c).after 3 t) = _
  rw [after3_3, outsAt3_C V c t h0 h1]
  dsimp only [stepC3]
  rw [out3_C_piece (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (adjBlk3 V c t) (featBlk3 V c t) (biasBlk3 V c t) (outsAt3 (F := Ideal) V c (t.val - 1) (Nat.lt_of_le_of_lt (Nat.sub_le _ _) t.isLt)).2]
  obtain ⟨-, -, -, -, -, -, i0, i1⟩ := idx_facts3 t
  funext j
  obtain ⟨p, q, rfl⟩ : ∃ (p : Fin 2048) (q : Fin 512), j = ix2 p q := ⟨j 0, j 1, eq_ix2 j⟩
  have hp : 2048 * (t.val / 5) + p.val < 10240 := by have := p.isLt; omega
  have hemb : ((cfg3.win 3).blk t).view.emb (ix2 p q) = (ix2 ⟨2048 * (t.val / 5) + p.val, hp⟩ q : S10240x512.Idx) := by
    funext a; apply Fin.ext
    match a with
    | ⟨0, _⟩ => show win3_3.index t (0 : Fin 2) * 2048 + 1 * p.val = 2048 * (t.val / 5) + p.val; rw [i0]; omega
    | ⟨1, _⟩ => show win3_3.index t (1 : Fin 2) * 512 + 1 * q.val = q.val; rw [i1]; omega
  show k3_pay3 (F := Ideal) (k3_pay2 (F := Ideal) (outsAt3 (F := Ideal) V c (t.val - 1) (Nat.lt_of_le_of_lt (Nat.sub_le _ _) t.isLt)).2 (adjBlk3 V c t) (featBlk3 V c t)) (biasBlk3 V c t) (ix2 p q)
    = denseArr3 V c (((cfg3.win 3).blk t).view.emb (ix2 p q))
  rw [hemb]
  refine (k3_pay3_apply _ (biasBlk3 V c t) p q).trans ?_
  refine (congrArg (fun z => max (z + biasBlk3 V c t (ix2 0 q)) 0)
    (k3_pay2_apply (outsAt3 (F := Ideal) V c (t.val - 1) (Nat.lt_of_le_of_lt (Nat.sub_le _ _) t.isLt)).2 (adjBlk3 V c t) (featBlk3 V c t) p q)).trans ?_
  show max ((((outsAt3 (F := Ideal) V c (t.val - 1) (Nat.lt_of_le_of_lt (Nat.sub_le _ _) t.isLt)).2 : S2048x512.Idx → EReal) (ix2 p q)
        + ∑ j : Fin 2048, adjBlk3 V c t (ix2 p j) * featBlk3 V c t (ix2 j q)) + biasBlk3 V c t (ix2 0 q)) 0
    = max ((∑ k : Fin 10240, adjArr3 V c (ix2 ⟨2048 * (t.val / 5) + p.val, hp⟩ k) * featArr3 V c (ix2 k q)) + biasArr3 V c (ix2 0 q)) 0
  rw [scratch3_eq V c (t.val - 1) (Nat.lt_of_le_of_lt (Nat.sub_le _ _) t.isLt) p q, blk_sum3_eq, biasBlk3_apply,
    dense_row3_eq V c ⟨2048 * (t.val / 5) + p.val, hp⟩ q, e1, e2, h1]
  rfl

theorem mem_blk3 (t : Fin cfg3.N) (i : S10240x512.Idx) :
    i ∈ ((cfg3.win 3).blk t).view.set ↔ ∀ a : Fin 2, win3_3.index t a * S2048x512.size a ≤ (i a).val ∧ (i a).val < win3_3.index t a * S2048x512.size a + S2048x512.size a := by
  show i ∈ ((View.whole main_v87).slice (win3_3.rect t)).set ↔ _
  rw [View.set_slice_whole, Rect.mem_set_unit]
  exact Iff.rfl

theorem cover3 (i : S10240x512.Idx) :
    ∃ t : Fin cfg3.N, (cfg3.win 3).flush t = true ∧ i ∈ ((cfg3.win 3).blk t).view.set := by
  have hi0 : (i 0).val < 10240 := (i 0).isLt
  have hi1 : (i 1).val < 512 := (i 1).isLt
  have hN : cfg3.N = 25 := N_3
  let t : Fin cfg3.N := ⟨5 * ((i 0).val / 2048) + 4, by rw [hN]; omega⟩
  obtain ⟨-, -, -, -, -, -, e0, e1⟩ := idx_facts3 t
  have ht : t.val = 5 * ((i 0).val / 2048) + 4 := rfl
  refine ⟨t, (flush3_3 t).mpr (by rw [ht]; omega), ?_⟩
  rw [mem_blk3]
  intro a
  match a with
  | ⟨0, _⟩ => show win3_3.index t (0 : Fin 2) * 2048 ≤ (i 0).val ∧ (i 0).val < win3_3.index t (0 : Fin 2) * 2048 + 2048; rw [e0, ht]; omega
  | ⟨1, _⟩ => show win3_3.index t (1 : Fin 2) * 512 ≤ (i 1).val ∧ (i 1).val < win3_3.index t (1 : Fin 2) * 512 + 512; rw [e1]; omega

theorem arr3_eq (c : Dev nD) : (dat3 (F := Ideal) V c).arrAt 3 cfg3.N = denseArr3 V c :=
  (dat3 (F := Ideal) V c).arrAt_eq_of_cover 3 (denseArr3 V c) (fun t hf => flushed3_eq V c t hf) cover3

theorem value3 (c : Dev nD) (r : Fin 10240) (q : Fin 512) :
    ((dat3 (F := Ideal) V c).arrAt 3 cfg3.N : S10240x512.Idx → EReal) (ix2 r q)
      = Gcn.relu (Gcn.dense (fun r k => (V c main_v71 : S10240x10240.Idx → EReal) (ix2 r k)) (fun k q => (V c main_v86 : S10240x512.Idx → EReal) (ix2 k q))
          (fun q => (V c main_v85 : S1x512.Idx → EReal) (ix2 0 q))) r q := by
  rw [arr3_eq]

end Arrays

end Cert.KernelIdeal.Hand
-- ==== Proof.KI.Pay4.lean ====
/- GENERATED by: bun scripts/gen_pay.js  (run from the unit's directory; no arguments). Template: proof/Proof/KI/Pay1.lean (the text written for kernel 1). This file is that text for kernel 4 with these substitutions, applied in this order:
     no final maximum (sentence): ", clamped below at zero. - /" -> ". - /"
     no final maximum (right-hand side): "= max (v16 (ix2 p q) + v17 (ix2 0 q)) 0 := by" -> "= v16 (ix2 p q) + v17 (ix2 0 q) := by"
     no final maximum (closing steps): "rw [shapeCast_self, maximumf_apply, addf_apply, broadcastTo_1b_ab_apply, broadcast_apply]\n  show max _ (Ideal.ofBits .f32 0x00000000#32) = _\n  rw [Ideal.ofBits_zero_f32]\n" -> "rw [shapeCast_self, addf_apply, broadcastTo_1b_ab_apply]\n"
     heading: "## Kernel 1: a [2048, 2048] block times a [2048, 512] block" -> "## Kernel 4: a [2048, 512] block times a [512, 128] block"
     prefix: "k1_" -> "k4_"
     dot record (held aside): "dot_S2048x2048_S2048x512_S2048x512_1_0_0_1_n_n" -> "@@D@@"
     contraction length (re-indexing): "@@D@@ 2048 rfl rfl" -> "@@D@@ 512 rfl rfl"
     contraction length (sum): "j : Fin 2048" -> "j : Fin 512"
     left block as an operand (held aside): "S2048x2048 .bf16" -> "@@L@@ .bf16"
     left block's axis (held aside): "Fin S2048x2048.rank" -> "Fin @@L@@.rank"
     right block as an operand (held aside): "S2048x512 .bf16" -> "@@R@@ .bf16"
     right block's axis (held aside): "Fin S2048x512.rank" -> "Fin @@R@@.rank"
     output block: "S2048x512" -> "S2048x128"
     bias row: "S1x512" -> "S1x128"
     column count: "(q : Fin 512)" -> "(q : Fin 128)"
     left block: "@@L@@" -> "S2048x512"
     right block: "@@R@@" -> "S512x128"
     dot record: "@@D@@" -> "dot_S2048x512_S512x128_S2048x128_1_0_0_1_n_n"
   Do not edit: change the template or the script and run it again. -/
import proofs.«414095_j12086037971444_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! The arithmetic of the six matrix-product kernels, read one element at a time over the extended reals.
    Each kernel keeps a scratch block: it is reset to zero, then a block product is added to it, and at the end the
    bias row is added (and, for two of the kernels, the result is clamped below at zero). Read at row p and column q:
    the reset value is 0; the update is the old scratch element plus the inner product of row p of the left block with
    column q of the right block; the output is the scratch element plus the bias at column q (clamped at 0 where the
    kernel has a rectifier). -/

noncomputable section

open scoped BigOperators

namespace Cert.KernelIdeal.Hand

open Cert.KernelIdeal Cert.KernelIdeal.Gen Idealize.ShloMosaic Idealize.ShloMosaic.ValueIdx

/-! ## Kernel 4: a [2048, 512] block times a [512, 128] block -/

/-- The left operand's row coordinate is the output's row. -/
theorem k4_lhs_0 (i : S2048x128.Idx) (c : dot_S2048x512_S512x128_S2048x128_1_0_0_1_n_n.contr.Idx) :
    (dot_S2048x512_S512x128_S2048x128_1_0_0_1_n_n.lhsIdx i c 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
/-- The left operand's column coordinate is the contraction coordinate. -/
theorem k4_lhs_1 (i : S2048x128.Idx) (c : dot_S2048x512_S512x128_S2048x128_1_0_0_1_n_n.contr.Idx) :
    (dot_S2048x512_S512x128_S2048x128_1_0_0_1_n_n.lhsIdx i c 1).val = (c ⟨0, by decide⟩).val :=
  dot_S2048x512_S512x128_S2048x128_1_0_0_1_n_n.lhsIdx_val_of_single rfl i c
/-- The right operand's row coordinate is the contraction coordinate. -/
theorem k4_rhs_0 (i : S2048x128.Idx) (c : dot_S2048x512_S512x128_S2048x128_1_0_0_1_n_n.contr.Idx) :
    (dot_S2048x512_S512x128_S2048x128_1_0_0_1_n_n.rhsIdx i c 0).val = (c ⟨0, by decide⟩).val :=
  dot_S2048x512_S512x128_S2048x128_1_0_0_1_n_n.rhsIdx_val_of_single rfl i c
/-- The right operand's column coordinate is the output's column. -/
theorem k4_rhs_1 (i : S2048x128.Idx) (c : dot_S2048x512_S512x128_S2048x128_1_0_0_1_n_n.contr.Idx) :
    (dot_S2048x512_S512x128_S2048x128_1_0_0_1_n_n.rhsIdx i c 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- The block product into a zero accumulator, at (p, q): the inner product of row p with column q. -/
theorem k4_matmul_apply (a : FVec Ideal S2048x512 .bf16) (b : FVec Ideal S512x128 .bf16) (p : Fin 2048) (q : Fin 128) :
    matmul dot_S2048x512_S512x128_S2048x128_1_0_0_1_n_n none a b (constant (F := Ideal) S2048x128 .f32 0x00000000#32) (ix2 p q)
      = ∑ j : Fin 512, a (ix2 p j) * b (ix2 j q) := by
  show FloatOps.matmul dot_S2048x512_S512x128_S2048x128_1_0_0_1_n_n none a b (constant (F := Ideal) S2048x128 .f32 0x00000000#32) (ix2 p q) = _
  rw [Ideal.matmul_constant_zero_apply, ← Equiv.sum_comp (contrEquiv1 dot_S2048x512_S512x128_S2048x128_1_0_0_1_n_n 512 rfl rfl).symm]
  refine Finset.sum_congr rfl fun j _ => ?_
  have hj := contrEquiv1_symm_val dot_S2048x512_S512x128_S2048x128_1_0_0_1_n_n 512 rfl rfl j
  have el : dot_S2048x512_S512x128_S2048x128_1_0_0_1_n_n.lhsIdx (ix2 p q) ((contrEquiv1 dot_S2048x512_S512x128_S2048x128_1_0_0_1_n_n 512 rfl rfl).symm j) = ix2 p j := funext fun ax => Fin.ext (by
    match ax with
    | ⟨0, _⟩ => exact k4_lhs_0 _ _
    | ⟨1, _⟩ => exact (k4_lhs_1 _ _).trans hj)
  have er : dot_S2048x512_S512x128_S2048x128_1_0_0_1_n_n.rhsIdx (ix2 p q) ((contrEquiv1 dot_S2048x512_S512x128_S2048x128_1_0_0_1_n_n 512 rfl rfl).symm j) = ix2 j q := funext fun ax => Fin.ext (by
    match ax with
    | ⟨0, _⟩ => exact (k4_rhs_0 _ _).trans hj
    | ⟨1, _⟩ => exact k4_rhs_1 _ _)
  rw [el, er]

/-- The reset value is zero everywhere. -/
theorem k4_pay1_apply (p : Fin 2048) (q : Fin 128) : k4_pay1 (F := Ideal) (ix2 p q) = 0 := by
  unfold k4_pay1
  rw [shapeCast_self, broadcast_apply]
  exact Ideal.ofBits_zero_f32

/-- The update: the old scratch element plus the inner product of row p of the left block and column q of the right. -/
theorem k4_pay2_apply (v3 : Vec Ideal S2048x128 .f32) (v4 : Vec Ideal S2048x512 .bf16) (v6 : Vec Ideal S512x128 .bf16)
    (p : Fin 2048) (q : Fin 128) :
    k4_pay2 (F := Ideal) v3 v4 v6 (ix2 p q) = v3 (ix2 p q) + ∑ j : Fin 512, v4 (ix2 p j) * v6 (ix2 j q) := by
  unfold k4_pay2
  rw [shapeCast_self, shapeCast_self, shapeCast_self, addf_apply, k4_matmul_apply]

/-- The output: the scratch element plus the bias of its column. -/
theorem k4_pay3_apply (v16 : Vec Ideal S2048x128 .f32) (v17 : Vec Ideal S1x128 .f32) (p : Fin 2048) (q : Fin 128) :
    k4_pay3 (F := Ideal) v16 v17 (ix2 p q) = v16 (ix2 p q) + v17 (ix2 0 q) := by
  unfold k4_pay3
  rw [shapeCast_self, addf_apply, broadcastTo_1b_ab_apply]

end Cert.KernelIdeal.Hand
-- ==== Proof.KI.V4.lean ====
/- GENERATED by: bun scripts/gen_v.js  (run from the unit's directory; no arguments). Template: proof/Proof/KI/V0.lean (the text written for region 0). This file is that text for region 4 with these substitutions, applied in this order:
     heading: "# Region 0 read" -> "# Region 4 read" (1 places)
     name: "R0Frame" -> "R4Frame" (1 places)
     name: "Pay0" -> "Pay4" (1 places)
     name: "zero_offsets0" -> "zero_offsets4" (7 places)
     name: "out0_piece" -> "out4_piece" (2 places)
     name: "out0_A_3" -> "out4_A_3" (2 places)
     name: "cover0_A_3" -> "cover4_A_3" (1 places)
     name: "kernelRun0_A" -> "kernelRun4_A" (1 places)
     name: "grid0" -> "grid4" (3 places)
     name: "cfg0" -> "cfg4" (25 places)
     name: "cond0_0" -> "cond4_0" (1 places)
     name: "cond0_1" -> "cond4_1" (1 places)
     name: "k0_pay1_apply" -> "k4_pay1_apply" (1 places)
     name: "k0_pay2_apply" -> "k4_pay2_apply" (1 places)
     name: "k0_pay3_apply" -> "k4_pay3_apply" (1 places)
     name: "k0_pay1" -> "k4_pay1" (3 places)
     name: "k0_pay2" -> "k4_pay2" (3 places)
     name: "k0_pay3" -> "k4_pay3" (3 places)
     name: "block_value0" -> "block_value4" (2 places)
     name: "lhsArr0" -> "lhsArr4" (4 places)
     name: "rhsArr0" -> "rhsArr4" (4 places)
     name: "biasArr0" -> "biasArr4" (5 places)
     name: "lhsBlk0_apply" -> "lhsBlk4_apply" (2 places)
     name: "rhsBlk0_apply" -> "rhsBlk4_apply" (2 places)
     name: "biasBlk0_apply" -> "biasBlk4_apply" (2 places)
     name: "lhsBlk0" -> "lhsBlk4" (5 places)
     name: "rhsBlk0" -> "rhsBlk4" (5 places)
     name: "biasBlk0" -> "biasBlk4" (5 places)
     name: "iblk0" -> "iblk4" (3 places)
     name: "idx_facts0" -> "idx_facts4" (6 places)
     name: "win0_0" -> "win4_0" (4 places)
     name: "win0_1" -> "win4_1" (4 places)
     name: "win0_2" -> "win4_2" (4 places)
     name: "win0_3" -> "win4_3" (11 places)
     name: "denseArr0" -> "denseArr4" (5 places)
     name: "flushed0_eq" -> "flushed4_eq" (2 places)
     name: "dat0" -> "dat4" (5 places)
     name: "after0_3" -> "after4_3" (1 places)
     name: "N_0" -> "N_4" (2 places)
     name: "mem_blk0" -> "mem_blk4" (2 places)
     name: "cover0" -> "cover4" (2 places)
     name: "flush0_3" -> "flush4_3" (1 places)
     name: "arr0_eq" -> "arr4_eq" (2 places)
     name: "value0" -> "value4" (1 places)
     left factor array: "main_v75" -> "@@a0@@" (5 places)
     right factor array: "main_v76" -> "@@a1@@" (5 places)
     bias row array: "main_v74" -> "@@a2@@" (5 places)
     output array: "main_v77" -> "@@a3@@" (1 places)
     left block's shape (set aside): "S2048x896" -> "@@LB@@" (5 places)
     right factor's shape (set aside): "S896x512" -> "@@RB@@" (7 places)
     bias row's shape (set aside): "S1x512" -> "@@BB@@" (7 places)
     output block's shape (set aside): "S2048x512" -> "@@OB@@" (7 places)
     left factor's shape (set aside): "S10240x896" -> "@@LA@@" (2 places)
     output array's shape (set aside): "S10240x512" -> "@@OA@@" (5 places)
     contraction length (set aside): "896" -> "@@K@@" (7 places)
     column count (set aside): "512" -> "@@N@@" (13 places)
     contraction length: "@@K@@" -> "512" (7 places)
     column count: "@@N@@" -> "128" (13 places)
     left factor array: "@@a0@@" -> "main_v89" (5 places)
     right factor array: "@@a1@@" -> "main_v90" (5 places)
     bias row array: "@@a2@@" -> "main_v88" (5 places)
     output array: "@@a3@@" -> "main_v91" (1 places)
     left block's shape: "@@LB@@" -> "S2048x512" (5 places)
     right factor's shape: "@@RB@@" -> "S512x128" (7 places)
     bias row's shape: "@@BB@@" -> "S1x128" (7 places)
     output block's shape: "@@OB@@" -> "S2048x128" (7 places)
     left factor's shape: "@@LA@@" -> "S10240x512" (2 places)
     output array's shape: "@@OA@@" -> "S10240x128" (5 places)
   Do not edit: change the template or the script and run it again. -/
import proofs.«414095_j12086037971444_1_alg».proof.Proof.KI.R4Frame
import proofs.«414095_j12086037971444_1_alg».proof.Proof.KI.Pay4
import proofs.«414095_j12086037971444_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

/-! # Region 4 read as mathematics: the output array is the dense product of the two factor arrays plus the bias row

    The region walks five row blocks of 2048 rows. At each it clears its accumulator, adds the product of the left
    factor's row block with the whole right factor, adds the bias row and writes the block back. So entry (r, q) of the
    output array is the inner product of row r of the left factor with column q of the right factor, plus the bias at
    q: the block that holds row r is number r / 2048, and inside it the row is r mod 2048. -/

/-- The two zero offsets, written as a constant function. -/
theorem zero_offsets4 : (![0, 0] : Fin 2 → Nat) = fun _ => 0 := funext fun a => by fin_cases a <;> rfl

/-! ## What the body leaves in the output buffer, as one term of the three input blocks -/

section Piece
variable {F : FTy → Type} [FloatOps F]

/-- The one stored piece covers the buffer; its payload is the bias stage applied to the accumulator, and the
    accumulator it reads back is the update stage applied to the cleared accumulator and the two factor blocks. -/
theorem out4_piece (c : Dev nD) (i : grid4.Coords) (arg3 : Memref sig .tc .vmem S2048x512 .bf16) (harg3 : arg3.IsWhole) (arg4 : Memref sig .tc .vmem S512x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond4_0 i) (hc1 : cond4_1 i)
    (x0 : Vec F S2048x512 .bf16) (x1 : Vec F S512x128 .bf16) (x2 : Vec F S1x128 .f32) :
    out4_A_3 c i arg3 harg3 arg4 harg4 arg5 harg5 arg6 harg6 arg7 harg7 hc0 hc1 x0 x1 x2
      = k4_pay3 (k4_pay2 (k4_pay1 (F := F)) x0 x1) x2 := by
  unfold out4_A_3
  rw [View.read_writes_eq_canon _ _ _ (cover4_A_3 c i arg3 harg3 arg4 harg4 arg5 harg5 arg6 harg6 arg7 harg7 hc0 hc1 x0 x1 x2)]
  unfold kernelRun4_A
  dsimp only
  sl_unfold_words
  rw [View.canon_unit_zero zero_offsets4]
  simp only [View.readAt_eq_ld, harg3.read_unread, harg4.read_unread, harg5.read_unread, harg7.read_unread,
    View.ld_unit_zero (S := S2048x128) zero_offsets4, View.ld_unit_zero (S := S2048x512) zero_offsets4,
    View.ld_unit_zero (S := S512x128) zero_offsets4, View.ld_unit_zero (S := S1x128) zero_offsets4,
    View.readCov_unit_zero (S := S2048x128) _ zero_offsets4]
  rw [View.readCov_cons_toLoadRect]

end Piece

/-! ## The same term at one element, over the extended reals -/

/-- Element (p, q) of what the body leaves: zero plus the inner product of row p of the left block with column q of
    the right block, plus the bias at q. -/
theorem block_value4 (x0 : Vec Ideal S2048x512 .bf16) (x1 : Vec Ideal S512x128 .bf16) (x2 : Vec Ideal S1x128 .f32)
    (p : Fin 2048) (q : Fin 128) :
    k4_pay3 (F := Ideal) (k4_pay2 (F := Ideal) (k4_pay1 (F := Ideal)) x0 x1) x2 (ix2 p q)
      = (0 + ∑ k : Fin 512, x0 (ix2 p k) * x1 (ix2 k q)) + x2 (ix2 0 q) := by
  rw [k4_pay3_apply, k4_pay2_apply, k4_pay1_apply]

/-! ## The arrays and the blocks, named at their literal types -/

section Arrays
variable (V : (c : Dev nD) → (b : Ref sig .tc) → Buf (Elt Ideal) ((c : Thread nD τ).loc b))

/-- The left factor, the right factor and the bias row as the region finds them. -/
abbrev lhsArr4 (c : Dev nD) : S10240x512.Idx → EReal := V c main_v89
abbrev rhsArr4 (c : Dev nD) : S512x128.Idx → EReal := V c main_v90
abbrev biasArr4 (c : Dev nD) : S1x128.Idx → EReal := V c main_v88

/-- Their blocks at a point. -/
abbrev lhsBlk4 (c : Dev nD) (t : Fin cfg4.N) : Vec Ideal S2048x512 .bf16 := iblk4 V c 0 t
abbrev rhsBlk4 (c : Dev nD) (t : Fin cfg4.N) : Vec Ideal S512x128 .bf16 := iblk4 V c 1 t
abbrev biasBlk4 (c : Dev nD) (t : Fin cfg4.N) : Vec Ideal S1x128 .f32 := iblk4 V c 2 t

/-- The block indices at a point: the left factor and the output move down one row block per point; the right factor
    and the bias row stay at their one block. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of the left block at point t is row 2048·t + p of the left factor. -/
theorem lhsBlk4_apply (c : Dev nD) (t : Fin cfg4.N) (p : Fin 2048) (k : Fin 512) (hp : 2048 * t.val + p.val < 10240) :
    lhsBlk4 V c t (ix2 p k) = lhsArr4 V c (ix2 ⟨2048 * t.val + p.val, hp⟩ k) := by
  obtain ⟨e0, e1, -⟩ := idx_facts4 t
  show V c main_v89 (((cfg4.win 0).blk t).view.emb (ix2 p k)) = V c main_v89 _
  refine congrArg (V c main_v89) (funext fun a => Fin.ext ?_)
  match a with
  | ⟨0, _⟩ => show win4_0.index t (0 : Fin 2) * 2048 + 1 * p.val = 2048 * t.val + p.val; rw [e0]; omega
  | ⟨1, _⟩ => show win4_0.index t (1 : Fin 2) * 512 + 1 * k.val = k.val; rw [e1]; omega

/-- The right block is the right factor. -/
theorem rhsBlk4_apply (c : Dev nD) (t : Fin cfg4.N) (k : Fin 512) (q : Fin 128) :
    rhsBlk4 V c t (ix2 k q) = rhsArr4 V c (ix2 k q) := by
  obtain ⟨-, -, e0, e1, -⟩ := idx_facts4 t
  show V c main_v90 (((cfg4.win 1).blk t).view.emb (ix2 k q)) = V c main_v90 _
  refine congrArg (V c main_v90) (funext fun a => Fin.ext ?_)
  match a with
  | ⟨0, _⟩ => show win4_1.index t (0 : Fin 2) * 512 + 1 * k.val = k.val; rw [e0]; omega
  | ⟨1, _⟩ => show win4_1.index t (1 : Fin 2) * 128 + 1 * q.val = q.val; rw [e1]; omega

/-- The bias block is the bias row. -/
theorem biasBlk4_apply (c : Dev nD) (t : Fin cfg4.N) (q : Fin 128) :
    biasBlk4 V c t (ix2 0 q) = biasArr4 V c (ix2 0 q) := by
  obtain ⟨-, -, -, -, e0, e1, -⟩ := idx_facts4 t
  show V c main_v88 (((cfg4.win 2).blk t).view.emb (ix2 (0 : Fin 1) q)) = V c main_v88 _
  refine congrArg (V c main_v88) (funext fun a => Fin.ext ?_)
  match a with
  | ⟨0, _⟩ => show win4_2.index t (0 : Fin 2) * 1 + 1 * 0 = 0; rw [e0]
  | ⟨1, _⟩ => show win4_2.index t (1 : Fin 2) * 128 + 1 * q.val = q.val; rw [e1]; omega

/-! ## From the blocks to the array -/

/-- The whole output array: the dense product with bias, entry by entry. -/
abbrev denseArr4 (c : Dev nD) : S10240x128.Idx → EReal := fun i =>
  Gcn.dense (fun r k => lhsArr4 V c (ix2 r k)) (fun k q => rhsArr4 V c (ix2 k q)) (fun q => biasArr4 V c (ix2 0 q))
    (i 0 : Fin 10240) (i 1 : Fin 128)

/-- What point t writes back is block t of that array. -/
theorem flushed4_eq (c : Dev nD) (t : Fin cfg4.N) :
    (dat4 (F := Ideal) V c).flushed 3 t = ((cfg4.win 3).blk t).view.read (Elt Ideal) (denseArr4 V c) := by
  show (cfg4.win 3).cut (grid4.coords t) ((dat4 (F := Ideal) V c).after 3 t) = _
  rw [after4_3, out4_piece]
  have hN : t.val < 5 := by have h5 : cfg4.N = 5 := N_4; have := t.isLt; omega
  obtain ⟨-, -, -, -, -, -, e0, e1⟩ := idx_facts4 t
  funext j
  obtain ⟨p, q, rfl⟩ : ∃ (p : Fin 2048) (q : Fin 128), j = ix2 p q := ⟨j 0, j 1, eq_ix2 j⟩
  have hp : 2048 * t.val + p.val < 10240 := by have := p.isLt; omega
  have hemb : ((cfg4.win 3).blk t).view.emb (ix2 p q) = (ix2 ⟨2048 * t.val + p.val, hp⟩ q : S10240x128.Idx) := by
    funext a; apply Fin.ext
    match a with
    | ⟨0, _⟩ => show win4_3.index t (0 : Fin 2) * 2048 + 1 * p.val = 2048 * t.val + p.val; rw [e0]; omega
    | ⟨1, _⟩ => show win4_3.index t (1 : Fin 2) * 128 + 1 * q.val = q.val; rw [e1]; omega
  show k4_pay3 (F := Ideal) (k4_pay2 (F := Ideal) (k4_pay1 (F := Ideal)) (lhsBlk4 V c t) (rhsBlk4 V c t)) (biasBlk4 V c t) (ix2 p q)
    = denseArr4 V c (((cfg4.win 3).blk t).view.emb (ix2 p q))
  rw [hemb]
  refine (block_value4 (lhsBlk4 V c t) (rhsBlk4 V c t) (biasBlk4 V c t) p q).trans ?_
  show (0 + ∑ k : Fin 512, lhsBlk4 V c t (ix2 p k) * rhsBlk4 V c t (ix2 k q)) + biasBlk4 V c t (ix2 0 q)
    = (∑ k : Fin 512, lhsArr4 V c (ix2 ⟨2048 * t.val + p.val, hp⟩ k) * rhsArr4 V c (ix2 k q)) + biasArr4 V c (ix2 0 q)
  rw [zero_add, biasBlk4_apply]
  exact congrArg (· + biasArr4 V c (ix2 0 q)) (Finset.sum_congr rfl fun k _ => by rw [lhsBlk4_apply V c t p k hp, rhsBlk4_apply])

/-- An entry of the output array is in point t's block exactly when each of its coordinates is in the block's range. -/
theorem mem_blk4 (t : Fin cfg4.N) (i : S10240x128.Idx) :
    i ∈ ((cfg4.win 3).blk t).view.set ↔ ∀ a : Fin 2, win4_3.index t a * S2048x128.size a ≤ (i a).val ∧ (i a).val < win4_3.index t a * S2048x128.size a + S2048x128.size a := by
  show i ∈ ((View.whole main_v91).slice (win4_3.rect t)).set ↔ _
  rw [View.set_slice_whole, Rect.mem_set_unit]
  exact Iff.rfl

/-- Every entry is written back by some point: row r by point r / 2048. -/
theorem cover4 (i : S10240x128.Idx) :
    ∃ t : Fin cfg4.N, (cfg4.win 3).flush t = true ∧ i ∈ ((cfg4.win 3).blk t).view.set := by
  have hi0 : (i 0).val < 10240 := (i 0).isLt
  have hi1 : (i 1).val < 128 := (i 1).isLt
  have hN : cfg4.N = 5 := N_4
  let t : Fin cfg4.N := ⟨(i 0).val / 2048, by rw [hN]; omega⟩
  obtain ⟨-, -, -, -, -, -, e0, e1⟩ := idx_facts4 t
  have ht : t.val = (i 0).val / 2048 := rfl
  refine ⟨t, flush4_3 t, ?_⟩
  rw [mem_blk4]
  intro a
  match a with
  | ⟨0, _⟩ => show win4_3.index t (0 : Fin 2) * 2048 ≤ (i 0).val ∧ (i 0).val < win4_3.index t (0 : Fin 2) * 2048 + 2048; rw [e0, ht]; omega
  | ⟨1, _⟩ => show win4_3.index t (1 : Fin 2) * 128 ≤ (i 1).val ∧ (i 1).val < win4_3.index t (1 : Fin 2) * 128 + 128; rw [e1]; omega

/-- So after the region the output array is the dense product with bias. -/
theorem arr4_eq (c : Dev nD) : (dat4 (F := Ideal) V c).arrAt 3 cfg4.N = denseArr4 V c :=
  (dat4 (F := Ideal) V c).arrAt_eq_of_cover 3 (denseArr4 V c) (fun t _ => flushed4_eq V c t) cover4

/-- Entry (r, q) of the region's output array. -/
theorem value4 (c : Dev nD) (r : Fin 10240) (q : Fin 128) :
    ((dat4 (F := Ideal) V c).arrAt 3 cfg4.N : S10240x128.Idx → EReal) (ix2 r q)
      = Gcn.dense (fun r k => (V c main_v89 : S10240x512.Idx → EReal) (ix2 r k)) (fun k q => (V c main_v90 : S512x128.Idx → EReal) (ix2 k q))
          (fun q => (V c main_v88 : S1x128.Idx → EReal) (ix2 0 q)) r q := by
  rw [arr4_eq]

end Arrays

end Cert.KernelIdeal.Hand
-- ==== Proof.KI.Pay5.lean ====
/- GENERATED by: bun scripts/gen_pay.js  (run from the unit's directory; no arguments). Template: proof/Proof/KI/Pay1.lean (the text written for kernel 1). This file is that text for kernel 5 with these substitutions, applied in this order:
     no final maximum (sentence): ", clamped below at zero. - /" -> ". - /"
     no final maximum (right-hand side): "= max (v16 (ix2 p q) + v17 (ix2 0 q)) 0 := by" -> "= v16 (ix2 p q) + v17 (ix2 0 q) := by"
     no final maximum (closing steps): "rw [shapeCast_self, maximumf_apply, addf_apply, broadcastTo_1b_ab_apply, broadcast_apply]\n  show max _ (Ideal.ofBits .f32 0x00000000#32) = _\n  rw [Ideal.ofBits_zero_f32]\n" -> "rw [shapeCast_self, addf_apply, broadcastTo_1b_ab_apply]\n"
     heading: "## Kernel 1: a [2048, 2048] block times a [2048, 512] block" -> "## Kernel 5: a [2048, 2048] block times a [2048, 128] block"
     prefix: "k1_" -> "k5_"
     dot record (held aside): "dot_S2048x2048_S2048x512_S2048x512_1_0_0_1_n_n" -> "@@D@@"
     contraction length (re-indexing): "@@D@@ 2048 rfl rfl" -> "@@D@@ 2048 rfl rfl"
     contraction length (sum): "j : Fin 2048" -> "j : Fin 2048"
     left block as an operand (held aside): "S2048x2048 .bf16" -> "@@L@@ .bf16"
     left block's axis (held aside): "Fin S2048x2048.rank" -> "Fin @@L@@.rank"
     right block as an operand (held aside): "S2048x512 .bf16" -> "@@R@@ .bf16"
     right block's axis (held aside): "Fin S2048x512.rank" -> "Fin @@R@@.rank"
     output block: "S2048x512" -> "S2048x128"
     bias row: "S1x512" -> "S1x128"
     column count: "(q : Fin 512)" -> "(q : Fin 128)"
     left block: "@@L@@" -> "S2048x2048"
     right block: "@@R@@" -> "S2048x128"
     dot record: "@@D@@" -> "dot_S2048x2048_S2048x128_S2048x128_1_0_0_1_n_n"
   Do not edit: change the template or the script and run it again. -/
import proofs.«414095_j12086037971444_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! The arithmetic of the six matrix-product kernels, read one element at a time over the extended reals.
    Each kernel keeps a scratch block: it is reset to zero, then a block product is added to it, and at the end the
    bias row is added (and, for two of the kernels, the result is clamped below at zero). Read at row p and column q:
    the reset value is 0; the update is the old scratch element plus the inner product of row p of the left block with
    column q of the right block; the output is the scratch element plus the bias at column q (clamped at 0 where the
    kernel has a rectifier). -/

noncomputable section

open scoped BigOperators

namespace Cert.KernelIdeal.Hand

open Cert.KernelIdeal Cert.KernelIdeal.Gen Idealize.ShloMosaic Idealize.ShloMosaic.ValueIdx

/-! ## Kernel 5: a [2048, 2048] block times a [2048, 128] block -/

/-- The left operand's row coordinate is the output's row. -/
theorem k5_lhs_0 (i : S2048x128.Idx) (c : dot_S2048x2048_S2048x128_S2048x128_1_0_0_1_n_n.contr.Idx) :
    (dot_S2048x2048_S2048x128_S2048x128_1_0_0_1_n_n.lhsIdx i c 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
/-- The left operand's column coordinate is the contraction coordinate. -/
theorem k5_lhs_1 (i : S2048x128.Idx) (c : dot_S2048x2048_S2048x128_S2048x128_1_0_0_1_n_n.contr.Idx) :
    (dot_S2048x2048_S2048x128_S2048x128_1_0_0_1_n_n.lhsIdx i c 1).val = (c ⟨0, by decide⟩).val :=
  dot_S2048x2048_S2048x128_S2048x128_1_0_0_1_n_n.lhsIdx_val_of_single rfl i c
/-- The right operand's row coordinate is the contraction coordinate. -/
theorem k5_rhs_0 (i : S2048x128.Idx) (c : dot_S2048x2048_S2048x128_S2048x128_1_0_0_1_n_n.contr.Idx) :
    (dot_S2048x2048_S2048x128_S2048x128_1_0_0_1_n_n.rhsIdx i c 0).val = (c ⟨0, by decide⟩).val :=
  dot_S2048x2048_S2048x128_S2048x128_1_0_0_1_n_n.rhsIdx_val_of_single rfl i c
/-- The right operand's column coordinate is the output's column. -/
theorem k5_rhs_1 (i : S2048x128.Idx) (c : dot_S2048x2048_S2048x128_S2048x128_1_0_0_1_n_n.contr.Idx) :
    (dot_S2048x2048_S2048x128_S2048x128_1_0_0_1_n_n.rhsIdx i c 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The block product into a zero accumulator, at (p, q): the inner product of row p with column q. -/
theorem k5_matmul_apply (a : FVec Ideal S2048x2048 .bf16) (b : FVec Ideal S2048x128 .bf16) (p : Fin 2048) (q : Fin 128) :
    matmul dot_S2048x2048_S2048x128_S2048x128_1_0_0_1_n_n none a b (constant (F := Ideal) S2048x128 .f32 0x00000000#32) (ix2 p q)
      = ∑ j : Fin 2048, a (ix2 p j) * b (ix2 j q) := by
  show FloatOps.matmul dot_S2048x2048_S2048x128_S2048x128_1_0_0_1_n_n none a b (constant (F := Ideal) S2048x128 .f32 0x00000000#32) (ix2 p q) = _
  rw [Ideal.matmul_constant_zero_apply, ← Equiv.sum_comp (contrEquiv1 dot_S2048x2048_S2048x128_S2048x128_1_0_0_1_n_n 2048 rfl rfl).symm]
  refine Finset.sum_congr rfl fun j _ => ?_
  have hj := contrEquiv1_symm_val dot_S2048x2048_S2048x128_S2048x128_1_0_0_1_n_n 2048 rfl rfl j
  have el : dot_S2048x2048_S2048x128_S2048x128_1_0_0_1_n_n.lhsIdx (ix2 p q) ((contrEquiv1 dot_S2048x2048_S2048x128_S2048x128_1_0_0_1_n_n 2048 rfl rfl).symm j) = ix2 p j := funext fun ax => Fin.ext (by
    match ax with
    | ⟨0, _⟩ => exact k5_lhs_0 _ _
    | ⟨1, _⟩ => exact (k5_lhs_1 _ _).trans hj)
  have er : dot_S2048x2048_S2048x128_S2048x128_1_0_0_1_n_n.rhsIdx (ix2 p q) ((contrEquiv1 dot_S2048x2048_S2048x128_S2048x128_1_0_0_1_n_n 2048 rfl rfl).symm j) = ix2 j q := funext fun ax => Fin.ext (by
    match ax with
    | ⟨0, _⟩ => exact (k5_rhs_0 _ _).trans hj
    | ⟨1, _⟩ => exact k5_rhs_1 _ _)
  rw [el, er]

/-- The reset value is zero everywhere. -/
theorem k5_pay1_apply (p : Fin 2048) (q : Fin 128) : k5_pay1 (F := Ideal) (ix2 p q) = 0 := by
  unfold k5_pay1
  rw [shapeCast_self, broadcast_apply]
  exact Ideal.ofBits_zero_f32

/-- The update: the old scratch element plus the inner product of row p of the left block and column q of the right. -/
theorem k5_pay2_apply (v3 : Vec Ideal S2048x128 .f32) (v4 : Vec Ideal S2048x2048 .bf16) (v6 : Vec Ideal S2048x128 .bf16)
    (p : Fin 2048) (q : Fin 128) :
    k5_pay2 (F := Ideal) v3 v4 v6 (ix2 p q) = v3 (ix2 p q) + ∑ j : Fin 2048, v4 (ix2 p j) * v6 (ix2 j q) := by
  unfold k5_pay2
  rw [shapeCast_self, shapeCast_self, shapeCast_self, addf_apply, k5_matmul_apply]

/-- The output: the scratch element plus the bias of its column. -/
theorem k5_pay3_apply (v16 : Vec Ideal S2048x128 .f32) (v17 : Vec Ideal S1x128 .f32) (p : Fin 2048) (q : Fin 128) :
    k5_pay3 (F := Ideal) v16 v17 (ix2 p q) = v16 (ix2 p q) + v17 (ix2 0 q) := by
  unfold k5_pay3
  rw [shapeCast_self, addf_apply, broadcastTo_1b_ab_apply]

end Cert.KernelIdeal.Hand
-- ==== Proof.KI.V5.lean ====
import proofs.«414095_j12086037971444_1_alg».proof.Proof.KI.R5Frame
import proofs.«414095_j12086037971444_1_alg».proof.Proof.KI.Pay5
import proofs.«414095_j12086037971444_1_alg».proof.Proof.MatBlocks
import proofs.«414095_j12086037971444_1_alg».proof.Proof.Spec
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

theorem zero_offsets5 : (![0, 0] : Fin 2 → Nat) = fun _ => 0 := funext fun a => by fin_cases a <;> rfl

section Piece
variable {F : FTy → Type} [FloatOps F]
variable (c : Dev nD) (i : grid5.Coords) (arg3 : Memref sig .tc .vmem S2048x2048 .bf16) (harg3 : arg3.IsWhole) (arg4 : Memref sig .tc .vmem S2048x128 .bf16) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole)

theorem sout5_A_piece (hc0 : cond5_0 i) (hc1 : ¬cond5_1 i)
    (x0 : Vec F S2048x2048 .bf16) (x1 : Vec F S2048x128 .bf16) (x2 : Vec F S1x128 .f32) :
    sout5_A_0 c i arg3 harg3 arg4 harg4 arg5 harg5 arg6 harg6 arg7 harg7 hc0 hc1 x0 x1 x2 = k5_pay2 (k5_pay1 (F := F)) x0 x1 := by
  unfold sout5_A_0
  rw [View.read_writes_eq_canon _ _ _ (scover5_A_0 c i arg3 harg3 arg4 harg4 arg5 harg5 arg6 harg6 arg7 harg7 hc0 hc1 x0 x1 x2)]
  unfold kernelRun5_A
  dsimp only
  sl_unfold_words
  rw [View.canon_cons_unit_zero (S := S2048x128) zero_offsets5, View.readCov_unit_zero (S := S2048x128) _ zero_offsets5]
  simp only [View.readAt_eq_ld, harg3.read_unread, harg4.read_unread, harg5.read_unread, harg6.read_unread, harg7.read_unread,
    View.ld_unit_zero (S := S2048x128) zero_offsets5, View.ld_unit_zero (S := S2048x2048) zero_offsets5,
    View.ld_unit_zero (S := S1x128) zero_offsets5, View.readCov_unit_zero (S := S2048x128) _ zero_offsets5]

theorem sout5_B_piece (hc0 : ¬cond5_0 i) (hc1 : ¬cond5_1 i)
    (x0 : Vec F S2048x2048 .bf16) (x1 : Vec F S2048x128 .bf16) (x2 : Vec F S1x128 .f32) (xs0 : Vec F S2048x128 .f32) :
    sout5_B_0 c i arg3 harg3 arg4 harg4 arg5 harg5 arg6 harg6 arg7 harg7 hc0 hc1 x0 x1 x2 xs0 = k5_pay2 xs0 x0 x1 := by
  unfold sout5_B_0
  rw [View.read_writes_eq_canon _ _ _ (scover5_B_0 c i arg3 harg3 arg4 harg4 arg5 harg5 arg6 harg6 arg7 harg7 hc0 hc1 x0 x1 x2 xs0)]
  unfold kernelRun5_B
  dsimp only
  sl_unfold_words
  rw [View.canon_unit_zero zero_offsets5]
  simp only [View.readAt_eq_ld, harg3.read_unread, harg4.read_unread, harg5.read_unread, harg6.read_unread, harg7.read_unread,
    View.ld_unit_zero (S := S2048x128) zero_offsets5, View.ld_unit_zero (S := S2048x2048) zero_offsets5,
    View.ld_unit_zero (S := S1x128) zero_offsets5, View.readCov_unit_zero (S := S2048x128) _ zero_offsets5]

theorem sout5_C_piece (hc0 : ¬cond5_0 i) (hc1 : cond5_1 i)
    (x0 : Vec F S2048x2048 .bf16) (x1 : Vec F S2048x128 .bf16) (x2 : Vec F S1x128 .f32) (xs0 : Vec F S2048x128 .f32) :
    sout5_C_0 c i arg3 harg3 arg4 harg4 arg5 harg5 arg6 harg6 arg7 harg7 hc0 hc1 x0 x1 x2 xs0 = k5_pay2 xs0 x0 x1 := by
  unfold sout5_C_0
  rw [View.read_writes_eq_canon _ _ _ (scover5_C_0 c i arg3 harg3 arg4 harg4 arg5 harg5 arg6 harg6 arg7 harg7 hc0 hc1 x0 x1 x2 xs0)]
  unfold kernelRun5_C
  dsimp only
  sl_unfold_words
  rw [View.canon_unit_zero zero_offsets5]
  simp only [View.readAt_eq_ld, harg3.read_unread, harg4.read_unread, harg5.read_unread, harg6.read_unread, harg7.read_unread,
    View.ld_unit_zero (S := S2048x128) zero_offsets5, View.ld_unit_zero (S := S2048x2048) zero_offsets5,
    View.ld_unit_zero (S := S1x128) zero_offsets5, View.readCov_unit_zero (S := S2048x128) _ zero_offsets5]

theorem out5_C_piece (hc0 : ¬cond5_0 i) (hc1 : cond5_1 i)
    (x0 : Vec F S2048x2048 .bf16) (x1 : Vec F S2048x128 .bf16) (x2 : Vec F S1x128 .f32) (xs0 : Vec F S2048x128 .f32) :
    out5_C_3 c i arg3 harg3 arg4 harg4 arg5 harg5 arg6 harg6 arg7 harg7 hc0 hc1 x0 x1 x2 xs0 = k5_pay3 (k5_pay2 xs0 x0 x1) x2 := by
  unfold out5_C_3
  rw [View.read_writes_eq_canon _ _ _ (cover5_C_3 c i arg3 harg3 arg4 harg4 arg5 harg5 arg6 harg6 arg7 harg7 hc0 hc1 x0 x1 x2 xs0)]
  unfold kernelRun5_C
  dsimp only
  sl_unfold_words
  rw [View.canon_unit_zero zero_offsets5]
  simp only [View.readAt_eq_ld, harg3.read_unread, harg4.read_unread, harg5.read_unread, harg6.read_unread, harg7.read_unread,
    View.ld_unit_zero (S := S2048x128) zero_offsets5, View.ld_unit_zero (S := S2048x2048) zero_offsets5,
    View.ld_unit_zero (S := S1x128) zero_offsets5, View.readCov_unit_zero (S := S2048x128) _ zero_offsets5]

end Piece

section Arrays
variable (V : (c : Dev nD) → (b : Ref sig .tc) → Buf (Elt Ideal) ((c : Thread nD τ).loc b))

abbrev adjArr5 (c : Dev nD) : S10240x10240.Idx → EReal := V c main_v71
abbrev featArr5 (c : Dev nD) : S10240x128.Idx → EReal := V c main_v93
abbrev biasArr5 (c : Dev nD) : S1x128.Idx → EReal := V c main_v92

abbrev adjBlk5 (c : Dev nD) (t : Fin cfg5.N) : Vec Ideal S2048x2048 .bf16 := iblk5 V c 0 t
abbrev featBlk5 (c : Dev nD) (t : Fin cfg5.N) : Vec Ideal S2048x128 .bf16 := iblk5 V c 1 t
abbrev biasBlk5 (c : Dev nD) (t : Fin cfg5.N) : Vec Ideal S1x128 .f32 := iblk5 V c 2 t

theorem idx_facts5 : ∀ t : Fin cfg5.N,
    win5_0.index t (0 : Fin 2) = t.val / 5 ∧ win5_0.index t (1 : Fin 2) = t.val % 5
    ∧ win5_1.index t (0 : Fin 2) = t.val % 5 ∧ win5_1.index t (1 : Fin 2) = 0
    ∧ win5_2.index t (0 : Fin 2) = 0 ∧ win5_2.index t (1 : Fin 2) = 0
    ∧ win5_3.index t (0 : Fin 2) = t.val / 5 ∧ win5_3.index t (1 : Fin 2) = 0 :=
  (by decide +kernel : ∀ t : Fin grid5.N, _)

def adjN5 (c : Dev nD) (r k : ℕ) : EReal :=
  if h : r < 10240 ∧ k < 10240 then adjArr5 V c (ix2 ⟨r, h.1⟩ ⟨k, h.2⟩) else 0
def featN5 (c : Dev nD) (k : ℕ) (q : Fin 128) : EReal :=
  if h : k < 10240 then featArr5 V c (ix2 ⟨k, h⟩ q) else 0

theorem adjN5_of_lt (c : Dev nD) (r k : ℕ) (hr : r < 10240) (hk : k < 10240) :
    adjN5 V c r k = adjArr5 V c (ix2 ⟨r, hr⟩ ⟨k, hk⟩) := dif_pos ⟨hr, hk⟩
theorem featN5_of_lt (c : Dev nD) (k : ℕ) (q : Fin 128) (hk : k < 10240) :
    featN5 V c k q = featArr5 V c (ix2 ⟨k, hk⟩ q) := dif_pos hk

theorem adjBlk5_apply (c : Dev nD) (t : Fin cfg5.N) (p j : Fin 2048) :
    adjBlk5 V c t (ix2 p j) = adjN5 V c (2048 * (t.val / 5) + p.val) (t.val % 5 * 2048 + j.val) := by
  have hN : t.val < 25 := lt_of_lt_of_eq t.isLt (show cfg5.N = 25 from N_5)
  have hr : 2048 * (t.val / 5) + p.val < 10240 := by have := p.isLt; omega
  have hk : t.val % 5 * 2048 + j.val < 10240 := by have := j.isLt; omega
  rw [adjN5_of_lt V c _ _ hr hk]
  obtain ⟨e0, e1, -⟩ := idx_facts5 t
  show V c main_v71 (((cfg5.win 0).blk t).view.emb (ix2 p j)) = V c main_v71 _
  refine congrArg (V c main_v71) (funext fun a => Fin.ext ?_)
  match a with
  | ⟨0, _⟩ => show win5_0.index t (0 : Fin 2) * 2048 + 1 * p.val = 2048 * (t.val / 5) + p.val; rw [e0]; omega
  | ⟨1, _⟩ => show win5_0.index t (1 : Fin 2) * 2048 + 1 * j.val = t.val % 5 * 2048 + j.val; rw [e1]; omega

theorem featBlk5_apply (c : Dev nD) (t : Fin cfg5.N) (j : Fin 2048) (q : Fin 128) :
    featBlk5 V c t (ix2 j q) = featN5 V c (t.val % 5 * 2048 + j.val) q := by
  have hk : t.val % 5 * 2048 + j.val < 10240 := by have := j.isLt; omega
  rw [featN5_of_lt V c _ q hk]
  obtain ⟨-, -, e0, e1, -⟩ := idx_facts5 t
  show V c main_v93 (((cfg5.win 1).blk t).view.emb (ix2 j q)) = V c main_v93 _
  refine congrArg (V c main_v93) (funext fun a => Fin.ext ?_)
  match a with
  | ⟨0, _⟩ => show win5_1.index t (0 : Fin 2) * 2048 + 1 * j.val = t.val % 5 * 2048 + j.val; rw [e0]; omega
  | ⟨1, _⟩ => show win5_1.index t (1 : Fin 2) * 128 + 1 * q.val = q.val; rw [e1]; omega

theorem biasBlk5_apply (c : Dev nD) (t : Fin cfg5.N) (q : Fin 128) :
    biasBlk5 V c t (ix2 0 q) = biasArr5 V c (ix2 0 q) := by
  obtain ⟨-, -, -, -, e0, e1, -⟩ := idx_facts5 t
  show V c main_v92 (((cfg5.win 2).blk t).view.emb (ix2 (0 : Fin 1) q)) = V c main_v92 _
  refine congrArg (V c main_v92) (funext fun a => Fin.ext ?_)
  match a with
  | ⟨0, _⟩ => show win5_2.index t (0 : Fin 2) * 1 + 1 * 0 = 0; rw [e0]
  | ⟨1, _⟩ => show win5_2.index t (1 : Fin 2) * 128 + 1 * q.val = q.val; rw [e1]; omega

def blkTerm5 (c : Dev nD) (r : ℕ) (q : Fin 128) (k : ℕ) : EReal :=
  ∑ j : Fin 2048, adjN5 V c r (k * 2048 + j.val) * featN5 V c (k * 2048 + j.val) q

theorem blk_sum5_eq (c : Dev nD) (t : Fin cfg5.N) (p : Fin 2048) (q : Fin 128) :
    ∑ j : Fin 2048, adjBlk5 V c t (ix2 p j) * featBlk5 V c t (ix2 j q)
      = blkTerm5 V c (2048 * (t.val / 5) + p.val) q (t.val % 5) :=
  Finset.sum_congr rfl fun j _ => by rw [adjBlk5_apply, featBlk5_apply]

theorem dense_row5_eq (c : Dev nD) (r : Fin 10240) (q : Fin 128) :
    ∑ k : Fin 10240, adjArr5 V c (ix2 r k) * featArr5 V c (ix2 k q) = Gcn.accUpTo (blkTerm5 V c r.val q) 5 :=
  calc ∑ k : Fin 10240, adjArr5 V c (ix2 r k) * featArr5 V c (ix2 k q)
      = ∑ k : Fin 5, ∑ j : Fin 2048, adjArr5 V c (ix2 r ⟨k.val * 2048 + j.val, by omega⟩) * featArr5 V c (ix2 ⟨k.val * 2048 + j.val, by omega⟩ q) :=
        Gcn.sum_blocks_5_2048 (fun k : Fin 10240 => adjArr5 V c (ix2 r k) * featArr5 V c (ix2 k q))
    _ = ∑ k : Fin 5, blkTerm5 V c r.val q k.val :=
        Finset.sum_congr rfl fun k _ => Finset.sum_congr rfl fun j _ => by
          have hk : k.val * 2048 + j.val < 10240 := by have := k.isLt; have := j.isLt; omega
          rw [adjN5_of_lt V c r.val _ r.isLt hk, featN5_of_lt V c _ q hk]
    _ = Gcn.accUpTo (blkTerm5 V c r.val q) 5 :=
        ((Gcn.accUpTo_five (blkTerm5 V c r.val q)).trans (Gcn.acc_five (fun k : Fin 5 => blkTerm5 V c r.val q k.val))).symm

theorem scratch5_first (c : Dev nD) (t : Fin cfg5.N) (h0 : t.val % 5 = 0) (h1 : ¬t.val % 5 = 4) (p : Fin 2048) (q : Fin 128) :
    ((outsAt5 (F := Ideal) V c t.val t.isLt).2 : S2048x128.Idx → EReal) (ix2 p q)
      = Gcn.accUpTo (blkTerm5 V c (2048 * (t.val / 5) + p.val) q) (t.val % 5 + 1) := by
  rw [outsAt5_A V c t h0 h1]
  dsimp only [stepA5]
  refine (congrFun (sout5_A_piece (F := Ideal) c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (adjBlk5 V c t) (featBlk5 V c t) (biasBlk5 V c t)) (ix2 p q)).trans ?_
  refine (k5_pay2_apply (k5_pay1 (F := Ideal)) (adjBlk5 V c t) (featBlk5 V c t) p q).trans ?_
  rw [k5_pay1_apply, blk_sum5_eq, h0]
  rfl

theorem scratch5_next (c : Dev nD) (t : Fin cfg5.N) (h0 : ¬t.val % 5 = 0)
    (hprev : ∀ (p : Fin 2048) (q : Fin 128),
      ((outsAt5 (F := Ideal) V c (t.val - 1) (Nat.lt_of_le_of_lt (Nat.sub_le _ _) t.isLt)).2 : S2048x128.Idx → EReal) (ix2 p q)
        = Gcn.accUpTo (blkTerm5 V c (2048 * ((t.val - 1) / 5) + p.val) q) ((t.val - 1) % 5 + 1))
    (p : Fin 2048) (q : Fin 128) :
    ((outsAt5 (F := Ideal) V c t.val t.isLt).2 : S2048x128.Idx → EReal) (ix2 p q)
      = Gcn.accUpTo (blkTerm5 V c (2048 * (t.val / 5) + p.val) q) (t.val % 5 + 1) := by
  have e1 : (t.val - 1) / 5 = t.val / 5 := by omega
  have e2 : (t.val - 1) % 5 + 1 = t.val % 5 := by omega
  by_cases h1 : t.val % 5 = 4
  · rw [outsAt5_C V c t h0 h1]
    dsimp only [stepC5]
    refine (congrFun (sout5_C_piece (F := Ideal) c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (adjBlk5 V c t) (featBlk5 V c t) (biasBlk5 V c t) (outsAt5 (F := Ideal) V c (t.val - 1) (Nat.lt_of_le_of_lt (Nat.sub_le _ _) t.isLt)).2) (ix2 p q)).trans ?_
    refine (k5_pay2_apply (outsAt5 (F := Ideal) V c (t.val - 1) (Nat.lt_of_le_of_lt (Nat.sub_le _ _) t.isLt)).2 (adjBlk5 V c t) (featBlk5 V c t) p q).trans ?_
    rw [hprev p q, blk_sum5_eq, e1, e2]
    exact (Gcn.accUpTo_succ _ _).symm
  · rw [outsAt5_B V c t h0 h1]
    dsimp only [stepB5]
    refine (congrFun (sout5_B_piece (F := Ideal) c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (adjBlk5 V c t) (featBlk5 V c t) (biasBlk5 V c t) (outsAt5 (F := Ideal) V c (t.val - 1) (Nat.lt_of_le_of_lt (Nat.sub_le _ _) t.isLt)).2) (ix2 p q)).trans ?_
    refine (k5_pay2_apply (outsAt5 (F := Ideal) V c (t.val - 1) (Nat.lt_of_le_of_lt (Nat.sub_le _ _) t.isLt)).2 (adjBlk5 V c t) (featBlk5 V c t) p q).trans ?_
    rw [hprev p q, blk_sum5_eq, e1, e2]
    exact (Gcn.accUpTo_succ _ _).symm

theorem scratch5_eq (c : Dev nD) : ∀ (n : ℕ) (h : n < cfg5.N) (p : Fin 2048) (q : Fin 128),
    ((outsAt5 (F := Ideal) V c n h).2 : S2048x128.Idx → EReal) (ix2 p q)
      = Gcn.accUpTo (blkTerm5 V c (2048 * (n / 5) + p.val) q) (n % 5 + 1) := by
  intro n
  induction n with
  | zero => intro h p q; exact scratch5_first V c ⟨0, h⟩ (Nat.zero_mod _) (fun h4 => absurd (show (0 : ℕ) % 5 = 4 from h4) (by decide)) p q
  | succ n ih =>
    intro h p q
    by_cases h0 : (n + 1) % 5 = 0
    · exact scratch5_first V c ⟨n + 1, h⟩ h0 (fun h4 => by have h4' : (n + 1) % 5 = 4 := h4; omega) p q
    · exact scratch5_next V c ⟨n + 1, h⟩ h0 (fun p q => ih (Nat.lt_of_succ_lt h) p q) p q

abbrev denseArr5 (c : Dev nD) : S10240x128.Idx → EReal := fun i =>
  Gcn.dense (fun r k => adjArr5 V c (ix2 r k)) (fun k q => featArr5 V c (ix2 k q)) (fun q => biasArr5 V c (ix2 0 q))
    (i 0 : Fin 10240) (i 1 : Fin 128)

theorem flushed5_eq (c : Dev nD) (t : Fin cfg5.N) (hf : (cfg5.win 3).flush t = true) :
    (dat5 (F := Ideal) V c).flushed 3 t = ((cfg5.win 3).blk t).view.read (Elt Ideal) (denseArr5 V c) := by
  have h1 : t.val % 5 = 4 := (flush5_3 t).mp hf
  have h0 : ¬t.val % 5 = 0 := by omega
  have hN : t.val < 25 := lt_of_lt_of_eq t.isLt (show cfg5.N = 25 from N_5)
  have e1 : (t.val - 1) / 5 = t.val / 5 := by omega
  have e2 : (t.val - 1) % 5 + 1 = 4 := by omega
  show (cfg5.win 3).cut (grid5.coords t) ((dat5 (F := Ideal) V c).after 3 t) = _
  rw [after5_3, outsAt5_C V c t h0 h1]
  dsimp only [stepC5]
  rw [out5_C_piece (F := Ideal) c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (adjBlk5 V c t) (featBlk5 V c t) (biasBlk5 V c t) (outsAt5 (F := Ideal) V c (t.val - 1) (Nat.lt_of_le_of_lt (Nat.sub_le _ _) t.isLt)).2]
  obtain ⟨-, -, -, -, -, -, i0, i1⟩ := idx_facts5 t
  funext j
  obtain ⟨p, q, rfl⟩ : ∃ (p : Fin 2048) (q : Fin 128), j = ix2 p q := ⟨j 0, j 1, eq_ix2 j⟩
  have hp : 2048 * (t.val / 5) + p.val < 10240 := by have := p.isLt; omega
  have hemb : ((cfg5.win 3).blk t).view.emb (ix2 p q) = (ix2 ⟨2048 * (t.val / 5) + p.val, hp⟩ q : S10240x128.Idx) := by
    funext a; apply Fin.ext
    match a with
    | ⟨0, _⟩ => show win5_3.index t (0 : Fin 2) * 2048 + 1 * p.val = 2048 * (t.val / 5) + p.val; rw [i0]; omega
    | ⟨1, _⟩ => show win5_3.index t (1 : Fin 2) * 128 + 1 * q.val = q.val; rw [i1]; omega
  show k5_pay3 (F := Ideal) (k5_pay2 (F := Ideal) (outsAt5 (F := Ideal) V c (t.val - 1) (Nat.lt_of_le_of_lt (Nat.sub_le _ _) t.isLt)).2 (adjBlk5 V c t) (featBlk5 V c t)) (biasBlk5 V c t) (ix2 p q)
    = denseArr5 V c (((cfg5.win 3).blk t).view.emb (ix2 p q))
  rw [hemb]
  refine (k5_pay3_apply _ (biasBlk5 V c t) p q).trans ?_
  refine (congrArg (fun z => z + biasBlk5 V c t (ix2 0 q))
    (k5_pay2_apply (outsAt5 (F := Ideal) V c (t.val - 1) (Nat.lt_of_le_of_lt (Nat.sub_le _ _) t.isLt)).2 (adjBlk5 V c t) (featBlk5 V c t) p q)).trans ?_
  show ((((outsAt5 (F := Ideal) V c (t.val - 1) (Nat.lt_of_le_of_lt (Nat.sub_le _ _) t.isLt)).2 : S2048x128.Idx → EReal) (ix2 p q)
        + ∑ j : Fin 2048, adjBlk5 V c t (ix2 p j) * featBlk5 V c t (ix2 j q)) + biasBlk5 V c t (ix2 0 q))
    = ((∑ k : Fin 10240, adjArr5 V c (ix2 ⟨2048 * (t.val / 5) + p.val, hp⟩ k) * featArr5 V c (ix2 k q)) + biasArr5 V c (ix2 0 q))
  rw [scratch5_eq V c (t.val - 1) (Nat.lt_of_le_of_lt (Nat.sub_le _ _) t.isLt) p q, blk_sum5_eq, biasBlk5_apply,
    dense_row5_eq V c ⟨2048 * (t.val / 5) + p.val, hp⟩ q, e1, e2, h1]
  rfl

theorem mem_blk5 (t : Fin cfg5.N) (i : S10240x128.Idx) :
    i ∈ ((cfg5.win 3).blk t).view.set ↔ ∀ a : Fin 2, win5_3.index t a * S2048x128.size a ≤ (i a).val ∧ (i a).val < win5_3.index t a * S2048x128.size a + S2048x128.size a := by
  show i ∈ ((View.whole main_v94).slice (win5_3.rect t)).set ↔ _
  rw [View.set_slice_whole, Rect.mem_set_unit]
  exact Iff.rfl

theorem cover5 (i : S10240x128.Idx) :
    ∃ t : Fin cfg5.N, (cfg5.win 3).flush t = true ∧ i ∈ ((cfg5.win 3).blk t).view.set := by
  have hi0 : (i 0).val < 10240 := (i 0).isLt
  have hi1 : (i 1).val < 128 := (i 1).isLt
  have hN : cfg5.N = 25 := N_5
  let t : Fin cfg5.N := ⟨5 * ((i 0).val / 2048) + 4, by rw [hN]; omega⟩
  obtain ⟨-, -, -, -, -, -, e0, e1⟩ := idx_facts5 t
  have ht : t.val = 5 * ((i 0).val / 2048) + 4 := rfl
  refine ⟨t, (flush5_3 t).mpr (by rw [ht]; omega), ?_⟩
  rw [mem_blk5]
  intro a
  match a with
  | ⟨0, _⟩ => show win5_3.index t (0 : Fin 2) * 2048 ≤ (i 0).val ∧ (i 0).val < win5_3.index t (0 : Fin 2) * 2048 + 2048; rw [e0, ht]; omega
  | ⟨1, _⟩ => show win5_3.index t (1 : Fin 2) * 128 ≤ (i 1).val ∧ (i 1).val < win5_3.index t (1 : Fin 2) * 128 + 128; rw [e1]; omega

theorem arr5_eq (c : Dev nD) : (dat5 (F := Ideal) V c).arrAt 3 cfg5.N = denseArr5 V c :=
  (dat5 (F := Ideal) V c).arrAt_eq_of_cover 3 (denseArr5 V c) (fun t hf => flushed5_eq V c t hf) cover5

theorem value5 (c : Dev nD) (r : Fin 10240) (q : Fin 128) :
    ((dat5 (F := Ideal) V c).arrAt 3 cfg5.N : S10240x128.Idx → EReal) (ix2 r q)
      = Gcn.dense (fun r k => (V c main_v71 : S10240x10240.Idx → EReal) (ix2 r k)) (fun k q => (V c main_v93 : S10240x128.Idx → EReal) (ix2 k q))
          (fun q => (V c main_v92 : S1x128.Idx → EReal) (ix2 0 q)) r q := by
  rw [arr5_eq]

end Arrays

end Cert.KernelIdeal.Hand
-- ==== Proof.KI.Value.lean ====
import proofs.«414095_j12086037971444_1_alg».proof.Proof.KI.Run
import proofs.«414095_j12086037971444_1_alg».proof.Proof.KI.HostB
import proofs.«414095_j12086037971444_1_alg».proof.Proof.KI.HostA
import proofs.«414095_j12086037971444_1_alg».proof.Proof.KI.HostB0
import proofs.«414095_j12086037971444_1_alg».proof.Proof.KI.Keeps
import proofs.«414095_j12086037971444_1_alg».proof.Proof.KI.V0
import proofs.«414095_j12086037971444_1_alg».proof.Proof.KI.V1
import proofs.«414095_j12086037971444_1_alg».proof.Proof.KI.V2
import proofs.«414095_j12086037971444_1_alg».proof.Proof.KI.V3
import proofs.«414095_j12086037971444_1_alg».proof.Proof.KI.V4
import proofs.«414095_j12086037971444_1_alg».proof.Proof.KI.V5
import proofs.«414095_j12086037971444_1_alg».proof.Proof.Spec

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.ShloMosaic.Pipeline (Dat Cfg Window)

theorem dense_congr {M K N : Nat} {A A' : Fin M → Fin K → EReal} {B B' : Fin K → Fin N → EReal} {b b' : Fin N → EReal}
    (hA : ∀ r k, A r k = A' r k) (hB : ∀ k q, B k q = B' k q) (hb : ∀ q, b q = b' q) (r : Fin M) (q : Fin N) :
    Gcn.dense A B b r q = Gcn.dense A' B' b' r q := by
  have eA : A = A' := funext fun r => funext fun k => hA r k
  have eB : B = B' := funext fun k => funext fun q => hB k q
  have eb : b = b' := funext hb
  rw [eA, eB, eb]

theorem relu_dense_congr {M K N : Nat} {A A' : Fin M → Fin K → EReal} {B B' : Fin K → Fin N → EReal} {b b' : Fin N → EReal}
    (hA : ∀ r k, A r k = A' r k) (hB : ∀ k q, B k q = B' k q) (hb : ∀ q, b q = b' q) (r : Fin M) (q : Fin N) :
    Gcn.relu (Gcn.dense A B b) r q = Gcn.relu (Gcn.dense A' B' b') r q := by
  unfold Gcn.relu
  rw [dense_congr hA hB hb r q]

variable (m : (ℓ : Loc nD τ sig) → Buf (Elt Ideal) ℓ) (ρ : Dev nD → PrngReg)

abbrev xK (c : Dev nD) : Fin 10000 → Fin 784 → EReal :=
  fun i k => (m ((c : Thread nD τ).loc main_arg0) : S10000x784.Idx → EReal) (ix2 i k)
abbrev w1K (c : Dev nD) : Fin 784 → Fin 512 → EReal :=
  fun k q => (m ((c : Thread nD τ).loc main_arg2) : S784x512.Idx → EReal) (ix2 k q)
abbrev b1K (c : Dev nD) : Fin 512 → EReal :=
  fun q => (m ((c : Thread nD τ).loc main_arg3) : S512.Idx → EReal) (ix1 q)
abbrev w2K (c : Dev nD) : Fin 512 → Fin 512 → EReal :=
  fun k q => (m ((c : Thread nD τ).loc main_arg4) : S512x512.Idx → EReal) (ix2 k q)
abbrev b2K (c : Dev nD) : Fin 512 → EReal :=
  fun q => (m ((c : Thread nD τ).loc main_arg5) : S512.Idx → EReal) (ix1 q)
abbrev wcK (c : Dev nD) : Fin 512 → Fin 10 → EReal :=
  fun k q => (m ((c : Thread nD τ).loc main_arg6) : S512x10.Idx → EReal) (ix2 k q)
abbrev bcK (c : Dev nD) : Fin 10 → EReal :=
  fun q => (m ((c : Thread nD τ).loc main_arg7) : S10.Idx → EReal) (ix1 q)

abbrev ahK (c : Dev nD) (hE : Gcn.InRange (m ((c : Thread nD τ).loc main_arg1))) : Fin 10240 → Fin 10240 → EReal :=
  Gcn.Ahat (Gcn.srcOf _ hE) (Gcn.dstOf _ hE) (fun n => dinvK (m ((c : Thread nD τ).loc main_arg1)) (ix1 n))
    (fun e => normK (m ((c : Thread nD τ).loc main_arg1)) (ix1 e))

theorem adj1 (c : Dev nD) (hE : Gcn.InRange (m ((c : Thread nD τ).loc main_arg1))) (i j : Fin 10240) :
    (W1 m ρ c (Proc.devRef .tc main_v71) : S10240x10240.Idx → EReal) (ix2 i j) = ahK m c hE i j :=
  hostOps0_v71 (W0 m ρ c) hE i j

theorem adj3 (c : Dev nD) : W3 m ρ c (Proc.devRef .tc main_v71) = W1 m ρ c (Proc.devRef .tc main_v71) :=
  ((built_keeps main_v71 (by decide)).1 _).trans <| W2_of_ne m ρ c main_v71 (by decide)

theorem adj4 (c : Dev nD) : W4 m ρ c (Proc.devRef .tc main_v71) = W3 m ρ c (Proc.devRef .tc main_v71) :=
  (W4_arr m ρ c 0).trans <| ((dat1 (V3 m ρ) c).arrAt_in 0 rfl _).trans <| A_eq1 (V3 m ρ) c 0

theorem adj7 (c : Dev nD) : W7 m ρ c (Proc.devRef .tc main_v71) = W1 m ρ c (Proc.devRef .tc main_v71) :=
  ((built_keeps main_v71 (by decide)).2.2.1 _).trans <| (W6_of_ne m ρ c main_v71 (by decide)).trans <|
    ((built_keeps main_v71 (by decide)).2.1 _).trans <| (adj4 m ρ c).trans <| adj3 m ρ c

theorem adj8 (c : Dev nD) : W8 m ρ c (Proc.devRef .tc main_v71) = W7 m ρ c (Proc.devRef .tc main_v71) :=
  (W8_arr m ρ c 0).trans <| ((dat3 (V7 m ρ) c).arrAt_in 0 rfl _).trans <| A_eq3 (V7 m ρ) c 0

theorem adj11 (c : Dev nD) : W11 m ρ c (Proc.devRef .tc main_v71) = W1 m ρ c (Proc.devRef .tc main_v71) :=
  ((built_keeps main_v71 (by decide)).2.2.2.2 _).trans <| (W10_of_ne m ρ c main_v71 (by decide)).trans <|
    ((built_keeps main_v71 (by decide)).2.2.2.1 _).trans <| (adj8 m ρ c).trans <| adj7 m ρ c

theorem arg3_at2 (c : Dev nD) : W2 m ρ c (Proc.devRef .tc main_arg3) = m ((c : Thread nD τ).loc main_arg3) :=
  (W_args m ρ c _ (by decide)).1

theorem arg4_at4 (c : Dev nD) : W4 m ρ c (Proc.devRef .tc main_arg4) = m ((c : Thread nD τ).loc main_arg4) :=
  (W_args m ρ c _ (by decide)).2.1

theorem arg5_at6 (c : Dev nD) : W6 m ρ c (Proc.devRef .tc main_arg5) = m ((c : Thread nD τ).loc main_arg5) :=
  (W_args m ρ c _ (by decide)).2.2.1

theorem v72_at4 (c : Dev nD) : W4 m ρ c (Proc.devRef .tc main_v72) = W1 m ρ c (Proc.devRef .tc main_v72) :=
  (W4_of_ne m ρ c main_v72 (by decide)).trans <| ((built_keeps main_v72 (by decide)).1 _).trans <|
    W2_of_ne m ρ c main_v72 (by decide)

theorem v73_at8 (c : Dev nD) : W8 m ρ c (Proc.devRef .tc main_v73) = W1 m ρ c (Proc.devRef .tc main_v73) :=
  (W8_of_ne m ρ c main_v73 (by decide)).trans <| ((built_keeps main_v73 (by decide)).2.2.1 _).trans <|
    (W6_of_ne m ρ c main_v73 (by decide)).trans <| ((built_keeps main_v73 (by decide)).2.1 _).trans <|
    (W4_of_ne m ρ c main_v73 (by decide)).trans <| ((built_keeps main_v73 (by decide)).1 _).trans <|
    W2_of_ne m ρ c main_v73 (by decide)

theorem v10_at8 (c : Dev nD) : W8 m ρ c (Proc.devRef .tc main_v10) = W1 m ρ c (Proc.devRef .tc main_v10) :=
  (W8_of_ne m ρ c main_v10 (by decide)).trans <| ((built_keeps main_v10 (by decide)).2.2.1 _).trans <|
    (W6_of_ne m ρ c main_v10 (by decide)).trans <| ((built_keeps main_v10 (by decide)).2.1 _).trans <|
    (W4_of_ne m ρ c main_v10 (by decide)).trans <| ((built_keeps main_v10 (by decide)).1 _).trans <|
    W2_of_ne m ρ c main_v10 (by decide)

theorem v13_at10 (c : Dev nD) : W10 m ρ c (Proc.devRef .tc main_v13) = W1 m ρ c (Proc.devRef .tc main_v13) :=
  (W10_of_ne m ρ c main_v13 (by decide)).trans <| ((built_keeps main_v13 (by decide)).2.2.2.1 _).trans <|
    (W8_of_ne m ρ c main_v13 (by decide)).trans <| ((built_keeps main_v13 (by decide)).2.2.1 _).trans <|
    (W6_of_ne m ρ c main_v13 (by decide)).trans <| ((built_keeps main_v13 (by decide)).2.1 _).trans <|
    (W4_of_ne m ρ c main_v13 (by decide)).trans <| ((built_keeps main_v13 (by decide)).1 _).trans <|
    W2_of_ne m ρ c main_v13 (by decide)

section Layers
variable (c : Dev nD) (hE : Gcn.InRange (m ((c : Thread nD τ).loc main_arg1)))

theorem L0 (r : Fin 10240) (q : Fin 512) :
    (W2 m ρ c (Proc.devRef .tc main_v77) : S10240x512.Idx → EReal) (ix2 r q)
      = Gcn.kL0 (Gcn.pad2 10240 896 (xK m c)) (Gcn.pad2 896 512 (w1K m c)) r q := by
  have h : W2 m ρ c (Proc.devRef .tc main_v77) = (dat0 (V1 m ρ) c).arrAt 3 cfg0.N := W2_arr m ρ c 3
  rw [h, value0]
  unfold Gcn.kL0
  refine dense_congr ?_ ?_ ?_ r q
  · intro r k; exact hostOps0_v75 (W0 m ρ c) r k
  · intro k q; exact hostOps0_v76 (W0 m ρ c) k q
  · intro q; exact hostOps0_v74 (W0 m ρ c) q

theorem L1 (r : Fin 10240) (q : Fin 512) :
    (W4 m ρ c (Proc.devRef .tc main_v80) : S10240x512.Idx → EReal) (ix2 r q)
      = Gcn.kL1 (Gcn.pad2 10240 896 (xK m c)) (Gcn.pad2 896 512 (w1K m c)) (ahK m c hE) (b1K m c) r q := by
  have h : W4 m ρ c (Proc.devRef .tc main_v80) = (dat1 (V3 m ρ) c).arrAt 3 cfg1.N := W4_arr m ρ c 3
  rw [h, value1]
  unfold Gcn.kL1
  refine relu_dense_congr ?_ ?_ ?_ r q
  · intro r k
    show (W3 m ρ c (Proc.devRef .tc main_v71) : S10240x10240.Idx → EReal) (ix2 r k) = _
    rw [adj3 m ρ c]; exact adj1 m ρ c hE r k
  · intro k q
    show (W3 m ρ c (Proc.devRef .tc main_v79) : S10240x512.Idx → EReal) (ix2 k q) = _
    exact (congrFun (hostOps1_v79 (W2 m ρ c)) (ix2 k q)).trans (L0 m ρ c k q)
  · intro q
    show (W3 m ρ c (Proc.devRef .tc main_v78) : S1x512.Idx → EReal) (ix2 0 q) = _
    exact (hostOps1_v78 (W2 m ρ c) q).trans (congrFun (arg3_at2 m ρ c) (ix1 q))

theorem L2 (r : Fin 10240) (q : Fin 512) :
    (W6 m ρ c (Proc.devRef .tc main_v84) : S10240x512.Idx → EReal) (ix2 r q)
      = Gcn.kL2 (Gcn.pad2 10240 896 (xK m c)) (Gcn.pad2 896 512 (w1K m c)) (ahK m c hE) (b1K m c) (w2K m c) r q := by
  have h : W6 m ρ c (Proc.devRef .tc main_v84) = (dat2 (V5 m ρ) c).arrAt 3 cfg2.N := W6_arr m ρ c 3
  rw [h, value2]
  unfold Gcn.kL2
  refine dense_congr ?_ ?_ ?_ r q
  · intro r k
    show (W5 m ρ c (Proc.devRef .tc main_v82) : S10240x512.Idx → EReal) (ix2 r k) = _
    exact (congrFun (hostOps2_v82 (W4 m ρ c)) (ix2 r k)).trans (L1 m ρ c hE r k)
  · intro k q
    show (W5 m ρ c (Proc.devRef .tc main_v83) : S512x512.Idx → EReal) (ix2 k q) = _
    exact (congrFun (hostOps2_v83 (W4 m ρ c)) (ix2 k q)).trans (congrFun (arg4_at4 m ρ c) (ix2 k q))
  · intro q
    show (W5 m ρ c (Proc.devRef .tc main_v81) : S1x512.Idx → EReal) (ix2 0 q) = _
    exact ((hostOps2_v81 (W4 m ρ c) q).trans (congrFun (v72_at4 m ρ c) (ix1 q))).trans (hostOps0_v72 (W0 m ρ c) q)

theorem L3 (r : Fin 10240) (q : Fin 512) :
    (W8 m ρ c (Proc.devRef .tc main_v87) : S10240x512.Idx → EReal) (ix2 r q)
      = Gcn.kL3 (Gcn.pad2 10240 896 (xK m c)) (Gcn.pad2 896 512 (w1K m c)) (ahK m c hE) (b1K m c) (w2K m c) (b2K m c) r q := by
  have h : W8 m ρ c (Proc.devRef .tc main_v87) = (dat3 (V7 m ρ) c).arrAt 3 cfg3.N := W8_arr m ρ c 3
  rw [h, value3]
  unfold Gcn.kL3
  refine relu_dense_congr ?_ ?_ ?_ r q
  · intro r k
    show (W7 m ρ c (Proc.devRef .tc main_v71) : S10240x10240.Idx → EReal) (ix2 r k) = _
    rw [adj7 m ρ c]; exact adj1 m ρ c hE r k
  · intro k q
    show (W7 m ρ c (Proc.devRef .tc main_v86) : S10240x512.Idx → EReal) (ix2 k q) = _
    exact (congrFun (hostOps3_v86 (W6 m ρ c)) (ix2 k q)).trans (L2 m ρ c hE k q)
  · intro q
    show (W7 m ρ c (Proc.devRef .tc main_v85) : S1x512.Idx → EReal) (ix2 0 q) = _
    exact (hostOps3_v85 (W6 m ρ c) q).trans (congrFun (arg5_at6 m ρ c) (ix1 q))

theorem L4 (r : Fin 10240) (q : Fin 128) :
    (W10 m ρ c (Proc.devRef .tc main_v91) : S10240x128.Idx → EReal) (ix2 r q)
      = Gcn.kL4 (Gcn.pad2 10240 896 (xK m c)) (Gcn.pad2 896 512 (w1K m c)) (ahK m c hE) (b1K m c) (w2K m c) (b2K m c)
          (Gcn.pad2 512 128 (wcK m c)) r q := by
  have h : W10 m ρ c (Proc.devRef .tc main_v91) = (dat4 (V9 m ρ) c).arrAt 3 cfg4.N := W10_arr m ρ c 3
  rw [h, value4]
  unfold Gcn.kL4
  refine dense_congr ?_ ?_ ?_ r q
  · intro r k
    show (W9 m ρ c (Proc.devRef .tc main_v89) : S10240x512.Idx → EReal) (ix2 r k) = _
    exact (congrFun (hostOps4_v89 (W8 m ρ c)) (ix2 r k)).trans (L3 m ρ c hE r k)
  · intro k q
    show (W9 m ρ c (Proc.devRef .tc main_v90) : S512x128.Idx → EReal) (ix2 k q) = _
    exact ((congrFun (hostOps4_v90 (W8 m ρ c)) (ix2 k q)).trans (congrFun (v10_at8 m ρ c) (ix2 k q))).trans (hostOps0_v10 (W0 m ρ c) k q)
  · intro q
    show (W9 m ρ c (Proc.devRef .tc main_v88) : S1x128.Idx → EReal) (ix2 0 q) = _
    exact ((hostOps4_v88 (W8 m ρ c) q).trans (congrFun (v73_at8 m ρ c) (ix1 q))).trans (hostOps0_v73 (W0 m ρ c) q)

theorem L5 (r : Fin 10240) (q : Fin 128) :
    (W12 m ρ c (Proc.devRef .tc main_v94) : S10240x128.Idx → EReal) (ix2 r q)
      = Gcn.kL5 (Gcn.pad2 10240 896 (xK m c)) (Gcn.pad2 896 512 (w1K m c)) (ahK m c hE) (b1K m c) (w2K m c) (b2K m c)
          (Gcn.pad2 512 128 (wcK m c)) (Gcn.pad1 128 (bcK m c)) r q := by
  have h : W12 m ρ c (Proc.devRef .tc main_v94) = (dat5 (V11 m ρ) c).arrAt 3 cfg5.N := W12_arr m ρ c 3
  rw [h, value5]
  unfold Gcn.kL5
  refine dense_congr ?_ ?_ ?_ r q
  · intro r k
    show (W11 m ρ c (Proc.devRef .tc main_v71) : S10240x10240.Idx → EReal) (ix2 r k) = _
    rw [adj11 m ρ c]; exact adj1 m ρ c hE r k
  · intro k q
    show (W11 m ρ c (Proc.devRef .tc main_v93) : S10240x128.Idx → EReal) (ix2 k q) = _
    exact (congrFun (hostOps5_v93 (W10 m ρ c)) (ix2 k q)).trans (L4 m ρ c hE k q)
  · intro q
    show (W11 m ρ c (Proc.devRef .tc main_v92) : S1x128.Idx → EReal) (ix2 0 q) = _
    exact ((hostOps5_v92 (W10 m ρ c) q).trans (congrFun (v13_at10 m ρ c) (ix1 q))).trans (hostOps0_v13 (W0 m ρ c) q)

end Layers

theorem kernel_value (c : Dev nD) (hE : Gcn.InRange (m ((c : Thread nD τ).loc main_arg1))) :
    (W14 m ρ c (Proc.devRef .tc main_v96) : FVec Ideal S10000x10 .f32)
      = tailK (fun i => Gcn.kLogits
          (Gcn.pad2 10240 896 (fun i k => (m ((c : Thread nD τ).loc main_arg0) : S10000x784.Idx → EReal) (ix2 i k)))
          (Gcn.pad2 896 512 (fun k q => (m ((c : Thread nD τ).loc main_arg2) : S784x512.Idx → EReal) (ix2 k q)))
          (Gcn.Ahat (Gcn.srcOf _ hE) (Gcn.dstOf _ hE) (fun n => dinvK (m ((c : Thread nD τ).loc main_arg1)) (ix1 n))
            (fun e => normK (m ((c : Thread nD τ).loc main_arg1)) (ix1 e)))
          (fun q => (m ((c : Thread nD τ).loc main_arg3) : S512.Idx → EReal) (ix1 q))
          (fun k q => (m ((c : Thread nD τ).loc main_arg4) : S512x512.Idx → EReal) (ix2 k q))
          (fun q => (m ((c : Thread nD τ).loc main_arg5) : S512.Idx → EReal) (ix1 q))
          (Gcn.pad2 512 128 (fun k q => (m ((c : Thread nD τ).loc main_arg6) : S512x10.Idx → EReal) (ix2 k q)))
          (Gcn.pad1 128 (fun q => (m ((c : Thread nD τ).loc main_arg7) : S10.Idx → EReal) (ix1 q)))
          (i 0) (i 1)) := by
  have hcut : (W13 m ρ c (Proc.devRef .tc main_v95) : FVec Ideal S10000x10 .f32)
      = fun i => Gcn.kLogits (Gcn.pad2 10240 896 (xK m c)) (Gcn.pad2 896 512 (w1K m c)) (ahK m c hE) (b1K m c) (w2K m c)
          (b2K m c) (Gcn.pad2 512 128 (wcK m c)) (Gcn.pad1 128 (bcK m c)) (i 0) (i 1) := by
    funext i
    obtain ⟨a, b, rfl⟩ : ∃ (a : Fin 10000) (b : Fin 10), i = ix2 a b := ⟨i 0, i 1, eq_ix2 i⟩
    show (W13 m ρ c (Proc.devRef .tc main_v95) : S10000x10.Idx → EReal) (ix2 a b)
      = Gcn.kLogits (Gcn.pad2 10240 896 (xK m c)) (Gcn.pad2 896 512 (w1K m c)) (ahK m c hE) (b1K m c) (w2K m c)
          (b2K m c) (Gcn.pad2 512 128 (wcK m c)) (Gcn.pad1 128 (bcK m c)) a b
    exact (hostOps6_v95 (W12 m ρ c) a b).trans (L5 m ρ c hE _ _)
  exact (hostOps6_1_v96 (W13 m ρ c)).trans (congrArg tailK hcut)

end Cert.KernelIdeal.Hand

end
-- ==== Proof.Ref.Core.lean ====
import proofs.«414095_j12086037971444_1_alg».proof.Proof.Spec
import proofs.«414095_j12086037971444_1_alg».proof.Proof.Ops
import Idealize.ShloMosaic.Lib.StableHlo.Predicate
import Idealize.ShloMosaic.Lib.ValueIdx
import Idealize.ShloMosaic.PureOps.Ideal.Laws

noncomputable section

namespace Cert.ReferenceIdeal.Hand

open Idealize.ShloMosaic Idealize.ShloMosaic.ValueIdx Gcn.Ops

theorem wrap_id (w : BitVec 32) (h0 : 0 ≤ w.toInt) :
    Scalar.select (IntOp.cmpi .slt w 0#32) (IntOp.addi w 10000#32) w = w := by
  have hc : IntOp.cmpi .slt w 0#32 = 0#1 := by
    have hs : w.slt 0#32 = false := by
      rw [BitVec.slt, decide_eq_false_iff_not, BitVec.toInt_zero]
      omega
    show BitVec.ofBool (w.slt 0#32) = 0#1
    rw [hs]; rfl
  rw [hc, select_zero]

theorem gather_node {D : Nat} (dG : GatherDims ⟨2, ![10000, D]⟩ ⟨2, ![160000, 1]⟩ ⟨2, ![160000, D]⟩)
    (hod : dG.offsetDims = [1]) (hcoll : dG.collapsedSliceDims = [0]) (hob : dG.operandBatchingDims = [])
    (hsb : dG.startIndicesBatchingDims = []) (hsim : dG.startIndexMap = [0]) (hivd : dG.indexVectorDim = 1)
    (hss : dG.sliceSizes = ![1, D])
    (E : IVec ⟨2, ![2, 160000]⟩ 32) (hE : Gcn.InRange E) (r : Fin 2)
    (h : (⟨2, ![10000, D]⟩ : Shape).Idx → EReal) (sI : IVec ⟨2, ![160000, 1]⟩ 32)
    (hsI : ∀ e : Fin 160000, sI (ix2 e 0) = E (ix2 r e)) (e : Fin 160000) (c : Fin D) :
    Host.gather dG h sI (ix2 e c) = h (ix2 (Gcn.nodeOf E hE r e) c) := by
  refine (gatherRows_apply (by decide) dG hod hcoll hob hsb hsim hivd hss h sI e c).trans ?_
  refine congrArg (fun n : Fin 10000 => h (ix2 n c)) (Fin.ext ?_)
  have := hE (ix2 r e)
  show min (sI (ix2 e 0)).toInt.toNat (10000 - 1) = (E (ix2 r e)).toInt.toNat
  rw [hsI]
  omega

theorem scatter_node {D : Nat} (dS : ScatterDims ⟨2, ![10000, D]⟩ ⟨2, ![160000, 1]⟩ ⟨2, ![160000, D]⟩)
    (huw : dS.updateWindowDims = [1]) (hiw : dS.insertedWindowDims = [0]) (hsd : dS.scatterDimsToOperandDims = [0])
    (hiv : dS.indexVectorDim = 1)
    (E : IVec ⟨2, ![2, 160000]⟩ 32) (hE : Gcn.InRange E) (r : Fin 2)
    (z : (⟨2, ![10000, D]⟩ : Shape).Idx → EReal) (hz : ∀ j, z j = 0) (dI : IVec ⟨2, ![160000, 1]⟩ 32)
    (hdI : ∀ e : Fin 160000, dI (ix2 e 0) = E (ix2 r e))
    (upd : (⟨2, ![160000, D]⟩ : Shape).Idx → EReal) (i : Fin 10000) (c : Fin D) :
    Ideal.hostScatterAdd dS z dI upd (ix2 i c)
      = 0 + ∑ e ∈ Finset.univ.filter (fun e : Fin 160000 => Gcn.nodeOf E hE r e = i), upd (ix2 e c) := by
  refine (scatterAddRows_apply dS huw hiw hsd hiv z dI upd i c).trans ?_
  rw [hz]
  refine congrArg (fun s : EReal => 0 + s) ?_
  refine Finset.sum_congr (Finset.filter_congr fun e _ => ?_) (fun _ _ => rfl)
  rw [hdI, ← Gcn.nodeOf_val E hE r e]
  constructor
  · intro h; exact Fin.ext (by exact_mod_cast h)
  · intro h; rw [h]

end Cert.ReferenceIdeal.Hand

end
-- ==== Proof.Ref.Idx.lean ====
import proofs.«414095_j12086037971444_1_alg».proof.Proof.RefReadP
import proofs.«414095_j12086037971444_1_alg».proof.Proof.Ref.Core

noncomputable section

namespace Cert.ReferenceIdeal.Hand

open Cert.ReferenceIdeal Cert.ReferenceIdeal.ReadP Idealize.ShloMosaic Idealize.ShloMosaic.ValueIdx

theorem v1_at (x1 : IVec S2x160000 32) (e : Fin 160000) :
    val_main_v1 (F := Ideal) x1 (ix1 e) = x1 (ix2 0 e) := by
  rw [val_main_v1_apply, val_main_v0_apply]
  refine congrArg x1 ?_
  funext a
  match a with
  | ⟨0, _⟩ => rfl
  | ⟨1, _⟩ => exact Fin.ext (Nat.mod_eq_of_lt e.isLt)

theorem v3_at (x1 : IVec S2x160000 32) (e : Fin 160000) :
    val_main_v3 (F := Ideal) x1 (ix1 e) = x1 (ix2 1 e) := by
  rw [val_main_v3_apply, val_main_v2_apply]
  refine congrArg x1 ?_
  funext a
  match a with
  | ⟨0, _⟩ => rfl
  | ⟨1, _⟩ => exact Fin.ext (Nat.mod_eq_of_lt e.isLt)

theorem v32_at (x1 : IVec S2x160000 32) (hE : Gcn.InRange x1) (e : Fin 160000) :
    val_main_v32 (F := Ideal) x1 (ix2 e 0) = x1 (ix2 0 e) := by
  have e1 : idx_main_v32 (ix2 e (0 : Fin 1)) = ix1 e := by
    funext a; match a with | ⟨0, _⟩ => rfl
  rw [val_main_v32_apply, e1, val_main_v31_apply, val_main_v28_apply, val_main_v30_apply, val_main_v27_apply,
    val_main_c_5_apply, val_main_v29_apply, val_main_c_6_apply, v1_at]
  exact wrap_id _ (hE _).1

theorem v38_at (x1 : IVec S2x160000 32) (e : Fin 160000) :
    val_main_v38 (F := Ideal) x1 (ix2 e 0) = x1 (ix2 1 e) := by
  have e1 : idx_main_v38 (ix2 e (0 : Fin 1)) = ix1 e := by
    funext a; match a with | ⟨0, _⟩ => rfl
  rw [val_main_v38_apply, e1, v3_at]

theorem v77_eq (x1 : IVec S2x160000 32) : val_main_v77 (F := Ideal) x1 = val_main_v32 (F := Ideal) x1 := rfl
theorem v122_eq (x1 : IVec S2x160000 32) : val_main_v122 (F := Ideal) x1 = val_main_v32 (F := Ideal) x1 := rfl
theorem v83_eq (x1 : IVec S2x160000 32) : val_main_v83 (F := Ideal) x1 = val_main_v38 (F := Ideal) x1 := rfl
theorem v128_eq (x1 : IVec S2x160000 32) : val_main_v128 (F := Ideal) x1 = val_main_v38 (F := Ideal) x1 := rfl
theorem v56_eq (x1 : IVec S2x160000 32) : val_main_v56 (F := Ideal) x1 = val_main_v11 (F := Ideal) x1 := rfl
theorem v101_eq (x1 : IVec S2x160000 32) : val_main_v101 (F := Ideal) x1 = val_main_v11 (F := Ideal) x1 := rfl
theorem v71_eq (x1 : IVec S2x160000 32) : val_main_v71 (F := Ideal) x1 = val_main_v26 (F := Ideal) x1 := rfl
theorem v116_eq (x1 : IVec S2x160000 32) : val_main_v116 (F := Ideal) x1 = val_main_v26 (F := Ideal) x1 := rfl

end Cert.ReferenceIdeal.Hand

end
-- ==== Proof.Ref.L1.lean ====
import proofs.«414095_j12086037971444_1_alg».proof.Proof.Ref.Idx

noncomputable section

namespace Cert.ReferenceIdeal.Hand

open Cert.ReferenceIdeal Cert.ReferenceIdeal.ReadP Idealize.ShloMosaic Idealize.ShloMosaic.ValueIdx

theorem v4_at (x0 : FVec Ideal S10000x784 .f32) (x2 : FVec Ideal S784x512 .f32) (i : Fin 10000) (c : Fin 512) :
    val_main_v4 (F := Ideal) x0 x2 (ix2 i c) = Gcn.proj (fun i k => x0 (ix2 i k)) (fun k c => x2 (ix2 k c)) i c := by
  rw [val_main_v4_apply]
  unfold Gcn.proj
  refine Finset.sum_congr rfl fun k _ => ?_
  have el : lidx_main_v4 (ix2 i c) k = ix2 i k := by
    funext a; match a with | ⟨0, _⟩ => rfl | ⟨1, _⟩ => rfl
  have er : ridx_main_v4 (ix2 i c) k = ix2 k c := by
    funext a; match a with | ⟨0, _⟩ => rfl | ⟨1, _⟩ => rfl
  rw [el, er]

theorem v36_at (x0 : FVec Ideal S10000x784 .f32) (x1 : IVec S2x160000 32) (x2 : FVec Ideal S784x512 .f32)
    (hE : Gcn.InRange x1) (e : Fin 160000) (c : Fin 512) :
    val_main_v36 (F := Ideal) x0 x1 x2 (ix2 e c)
      = Gcn.proj (fun i k => x0 (ix2 i k)) (fun k c => x2 (ix2 k c)) (Gcn.srcOf x1 hE e) c
          * val_main_v26 (F := Ideal) x1 (ix1 e) := by
  have e1 : idx_main_v34 (idx_main_v35 (ix2 e c)) = ix1 e := by
    funext a; match a with | ⟨0, _⟩ => rfl
  rw [val_main_v36_apply, val_main_v35_apply, val_main_v34_apply, e1, Ideal.mulf_def]
  unfold val_main_v33
  rw [gather_node gather_S10000x512_S160000x1_S160000x512_1_0_n_n_0_1_1512 rfl rfl rfl rfl rfl rfl rfl x1 hE 0
    (val_main_v4 (F := Ideal) x0 x2) (val_main_v32 (F := Ideal) x1) (v32_at x1 hE) e c, v4_at]
  rfl

theorem v39_at (x0 : FVec Ideal S10000x784 .f32) (x1 : IVec S2x160000 32) (x2 : FVec Ideal S784x512 .f32)
    (hE : Gcn.InRange x1) (i : Fin 10000) (c : Fin 512) :
    val_main_v39 (F := Ideal) x0 x1 x2 (ix2 i c)
      = 0 + ∑ e ∈ Finset.univ.filter (fun e : Fin 160000 => Gcn.dstOf x1 hE e = i),
          Gcn.proj (fun i k => x0 (ix2 i k)) (fun k c => x2 (ix2 k c)) (Gcn.srcOf x1 hE e) c
            * val_main_v26 (F := Ideal) x1 (ix1 e) := by
  have hz : ∀ j, val_main_v37 (F := Ideal) j = 0 := fun j => by
    rw [val_main_v37_apply, val_main_cst_7_apply, Ideal.ofBits_def, Ideal.ofBits_zero_f32]
  refine (scatter_node scatter_S10000x512_S160000x1_S160000x512_1_0_0_1 rfl rfl rfl rfl x1 hE 1
    (val_main_v37 (F := Ideal)) hz (val_main_v38 (F := Ideal) x1) (v38_at x1)
    (val_main_v36 (F := Ideal) x0 x1 x2) i c).trans ?_
  exact congrArg (fun s : EReal => 0 + s) (Finset.sum_congr rfl fun e _ => v36_at x0 x1 x2 hE e c)

theorem v47_at (x0 : FVec Ideal S10000x784 .f32) (x1 : IVec S2x160000 32) (x2 : FVec Ideal S784x512 .f32)
    (x3 : FVec Ideal S512 .f32) (hE : Gcn.InRange x1) (i : Fin 10000) (c : Fin 512) :
    val_main_v47 (F := Ideal) x0 x1 x2 x3 (ix2 i c)
      = Gcn.conv (Gcn.srcOf x1 hE) (Gcn.dstOf x1 hE) (fun n => val_main_v11 (F := Ideal) x1 (ix1 n))
          (fun e => val_main_v26 (F := Ideal) x1 (ix1 e))
          (Gcn.proj (fun i k => x0 (ix2 i k)) (fun k c => x2 (ix2 k c))) (fun c => x3 (ix1 c)) i c := by
  have e1 : idx_main_v41 (idx_main_v42 (ix2 i c)) = ix1 i := by
    funext a; match a with | ⟨0, _⟩ => rfl
  have e2 : idx_main_v45 (idx_main_v46 (ix2 i c)) = ix1 c := by
    funext a; match a with | ⟨0, _⟩ => rfl
  rw [val_main_v47_apply, val_main_v44_apply, val_main_v46_apply, val_main_v45_apply, val_main_v43_apply,
    val_main_v42_apply, val_main_v41_apply, val_main_v40_apply, e1, e2, v4_at, v39_at x0 x1 x2 hE i c]
  rfl

theorem v48_at (x0 : FVec Ideal S10000x784 .f32) (x1 : IVec S2x160000 32) (x2 : FVec Ideal S784x512 .f32)
    (x3 : FVec Ideal S512 .f32) (hE : Gcn.InRange x1) (i : Fin 10000) (c : Fin 512) :
    val_main_v48 (F := Ideal) x0 x1 x2 x3 (ix2 i c)
      = Gcn.rL1 (Gcn.srcOf x1 hE) (Gcn.dstOf x1 hE) (fun n => val_main_v11 (F := Ideal) x1 (ix1 n))
          (fun e => val_main_v26 (F := Ideal) x1 (ix1 e))
          (fun i k => x0 (ix2 i k)) (fun k c => x2 (ix2 k c)) (fun c => x3 (ix1 c)) i c := by
  rw [val_main_v48_apply, val_main_call0_v0_apply, val_main_call0_cst_apply, v47_at x0 x1 x2 x3 hE i c,
    Ideal.maximumf_def, Ideal.ofBits_def, Ideal.ofBits_zero_f32]
  rfl

end Cert.ReferenceIdeal.Hand

end
-- ==== Proof.Ref.L2.lean ====
import proofs.«414095_j12086037971444_1_alg».proof.Proof.Ref.Idx

noncomputable section

namespace Cert.ReferenceIdeal.Hand

open Cert.ReferenceIdeal Cert.ReferenceIdeal.ReadP Idealize.ShloMosaic Idealize.ShloMosaic.ValueIdx

theorem v49_at (x0 : FVec Ideal S10000x784 .f32) (x1 : IVec S2x160000 32) (x2 : FVec Ideal S784x512 .f32)
    (x3 : FVec Ideal S512 .f32) (x4 : FVec Ideal S512x512 .f32) (i : Fin 10000) (c : Fin 512) :
    val_main_v49 (F := Ideal) x0 x1 x2 x3 x4 (ix2 i c)
      = Gcn.proj (fun i k => val_main_v48 (F := Ideal) x0 x1 x2 x3 (ix2 i k)) (fun k c => x4 (ix2 k c)) i c := by
  rw [val_main_v49_apply]
  unfold Gcn.proj
  refine Finset.sum_congr rfl fun k _ => ?_
  have el : lidx_main_v49 (ix2 i c) k = ix2 i k := by
    funext a; match a with | ⟨0, _⟩ => rfl | ⟨1, _⟩ => rfl
  have er : ridx_main_v49 (ix2 i c) k = ix2 k c := by
    funext a; match a with | ⟨0, _⟩ => rfl | ⟨1, _⟩ => rfl
  rw [el, er]

theorem v81_at (x0 : FVec Ideal S10000x784 .f32) (x1 : IVec S2x160000 32) (x2 : FVec Ideal S784x512 .f32)
    (x3 : FVec Ideal S512 .f32) (x4 : FVec Ideal S512x512 .f32)
    (hE : Gcn.InRange x1) (e : Fin 160000) (c : Fin 512) :
    val_main_v81 (F := Ideal) x0 x1 x2 x3 x4 (ix2 e c)
      = Gcn.proj (fun i k => val_main_v48 (F := Ideal) x0 x1 x2 x3 (ix2 i k)) (fun k c => x4 (ix2 k c))
            (Gcn.srcOf x1 hE e) c
          * val_main_v26 (F := Ideal) x1 (ix1 e) := by
  have e1 : idx_main_v79 (idx_main_v80 (ix2 e c)) = ix1 e := by
    funext a; match a with | ⟨0, _⟩ => rfl
  rw [val_main_v81_apply, val_main_v80_apply, val_main_v79_apply, e1, v71_eq, Ideal.mulf_def]
  unfold val_main_v78
  rw [v77_eq, gather_node gather_S10000x512_S160000x1_S160000x512_1_0_n_n_0_1_1512 rfl rfl rfl rfl rfl rfl rfl x1 hE 0
    (val_main_v49 (F := Ideal) x0 x1 x2 x3 x4) (val_main_v32 (F := Ideal) x1) (v32_at x1 hE) e c, v49_at]
  rfl

theorem v84_at (x0 : FVec Ideal S10000x784 .f32) (x1 : IVec S2x160000 32) (x2 : FVec Ideal S784x512 .f32)
    (x3 : FVec Ideal S512 .f32) (x4 : FVec Ideal S512x512 .f32)
    (hE : Gcn.InRange x1) (i : Fin 10000) (c : Fin 512) :
    val_main_v84 (F := Ideal) x0 x1 x2 x3 x4 (ix2 i c)
      = 0 + ∑ e ∈ Finset.univ.filter (fun e : Fin 160000 => Gcn.dstOf x1 hE e = i),
          Gcn.proj (fun i k => val_main_v48 (F := Ideal) x0 x1 x2 x3 (ix2 i k)) (fun k c => x4 (ix2 k c))
              (Gcn.srcOf x1 hE e) c
            * val_main_v26 (F := Ideal) x1 (ix1 e) := by
  have hz : ∀ j, val_main_v82 (F := Ideal) j = 0 := fun j => by
    rw [val_main_v82_apply, val_main_cst_17_apply, Ideal.ofBits_def, Ideal.ofBits_zero_f32]
  have hd : ∀ e : Fin 160000, val_main_v83 (F := Ideal) x1 (ix2 e 0) = x1 (ix2 1 e) := fun e => by
    rw [v83_eq]; exact v38_at x1 e
  refine (scatter_node scatter_S10000x512_S160000x1_S160000x512_1_0_0_1 rfl rfl rfl rfl x1 hE 1
    (val_main_v82 (F := Ideal)) hz (val_main_v83 (F := Ideal) x1) hd
    (val_main_v81 (F := Ideal) x0 x1 x2 x3 x4) i c).trans ?_
  exact congrArg (fun s : EReal => 0 + s) (Finset.sum_congr rfl fun e _ => v81_at x0 x1 x2 x3 x4 hE e c)

theorem v92_at (x0 : FVec Ideal S10000x784 .f32) (x1 : IVec S2x160000 32) (x2 : FVec Ideal S784x512 .f32)
    (x3 : FVec Ideal S512 .f32) (x4 : FVec Ideal S512x512 .f32) (x5 : FVec Ideal S512 .f32)
    (hE : Gcn.InRange x1) (i : Fin 10000) (c : Fin 512) :
    val_main_v92 (F := Ideal) x0 x1 x2 x3 x4 x5 (ix2 i c)
      = Gcn.conv (Gcn.srcOf x1 hE) (Gcn.dstOf x1 hE) (fun n => val_main_v11 (F := Ideal) x1 (ix1 n))
          (fun e => val_main_v26 (F := Ideal) x1 (ix1 e))
          (Gcn.proj (fun i k => val_main_v48 (F := Ideal) x0 x1 x2 x3 (ix2 i k)) (fun k c => x4 (ix2 k c)))
          (fun c => x5 (ix1 c)) i c := by
  have e1 : idx_main_v86 (idx_main_v87 (ix2 i c)) = ix1 i := by
    funext a; match a with | ⟨0, _⟩ => rfl
  have e2 : idx_main_v90 (idx_main_v91 (ix2 i c)) = ix1 c := by
    funext a; match a with | ⟨0, _⟩ => rfl
  rw [val_main_v92_apply, val_main_v89_apply, val_main_v91_apply, val_main_v90_apply, val_main_v88_apply,
    val_main_v87_apply, val_main_v86_apply, val_main_v85_apply, e1, e2, v56_eq, v49_at,
    v84_at x0 x1 x2 x3 x4 hE i c]
  rfl

theorem v93_at (x0 : FVec Ideal S10000x784 .f32) (x1 : IVec S2x160000 32) (x2 : FVec Ideal S784x512 .f32)
    (x3 : FVec Ideal S512 .f32) (x4 : FVec Ideal S512x512 .f32) (x5 : FVec Ideal S512 .f32)
    (hE : Gcn.InRange x1) (i : Fin 10000) (c : Fin 512) :
    val_main_v93 (F := Ideal) x0 x1 x2 x3 x4 x5 (ix2 i c)
      = Gcn.relu (Gcn.conv (Gcn.srcOf x1 hE) (Gcn.dstOf x1 hE) (fun n => val_main_v11 (F := Ideal) x1 (ix1 n))
          (fun e => val_main_v26 (F := Ideal) x1 (ix1 e))
          (Gcn.proj (fun i k => val_main_v48 (F := Ideal) x0 x1 x2 x3 (ix2 i k)) (fun k c => x4 (ix2 k c)))
          (fun c => x5 (ix1 c))) i c := by
  rw [val_main_v93_apply, val_main_call1_v0_apply, val_main_call1_cst_apply, v92_at x0 x1 x2 x3 x4 x5 hE i c,
    Ideal.maximumf_def, Ideal.ofBits_def, Ideal.ofBits_zero_f32]
  rfl

end Cert.ReferenceIdeal.Hand

end
-- ==== Proof.Ref.L3.lean ====
import proofs.«414095_j12086037971444_1_alg».proof.Proof.Ref.Idx

noncomputable section

namespace Cert.ReferenceIdeal.Hand

open Cert.ReferenceIdeal Cert.ReferenceIdeal.ReadP Idealize.ShloMosaic Idealize.ShloMosaic.ValueIdx

theorem v94_at (x0 : FVec Ideal S10000x784 .f32) (x1 : IVec S2x160000 32) (x2 : FVec Ideal S784x512 .f32)
    (x3 : FVec Ideal S512 .f32) (x4 : FVec Ideal S512x512 .f32) (x5 : FVec Ideal S512 .f32)
    (x6 : FVec Ideal S512x10 .f32) (i : Fin 10000) (c : Fin 10) :
    val_main_v94 (F := Ideal) x0 x1 x2 x3 x4 x5 x6 (ix2 i c)
      = Gcn.proj (fun i k => val_main_v93 (F := Ideal) x0 x1 x2 x3 x4 x5 (ix2 i k)) (fun k c => x6 (ix2 k c)) i c := by
  rw [val_main_v94_apply]
  unfold Gcn.proj
  refine Finset.sum_congr rfl fun k _ => ?_
  have el : lidx_main_v94 (ix2 i c) k = ix2 i k := by
    funext a; match a with | ⟨0, _⟩ => rfl | ⟨1, _⟩ => rfl
  have er : ridx_main_v94 (ix2 i c) k = ix2 k c := by
    funext a; match a with | ⟨0, _⟩ => rfl | ⟨1, _⟩ => rfl
  rw [el, er]

theorem v126_at (x0 : FVec Ideal S10000x784 .f32) (x1 : IVec S2x160000 32) (x2 : FVec Ideal S784x512 .f32)
    (x3 : FVec Ideal S512 .f32) (x4 : FVec Ideal S512x512 .f32) (x5 : FVec Ideal S512 .f32)
    (x6 : FVec Ideal S512x10 .f32) (hE : Gcn.InRange x1) (e : Fin 160000) (c : Fin 10) :
    val_main_v126 (F := Ideal) x0 x1 x2 x3 x4 x5 x6 (ix2 e c)
      = Gcn.proj (fun i k => val_main_v93 (F := Ideal) x0 x1 x2 x3 x4 x5 (ix2 i k)) (fun k c => x6 (ix2 k c))
            (Gcn.srcOf x1 hE e) c
          * val_main_v26 (F := Ideal) x1 (ix1 e) := by
  have e1 : idx_main_v124 (idx_main_v125 (ix2 e c)) = ix1 e := by
    funext a; match a with | ⟨0, _⟩ => rfl
  rw [val_main_v126_apply, val_main_v125_apply, val_main_v124_apply, e1, v116_eq, Ideal.mulf_def]
  unfold val_main_v123
  rw [v122_eq, gather_node gather_S10000x10_S160000x1_S160000x10_1_0_n_n_0_1_110 rfl rfl rfl rfl rfl rfl rfl x1 hE 0
    (val_main_v94 (F := Ideal) x0 x1 x2 x3 x4 x5 x6) (val_main_v32 (F := Ideal) x1) (v32_at x1 hE) e c, v94_at]
  rfl

theorem v129_at (x0 : FVec Ideal S10000x784 .f32) (x1 : IVec S2x160000 32) (x2 : FVec Ideal S784x512 .f32)
    (x3 : FVec Ideal S512 .f32) (x4 : FVec Ideal S512x512 .f32) (x5 : FVec Ideal S512 .f32)
    (x6 : FVec Ideal S512x10 .f32) (hE : Gcn.InRange x1) (i : Fin 10000) (c : Fin 10) :
    val_main_v129 (F := Ideal) x0 x1 x2 x3 x4 x5 x6 (ix2 i c)
      = 0 + ∑ e ∈ Finset.univ.filter (fun e : Fin 160000 => Gcn.dstOf x1 hE e = i),
          Gcn.proj (fun i k => val_main_v93 (F := Ideal) x0 x1 x2 x3 x4 x5 (ix2 i k)) (fun k c => x6 (ix2 k c))
              (Gcn.srcOf x1 hE e) c
            * val_main_v26 (F := Ideal) x1 (ix1 e) := by
  have hz : ∀ j, val_main_v127 (F := Ideal) j = 0 := fun j => by
    rw [val_main_v127_apply, val_main_cst_27_apply, Ideal.ofBits_def, Ideal.ofBits_zero_f32]
  have hd : ∀ e : Fin 160000, val_main_v128 (F := Ideal) x1 (ix2 e 0) = x1 (ix2 1 e) := fun e => by
    rw [v128_eq]; exact v38_at x1 e
  refine (scatter_node scatter_S10000x10_S160000x1_S160000x10_1_0_0_1 rfl rfl rfl rfl x1 hE 1
    (val_main_v127 (F := Ideal)) hz (val_main_v128 (F := Ideal) x1) hd
    (val_main_v126 (F := Ideal) x0 x1 x2 x3 x4 x5 x6) i c).trans ?_
  exact congrArg (fun s : EReal => 0 + s) (Finset.sum_congr rfl fun e _ => v126_at x0 x1 x2 x3 x4 x5 x6 hE e c)

theorem v137_at (x0 : FVec Ideal S10000x784 .f32) (x1 : IVec S2x160000 32) (x2 : FVec Ideal S784x512 .f32)
    (x3 : FVec Ideal S512 .f32) (x4 : FVec Ideal S512x512 .f32) (x5 : FVec Ideal S512 .f32)
    (x6 : FVec Ideal S512x10 .f32) (x7 : FVec Ideal S10 .f32)
    (hE : Gcn.InRange x1) (i : Fin 10000) (c : Fin 10) :
    val_main_v137 (F := Ideal) x0 x1 x2 x3 x4 x5 x6 x7 (ix2 i c)
      = Gcn.conv (Gcn.srcOf x1 hE) (Gcn.dstOf x1 hE) (fun n => val_main_v11 (F := Ideal) x1 (ix1 n))
          (fun e => val_main_v26 (F := Ideal) x1 (ix1 e))
          (Gcn.proj (fun i k => val_main_v93 (F := Ideal) x0 x1 x2 x3 x4 x5 (ix2 i k)) (fun k c => x6 (ix2 k c)))
          (fun c => x7 (ix1 c)) i c := by
  have e1 : idx_main_v131 (idx_main_v132 (ix2 i c)) = ix1 i := by
    funext a; match a with | ⟨0, _⟩ => rfl
  have e2 : idx_main_v135 (idx_main_v136 (ix2 i c)) = ix1 c := by
    funext a; match a with | ⟨0, _⟩ => rfl
  rw [val_main_v137_apply, val_main_v134_apply, val_main_v136_apply, val_main_v135_apply, val_main_v133_apply,
    val_main_v132_apply, val_main_v131_apply, val_main_v130_apply, e1, e2, v101_eq, v94_at,
    v129_at x0 x1 x2 x3 x4 x5 x6 hE i c]
  rfl

end Cert.ReferenceIdeal.Hand

end
-- ==== Proof.Ref.Logits.lean ====
import proofs.«414095_j12086037971444_1_alg».proof.Proof.Ref.L1
import proofs.«414095_j12086037971444_1_alg».proof.Proof.Ref.L2
import proofs.«414095_j12086037971444_1_alg».proof.Proof.Ref.L3

noncomputable section

namespace Cert.ReferenceIdeal.Hand

open Cert.ReferenceIdeal Cert.ReferenceIdeal.ReadP Idealize.ShloMosaic Idealize.ShloMosaic.ValueIdx

theorem ref_logits (x0 : FVec Ideal S10000x784 .f32) (x1 : IVec S2x160000 32) (x2 : FVec Ideal S784x512 .f32)
    (x3 : FVec Ideal S512 .f32) (x4 : FVec Ideal S512x512 .f32) (x5 : FVec Ideal S512 .f32)
    (x6 : FVec Ideal S512x10 .f32) (x7 : FVec Ideal S10 .f32)
    (hE : Gcn.InRange x1) (i : Fin 10000) (c : Fin 10) :
    val_main_v137 (F := Ideal) x0 x1 x2 x3 x4 x5 x6 x7 (ix2 i c)
      = Gcn.rLogits (Gcn.srcOf x1 hE) (Gcn.dstOf x1 hE) (fun n => val_main_v11 (F := Ideal) x1 (ix1 n))
          (fun e => val_main_v26 (F := Ideal) x1 (ix1 e))
          (fun i k => x0 (ix2 i k)) (fun k c => x2 (ix2 k c)) (fun c => x3 (ix1 c)) (fun k c => x4 (ix2 k c))
          (fun c => x5 (ix1 c)) (fun k c => x6 (ix2 k c)) (fun c => x7 (ix1 c)) i c := by
  have h1 : (fun (i : Fin 10000) (k : Fin 512) => val_main_v48 (F := Ideal) x0 x1 x2 x3 (ix2 i k))
      = Gcn.rL1 (Gcn.srcOf x1 hE) (Gcn.dstOf x1 hE) (fun n => val_main_v11 (F := Ideal) x1 (ix1 n))
          (fun e => val_main_v26 (F := Ideal) x1 (ix1 e))
          (fun i k => x0 (ix2 i k)) (fun k c => x2 (ix2 k c)) (fun c => x3 (ix1 c)) := by
    funext i k; exact v48_at x0 x1 x2 x3 hE i k
  have h2 : (fun (i : Fin 10000) (k : Fin 512) => val_main_v93 (F := Ideal) x0 x1 x2 x3 x4 x5 (ix2 i k))
      = Gcn.rL2 (Gcn.srcOf x1 hE) (Gcn.dstOf x1 hE) (fun n => val_main_v11 (F := Ideal) x1 (ix1 n))
          (fun e => val_main_v26 (F := Ideal) x1 (ix1 e))
          (fun i k => x0 (ix2 i k)) (fun k c => x2 (ix2 k c)) (fun c => x3 (ix1 c)) (fun k c => x4 (ix2 k c))
          (fun c => x5 (ix1 c)) := by
    funext i k
    rw [v93_at x0 x1 x2 x3 x4 x5 hE i k, h1]
    rfl
  rw [v137_at x0 x1 x2 x3 x4 x5 x6 x7 hE i c, h2]
  rfl

end Cert.ReferenceIdeal.Hand

end
-- ==== Proof.Ref.Tail.lean ====
import proofs.«414095_j12086037971444_1_alg».proof.Proof.RefReadP

noncomputable section

namespace Cert.ReferenceIdeal.Hand

open Cert.ReferenceIdeal Cert.ReferenceIdeal.ReadP Idealize.ShloMosaic Idealize.SL.Sem

variable [Cert.ReferenceIdeal.Facts]

def rowMax (l : FVec Ideal S10000x10 .f32) : FVec Ideal S10000 .f32 :=
  maximumf (broadcastInDim S10000 ![] Gen.bcast_S_S10000 (constant (F := Ideal) S_ .f32 0xFF800000#32))
    (Host.reduce FloatOps.maximumf l (constant (F := Ideal) S_ .f32 0xFF800000#32) Gen.reducesTo_S10000x10_S10000_d1 Gen.h_S_)

def shifted (l : FVec Ideal S10000x10 .f32) : FVec Ideal S10000x10 .f32 :=
  subf l (broadcastInDim S10000x10 ![0, 1] Gen.bcast_S10000x1_S10000x10_0_1
    (broadcastInDim S10000x1 ![0] Gen.bcast_S10000_S10000x1_0 (rowMax l)))

def rowSumExp (l : FVec Ideal S10000x10 .f32) : FVec Ideal S10000 .f32 :=
  Host.reduceAdd (Host.exp (shifted l)) (constant (F := Ideal) S_ .f32 0x00000000#32) Gen.reducesTo_S10000x10_S10000_d1 Gen.h_S_

def tailR (l : FVec Ideal S10000x10 .f32) : FVec Ideal S10000x10 .f32 :=
  subf (shifted l) (broadcastInDim S10000x10 ![0, 1] Gen.bcast_S10000x1_S10000x10_0_1
    (Host.log (broadcastInDim S10000x1 ![0] Gen.bcast_S10000_S10000x1_0 (rowSumExp l))))

theorem val_main_v138_eq_tail (x0 : (⟨S10000x784, .f32⟩ : BufTy).Contents (Elt Ideal)) (x1 : (⟨S2x160000, .i32⟩ : BufTy).Contents (Elt Ideal)) (x2 : (⟨S784x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x10, .f32⟩ : BufTy).Contents (Elt Ideal)) (x7 : (⟨S10, .f32⟩ : BufTy).Contents (Elt Ideal)) :
    val_main_v138 (F := Ideal) x0 x1 x2 x3 x4 x5 x6 x7 = tailR (val_main_v137 (F := Ideal) x0 x1 x2 x3 x4 x5 x6 x7) := by
  unfold val_main_v138 val_main_call2_v10 val_main_call2_v9 val_main_call2_v8 val_main_call2_v7 val_main_call2_v6
    val_main_call2_v5 val_main_call2_v4 val_main_call2_v3 val_main_call2_v2 val_main_call2_v1 val_main_call2_v0
    val_main_call2_cst val_main_call2_cst_0 val_main_call2_cst_1
  generalize val_main_v137 (F := Ideal) x0 x1 x2 x3 x4 x5 x6 x7 = l
  rfl

theorem ref_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v138) = tailR (val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono
    (fun _ h c => ⟨(h c).1.trans ((val_main_v138_eq (F := Ideal) m c).trans (val_main_v138_eq_tail _ _ _ _ _ _ _ _)), (h c).2⟩)
    (ValueP.run (F := Ideal) m ρ)

theorem frame_ref (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (ValueP.run (F := Ideal) m ρ)

end Cert.ReferenceIdeal.Hand

end
-- ==== Proof.Glue.lean ====
import proofs.«414095_j12086037971444_1_alg».proof.Proof.Ref.Tail
import proofs.«414095_j12086037971444_1_alg».proof.Proof.KI.HostB
import proofs.«414095_j12086037971444_1_alg».proof.Proof.KI.HostA0

noncomputable section

namespace Cert.Glue

open Idealize.ShloMosaic Cert.ReferenceIdeal.ReadP

variable [Cert.KernelIdeal.Facts] [Cert.ReferenceIdeal.Facts]

theorem tail_eq : Cert.KernelIdeal.Hand.tailK = Cert.ReferenceIdeal.Hand.tailR := by
  funext l
  unfold Cert.KernelIdeal.Hand.tailK Cert.ReferenceIdeal.Hand.tailR Cert.ReferenceIdeal.Hand.rowSumExp
    Cert.ReferenceIdeal.Hand.shifted Cert.ReferenceIdeal.Hand.rowMax
  rfl

theorem dinv_eq (E : IVec Cert.KernelIdeal.S2x160000 32) :
    Cert.KernelIdeal.Hand.dinvK E = Cert.ReferenceIdeal.ReadP.val_main_v11 (F := Ideal) E := by
  unfold Cert.KernelIdeal.Hand.dinvK Cert.KernelIdeal.Hand.degK Cert.KernelIdeal.Hand.dstW
    val_main_v11 val_main_v10 val_main_v9 val_main_v8 val_main_v7 val_main_v6 val_main_v5
    val_main_v3 val_main_v2 val_main_cst val_main_cst_0 val_main_cst_1
  rfl

theorem norm_eq (E : IVec Cert.KernelIdeal.S2x160000 32) :
    Cert.KernelIdeal.Hand.normK E = Cert.ReferenceIdeal.ReadP.val_main_v26 (F := Ideal) E := by
  unfold Cert.KernelIdeal.Hand.normK val_main_v26 val_main_v25 val_main_v24 val_main_v23 val_main_v22 val_main_v21
    val_main_v20 val_main_v19 val_main_v18 val_main_v17 val_main_v16 val_main_v15 val_main_v14 val_main_v13 val_main_v12
    val_main_v1 val_main_v0 val_main_c val_main_c_2 val_main_c_3 val_main_c_4
  rw [← dinv_eq E]
  unfold Cert.KernelIdeal.Hand.wrapW Cert.KernelIdeal.Hand.srcW Cert.KernelIdeal.Hand.dstW val_main_v3 val_main_v2
  rfl

end Cert.Glue

end
-- ==== Proof.AlgLayer.lean ====
import proofs.«414095_j12086037971444_1_alg».proof.Proof.Spec
import Mathlib.Data.EReal.Basic
import Mathlib.Algebra.BigOperators.Group.Finset.Basic
import Mathlib.Algebra.BigOperators.Group.Finset.Piecewise
import Mathlib.Algebra.BigOperators.Ring.Finset

noncomputable section

namespace Gcn

open Finset

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

private theorem coe_max' (x y : ℝ) : ((max x y : ℝ) : EReal) = max (x : EReal) (y : EReal) :=
  EReal.coe_strictMono.monotone.map_max

theorem real2_dense {M K N : Nat} {A : Fin M → Fin K → EReal} {B : Fin K → Fin N → EReal} {b : Fin N → EReal}
    (hA : Real2 A) (hB : Real2 B) (hb : Real1 b) : Real2 (dense A B b) := by
  intro r c
  choose a ha using hA
  choose b' hb' using hB
  choose v hv using hb
  refine ⟨(∑ k, a r k * b' k c) + v c, ?_⟩
  simp only [dense, ha, hb', hv]
  rw [EReal.coe_add, coe_sum]
  simp only [EReal.coe_mul]

theorem real2_relu {M N : Nat} {f : Fin M → Fin N → EReal} (h : Real2 f) : Real2 (relu f) := by
  intro r c
  obtain ⟨v, hv⟩ := h r c
  refine ⟨max v 0, ?_⟩
  rw [relu, hv, coe_max', EReal.coe_zero]

theorem real2_Ahat (src dst : Fin 160000 → Fin 10000) {dinv : Fin 10000 → EReal} {norm : Fin 160000 → EReal}
    (hd : Real1 dinv) (hn : Real1 norm) : Real2 (Ahat src dst dinv norm) := by
  intro i j
  choose d hd' using hd
  choose n hn' using hn
  refine ⟨(0 + ∑ e ∈ univ.filter (fun e : Fin 160000 => (dst e).val = i.val ∧ (src e).val = j.val), n e)
    + ∑ m ∈ univ.filter (fun m : Fin 10000 => m.val = i.val ∧ m.val = j.val), d m * d m, ?_⟩
  simp only [Ahat, hd', hn']
  rw [EReal.coe_add, EReal.coe_add, coe_sum, coe_sum, EReal.coe_zero]
  simp only [EReal.coe_mul]

theorem real2_pad2 {m k : Nat} (M K : Nat) {a : Fin m → Fin k → EReal} (h : Real2 a) : Real2 (pad2 M K a) := by
  intro r c
  unfold pad2
  split_ifs with hrc
  · exact h _ _
  · exact ⟨0, EReal.coe_zero.symm⟩

theorem real1_pad1 {k : Nat} (K : Nat) {a : Fin k → EReal} (h : Real1 a) : Real1 (pad1 K a) := by
  intro c
  unfold pad1
  split_ifs with hc
  · exact h _
  · exact ⟨0, EReal.coe_zero.symm⟩

theorem real1_zeroBias (N : Nat) : Real1 (zeroBias N) := fun _ => ⟨0, EReal.coe_zero.symm⟩

private theorem edges_swap (src dst : Fin 160000 → Fin 10000) (n : Fin 160000 → ℝ) (g : Fin 10240 → ℝ)
    (h : 10000 ≤ 10240) (i : Fin 10000) :
    ∑ j : Fin 10240, (∑ e ∈ univ.filter (fun e : Fin 160000 => (dst e).val = (Fin.castLE h i).val ∧ (src e).val = j.val), n e) * g j
      = ∑ e ∈ univ.filter (fun e : Fin 160000 => dst e = i), g (Fin.castLE h (src e)) * n e := by
  rw [← Finset.sum_fiberwise (univ.filter (fun e : Fin 160000 => dst e = i)) (fun e => Fin.castLE h (src e))
    (fun e => g (Fin.castLE h (src e)) * n e)]
  refine Finset.sum_congr rfl (fun j _ => ?_)
  rw [Finset.sum_mul, Finset.filter_filter]
  refine Finset.sum_congr ?_ ?_
  · ext e
    simp only [Finset.mem_filter, Finset.mem_univ, true_and, Fin.ext_iff, Fin.coe_castLE]
  · intro e he
    simp only [Finset.mem_filter, Finset.mem_univ, true_and] at he
    rw [he.2, mul_comm]

private theorem diag_pick (d : Fin 10000 → ℝ) (g : Fin 10240 → ℝ) (h : 10000 ≤ 10240) (i : Fin 10000) :
    ∑ j : Fin 10240, (∑ m ∈ univ.filter (fun m : Fin 10000 => m.val = (Fin.castLE h i).val ∧ m.val = j.val), d m * d m) * g j
      = g (Fin.castLE h i) * (d i * d i) := by
  have inner : ∀ j : Fin 10240,
      (∑ m ∈ univ.filter (fun m : Fin 10000 => m.val = (Fin.castLE h i).val ∧ m.val = j.val), d m * d m)
        = if j = Fin.castLE h i then d i * d i else 0 := by
    intro j
    split_ifs with hj
    · subst hj
      have hs : univ.filter (fun m : Fin 10000 => m.val = (Fin.castLE h i).val ∧ m.val = (Fin.castLE h i).val) = {i} := by
        ext m
        simp only [Finset.mem_filter, Finset.mem_univ, true_and, Fin.coe_castLE, and_self, Finset.mem_singleton, Fin.ext_iff]
      rw [hs, Finset.sum_singleton]
    · have hs : univ.filter (fun m : Fin 10000 => m.val = (Fin.castLE h i).val ∧ m.val = j.val) = ∅ := by
        ext m
        simp only [Finset.mem_filter, Finset.mem_univ, true_and, Fin.coe_castLE, Finset.notMem_empty, iff_false, not_and]
        intro h1 h2
        apply hj
        apply Fin.ext
        simp only [Fin.coe_castLE]
        omega
      rw [hs, Finset.sum_empty]
  simp only [inner, ite_mul, zero_mul, Finset.sum_ite_eq', Finset.mem_univ, if_true]
  ring

theorem dense_Ahat_eq_conv {D : Nat} (src dst : Fin 160000 → Fin 10000) {dinv : Fin 10000 → EReal} {norm : Fin 160000 → EReal}
    (hd : Real1 dinv) (hn : Real1 norm)
    {Hp : Fin 10240 → Fin D → EReal} {H : Fin 10000 → Fin D → EReal} (hHp : Real2 Hp)
    (hagree : ∀ (i : Fin 10000) (c : Fin D), Hp (Fin.castLE (by decide) i) c = H i c)
    (b : Fin D → EReal) (hb : Real1 b) (i : Fin 10000) (c : Fin D) :
    dense (Ahat src dst dinv norm) Hp b (Fin.castLE (by decide) i) c = conv src dst dinv norm H b i c := by
  choose d hd' using hd
  choose n hn' using hn
  choose hp hhp using hHp
  choose v hv using hb
  have hle : 10000 ≤ 10240 := by decide

  have hL : dense (Ahat src dst dinv norm) Hp b (Fin.castLE hle i) c
      = ((∑ j : Fin 10240, ((0 + ∑ e ∈ univ.filter (fun e : Fin 160000 => (dst e).val = (Fin.castLE hle i).val ∧ (src e).val = j.val), n e)
          + ∑ m ∈ univ.filter (fun m : Fin 10000 => m.val = (Fin.castLE hle i).val ∧ m.val = j.val), d m * d m) * hp j c) + v c : ℝ) := by
    simp only [dense, Ahat, hd', hn', hhp, hv]
    rw [EReal.coe_add, coe_sum]
    simp only [EReal.coe_mul, EReal.coe_add, coe_sum, EReal.coe_zero]
  have hR : conv src dst dinv norm H b i c
      = ((((0 + ∑ e ∈ univ.filter (fun e : Fin 160000 => dst e = i), hp (Fin.castLE hle (src e)) c * n e)
          + hp (Fin.castLE hle i) c * (d i * d i)) + v c : ℝ) : EReal) := by
    simp only [conv, ← hagree, hd', hn', hhp, hv]
    rw [EReal.coe_add, EReal.coe_add, EReal.coe_add, coe_sum]
    simp only [EReal.coe_mul, EReal.coe_zero]
  rw [hL, hR, EReal.coe_eq_coe_iff]
  simp only [zero_add, add_mul, Finset.sum_add_distrib]
  rw [edges_swap src dst n (fun j => hp j c) hle i, diag_pick d (fun j => hp j c) hle i]

end Gcn

end
-- ==== Proof.AlgMain.lean ====
import proofs.«414095_j12086037971444_1_alg».proof.Proof.Spec
import proofs.«414095_j12086037971444_1_alg».proof.Proof.AlgLayer
import Mathlib.Data.EReal.Basic
import Mathlib.Data.Fin.Embedding
import Mathlib.Algebra.BigOperators.Group.Finset.Basic

noncomputable section

namespace Gcn

open Finset

theorem pad2_of_lt {m k : Nat} (M K : Nat) (a : Fin m → Fin k → EReal) (r : Fin M) (c : Fin K)
    (hr : r.val < m) (hc : c.val < k) : pad2 M K a r c = a ⟨r.val, hr⟩ ⟨c.val, hc⟩ := by
  unfold pad2
  rw [dif_pos ⟨hr, hc⟩]

theorem pad2_row_ge {m k : Nat} (M K : Nat) (a : Fin m → Fin k → EReal) (r : Fin M) (c : Fin K)
    (hr : m ≤ r.val) : pad2 M K a r c = 0 := by
  unfold pad2
  rw [dif_neg (fun h => absurd h.1 (Nat.not_lt.mpr hr))]

theorem pad1_of_lt {k : Nat} (K : Nat) (a : Fin k → EReal) (c : Fin K) (hc : c.val < k) :
    pad1 K a c = a ⟨c.val, hc⟩ := by
  unfold pad1
  rw [dif_pos hc]

theorem sum_castLE {K Kp : Nat} (h : K ≤ Kp) (f : Fin Kp → EReal) (hf : ∀ k : Fin Kp, K ≤ k.val → f k = 0) :
    ∑ k : Fin Kp, f k = ∑ k : Fin K, f (Fin.castLE h k) := by
  have hmap : ∑ k : Fin K, f (Fin.castLE h k) = ∑ k ∈ (univ : Finset (Fin K)).map (Fin.castLEEmb h), f k := by
    rw [Finset.sum_map]
    rfl
  rw [hmap]
  symm
  apply Finset.sum_subset (Finset.subset_univ _)
  intro k _ hk
  apply hf
  by_contra hlt
  apply hk
  rw [Finset.mem_map]
  exact ⟨⟨k.val, Nat.lt_of_not_le hlt⟩, Finset.mem_univ _, Fin.ext rfl⟩

theorem dense_pad_eq_proj (x : Fin 10000 → Fin 784 → EReal) (W1 : Fin 784 → Fin 512 → EReal)
    (i : Fin 10000) (c : Fin 512) :
    dense (pad2 10240 896 x) (pad2 896 512 W1) (zeroBias 512) (Fin.castLE (by decide) i) c = proj x W1 i c := by
  unfold dense proj zeroBias
  rw [add_zero]
  rw [sum_castLE (by decide : 784 ≤ 896)]
  · apply Finset.sum_congr rfl
    intro k _
    rw [pad2_of_lt 10240 896 x _ _ i.isLt k.isLt, pad2_of_lt 896 512 W1 _ _ k.isLt c.isLt]
    rfl
  · intro k hk
    rw [pad2_row_ge 896 512 W1 k c hk, mul_zero]

theorem dense_rows_eq_proj {K N : Nat} {L : Fin 10240 → Fin K → EReal} {L' : Fin 10000 → Fin K → EReal}
    (hL : ∀ (i : Fin 10000) (k : Fin K), L (Fin.castLE (by decide) i) k = L' i k)
    (W : Fin K → Fin N → EReal) (i : Fin 10000) (c : Fin N) :
    dense L W (zeroBias N) (Fin.castLE (by decide) i) c = proj L' W i c := by
  unfold dense proj zeroBias
  rw [add_zero]
  apply Finset.sum_congr rfl
  intro k _
  rw [hL]

theorem conv_pad_cols (src dst : Fin 160000 → Fin 10000) (dinv : Fin 10000 → EReal) (norm : Fin 160000 → EReal)
    (R : Fin 10000 → Fin 512 → EReal) (Wc : Fin 512 → Fin 10 → EReal) (bc : Fin 10 → EReal)
    (i : Fin 10000) (c : Fin 10) :
    conv src dst dinv norm (proj R (pad2 512 128 Wc)) (pad1 128 bc) i (Fin.castLE (by decide) c)
      = conv src dst dinv norm (proj R Wc) bc i c := by
  have hp : ∀ j : Fin 10000, proj R (pad2 512 128 Wc) j (Fin.castLE (by decide) c) = proj R Wc j c := by
    intro j
    unfold proj
    apply Finset.sum_congr rfl
    intro k _
    rw [pad2_of_lt 512 128 Wc k _ k.isLt c.isLt]
    rfl
  have hs : ∑ e ∈ univ.filter (fun e : Fin 160000 => dst e = i),
        proj R (pad2 512 128 Wc) (src e) (Fin.castLE (by decide) c) * norm e
      = ∑ e ∈ univ.filter (fun e : Fin 160000 => dst e = i), proj R Wc (src e) c * norm e :=
    Finset.sum_congr rfl (fun e _ => by rw [hp (src e)])
  unfold conv
  rw [hp i, pad1_of_lt 128 bc _ c.isLt, hs]
  rfl

theorem kLogits_eq_rLogits (src dst : Fin 160000 → Fin 10000) {dinv : Fin 10000 → EReal} {norm : Fin 160000 → EReal} (hd : Real1 dinv) (hn : Real1 norm)
    {x : Fin 10000 → Fin 784 → EReal} {W1 : Fin 784 → Fin 512 → EReal} {b1 : Fin 512 → EReal} {W2 : Fin 512 → Fin 512 → EReal} {b2 : Fin 512 → EReal}
    {Wc : Fin 512 → Fin 10 → EReal} {bc : Fin 10 → EReal}
    (hx : Real2 x) (hW1 : Real2 W1) (hb1 : Real1 b1) (hW2 : Real2 W2) (hb2 : Real1 b2) (hWc : Real2 Wc) (hbc : Real1 bc) :
    kLogits (pad2 10240 896 x) (pad2 896 512 W1) (Ahat src dst dinv norm) b1 W2 b2 (pad2 512 128 Wc) (pad1 128 bc)
      = rLogits src dst dinv norm x W1 b1 W2 b2 Wc bc := by
  have hA : Real2 (Ahat src dst dinv norm) := real2_Ahat src dst hd hn
  have hxp : Real2 (pad2 10240 896 x) := real2_pad2 10240 896 hx
  have hw1p : Real2 (pad2 896 512 W1) := real2_pad2 896 512 hW1
  have hwcp : Real2 (pad2 512 128 Wc) := real2_pad2 512 128 hWc
  have hbcp : Real1 (pad1 128 bc) := real1_pad1 128 hbc

  have r0 : Real2 (kL0 (pad2 10240 896 x) (pad2 896 512 W1)) := real2_dense hxp hw1p (real1_zeroBias 512)
  have a0 : ∀ (i : Fin 10000) (c : Fin 512),
      kL0 (pad2 10240 896 x) (pad2 896 512 W1) (Fin.castLE (by decide) i) c = proj x W1 i c :=
    fun i c => dense_pad_eq_proj x W1 i c

  have r1 : Real2 (kL1 (pad2 10240 896 x) (pad2 896 512 W1) (Ahat src dst dinv norm) b1) :=
    real2_relu (real2_dense hA r0 hb1)
  have a1 : ∀ (i : Fin 10000) (c : Fin 512),
      kL1 (pad2 10240 896 x) (pad2 896 512 W1) (Ahat src dst dinv norm) b1 (Fin.castLE (by decide) i) c
        = rL1 src dst dinv norm x W1 b1 i c := by
    intro i c
    unfold kL1 rL1 relu
    rw [dense_Ahat_eq_conv src dst hd hn r0 a0 b1 hb1 i c]

  have r2 : Real2 (kL2 (pad2 10240 896 x) (pad2 896 512 W1) (Ahat src dst dinv norm) b1 W2) :=
    real2_dense r1 hW2 (real1_zeroBias 512)
  have a2 : ∀ (i : Fin 10000) (c : Fin 512),
      kL2 (pad2 10240 896 x) (pad2 896 512 W1) (Ahat src dst dinv norm) b1 W2 (Fin.castLE (by decide) i) c
        = proj (rL1 src dst dinv norm x W1 b1) W2 i c :=
    fun i c => dense_rows_eq_proj a1 W2 i c

  have r3 : Real2 (kL3 (pad2 10240 896 x) (pad2 896 512 W1) (Ahat src dst dinv norm) b1 W2 b2) :=
    real2_relu (real2_dense hA r2 hb2)
  have a3 : ∀ (i : Fin 10000) (c : Fin 512),
      kL3 (pad2 10240 896 x) (pad2 896 512 W1) (Ahat src dst dinv norm) b1 W2 b2 (Fin.castLE (by decide) i) c
        = rL2 src dst dinv norm x W1 b1 W2 b2 i c := by
    intro i c
    unfold kL3 rL2 relu
    rw [dense_Ahat_eq_conv src dst hd hn r2 a2 b2 hb2 i c]

  have r4 : Real2 (kL4 (pad2 10240 896 x) (pad2 896 512 W1) (Ahat src dst dinv norm) b1 W2 b2 (pad2 512 128 Wc)) :=
    real2_dense r3 hwcp (real1_zeroBias 128)
  have a4 : ∀ (i : Fin 10000) (c : Fin 128),
      kL4 (pad2 10240 896 x) (pad2 896 512 W1) (Ahat src dst dinv norm) b1 W2 b2 (pad2 512 128 Wc)
          (Fin.castLE (by decide) i) c
        = proj (rL2 src dst dinv norm x W1 b1 W2 b2) (pad2 512 128 Wc) i c :=
    fun i c => dense_rows_eq_proj a3 (pad2 512 128 Wc) i c

  funext i c
  unfold kLogits kL5 rLogits
  rw [dense_Ahat_eq_conv src dst hd hn r4 a4 (pad1 128 bc) hbcp i (Fin.castLE (by decide) c)]
  exact conv_pad_cols src dst dinv norm (rL2 src dst dinv norm x W1 b1 W2 b2) Wc bc i c

end Gcn

end
-- ==== Proof.PreFacts.lean ====
import proofs.«414095_j12086037971444_1_alg».proof.Pre_finite_inputs
import proofs.«414095_j12086037971444_1_alg».proof.Proof.Gen.Pre_finite_inputs
import proofs.«414095_j12086037971444_1_alg».proof.Proof.Spec
import Idealize.ShloMosaic.Lib.ReduceAll
import Idealize.ShloMosaic.Lib.StableHlo.Predicate
import Idealize.ShloMosaic.Lib.ValueIdx

noncomputable section

namespace Cert.PreFacts

open Cert.Pre_finite_inputs Idealize.ShloMosaic Idealize.ShloMosaic.ValueIdx

variable [Cert.Pre_finite_inputs.Facts]

instance : Subsingleton S_.Idx := ⟨fun a b => funext fun d => d.elim0⟩

theorem top_pattern : Ideal.ofBits .f32 0x7F800000#32 = (⊤ : EReal) := by
  simp [Ideal.ofBits, Ideal.ieee]

theorem real_of_abs_lt_top (x : EReal)
    (h : Ideal.cmp .olt (max x (-x)) (Ideal.ofBits .f32 0x7F800000#32) = 1#1) :
    ∃ v : ℝ, x = (v : EReal) := by
  rw [top_pattern] at h
  induction x using EReal.rec with
  | bot => simp [Ideal.cmp] at h
  | top => simp [Ideal.cmp] at h
  | coe r => exact ⟨r, rfl⟩

theorem real_of_all {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi (cmpf .olt (Host.absf x) (broadcastInDim s ![] hb (constant (F := Ideal) S_ .f32 0x7F800000#32)))
          (constantI S_ 1 1#1) hr h0 ix0 = 1#1) (i : s.Idx) : ∃ v : ℝ, x i = (v : EReal) :=
  real_of_abs_lt_top (x i) (Host.reduce_andi_all _ _ hr h0 ix0 h i)

theorem inRange_of_all (E : IVec S2x160000 32)
    (hb : S_.BroadcastsInDim S2x160000 (![] : Fin 0 → Fin S2x160000.rank)) (hr : S2x160000.ReducesTo [0, 1] S_) (h0 : 0 < S_.numel)
    (h : Host.reduce IntOp.andi
          (andi (cmpi .sge E (broadcastInDim S2x160000 ![] hb (constantI S_ 32 0#32)))
                (cmpi .slt E (broadcastInDim S2x160000 ![] hb (constantI S_ 32 10000#32))))
          (constantI S_ 1 1#1) hr h0 ix0 = 1#1) : Gcn.InRange E := by
  intro i
  have e := Host.reduce_andi_all _ _ hr h0 ix0 h i
  obtain ⟨e1, e2⟩ := IntOp.andi_eq_one.1 e
  have l : (0#32 : BitVec 32).toInt ≤ (E i).toInt := IntOp.cmpi_sge.1 e1
  have u : (E i).toInt < (10000#32 : BitVec 32).toInt := IntOp.cmpi_slt.1 e2
  rw [show (0#32 : BitVec 32).toInt = 0 from by decide] at l
  rw [show (10000#32 : BitVec 32).toInt = 10000 from by decide] at u
  exact ⟨l, u⟩

theorem of_pre (x0 : FVec Ideal S10000x784 .f32) (x1 : IVec S2x160000 32) (x2 : FVec Ideal S784x512 .f32) (x3 : FVec Ideal S512 .f32) (x4 : FVec Ideal S512x512 .f32) (x5 : FVec Ideal S512 .f32) (x6 : FVec Ideal S512x10 .f32) (x7 : FVec Ideal S10 .f32)
    (h : fn (F := Ideal) x0 x1 x2 x3 x4 x5 x6 x7 = fun _ => 1#1) :
    Gcn.InRange x1 ∧ Gcn.Real2 (fun i k => x0 (ix2 i k)) ∧ Gcn.Real2 (fun k c => x2 (ix2 k c)) ∧ Gcn.Real1 (fun c => x3 (ix1 c)) ∧ Gcn.Real2 (fun k c => x4 (ix2 k c)) ∧ Gcn.Real1 (fun c => x5 (ix1 c)) ∧ Gcn.Real2 (fun k c => x6 (ix2 k c)) ∧ Gcn.Real1 (fun c => x7 (ix1 c)) := by
  have h' := congrFun h ix0
  dsimp only [fn, fn_part1, fn_part2] at h'

  obtain ⟨h', hE⟩ := IntOp.andi_eq_one.1 h'
  obtain ⟨h', h7⟩ := IntOp.andi_eq_one.1 h'
  obtain ⟨h', h6⟩ := IntOp.andi_eq_one.1 h'
  obtain ⟨h', h5⟩ := IntOp.andi_eq_one.1 h'
  obtain ⟨h', h4⟩ := IntOp.andi_eq_one.1 h'
  obtain ⟨h', h3⟩ := IntOp.andi_eq_one.1 h'
  obtain ⟨h0, h2⟩ := IntOp.andi_eq_one.1 h'
  exact ⟨inRange_of_all x1 _ _ _ hE,
    fun i k => real_of_all x0 _ _ _ h0 (ix2 i k),
    fun k c => real_of_all x2 _ _ _ h2 (ix2 k c),
    fun c => real_of_all x3 _ _ _ h3 (ix1 c),
    fun k c => real_of_all x4 _ _ _ h4 (ix2 k c),
    fun c => real_of_all x5 _ _ _ h5 (ix1 c),
    fun k c => real_of_all x6 _ _ _ h6 (ix2 k c),
    fun c => real_of_all x7 _ _ _ h7 (ix1 c)⟩

end Cert.PreFacts

end
-- ==== Proof.lean ====
/-
  A three-layer graph network as six tiled matrix products over zero-padded operands and a dense normalised
  adjacency, against its edge-list reference. Multiplying by the adjacency is summing over the edges, and the padding
  adds only zero terms, so for finite inputs and node indices in range both compute the same logits
  (`Gcn.kLogits_eq_rLogits`); both end with the same log-softmax of them.
-/
import proofs.«414095_j12086037971444_1_alg».proof.Defs
import proofs.«414095_j12086037971444_1_alg».proof.Proof.Gen.Kernel
import proofs.«414095_j12086037971444_1_alg».proof.Proof.Gen.KernelIdeal
import proofs.«414095_j12086037971444_1_alg».proof.Proof.Gen.ReferenceIdeal
import proofs.«414095_j12086037971444_1_alg».proof.Proof.Gen.Pre_finite_inputs
import proofs.«414095_j12086037971444_1_alg».proof.Proof.K.Run
import proofs.«414095_j12086037971444_1_alg».proof.Proof.KI.Run
import proofs.«414095_j12086037971444_1_alg».proof.Proof.KI.Value
import proofs.«414095_j12086037971444_1_alg».proof.Proof.KI.HostA
import proofs.«414095_j12086037971444_1_alg».proof.Proof.Ref.Logits
import proofs.«414095_j12086037971444_1_alg».proof.Proof.Ref.Tail
import proofs.«414095_j12086037971444_1_alg».proof.Proof.Glue
import proofs.«414095_j12086037971444_1_alg».proof.Proof.AlgMain
import proofs.«414095_j12086037971444_1_alg».proof.Proof.PreFacts

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ => Cert.ReferenceIdeal.Hand.frame_ref m ρ

theorem preserves : Cert.preserves_Kernel_KernelIdeal := trivial

/-- Both results are the log-softmax of one array of logits. -/
theorem algebraic : Cert.algebraic_KernelIdeal_ReferenceIdeal := by
  intro m ρ m' ρ' hpre hagree
  have hp := fun c => Cert.PreFacts.of_pre _ _ _ _ _ _ _ _ (hpre c)
  refine ⟨fun c => Cert.KernelIdeal.Hand.tailK (fun i =>
      Gcn.kLogits
        (Gcn.pad2 10240 896 (fun i k => (m ((c.tc : Thread Cert.KernelIdeal.nD Cert.KernelIdeal.τ).loc Cert.KernelIdeal.main_arg0) : Cert.KernelIdeal.S10000x784.Idx → EReal) (ix2 i k)))
        (Gcn.pad2 896 512 (fun k q => (m ((c.tc : Thread Cert.KernelIdeal.nD Cert.KernelIdeal.τ).loc Cert.KernelIdeal.main_arg2) : Cert.KernelIdeal.S784x512.Idx → EReal) (ix2 k q)))
        (Gcn.Ahat (Gcn.srcOf _ (hp c).1) (Gcn.dstOf _ (hp c).1)
          (fun n => Cert.KernelIdeal.Hand.dinvK (m ((c.tc : Thread Cert.KernelIdeal.nD Cert.KernelIdeal.τ).loc Cert.KernelIdeal.main_arg1)) (ix1 n))
          (fun e => Cert.KernelIdeal.Hand.normK (m ((c.tc : Thread Cert.KernelIdeal.nD Cert.KernelIdeal.τ).loc Cert.KernelIdeal.main_arg1)) (ix1 e)))
        (fun q => (m ((c.tc : Thread Cert.KernelIdeal.nD Cert.KernelIdeal.τ).loc Cert.KernelIdeal.main_arg3) : Cert.KernelIdeal.S512.Idx → EReal) (ix1 q))
        (fun k q => (m ((c.tc : Thread Cert.KernelIdeal.nD Cert.KernelIdeal.τ).loc Cert.KernelIdeal.main_arg4) : Cert.KernelIdeal.S512x512.Idx → EReal) (ix2 k q))
        (fun q => (m ((c.tc : Thread Cert.KernelIdeal.nD Cert.KernelIdeal.τ).loc Cert.KernelIdeal.main_arg5) : Cert.KernelIdeal.S512.Idx → EReal) (ix1 q))
        (Gcn.pad2 512 128 (fun k q => (m ((c.tc : Thread Cert.KernelIdeal.nD Cert.KernelIdeal.τ).loc Cert.KernelIdeal.main_arg6) : Cert.KernelIdeal.S512x10.Idx → EReal) (ix2 k q)))
        (Gcn.pad1 128 (fun q => (m ((c.tc : Thread Cert.KernelIdeal.nD Cert.KernelIdeal.τ).loc Cert.KernelIdeal.main_arg7) : Cert.KernelIdeal.S10.Idx → EReal) (ix1 q)))
        (i 0) (i 1)), ?_, ?_⟩
  ·
    refine (θ_run Cert.KernelIdeal.defs _ _).mono (fun r h c => have k := Cert.KernelIdeal.Hand.kept_arg m ρ c (h c)
      ⟨?_, k _ (by decide), k _ (by decide), k _ (by decide), k _ (by decide), k _ (by decide), k _ (by decide),
        k _ (by decide), k _ (by decide)⟩)
      (Cert.KernelIdeal.Hand.run_all (F := Ideal) m ρ)
    exact (h c _ (Cert.KernelIdeal.Hand.mem_uc Cert.KernelIdeal.main_v96 (by decide))).trans
      (Cert.KernelIdeal.Hand.kernel_value m ρ c (hp c).1)
  ·
    refine (θ_run Cert.ReferenceIdeal.defs _ _).mono (fun r h c => ⟨(h c).1.trans ?_, (h c).2⟩)
      (Cert.ReferenceIdeal.Hand.ref_run m' ρ')
    obtain ⟨hE, hx, hW1, hb1, hW2, hb2, hWc, hbc⟩ := hp c
    obtain ⟨e0, e1, e2, e3, e4, e5, e6, e7⟩ := hagree c
    rw [e0, e1, e2, e3, e4, e5, e6, e7, ← Cert.Glue.tail_eq]
    refine congrArg Cert.KernelIdeal.Hand.tailK ?_
    funext i
    obtain ⟨a, b, rfl⟩ : ∃ (a : Fin 10000) (b : Fin 10), i = ix2 a b := ⟨i 0, i 1, eq_ix2 i⟩
    rw [Cert.ReferenceIdeal.Hand.ref_logits _ _ _ _ _ _ _ _ hE a b,
      ← Cert.Glue.dinv_eq, ← Cert.Glue.norm_eq]
    exact (congrFun (congrFun (Gcn.kLogits_eq_rLogits (Gcn.srcOf _ hE) (Gcn.dstOf _ hE)
      (Cert.KernelIdeal.Hand.real_dinvK _ hE) (Cert.KernelIdeal.Hand.real_normK _ hE) hx hW1 hb1 hW2 hb2 hWc hbc) a) b).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
